-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.sign_bit.Statement Cert.KernelIdeal.S512x512 .f32
  ∧ IdealRules.sign_bit.Statement Cert.KernelIdeal.S512x512 .f32
  ∧ IdealRules.sign_bit.Statement Cert.KernelIdeal.S512x512 .f32
  ∧ IdealRules.sign_bit.Statement Cert.KernelIdeal.S64x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x512 : Shape := ⟨3, ![2048, 8, 512]⟩
abbrev S2048x8 : Shape := ⟨2, ![2048, 8]⟩
abbrev S512x512 : Shape := ⟨2, ![512, 512]⟩
abbrev S512 : Shape := ⟨1, ![512]⟩
abbrev S8x512x512 : Shape := ⟨3, ![8, 512, 512]⟩
abbrev S1536x512 : Shape := ⟨2, ![1536, 512]⟩
abbrev S1536 : Shape := ⟨1, ![1536]⟩
abbrev S64x512 : Shape := ⟨2, ![64, 512]⟩
abbrev S64 : Shape := ⟨1, ![64]⟩
abbrev S8x64x512 : Shape := ⟨3, ![8, 64, 512]⟩
abbrev S_ : Shape := ⟨0, ![]⟩

class Facts : Prop where
  bcast_S_S2048x8x512 : S_.BroadcastsInDim S2048x8x512 (![] : Fin 0 → Fin S2048x8x512.rank)
  reducesTo_S2048x8x512_S_d0_1_2 : S2048x8x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S8x512x512 : S_.BroadcastsInDim S8x512x512 (![] : Fin 0 → Fin S8x512x512.rank)
  reducesTo_S8x512x512_S_d0_1_2 : S8x512x512.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S8x64x512 : S_.BroadcastsInDim S8x64x512 (![] : Fin 0 → Fin S8x64x512.rank)
  reducesTo_S8x64x512_S_d0_1_2 : S8x64x512.ReducesTo [0, 1, 2] S_
  bcast_S_S2048x8 : S_.BroadcastsInDim S2048x8 (![] : Fin 0 → Fin S2048x8.rank)
  reducesTo_S2048x8_S_d0_1 : S2048x8.ReducesTo [0, 1] S_

variable [Facts]

def fn_part5 {F : FTy → Type} [FloatOps F] (main_arg2 : IVec S2048x8 32) (main_v83 : IVec S_ 1) (main_v84 : FVec F S8x64x512 .f32) (main_cst_32 : FVec F S_ .f32) : IVec S_ 1 :=
  let main_v85 : FVec F S8x64x512 .f32 := broadcastInDim S8x64x512 ![] bcast_S_S8x64x512 main_cst_32
  let main_v86 : IVec S8x64x512 1 := cmpf .olt main_v84 main_v85
  let main_c_33 : IVec S_ 1 := constantI S_ 1 1#1
  let main_v87 : IVec S_ 1 := (fun x v => Host.reduce IntOp.andi x v reducesTo_S8x64x512_S_d0_1_2 h_S_) main_v86 main_c_33
  let main_v88 : IVec S_ 1 := andi main_v83 main_v87
  let main_c_34 : IVec S_ 32 := constantI S_ 32 0#32
  let main_v89 : IVec S2048x8 32 := broadcastInDim S2048x8 ![] bcast_S_S2048x8 main_c_34
  let main_v90 : IVec S2048x8 1 := cmpi .sge main_arg2 main_v89
  let main_c_35 : IVec S_ 1 := constantI S_ 1 1#1
  let main_v91 : IVec S_ 1 := (fun x v => Host.reduce IntOp.andi x v reducesTo_S2048x8_S_d0_1 h_S_) main_v90 main_c_35
  let main_v92 : IVec S_ 1 := andi main_v88 main_v91
  let main_c_36 : IVec S_ 32 := constantI S_ 32 8#32
  let main_v93 : IVec S2048x8 32 := broadcastInDim S2048x8 ![] bcast_S_S2048x8 main_c_36
  let main_v94 : IVec S2048x8 1 := cmpi .slt main_arg2 main_v93
  let main_c_37 : IVec S_ 1 := constantI S_ 1 1#1
  let main_v95 : IVec S_ 1 := (fun x v => Host.reduce IntOp.andi x v reducesTo_S2048x8_S_d0_1 h_S_) main_v94 main_c_37
  let main_v96 : IVec S_ 1 := andi main_v92 main_v95
  main_v96

def fn_part4 {F : FTy → Type} [FloatOps F] (main_arg2 : IVec S2048x8 32) (main_arg15 : FVec F S8x512x512 .f32) (main_arg16 : FVec F S64x512 .f32) (main_arg17 : FVec F S64 .f32) (main_arg18 : FVec F S8x64x512 .f32) (main_v63 : IVec S_ 1) (main_v67 : IVec S_ 1) : IVec S_ 1 :=
  let main_v68 : IVec S_ 1 := andi main_v63 main_v67
  let main_v69 : FVec F S8x512x512 .f32 := Host.absf main_arg15
  let main_cst_26 : FVec F S_ .f32 := constant S_ .f32 0x7F800000#32
  let main_v70 : FVec F S8x512x512 .f32 := broadcastInDim S8x512x512 ![] bcast_S_S8x512x512 main_cst_26
  let main_v71 : IVec S8x512x512 1 := cmpf .olt main_v69 main_v70
  let main_c_27 : IVec S_ 1 := constantI S_ 1 1#1
  let main_v72 : IVec S_ 1 := (fun x v => Host.reduce IntOp.andi x v reducesTo_S8x512x512_S_d0_1_2 h_S_) main_v71 main_c_27
  let main_v73 : IVec S_ 1 := andi main_v68 main_v72
  let main_v74 : FVec F S64x512 .f32 := Host.absf main_arg16
  let main_cst_28 : FVec F S_ .f32 := constant S_ .f32 0x7F800000#32
  let main_v75 : FVec F S64x512 .f32 := broadcastInDim S64x512 ![] bcast_S_S64x512 main_cst_28
  let main_v76 : IVec S64x512 1 := cmpf .olt main_v74 main_v75
  let main_c_29 : IVec S_ 1 := constantI S_ 1 1#1
  let main_v77 : IVec S_ 1 := (fun x v => Host.reduce IntOp.andi x v reducesTo_S64x512_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S8x64x512 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S2048x8 32) (main_arg12 : FVec F S8x512x512 .f32) (main_arg13 : FVec F S512x512 .f32) (main_arg14 : FVec F S512 .f32) (main_arg15 : FVec F S8x512x512 .f32) (main_arg16 : FVec F S64x512 .f32) (main_arg17 : FVec F S64 .f32) (main_arg18 : FVec F S8x64x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S8x512x512 .f32 := Host.absf main_arg12
  let main_cst_20 : FVec F S_ .f32 := constant S_ .f32 0x7F800000#32
  let main_v55 : FVec F S8x512x512 .f32 := broadcastInDim S8x512x512 ![] bcast_S_S8x512x512 main_cst_20
  let main_v56 : IVec S8x512x512 1 := cmpf .olt main_v54 main_v55
  let main_c_21 : IVec S_ 1 := constantI S_ 1 1#1
  let main_v57 : IVec S_ 1 := (fun x v => Host.reduce IntOp.andi x v reducesTo_S8x512x512_S_d0_1_2 h_S_) main_v56 main_c_21
  let main_v58 : IVec S_ 1 := andi main_v53 main_v57
  let main_v59 : FVec F S512x512 .f32 := Host.absf main_arg13
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg2 main_arg15 main_arg16 main_arg17 main_arg18 main_v63 main_v67

def fn_part2 {F : FTy → Type} [FloatOps F] (main_arg2 : IVec S2048x8 32) (main_arg8 : FVec F S1536 .f32) (main_arg9 : FVec F S1536 .f32) (main_arg10 : FVec F S512x512 .f32) (main_arg11 : FVec F S512 .f32) (main_arg12 : FVec F S8x512x512 .f32) (main_arg13 : FVec F S512x512 .f32) (main_arg14 : FVec F S512 .f32) (main_arg15 : FVec F S8x512x512 .f32) (main_arg16 : FVec F S64x512 .f32) (main_arg17 : FVec F S64 .f32) (main_arg18 : FVec F S8x64x512 .f32) (main_v33 : IVec S_ 1) : IVec S_ 1 :=
  let main_v34 : FVec F S1536 .f32 := Host.absf main_arg8
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536 .f32 := Host.absf main_arg9
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg2 main_arg12 main_arg13 main_arg14 main_arg15 main_arg16 main_arg17 main_arg18 main_v48 main_v49 main_v50

def fn_part1 {F : FTy → Type} [FloatOps F] (main_arg2 : IVec S2048x8 32) (main_arg5 : FVec F S8x512x512 .f32) (main_arg6 : FVec F S1536x512 .f32) (main_arg7 : FVec F S1536x512 .f32) (main_arg8 : FVec F S1536 .f32) (main_arg9 : FVec F S1536 .f32) (main_arg10 : FVec F S512x512 .f32) (main_arg11 : FVec F S512 .f32) (main_arg12 : FVec F S8x512x512 .f32) (main_arg13 : FVec F S512x512 .f32) (main_arg14 : FVec F S512 .f32) (main_arg15 : FVec F S8x512x512 .f32) (main_arg16 : FVec F S64x512 .f32) (main_arg17 : FVec F S64 .f32) (main_arg18 : FVec F S8x64x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S8x512x512 .f32 := Host.absf main_arg5
  let main_cst_6 : FVec F S_ .f32 := constant S_ .f32 0x7F800000#32
  let main_v20 : FVec F S8x512x512 .f32 := broadcastInDim S8x512x512 ![] bcast_S_S8x512x512 main_cst_6
  let main_v21 : IVec S8x512x512 1 := cmpf .olt main_v19 main_v20
  let main_c_7 : IVec S_ 1 := constantI S_ 1 1#1
  let main_v22 : IVec S_ 1 := (fun x v => Host.reduce IntOp.andi x v reducesTo_S8x512x512_S_d0_1_2 h_S_) main_v21 main_c_7
  let main_v23 : IVec S_ 1 := andi main_v18 main_v22
  let main_v24 : FVec F S1536x512 .f32 := Host.absf main_arg6
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536x512 .f32 := Host.absf main_arg7
  let main_cst_10 : FVec F S_ .f32 := constant S_ .f32 0x7F800000#32
  let main_v30 : FVec F S1536x512 .f32 := broadcastInDim S1536x512 ![] bcast_S_S1536x512 main_cst_10
  let main_v31 : IVec S1536x512 1 := cmpf .olt main_v29 main_v30
  let main_c_11 : IVec S_ 1 := constantI S_ 1 1#1
  let main_v32 : IVec S_ 1 := (fun x v => Host.reduce IntOp.andi x v reducesTo_S1536x512_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S2048x8x512 .f32) (main_arg1 : FVec F S2048x8x512 .f32) (main_arg2 : IVec S2048x8 32) (main_arg3 : FVec F S512x512 .f32) (main_arg4 : FVec F S512 .f32) (main_arg5 : FVec F S8x512x512 .f32) (main_arg6 : FVec F S1536x512 .f32) (main_arg7 : FVec F S1536x512 .f32) (main_arg8 : FVec F S1536 .f32) (main_arg9 : FVec F S1536 .f32) (main_arg10 : FVec F S512x512 .f32) (main_arg11 : FVec F S512 .f32) (main_arg12 : FVec F S8x512x512 .f32) (main_arg13 : FVec F S512x512 .f32) (main_arg14 : FVec F S512 .f32) (main_arg15 : FVec F S8x512x512 .f32) (main_arg16 : FVec F S64x512 .f32) (main_arg17 : FVec F S64 .f32) (main_arg18 : FVec F S8x64x512 .f32) : IVec S_ 1 :=
  let main_v0 : FVec F S2048x8x512 .f32 := Host.absf main_arg0
  let main_cst : FVec F S_ .f32 := constant S_ .f32 0x7F800000#32
  let main_v1 : FVec F S2048x8x512 .f32 := broadcastInDim S2048x8x512 ![] bcast_S_S2048x8x512 main_cst
  let main_v2 : IVec S2048x8x512 1 := cmpf .olt main_v0 main_v1
  let main_c : IVec S_ 1 := constantI S_ 1 1#1
  let main_v3 : IVec S_ 1 := (fun x v => Host.reduce IntOp.andi x v reducesTo_S2048x8x512_S_d0_1_2 h_S_) main_v2 main_c
  let main_v4 : FVec F S2048x8x512 .f32 := Host.absf main_arg1
  let main_cst_0 : FVec F S_ .f32 := constant S_ .f32 0x7F800000#32
  let main_v5 : FVec F S2048x8x512 .f32 := broadcastInDim S2048x8x512 ![] bcast_S_S2048x8x512 main_cst_0
  let main_v6 : IVec S2048x8x512 1 := cmpf .olt main_v4 main_v5
  let main_c_1 : IVec S_ 1 := constantI S_ 1 1#1
  let main_v7 : IVec S_ 1 := (fun x v => Host.reduce IntOp.andi x v reducesTo_S2048x8x512_S_d0_1_2 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S2048x8x512 : Shape := ⟨3, ![2048, 8, 512]⟩
abbrev S2048x8 : Shape := ⟨2, ![2048, 8]⟩
abbrev S512x512 : Shape := ⟨2, ![512, 512]⟩
abbrev S512 : Shape := ⟨1, ![512]⟩
abbrev S8x512x512 : Shape := ⟨3, ![8, 512, 512]⟩
abbrev S1536x512 : Shape := ⟨2, ![1536, 512]⟩
abbrev S1536 : Shape := ⟨1, ![1536]⟩
abbrev S64x512 : Shape := ⟨2, ![64, 512]⟩
abbrev S64 : Shape := ⟨1, ![64]⟩
abbrev S8x64x512 : Shape := ⟨3, ![8, 64, 512]⟩
abbrev S16384x512 : Shape := ⟨2, ![16384, 512]⟩
abbrev S16384 : Shape := ⟨1, ![16384]⟩
abbrev S_ : Shape := ⟨0, ![]⟩
abbrev S16384x1 : Shape := ⟨2, ![16384, 1]⟩
abbrev S8 : Shape := ⟨1, ![8]⟩
abbrev S1x8 : Shape := ⟨2, ![1, 8]⟩
abbrev S16384x8 : Shape := ⟨2, ![16384, 8]⟩
abbrev S1 : Shape := ⟨1, ![1]⟩
abbrev S7 : Shape := ⟨1, ![7]⟩
abbrev S20480 : Shape := ⟨1, ![20480]⟩
abbrev S40 : Shape := ⟨1, ![40]⟩
abbrev S40x1 : Shape := ⟨2, ![40, 1]⟩
abbrev S40x8 : Shape := ⟨2, ![40, 8]⟩
abbrev S20480x1 : Shape := ⟨2, ![20480, 1]⟩
abbrev S1x1 : Shape := ⟨2, ![1, 1]⟩
abbrev S20480x512 : Shape := ⟨2, ![20480, 512]⟩
abbrev S1x512 : Shape := ⟨2, ![1, 512]⟩
abbrev S1x512x512 : Shape := ⟨3, ![1, 512, 512]⟩
abbrev S1x1536 : Shape := ⟨2, ![1, 1536]⟩
abbrev S512x1536 : Shape := ⟨2, ![512, 1536]⟩
abbrev S1x64 : Shape := ⟨2, ![1, 64]⟩
abbrev S20480x64 : Shape := ⟨2, ![20480, 64]⟩
abbrev S1x64x512 : Shape := ⟨3, ![1, 64, 512]⟩
abbrev S512x64 : Shape := ⟨2, ![512, 64]⟩
abbrev S16384x64 : Shape := ⟨2, ![16384, 64]⟩
abbrev S2048x8x64 : Shape := ⟨3, ![2048, 8, 64]⟩

abbrev nBuf : Space → Nat
  | .hbm => 254
  | .vmem => 42
  | .smem => 1
  | _ => 0

abbrev hbmTy0_0 (i : Nat) : BufTy := match i % 128 with
  | 0 => ⟨S2048x8x512, .f32⟩
  | 1 => ⟨S2048x8x512, .f32⟩
  | 2 => ⟨S2048x8, .i32⟩
  | 3 => ⟨S512x512, .f32⟩
  | 4 => ⟨S512, .f32⟩
  | 5 => ⟨S8x512x512, .f32⟩
  | 6 => ⟨S1536x512, .f32⟩
  | 7 => ⟨S1536x512, .f32⟩
  | 8 => ⟨S1536, .f32⟩
  | 9 => ⟨S1536, .f32⟩
  | 10 => ⟨S512x512, .f32⟩
  | 11 => ⟨S512, .f32⟩
  | 12 => ⟨S8x512x512, .f32⟩
  | 13 => ⟨S512x512, .f32⟩
  | 14 => ⟨S512, .f32⟩
  | 15 => ⟨S8x512x512, .f32⟩
  | 16 => ⟨S64x512, .f32⟩
  | 17 => ⟨S64, .f32⟩
  | 18 => ⟨S8x64x512, .f32⟩
  | 19 => ⟨S16384x512, .f32⟩
  | 20 => ⟨S16384x512, .f32⟩
  | 21 => ⟨S16384, .i32⟩
  | 22 => ⟨S16384, .i32⟩
  | 23 => ⟨S16384, .i32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16384, .i32⟩
  | 34 => ⟨S8, .i32⟩
  | 35 => ⟨S16384x1, .i32⟩
  | 36 => ⟨S1x8, .i32⟩
  | 37 => ⟨S16384x8, .i32⟩
  | 38 => ⟨S16384x8, .i32⟩
  | 39 => ⟨S16384x8, .i1⟩
  | 40 => ⟨S16384x8, .i32⟩
  | 41 => ⟨S_, .i32⟩
  | 42 => ⟨S8, .i32⟩
  | 43 => ⟨S_, .i32⟩
  | 44 => ⟨S1, .i32⟩
  | 45 => ⟨S_, .i32⟩
  | 46 => ⟨S_, .i32⟩
  | 47 => ⟨S8, .i32⟩
  | 48 => ⟨S7, .i32⟩
  | 49 => ⟨S8, .i32⟩
  | 50 => ⟨S_, .i32⟩
  | 51 => ⟨S8, .i32⟩
  | 52 => ⟨S8, .i32⟩
  | 53 => ⟨S_, .i32⟩
  | 54 => ⟨S8, .i32⟩
  | 55 => ⟨S8, .i32⟩
  | 56 => ⟨S_, .i32⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i1⟩
  | 64 => ⟨S8, .i32⟩
  | 65 => ⟨S8, .i32⟩
  | 66 => ⟨S_, .i32⟩
  | 67 => ⟨S8, .i32⟩
  | 68 => ⟨S8, .i1⟩
  | 69 => ⟨S8, .i1⟩
  | 70 => ⟨S_, .i32⟩
  | 71 => ⟨S8, .i32⟩
  | 72 => ⟨S8, .i32⟩
  | 73 => ⟨S8, .i32⟩
  | 74 => ⟨S_, .i32⟩
  | 75 => ⟨S8, .i32⟩
  | 76 => ⟨S8, .i32⟩
  | 77 => ⟨S_, .i32⟩
  | 78 => ⟨S1, .i32⟩
  | 79 => ⟨S_, .i32⟩
  | 80 => ⟨S_, .i32⟩
  | 81 => ⟨S8, .i32⟩
  | 82 => ⟨S7, .i32⟩
  | 83 => ⟨S8, .i32⟩
  | 84 => ⟨S16384, .i32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S16384, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S16384, .i32⟩
  | 104 => ⟨S16384, .i32⟩
  | 105 => ⟨S_, .i32⟩
  | 106 => ⟨S20480, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S20480, .i32⟩
  | 116 => ⟨S_, .i32⟩
  | 117 => ⟨S16384, .i32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384, .i32⟩
  | 127 => ⟨S40, .i32⟩
  | _ => ⟨S2048x8x512, .f32⟩

abbrev hbmTy0_1 (i : Nat) : BufTy := match i % 128 with
  | 0 => ⟨S_, .i32⟩
  | 1 => ⟨S40, .i32⟩
  | 2 => ⟨S40, .i32⟩
  | 3 => ⟨S1x8, .i32⟩
  | 4 => ⟨S40x1, .i32⟩
  | 5 => ⟨S40x8, .i32⟩
  | 6 => ⟨S40x8, .i32⟩
  | 7 => ⟨S40x8, .i1⟩
  | 8 => ⟨S40x8, .i32⟩
  | 9 => ⟨S_, .i32⟩
  | 10 => ⟨S40, .i32⟩
  | 11 => ⟨S_, .i32⟩
  | 12 => ⟨S40, .i32⟩
  | 13 => ⟨S40, .i32⟩
  | 14 => ⟨S_, .i32⟩
  | 15 => ⟨S_, .i32⟩
  | 16 => ⟨S_, .i32⟩
  | 17 => ⟨S40, .i32⟩
  | 18 => ⟨S40, .i32⟩
  | 19 => ⟨S_, .i32⟩
  | 20 => ⟨S40, .i32⟩
  | 21 => ⟨S_, .i32⟩
  | 22 => ⟨S20480, .i32⟩
  | 23 => ⟨S20480, .i1⟩
  | 24 => ⟨S_, .i32⟩
  | 25 => ⟨S20480, .i32⟩
  | 26 => ⟨S20480, .i32⟩
  | 27 => ⟨S20480, .i32⟩
  | 28 => ⟨S20480x1, .i32⟩
  | 29 => ⟨S1, .i32⟩
  | 30 => ⟨S_, .i32⟩
  | 31 => ⟨S20480x1, .i32⟩
  | 32 => ⟨S20480x1, .i1⟩
  | 33 => ⟨S1x1, .i32⟩
  | 34 => ⟨S20480x1, .i32⟩
  | 35 => ⟨S20480x1, .i1⟩
  | 36 => ⟨S20480x1, .i1⟩
  | 37 => ⟨S_, .i1⟩
  | 38 => ⟨S20480, .i1⟩
  | 39 => ⟨S20480x512, .f32⟩
  | 40 => ⟨S20480x512, .i1⟩
  | 41 => ⟨S_, .f32⟩
  | 42 => ⟨S20480x512, .f32⟩
  | 43 => ⟨S20480x512, .f32⟩
  | 44 => ⟨S_, .i32⟩
  | 45 => ⟨S20480, .i32⟩
  | 46 => ⟨S20480, .i1⟩
  | 47 => ⟨S_, .i32⟩
  | 48 => ⟨S20480, .i32⟩
  | 49 => ⟨S20480, .i32⟩
  | 50 => ⟨S20480, .i32⟩
  | 51 => ⟨S20480x1, .i32⟩
  | 52 => ⟨S1, .i32⟩
  | 53 => ⟨S_, .i32⟩
  | 54 => ⟨S20480x1, .i32⟩
  | 55 => ⟨S20480x1, .i1⟩
  | 56 => ⟨S1x1, .i32⟩
  | 57 => ⟨S20480x1, .i32⟩
  | 58 => ⟨S20480x1, .i1⟩
  | 59 => ⟨S20480x1, .i1⟩
  | 60 => ⟨S_, .i1⟩
  | 61 => ⟨S20480, .i1⟩
  | 62 => ⟨S20480x512, .f32⟩
  | 63 => ⟨S20480x512, .i1⟩
  | 64 => ⟨S_, .f32⟩
  | 65 => ⟨S20480x512, .f32⟩
  | 66 => ⟨S20480x512, .f32⟩
  | 67 => ⟨S1x512, .f32⟩
  | 68 => ⟨S20480x512, .f32⟩
  | 69 => ⟨S1x1536, .f32⟩
  | 70 => ⟨S1x1536, .f32⟩
  | 71 => ⟨S20480x512, .f32⟩
  | 72 => ⟨S1x512, .f32⟩
  | 73 => ⟨S20480x512, .f32⟩
  | 74 => ⟨S1x512, .f32⟩
  | 75 => ⟨S20480x512, .f32⟩
  | 76 => ⟨S1x64, .f32⟩
  | 77 => ⟨S20480x64, .f32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S1, .i32⟩
  | 87 => ⟨S_, .i32⟩
  | 88 => ⟨S16384x1, .i32⟩
  | 89 => ⟨S16384x1, .i1⟩
  | 90 => ⟨S1x1, .i32⟩
  | 91 => ⟨S16384x1, .i32⟩
  | 92 => ⟨S16384x1, .i1⟩
  | 93 => ⟨S16384x1, .i1⟩
  | 94 => ⟨S_, .i1⟩
  | 95 => ⟨S16384, .i1⟩
  | 96 => ⟨S16384x512, .f32⟩
  | 97 => ⟨S16384x512, .i1⟩
  | 98 => ⟨S_, .f32⟩
  | 99 => ⟨S16384x512, .f32⟩
  | 100 => ⟨S16384x512, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x64, .f32⟩
  | 120 => ⟨S16384x64, .i1⟩
  | 121 => ⟨S_, .f32⟩
  | 122 => ⟨S16384x64, .f32⟩
  | 123 => ⟨S16384x64, .f32⟩
  | 124 => ⟨S2048x8x64, .f32⟩
  | 125 => ⟨S2048x8x512, .f32⟩
  | _ => ⟨S2048x8x512, .f32⟩

abbrev hbmTy (i : Nat) : BufTy := match i / 128 with
  | 0 => hbmTy0_0 i
  | 1 => hbmTy0_1 i
  | _ => ⟨S2048x8x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1536x512, .f32⟩
  | .local _ .vmem, ⟨13, _⟩ => ⟨S1536x512, .f32⟩
  | .local _ .vmem, ⟨14, _⟩ => ⟨S1x1536, .f32⟩
  | .local _ .vmem, ⟨15, _⟩ => ⟨S1x1536, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S1x512, .f32⟩
  | .local _ .vmem, ⟨22, _⟩ => ⟨S1x512x512, .f32⟩
  | .local _ .vmem, ⟨23, _⟩ => ⟨S1x512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S1x512, .f32⟩
  | .local _ .vmem, ⟨30, _⟩ => ⟨S1x512x512, .f32⟩
  | .local _ .vmem, ⟨31, _⟩ => ⟨S1x512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S64x512, .f32⟩
  | .local _ .vmem, ⟨37, _⟩ => ⟨S1x64, .f32⟩
  | .local _ .vmem, ⟨38, _⟩ => ⟨S1x64x512, .f32⟩
  | .local _ .vmem, ⟨39, _⟩ => ⟨S1x64x512, .f32⟩
  | .local _ .vmem, ⟨40, _⟩ => ⟨S512x64, .f32⟩
  | .local _ .vmem, ⟨41, _⟩ => ⟨S512x64, .f32⟩
  | .local _ .smem, ⟨0, _⟩ => ⟨S40, .i32⟩
  | _, _ => ⟨S2048x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_call0_v0 : Ref sig .tc := ⟨.hbm, 22, rfl⟩
abbrev main_call0_v1_0 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_1 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_call1_call0_c : Ref sig .tc := ⟨.hbm, 45, rfl⟩
abbrev main_call1_call0_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v27 : Ref sig .tc := ⟨.hbm, 73, rfl⟩
abbrev main_c_6 : Ref sig .tc := ⟨.hbm, 74, rfl⟩
abbrev main_v28 : Ref sig .tc := ⟨.hbm, 75, rfl⟩
abbrev main_v29 : Ref sig .tc := ⟨.hbm, 76, rfl⟩
abbrev main_c_7 : Ref sig .tc := ⟨.hbm, 77, rfl⟩
abbrev main_v30 : Ref sig .tc := ⟨.hbm, 78, rfl⟩
abbrev main_call3_call0_c : Ref sig .tc := ⟨.hbm, 79, rfl⟩
abbrev main_call3_call0_v0 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_8 : Ref sig .tc := ⟨.hbm, 85, rfl⟩
abbrev main_v35 : Ref sig .tc := ⟨.hbm, 86, rfl⟩
abbrev main_v36 : Ref sig .tc := ⟨.hbm, 87, rfl⟩
abbrev main_c_9 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_c_10 : Ref sig .tc := ⟨.hbm, 95, rfl⟩
abbrev main_v43 : Ref sig .tc := ⟨.hbm, 96, rfl⟩
abbrev main_v44 : Ref sig .tc := ⟨.hbm, 97, rfl⟩
abbrev main_c_11 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_c_12 : Ref sig .tc := ⟨.hbm, 105, rfl⟩
abbrev main_v51 : Ref sig .tc := ⟨.hbm, 106, rfl⟩
abbrev main_c_13 : Ref sig .tc := ⟨.hbm, 107, rfl⟩
abbrev main_v52 : Ref sig .tc := ⟨.hbm, 108, rfl⟩
abbrev main_v53 : Ref sig .tc := ⟨.hbm, 109, rfl⟩
abbrev main_c_14 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_15 : Ref sig .tc := ⟨.hbm, 116, rfl⟩
abbrev main_v59 : Ref sig .tc := ⟨.hbm, 117, rfl⟩
abbrev main_c_16 : Ref sig .tc := ⟨.hbm, 118, rfl⟩
abbrev main_v60 : Ref sig .tc := ⟨.hbm, 119, rfl⟩
abbrev main_v61 : Ref sig .tc := ⟨.hbm, 120, rfl⟩
abbrev main_c_17 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_18 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_c_19 : Ref sig .tc := ⟨.hbm, 137, rfl⟩
abbrev main_v76 : Ref sig .tc := ⟨.hbm, 138, rfl⟩
abbrev main_c_20 : Ref sig .tc := ⟨.hbm, 139, rfl⟩
abbrev main_v77 : Ref sig .tc := ⟨.hbm, 140, rfl⟩
abbrev main_v78 : Ref sig .tc := ⟨.hbm, 141, rfl⟩
abbrev main_c_21 : Ref sig .tc := ⟨.hbm, 142, rfl⟩
abbrev main_c_22 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call5_c : Ref sig .tc := ⟨.hbm, 149, rfl⟩
abbrev main_call5_v0 : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_c_1 : Ref sig .tc := ⟨.hbm, 157, rfl⟩
abbrev main_call5_c_2 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_3 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_cst : Ref sig .tc := ⟨.hbm, 169, rfl⟩
abbrev main_call5_v15 : Ref sig .tc := ⟨.hbm, 170, rfl⟩
abbrev main_v80 : Ref sig .tc := ⟨.hbm, 171, rfl⟩
abbrev main_call6_c : Ref sig .tc := ⟨.hbm, 172, rfl⟩
abbrev main_call6_v0 : Ref sig .tc := ⟨.hbm, 173, rfl⟩
abbrev main_call6_v1 : Ref sig .tc := ⟨.hbm, 174, rfl⟩
abbrev main_call6_c_0 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_c_1 : Ref sig .tc := ⟨.hbm, 180, rfl⟩
abbrev main_call6_c_2 : Ref sig .tc := ⟨.hbm, 181, rfl⟩
abbrev main_call6_v6 : Ref sig .tc := ⟨.hbm, 182, rfl⟩
abbrev main_call6_v7 : Ref sig .tc := ⟨.hbm, 183, rfl⟩
abbrev main_call6_v8 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_c_3 : Ref sig .tc := ⟨.hbm, 188, rfl⟩
abbrev main_call6_v12 : Ref sig .tc := ⟨.hbm, 189, rfl⟩
abbrev main_call6_v13 : Ref sig .tc := ⟨.hbm, 190, rfl⟩
abbrev main_call6_v14 : Ref sig .tc := ⟨.hbm, 191, rfl⟩
abbrev main_call6_cst : Ref sig .tc := ⟨.hbm, 192, rfl⟩
abbrev main_call6_v15 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_call7_c : Ref sig .tc := ⟨.hbm, 206, rfl⟩
abbrev main_call7_v0 : Ref sig .tc := ⟨.hbm, 207, rfl⟩
abbrev main_call7_v1 : Ref sig .tc := ⟨.hbm, 208, rfl⟩
abbrev main_call7_c_0 : Ref sig .tc := ⟨.hbm, 209, rfl⟩
abbrev main_call7_v2 : Ref sig .tc := ⟨.hbm, 210, rfl⟩
abbrev main_call7_v3 : Ref sig .tc := ⟨.hbm, 211, rfl⟩
abbrev main_call7_v4 : Ref sig .tc := ⟨.hbm, 212, rfl⟩
abbrev main_call7_v5 : Ref sig .tc := ⟨.hbm, 213, rfl⟩
abbrev main_call7_c_1 : Ref sig .tc := ⟨.hbm, 214, rfl⟩
abbrev main_call7_c_2 : Ref sig .tc := ⟨.hbm, 215, rfl⟩
abbrev main_call7_v6 : Ref sig .tc := ⟨.hbm, 216, rfl⟩
abbrev main_call7_v7 : Ref sig .tc := ⟨.hbm, 217, rfl⟩
abbrev main_call7_v8 : Ref sig .tc := ⟨.hbm, 218, rfl⟩
abbrev main_call7_v9 : Ref sig .tc := ⟨.hbm, 219, rfl⟩
abbrev main_call7_v10 : Ref sig .tc := ⟨.hbm, 220, rfl⟩
abbrev main_call7_v11 : Ref sig .tc := ⟨.hbm, 221, rfl⟩
abbrev main_call7_c_3 : Ref sig .tc := ⟨.hbm, 222, rfl⟩
abbrev main_call7_v12 : Ref sig .tc := ⟨.hbm, 223, rfl⟩
abbrev main_call7_v13 : Ref sig .tc := ⟨.hbm, 224, rfl⟩
abbrev main_call7_v14 : Ref sig .tc := ⟨.hbm, 225, rfl⟩
abbrev main_call7_cst : Ref sig .tc := ⟨.hbm, 226, rfl⟩
abbrev main_call7_v15 : Ref sig .tc := ⟨.hbm, 227, rfl⟩
abbrev main_v93 : Ref sig .tc := ⟨.hbm, 228, rfl⟩
abbrev main_call8_c : Ref sig .tc := ⟨.hbm, 229, rfl⟩
abbrev main_call8_v0 : Ref sig .tc := ⟨.hbm, 230, rfl⟩
abbrev main_call8_v1 : Ref sig .tc := ⟨.hbm, 231, rfl⟩
abbrev main_call8_c_0 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_call8_v5 : Ref sig .tc := ⟨.hbm, 236, rfl⟩
abbrev main_call8_c_1 : Ref sig .tc := ⟨.hbm, 237, rfl⟩
abbrev main_call8_c_2 : Ref sig .tc := ⟨.hbm, 238, rfl⟩
abbrev main_call8_v6 : Ref sig .tc := ⟨.hbm, 239, rfl⟩
abbrev main_call8_v7 : Ref sig .tc := ⟨.hbm, 240, rfl⟩
abbrev main_call8_v8 : Ref sig .tc := ⟨.hbm, 241, rfl⟩
abbrev main_call8_v9 : Ref sig .tc := ⟨.hbm, 242, rfl⟩
abbrev main_call8_v10 : Ref sig .tc := ⟨.hbm, 243, rfl⟩
abbrev main_call8_v11 : Ref sig .tc := ⟨.hbm, 244, rfl⟩
abbrev main_call8_c_3 : Ref sig .tc := ⟨.hbm, 245, rfl⟩
abbrev main_call8_v12 : Ref sig .tc := ⟨.hbm, 246, rfl⟩
abbrev main_call8_v13 : Ref sig .tc := ⟨.hbm, 247, rfl⟩
abbrev main_call8_v14 : Ref sig .tc := ⟨.hbm, 248, rfl⟩
abbrev main_call8_cst : Ref sig .tc := ⟨.hbm, 249, rfl⟩
abbrev main_call8_v15 : Ref sig .tc := ⟨.hbm, 250, rfl⟩
abbrev main_v94 : Ref sig .tc := ⟨.hbm, 251, rfl⟩
abbrev main_v95 : Ref sig .tc := ⟨.hbm, 252, rfl⟩
abbrev main_v96 : Ref sig .tc := ⟨.hbm, 253, rfl⟩
abbrev main_v79 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem4_1 : DmaSem sig := 41

abbrev nD : Nat := 1
abbrev τ : Topo := Topo.v7x

variable {F : FTy → Type} [BitOps F]

abbrev grid0 : Pipeline.Grid := ⟨1, ![40], ![false]⟩

abbrev pre0 : Pipeline.Prefetch sig := ⟨1, ![main_v79.idx], fun | 0 => main_v79.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

abbrev pre2 : Pipeline.Prefetch sig := ⟨1, ![main_v79.idx], fun | 0 => main_v79.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![40], ![false]⟩

abbrev pre3 : Pipeline.Prefetch sig := ⟨1, ![main_v79.idx], fun | 0 => main_v79.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (k3_off1_inb : ∀ i : grid3.Coords, ∀ a, (k3_off1 i) a + S1.size a ≤ S40.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S40) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![40], ![false]⟩

abbrev pre4 : Pipeline.Prefetch sig := ⟨1, ![main_v79.idx], fun | 0 => main_v79.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (k4_off1_inb : ∀ i : grid4.Coords, ∀ a, (k4_off1 i) a + S1.size a ≤ S40.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S40) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x64x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  shapeCasts_S2048x8x512_S16384x512 : S2048x8x512.ShapeCasts S16384x512
  shapeCasts_S2048x8_S16384 : S2048x8.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S8_S1x8_1 : S8.BroadcastsInDim S1x8 (![1] : Fin 1 → Fin S1x8.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  natLt_1_32 : 1 < 32
  reducesTo_S16384x8_S8_d0 : S16384x8.ReducesTo [0] S8
  h_S_ : 0 < S_.numel
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  slices_S8_S7_0 : S8.Slices ![0] S7
  concatenates_S1_S7_S8_d0 : Shape.Concatenates [S1, S7] S8 0
  bcast_S_S8 : S_.BroadcastsInDim S8 (![] : Fin 0 → Fin S8.rank)
  bcast_S_S20480 : S_.BroadcastsInDim S20480 (![] : Fin 0 → Fin S20480.rank)
  bcast_S_S40 : S_.BroadcastsInDim S40 (![] : Fin 0 → Fin S40.rank)
  bcast_S40_S40x1_0 : S40.BroadcastsInDim S40x1 (![0] : Fin 1 → Fin S40x1.rank)
  bcast_S1x8_S40x8_0_1 : S1x8.BroadcastsInDim S40x8 (![0, 1] : Fin 2 → Fin S40x8.rank)
  bcast_S40x1_S40x8_0_1 : S40x1.BroadcastsInDim S40x8 (![0, 1] : Fin 2 → Fin S40x8.rank)
  reducesTo_S40x8_S40_d1 : S40x8.ReducesTo [1] S40
  bcast_S20480_S20480x1_0 : S20480.BroadcastsInDim S20480x1 (![0] : Fin 1 → Fin S20480x1.rank)
  bcast_S_S20480x1 : S_.BroadcastsInDim S20480x1 (![] : Fin 0 → Fin S20480x1.rank)
  bcast_S1_S1x1_1 : S1.BroadcastsInDim S1x1 (![1] : Fin 1 → Fin S1x1.rank)
  bcast_S1x1_S20480x1_0_1 : S1x1.BroadcastsInDim S20480x1 (![0, 1] : Fin 2 → Fin S20480x1.rank)
  reducesTo_S20480x1_S20480_d1 : S20480x1.ReducesTo [1] S20480
  bcast_S20480_S20480x512_0 : S20480.BroadcastsInDim S20480x512 (![0] : Fin 1 → Fin S20480x512.rank)
  bcast_S_S20480x512 : S_.BroadcastsInDim S20480x512 (![] : Fin 0 → Fin S20480x512.rank)
  shapeCasts_S512_S1x512 : S512.ShapeCasts S1x512
  numel1_S1 : S1.numel = 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S1536_S1x1536 : S1536.ShapeCasts S1x1536
  inb_S1536x512_S1536x512_0_0 : ∀ a, (![0, 0] : Fin 2 → Nat) a + S1536x512.size a ≤ S1536x512.size a
  h_S1536x512 : 0 < S1536x512.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  shapeCasts_S64_S1x64 : S64.ShapeCasts S1x64
  inb_S64x512_S64x512_0_0 : ∀ a, (![0, 0] : Fin 2 → Nat) a + S64x512.size a ≤ S64x512.size a
  h_S64x512 : 0 < S64x512.numel
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  bcast_S_S16384x1 : S_.BroadcastsInDim S16384x1 (![] : Fin 0 → Fin S16384x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x512_0 : S16384.BroadcastsInDim S16384x512 (![0] : Fin 1 → Fin S16384x512.rank)
  bcast_S_S16384x512 : S_.BroadcastsInDim S16384x512 (![] : Fin 0 → Fin S16384x512.rank)
  bcast_S16384_S16384x64_0 : S16384.BroadcastsInDim S16384x64 (![0] : Fin 1 → Fin S16384x64.rank)
  bcast_S_S16384x64 : S_.BroadcastsInDim S16384x64 (![] : Fin 0 → Fin S16384x64.rank)
  shapeCasts_S16384x64_S2048x8x64 : S16384x64.ShapeCasts S2048x8x64
  shapeCasts_S16384x512_S2048x8x512 : S16384x512.ShapeCasts S2048x8x512
  gather_S16384_S16384x1_S16384_n_0_n_n_0_1_1_wf : GatherDims.WF S16384 S16384x1 S16384 [] [0] [] [0] [] 1 ![1]
  gather_S8_S16384x1_S16384_n_0_n_n_0_1_1_wf : GatherDims.WF S8 S16384x1 S16384 [] [0] [] [0] [] 1 ![1]
  scatter_S20480_S16384x1_S16384_n_0_0_1_wf : ScatterDims.WF S20480 S16384x1 S16384 [] [0] [0] 1
  scatter_S16384_S16384x1_S16384_n_0_0_1_wf : ScatterDims.WF S16384 S16384x1 S16384 [] [0] [0] 1
  gather_S16384x512_S20480x1_S20480x512_1_0_n_n_0_1_1512_wf : GatherDims.WF S16384x512 S20480x1 S20480x512 [1] [0] [] [0] [] 1 ![1, 512]
  dot_S512x512_S512x512_S512x512_1_1_0_0_n_n_wf : DotDims.WF S512x512 S512x512 S512x512 [1] [1] [0] [0] [] []
  dot_S512x512_S1536x512_S512x1536_1_1_0_0_n_n_wf : DotDims.WF S512x512 S1536x512 S512x1536 [1] [1] [0] [0] [] []
  dot_S512x512_S64x512_S512x64_1_1_0_0_n_n_wf : DotDims.WF S512x512 S64x512 S512x64 [1] [1] [0] [0] [] []
  gather_S20480x512_S16384x1_S16384x512_1_0_n_n_0_1_1512_wf : GatherDims.WF S20480x512 S16384x1 S16384x512 [1] [0] [] [0] [] 1 ![1, 512]
  gather_S20480x64_S16384x1_S16384x64_1_0_n_n_0_1_164_wf : GatherDims.WF S20480x64 S16384x1 S16384x64 [1] [0] [] [0] [] 1 ![1, 64]
  hrank0 : 0 < grid0.rank
  k0_off1_inb : ∀ i : grid0.Coords, ∀ a, (k0_off1 i) a + S1.size a ≤ S40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S20480x512.size a
  hwx0_0 : ∀ i : grid0.Coords, EltTy.bits .f32 = 32 ∨ (Rect.block (s := S20480x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [BitOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S20480x512.size a
  hwx0_4 : ∀ i : grid0.Coords, EltTy.bits .f32 = 32 ∨ (Rect.block (s := S20480x512) S512x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S20480x512.size a
  hwx1_0 : ∀ i : grid1.Coords, EltTy.bits .f32 = 32 ∨ (Rect.block (s := S20480x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S20480x512.size a
  hwx1_1 : ∀ i : grid1.Coords, EltTy.bits .f32 = 32 ∨ (Rect.block (s := S20480x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1536x512.size a ≤ S1536x512.size a
  hwx1_2 : ∀ i : grid1.Coords, EltTy.bits .f32 = 32 ∨ (Rect.block (s := S1536x512) S1536x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1536x512.size a ≤ S1536x512.size a
  hwx1_3 : ∀ i : grid1.Coords, EltTy.bits .f32 = 32 ∨ (Rect.block (s := S1536x512) S1536x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1536.size a ≤ S1x1536.size a
  hwx1_4 : ∀ i : grid1.Coords, EltTy.bits .f32 = 32 ∨ (Rect.block (s := S1x1536) S1x1536.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1536.size a ≤ S1x1536.size a
  hwx1_5 : ∀ i : grid1.Coords, EltTy.bits .f32 = 32 ∨ (Rect.block (s := S1x1536) S1x1536.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S20480x512.size a
  hwx1_6 : ∀ i : grid1.Coords, EltTy.bits .f32 = 32 ∨ (Rect.block (s := S20480x512) S512x512.size (cc1_transform_6 i) (hinb1_6 i)).WholeWords (EltTy.packing .f32)
  hrank2 : 0 < grid2.rank
  k2_off1_inb : ∀ i : grid2.Coords, ∀ a, (k2_off1 i) a + S1.size a ≤ S40.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S20480x512.size a
  hwx2_0 : ∀ i : grid2.Coords, EltTy.bits .f32 = 32 ∨ (Rect.block (s := S20480x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ {F : FTy → Type} [BitOps F] (pf : pre2.Contents (Elt F)) (i i' : grid2.Coords), (∀ a, reads2_3 a = true → i a = i' a) → cc2_transform_3 k2_off1_inb numel1_S1 pf i = cc2_transform_3 k2_off1_inb numel1_S1 pf i'
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S20480x512.size a
  hwx2_4 : ∀ i : grid2.Coords, EltTy.bits .f32 = 32 ∨ (Rect.block (s := S20480x512) S512x512.size (cc2_transform_4 i) (hinb2_4 i)).WholeWords (EltTy.packing .f32)
  hrank3 : 0 < grid3.rank
  k3_off1_inb : ∀ i : grid3.Coords, ∀ a, (k3_off1 i) a + S1.size a ≤ S40.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S20480x512.size a
  hwx3_0 : ∀ i : grid3.Coords, EltTy.bits .f32 = 32 ∨ (Rect.block (s := S20480x512) S512x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ {F : FTy → Type} [BitOps F] (pf : pre3.Contents (Elt F)) (i i' : grid3.Coords), (∀ a, reads3_3 a = true → i a = i' a) → cc3_transform_3 k3_off1_inb numel1_S1 pf i = cc3_transform_3 k3_off1_inb numel1_S1 pf i'
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S20480x512.size a
  hwx3_4 : ∀ i : grid3.Coords, EltTy.bits .f32 = 32 ∨ (Rect.block (s := S20480x512) S512x512.size (cc3_transform_4 i) (hinb3_4 i)).WholeWords (EltTy.packing .f32)
  hrank4 : 0 < grid4.rank
  k4_off1_inb : ∀ i : grid4.Coords, ∀ a, (k4_off1 i) a + S1.size a ≤ S40.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S20480x512.size a
  hwx4_0 : ∀ i : grid4.Coords, EltTy.bits .f32 = 32 ∨ (Rect.block (s := S20480x512) S512x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x512.size a ≤ S64x512.size a
  hwx4_1 : ∀ i : grid4.Coords, EltTy.bits .f32 = 32 ∨ (Rect.block (s := S64x512) S64x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ {F : FTy → Type} [BitOps F] (pf : pre4.Contents (Elt F)) (i i' : grid4.Coords), (∀ a, reads4_3 a = true → i a = i' a) → cc4_transform_3 k4_off1_inb numel1_S1 pf i = cc4_transform_3 k4_off1_inb numel1_S1 pf i'
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x64.size a ≤ S20480x64.size a
  hwx4_4 : ∀ i : grid4.Coords, EltTy.bits .f32 = 32 ∨ (Rect.block (s := S20480x64) S512x64.size (cc4_transform_4 i) (hinb4_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def scatter_S20480_S16384x1_S16384_n_0_0_1 : ScatterDims S20480 S16384x1 S16384 where
  updateWindowDims := []
  insertedWindowDims := [0]
  scatterDimsToOperandDims := [0]
  indexVectorDim := 1
  wf := scatter_S20480_S16384x1_S16384_n_0_0_1_wf
def scatter_S16384_S16384x1_S16384_n_0_0_1 : ScatterDims S16384 S16384x1 S16384 where
  updateWindowDims := []
  insertedWindowDims := [0]
  scatterDimsToOperandDims := [0]
  indexVectorDim := 1
  wf := scatter_S16384_S16384x1_S16384_n_0_0_1_wf
def gather_S16384x512_S20480x1_S20480x512_1_0_n_n_0_1_1512 : GatherDims S16384x512 S20480x1 S20480x512 where
  offsetDims := [1]
  collapsedSliceDims := [0]
  operandBatchingDims := []
  startIndicesBatchingDims := []
  startIndexMap := [0]
  indexVectorDim := 1
  sliceSizes := ![1, 512]
  wf := gather_S16384x512_S20480x1_S20480x512_1_0_n_n_0_1_1512_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S1536x512_S512x1536_1_1_0_0_n_n : DotDims S512x512 S1536x512 S512x1536 where
  lhsContracting := [1]
  rhsContracting := [1]
  lhsNonContracting := [0]
  rhsNonContracting := [0]
  lhsBatch := []
  rhsBatch := []
  wf := dot_S512x512_S1536x512_S512x1536_1_1_0_0_n_n_wf
def dot_S512x512_S64x512_S512x64_1_1_0_0_n_n : DotDims S512x512 S64x512 S512x64 where
  lhsContracting := [1]
  rhsContracting := [1]
  lhsNonContracting := [0]
  rhsNonContracting := [0]
  lhsBatch := []
  rhsBatch := []
  wf := dot_S512x512_S64x512_S512x64_1_1_0_0_n_n_wf
def gather_S20480x512_S16384x1_S16384x512_1_0_n_n_0_1_1512 : GatherDims S20480x512 S16384x1 S16384x512 where
  offsetDims := [1]
  collapsedSliceDims := [0]
  operandBatchingDims := []
  startIndicesBatchingDims := []
  startIndexMap := [0]
  indexVectorDim := 1
  sliceSizes := ![1, 512]
  wf := gather_S20480x512_S16384x1_S16384x512_1_0_n_n_0_1_1512_wf
def gather_S20480x64_S16384x1_S16384x64_1_0_n_n_0_1_164 : GatherDims S20480x64 S16384x1 S16384x64 where
  offsetDims := [1]
  collapsedSliceDims := [0]
  operandBatchingDims := []
  startIndicesBatchingDims := []
  startIndexMap := [0]
  indexVectorDim := 1
  sliceSizes := ![1, 64]
  wf := gather_S20480x64_S16384x1_S16384x64_1_0_n_n_0_1_164_wf

abbrev spec0_0 : Pipeline.WinSpec sig grid0.rank :=
  Pipeline.WinSpec.ofSpec (Memref.whole main_v80) S512x512.size reads0_0 false false 2 stage0_0 sem0_0 nbuf0_0 hstage0_0

abbrev spec0_1 : Pipeline.WinSpec sig grid0.rank :=
  Pipeline.WinSpec.ofSpec (Memref.whole main_arg3) S512x512.size reads0_1 false true 1 stage0_1 sem0_1 nbuf0_1 hstage0_1

abbrev spec0_2 : Pipeline.WinSpec sig grid0.rank :=
  Pipeline.WinSpec.ofSpec (Memref.whole main_v82) S1x512.size reads0_2 false true 1 stage0_2 sem0_2 nbuf0_2 hstage0_2

abbrev spec0_3 : Pipeline.WinSpec sig grid0.rank :=
  Pipeline.WinSpec.ofSpec (Memref.whole main_arg5) S1x512x512.size reads0_3 false false 2 stage0_3 sem0_3 nbuf0_3 hstage0_3

abbrev spec0_4 : Pipeline.WinSpec sig grid0.rank :=
  Pipeline.WinSpec.ofSpec (Memref.whole main_v83) S512x512.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x512x512.size a ≤ S8x512x512.size a), EltTy.bits .f32 = 32 ∨ (Rect.block (s := S8x512x512) S1x512x512.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok i).elim fun _ h => h | 4 => hwx0_4 | ⟨_ + 5, h⟩ => absurd h (Nat.not_lt.2 (Nat.le_add_left _ _))
abbrev win1_0 : Pipeline.Window sig grid1 :=
  Pipeline.Window.ofSpec (Memref.whole main_v83) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1536x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1536x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x1536.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S1x1536.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v86) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev spec2_0 : Pipeline.WinSpec sig grid2.rank :=
  Pipeline.WinSpec.ofSpec (Memref.whole main_v86) S512x512.size reads2_0 false false 2 stage2_0 sem2_0 nbuf2_0 hstage2_0

abbrev spec2_1 : Pipeline.WinSpec sig grid2.rank :=
  Pipeline.WinSpec.ofSpec (Memref.whole main_arg10) S512x512.size reads2_1 false true 1 stage2_1 sem2_1 nbuf2_1 hstage2_1

abbrev spec2_2 : Pipeline.WinSpec sig grid2.rank :=
  Pipeline.WinSpec.ofSpec (Memref.whole main_v87) S1x512.size reads2_2 false true 1 stage2_2 sem2_2 nbuf2_2 hstage2_2

abbrev spec2_3 : Pipeline.WinSpec sig grid2.rank :=
  Pipeline.WinSpec.ofSpec (Memref.whole main_arg12) S1x512x512.size reads2_3 false false 2 stage2_3 sem2_3 nbuf2_3 hstage2_3

abbrev spec2_4 : Pipeline.WinSpec sig grid2.rank :=
  Pipeline.WinSpec.ofSpec (Memref.whole main_v88) S512x512.size reads2_4 true false 2 stage2_4 sem2_4 nbuf2_4 hstage2_4

abbrev spec2 : Fin 5 → Pipeline.WinSpec sig grid2.rank := fun | 0 => spec2_0 | 1 => spec2_1 | 2 => spec2_2 | 3 => spec2_3 | 4 => spec2_4 | ⟨_ + 5, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | ⟨_ + 5, h⟩ => absurd h (Nat.not_lt.2 (Nat.le_add_left _ _))
abbrev ix2 (pf : pre2.Contents (Elt F)) : (w : Fin 5) → grid2.Coords → Fin (spec2 w).shape.rank → Nat := fun | 0 => cc2_transform_0 | 1 => cc2_transform_1 | 2 => cc2_transform_2 | 3 => cc2_transform_3 k2_off1_inb numel1_S1 pf | 4 => cc2_transform_4 | ⟨_ + 5, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | 3 => hreads2_3 pf | 4 => hreads2_4 | ⟨_ + 5, h⟩ => absurd h (Nat.not_lt.2 (Nat.le_add_left _ _))
def ok2 (pf : pre2.Contents (Elt F)) : Prop :=
  (∀ i : grid2.Coords, ∃ h : (∀ a, (cc2_transform_3 k2_off1_inb numel1_S1 pf i a + 1) * S1x512x512.size a ≤ S8x512x512.size a), EltTy.bits .f32 = 32 ∨ (Rect.block (s := S8x512x512) S1x512x512.size (cc2_transform_3 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => hinb2_0 | 1 => hinb2_1 | 2 => hinb2_2 | 3 => fun i a => (hok i).elim fun h _ => h a | 4 => hinb2_4 | ⟨_ + 5, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => hwx2_0 | 1 => hwx2_1 | 2 => hwx2_2 | 3 => fun i => (hok i).elim fun _ h => h | 4 => hwx2_4 | ⟨_ + 5, h⟩ => absurd h (Nat.not_lt.2 (Nat.le_add_left _ _))
abbrev spec3_0 : Pipeline.WinSpec sig grid3.rank :=
  Pipeline.WinSpec.ofSpec (Memref.whole main_v88) S512x512.size reads3_0 false false 2 stage3_0 sem3_0 nbuf3_0 hstage3_0

abbrev spec3_1 : Pipeline.WinSpec sig grid3.rank :=
  Pipeline.WinSpec.ofSpec (Memref.whole main_arg13) S512x512.size reads3_1 false true 1 stage3_1 sem3_1 nbuf3_1 hstage3_1

abbrev spec3_2 : Pipeline.WinSpec sig grid3.rank :=
  Pipeline.WinSpec.ofSpec (Memref.whole main_v89) S1x512.size reads3_2 false true 1 stage3_2 sem3_2 nbuf3_2 hstage3_2

abbrev spec3_3 : Pipeline.WinSpec sig grid3.rank :=
  Pipeline.WinSpec.ofSpec (Memref.whole main_arg15) S1x512x512.size reads3_3 false false 2 stage3_3 sem3_3 nbuf3_3 hstage3_3

abbrev spec3_4 : Pipeline.WinSpec sig grid3.rank :=
  Pipeline.WinSpec.ofSpec (Memref.whole main_v90) S512x512.size reads3_4 true false 2 stage3_4 sem3_4 nbuf3_4 hstage3_4

abbrev spec3 : Fin 5 → Pipeline.WinSpec sig grid3.rank := fun | 0 => spec3_0 | 1 => spec3_1 | 2 => spec3_2 | 3 => spec3_3 | 4 => spec3_4 | ⟨_ + 5, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | ⟨_ + 5, h⟩ => absurd h (Nat.not_lt.2 (Nat.le_add_left _ _))
abbrev ix3 (pf : pre3.Contents (Elt F)) : (w : Fin 5) → grid3.Coords → Fin (spec3 w).shape.rank → Nat := fun | 0 => cc3_transform_0 | 1 => cc3_transform_1 | 2 => cc3_transform_2 | 3 => cc3_transform_3 k3_off1_inb numel1_S1 pf | 4 => cc3_transform_4 | ⟨_ + 5, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | 3 => hreads3_3 pf | 4 => hreads3_4 | ⟨_ + 5, h⟩ => absurd h (Nat.not_lt.2 (Nat.le_add_left _ _))
def ok3 (pf : pre3.Contents (Elt F)) : Prop :=
  (∀ i : grid3.Coords, ∃ h : (∀ a, (cc3_transform_3 k3_off1_inb numel1_S1 pf i a + 1) * S1x512x512.size a ≤ S8x512x512.size a), EltTy.bits .f32 = 32 ∨ (Rect.block (s := S8x512x512) S1x512x512.size (cc3_transform_3 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => hinb3_0 | 1 => hinb3_1 | 2 => hinb3_2 | 3 => fun i a => (hok i).elim fun h _ => h a | 4 => hinb3_4 | ⟨_ + 5, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => hwx3_0 | 1 => hwx3_1 | 2 => hwx3_2 | 3 => fun i => (hok i).elim fun _ h => h | 4 => hwx3_4 | ⟨_ + 5, h⟩ => absurd h (Nat.not_lt.2 (Nat.le_add_left _ _))
abbrev spec4_0 : Pipeline.WinSpec sig grid4.rank :=
  Pipeline.WinSpec.ofSpec (Memref.whole main_v90) S512x512.size reads4_0 false false 2 stage4_0 sem4_0 nbuf4_0 hstage4_0

abbrev spec4_1 : Pipeline.WinSpec sig grid4.rank :=
  Pipeline.WinSpec.ofSpec (Memref.whole main_arg16) S64x512.size reads4_1 false true 1 stage4_1 sem4_1 nbuf4_1 hstage4_1

abbrev spec4_2 : Pipeline.WinSpec sig grid4.rank :=
  Pipeline.WinSpec.ofSpec (Memref.whole main_v91) S1x64.size reads4_2 false true 1 stage4_2 sem4_2 nbuf4_2 hstage4_2

abbrev spec4_3 : Pipeline.WinSpec sig grid4.rank :=
  Pipeline.WinSpec.ofSpec (Memref.whole main_arg18) S1x64x512.size reads4_3 false false 2 stage4_3 sem4_3 nbuf4_3 hstage4_3

abbrev spec4_4 : Pipeline.WinSpec sig grid4.rank :=
  Pipeline.WinSpec.ofSpec (Memref.whole main_v92) S512x64.size reads4_4 true false 2 stage4_4 sem4_4 nbuf4_4 hstage4_4

abbrev spec4 : Fin 5 → Pipeline.WinSpec sig grid4.rank := fun | 0 => spec4_0 | 1 => spec4_1 | 2 => spec4_2 | 3 => spec4_3 | 4 => spec4_4 | ⟨_ + 5, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | 4 => nbuf4_4 | ⟨_ + 5, h⟩ => absurd h (Nat.not_lt.2 (Nat.le_add_left _ _))
abbrev ix4 (pf : pre4.Contents (Elt F)) : (w : Fin 5) → grid4.Coords → Fin (spec4 w).shape.rank → Nat := fun | 0 => cc4_transform_0 | 1 => cc4_transform_1 | 2 => cc4_transform_2 | 3 => cc4_transform_3 k4_off1_inb numel1_S1 pf | 4 => cc4_transform_4 | ⟨_ + 5, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | 3 => hreads4_3 pf | 4 => hreads4_4 | ⟨_ + 5, h⟩ => absurd h (Nat.not_lt.2 (Nat.le_add_left _ _))
def ok4 (pf : pre4.Contents (Elt F)) : Prop :=
  (∀ i : grid4.Coords, ∃ h : (∀ a, (cc4_transform_3 k4_off1_inb numel1_S1 pf i a + 1) * S1x64x512.size a ≤ S8x64x512.size a), EltTy.bits .f32 = 32 ∨ (Rect.block (s := S8x64x512) S1x64x512.size (cc4_transform_3 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => hinb4_0 | 1 => hinb4_1 | 2 => hinb4_2 | 3 => fun i a => (hok i).elim fun h _ => h a | 4 => hinb4_4 | ⟨_ + 5, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => hwx4_0 | 1 => hwx4_1 | 2 => hwx4_2 | 3 => fun i => (hok i).elim fun _ h => h | 4 => hwx4_4 | ⟨_ + 5, h⟩ => absurd h (Nat.not_lt.2 (Nat.le_add_left _ _))

class Facts : Prop extends Facts₀ where
  harr0 : ∀ w, (spec0 w).arr.IsWhole
  harr2 : ∀ w, (spec2 w).arr.IsWhole
  harr3 : ∀ w, (spec3 w).arr.IsWhole
  harr4 : ∀ w, (spec4 w).arr.IsWhole

variable [Facts]
-- ==== ReferenceIdeal.lean ====
abbrev S2048x8x512 : Shape := ⟨3, ![2048, 8, 512]⟩
abbrev S2048x8 : Shape := ⟨2, ![2048, 8]⟩
abbrev S512x512 : Shape := ⟨2, ![512, 512]⟩
abbrev S512 : Shape := ⟨1, ![512]⟩
abbrev S8x512x512 : Shape := ⟨3, ![8, 512, 512]⟩
abbrev S1536x512 : Shape := ⟨2, ![1536, 512]⟩
abbrev S1536 : Shape := ⟨1, ![1536]⟩
abbrev S64x512 : Shape := ⟨2, ![64, 512]⟩
abbrev S64 : Shape := ⟨1, ![64]⟩
abbrev S8x64x512 : Shape := ⟨3, ![8, 64, 512]⟩
abbrev S16384x512 : Shape := ⟨2, ![16384, 512]⟩
abbrev S16384 : Shape := ⟨1, ![16384]⟩
abbrev S1x512x512 : Shape := ⟨3, ![1, 512, 512]⟩
abbrev S_ : Shape := ⟨0, ![]⟩
abbrev S16384x8x512 : Shape := ⟨3, ![16384, 8, 512]⟩
abbrev S16384x1x1 : Shape := ⟨3, ![16384, 1, 1]⟩
abbrev S1 : Shape := ⟨1, ![1]⟩
abbrev S1x1x1 : Shape := ⟨3, ![1, 1, 1]⟩
abbrev S16384x1 : Shape := ⟨2, ![16384, 1]⟩
abbrev S16384x1x512 : Shape := ⟨3, ![16384, 1, 512]⟩
abbrev S1x512 : Shape := ⟨2, ![1, 512]⟩
abbrev S512x1536 : Shape := ⟨2, ![512, 1536]⟩
abbrev S16384x1536 : Shape := ⟨2, ![16384, 1536]⟩
abbrev S1x1536 : Shape := ⟨2, ![1, 1536]⟩
abbrev S1x64x512 : Shape := ⟨3, ![1, 64, 512]⟩
abbrev S16384x8x64 : Shape := ⟨3, ![16384, 8, 64]⟩
abbrev S16384x1x64 : Shape := ⟨3, ![16384, 1, 64]⟩
abbrev S16384x64 : Shape := ⟨2, ![16384, 64]⟩
abbrev S1x64 : Shape := ⟨2, ![1, 64]⟩
abbrev S2048x8x64 : Shape := ⟨3, ![2048, 8, 64]⟩

abbrev nBuf : Space → Nat
  | .hbm => 264
  | .vmem => 0
  | .smem => 0
  | _ => 0

abbrev hbmTy0_0 (i : Nat) : BufTy := match i % 128 with
  | 0 => ⟨S2048x8x512, .f32⟩
  | 1 => ⟨S2048x8x512, .f32⟩
  | 2 => ⟨S2048x8, .i32⟩
  | 3 => ⟨S512x512, .f32⟩
  | 4 => ⟨S512, .f32⟩
  | 5 => ⟨S8x512x512, .f32⟩
  | 6 => ⟨S1536x512, .f32⟩
  | 7 => ⟨S1536x512, .f32⟩
  | 8 => ⟨S1536, .f32⟩
  | 9 => ⟨S1536, .f32⟩
  | 10 => ⟨S512x512, .f32⟩
  | 11 => ⟨S512, .f32⟩
  | 12 => ⟨S8x512x512, .f32⟩
  | 13 => ⟨S512x512, .f32⟩
  | 14 => ⟨S512, .f32⟩
  | 15 => ⟨S8x512x512, .f32⟩
  | 16 => ⟨S64x512, .f32⟩
  | 17 => ⟨S64, .f32⟩
  | 18 => ⟨S8x64x512, .f32⟩
  | 19 => ⟨S16384x512, .f32⟩
  | 20 => ⟨S16384, .i32⟩
  | 21 => ⟨S16384x512, .f32⟩
  | 22 => ⟨S512x512, .f32⟩
  | 23 => ⟨S1x512x512, .f32⟩
  | 24 => ⟨S512x512, .f32⟩
  | 25 => ⟨S1x512x512, .f32⟩
  | 26 => ⟨S8x512x512, .f32⟩
  | 27 => ⟨S8x512x512, .f32⟩
  | 28 => ⟨S_, .f32⟩
  | 29 => ⟨S8x512x512, .f32⟩
  | 30 => ⟨S8x512x512, .f32⟩
  | 31 => ⟨S_, .f32⟩
  | 32 => ⟨S8x512x512, .f32⟩
  | 33 => ⟨S8x512x512, .f32⟩
  | 34 => ⟨S8x512x512, .f32⟩
  | 35 => ⟨S8x512x512, .f32⟩
  | 36 => ⟨S_, .f32⟩
  | 37 => ⟨S8x512x512, .f32⟩
  | 38 => ⟨S8x512x512, .f32⟩
  | 39 => ⟨S8x512x512, .f32⟩
  | 40 => ⟨S8x512x512, .f32⟩
  | 41 => ⟨S16384x8x512, .f32⟩
  | 42 => ⟨S16384x1x1, .i32⟩
  | 43 => ⟨S_, .i32⟩
  | 44 => ⟨S16384x1x1, .i32⟩
  | 45 => ⟨S16384x1x1, .i1⟩
  | 46 => ⟨S_, .i32⟩
  | 47 => ⟨S16384x1x1, .i32⟩
  | 48 => ⟨S16384x1x1, .i32⟩
  | 49 => ⟨S16384x1x1, .i32⟩
  | 50 => ⟨S1, .i32⟩
  | 51 => ⟨S_, .i32⟩
  | 52 => ⟨S16384x1x1, .i32⟩
  | 53 => ⟨S16384x1x1, .i1⟩
  | 54 => ⟨S1x1x1, .i32⟩
  | 55 => ⟨S16384x1x1, .i32⟩
  | 56 => ⟨S16384x1x1, .i1⟩
  | 57 => ⟨S16384x1x1, .i1⟩
  | 58 => ⟨S_, .i1⟩
  | 59 => ⟨S16384x1, .i1⟩
  | 60 => ⟨S16384x1x512, .f32⟩
  | 61 => ⟨S16384x1x512, .i1⟩
  | 62 => ⟨S_, .f32⟩
  | 63 => ⟨S16384x1x512, .f32⟩
  | 64 => ⟨S16384x1x512, .f32⟩
  | 65 => ⟨S16384x512, .f32⟩
  | 66 => ⟨S1x512, .f32⟩
  | 67 => ⟨S16384x512, .f32⟩
  | 68 => ⟨S16384x512, .f32⟩
  | 69 => ⟨S_, .f32⟩
  | 70 => ⟨S16384x512, .f32⟩
  | 71 => ⟨S16384x512, .f32⟩
  | 72 => ⟨S512x1536, .f32⟩
  | 73 => ⟨S16384x1536, .f32⟩
  | 74 => ⟨S1x1536, .f32⟩
  | 75 => ⟨S16384x1536, .f32⟩
  | 76 => ⟨S16384x1536, .f32⟩
  | 77 => ⟨S512x1536, .f32⟩
  | 78 => ⟨S16384x1536, .f32⟩
  | 79 => ⟨S1x1536, .f32⟩
  | 80 => ⟨S16384x1536, .f32⟩
  | 81 => ⟨S16384x1536, .f32⟩
  | 82 => ⟨S16384x512, .f32⟩
  | 83 => ⟨S16384x512, .f32⟩
  | 84 => ⟨S16384x512, .f32⟩
  | 85 => ⟨S16384x512, .f32⟩
  | 86 => ⟨S16384x512, .f32⟩
  | 87 => ⟨S16384x512, .f32⟩
  | 88 => ⟨S16384x512, .f32⟩
  | 89 => ⟨S16384x512, .f32⟩
  | 90 => ⟨S16384x512, .f32⟩
  | 91 => ⟨S_, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S16384x512, .f32⟩
  | 98 => ⟨S16384x512, .f32⟩
  | 99 => ⟨S16384x512, .f32⟩
  | 100 => ⟨S_, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S_, .f32⟩
  | 110 => ⟨S16384x512, .f32⟩
  | 111 => ⟨S16384x512, .f32⟩
  | 112 => ⟨S16384x512, .f32⟩
  | 113 => ⟨S16384x512, .f32⟩
  | 114 => ⟨S16384x512, .f32⟩
  | 115 => ⟨S512x512, .f32⟩
  | 116 => ⟨S1x512x512, .f32⟩
  | 117 => ⟨S512x512, .f32⟩
  | 118 => ⟨S1x512x512, .f32⟩
  | 119 => ⟨S8x512x512, .f32⟩
  | 120 => ⟨S8x512x512, .f32⟩
  | 121 => ⟨S_, .f32⟩
  | 122 => ⟨S8x512x512, .f32⟩
  | 123 => ⟨S8x512x512, .f32⟩
  | 124 => ⟨S_, .f32⟩
  | 125 => ⟨S8x512x512, .f32⟩
  | 126 => ⟨S8x512x512, .f32⟩
  | 127 => ⟨S8x512x512, .f32⟩
  | _ => ⟨S2048x8x512, .f32⟩

abbrev hbmTy0_1 (i : Nat) : BufTy := match i % 128 with
  | 0 => ⟨S8x512x512, .f32⟩
  | 1 => ⟨S_, .f32⟩
  | 2 => ⟨S8x512x512, .f32⟩
  | 3 => ⟨S8x512x512, .f32⟩
  | 4 => ⟨S8x512x512, .f32⟩
  | 5 => ⟨S8x512x512, .f32⟩
  | 6 => ⟨S16384x8x512, .f32⟩
  | 7 => ⟨S16384x1x1, .i32⟩
  | 8 => ⟨S_, .i32⟩
  | 9 => ⟨S16384x1x1, .i32⟩
  | 10 => ⟨S16384x1x1, .i1⟩
  | 11 => ⟨S_, .i32⟩
  | 12 => ⟨S16384x1x1, .i32⟩
  | 13 => ⟨S16384x1x1, .i32⟩
  | 14 => ⟨S16384x1x1, .i32⟩
  | 15 => ⟨S1, .i32⟩
  | 16 => ⟨S_, .i32⟩
  | 17 => ⟨S16384x1x1, .i32⟩
  | 18 => ⟨S16384x1x1, .i1⟩
  | 19 => ⟨S1x1x1, .i32⟩
  | 20 => ⟨S16384x1x1, .i32⟩
  | 21 => ⟨S16384x1x1, .i1⟩
  | 22 => ⟨S16384x1x1, .i1⟩
  | 23 => ⟨S_, .i1⟩
  | 24 => ⟨S16384x1, .i1⟩
  | 25 => ⟨S16384x1x512, .f32⟩
  | 26 => ⟨S16384x1x512, .i1⟩
  | 27 => ⟨S_, .f32⟩
  | 28 => ⟨S16384x1x512, .f32⟩
  | 29 => ⟨S16384x1x512, .f32⟩
  | 30 => ⟨S16384x512, .f32⟩
  | 31 => ⟨S1x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S512x512, .f32⟩
  | 38 => ⟨S1x512x512, .f32⟩
  | 39 => ⟨S512x512, .f32⟩
  | 40 => ⟨S1x512x512, .f32⟩
  | 41 => ⟨S8x512x512, .f32⟩
  | 42 => ⟨S8x512x512, .f32⟩
  | 43 => ⟨S_, .f32⟩
  | 44 => ⟨S8x512x512, .f32⟩
  | 45 => ⟨S8x512x512, .f32⟩
  | 46 => ⟨S_, .f32⟩
  | 47 => ⟨S8x512x512, .f32⟩
  | 48 => ⟨S8x512x512, .f32⟩
  | 49 => ⟨S8x512x512, .f32⟩
  | 50 => ⟨S8x512x512, .f32⟩
  | 51 => ⟨S_, .f32⟩
  | 52 => ⟨S8x512x512, .f32⟩
  | 53 => ⟨S8x512x512, .f32⟩
  | 54 => ⟨S8x512x512, .f32⟩
  | 55 => ⟨S8x512x512, .f32⟩
  | 56 => ⟨S16384x8x512, .f32⟩
  | 57 => ⟨S16384x1x1, .i32⟩
  | 58 => ⟨S_, .i32⟩
  | 59 => ⟨S16384x1x1, .i32⟩
  | 60 => ⟨S16384x1x1, .i1⟩
  | 61 => ⟨S_, .i32⟩
  | 62 => ⟨S16384x1x1, .i32⟩
  | 63 => ⟨S16384x1x1, .i32⟩
  | 64 => ⟨S16384x1x1, .i32⟩
  | 65 => ⟨S1, .i32⟩
  | 66 => ⟨S_, .i32⟩
  | 67 => ⟨S16384x1x1, .i32⟩
  | 68 => ⟨S16384x1x1, .i1⟩
  | 69 => ⟨S1x1x1, .i32⟩
  | 70 => ⟨S16384x1x1, .i32⟩
  | 71 => ⟨S16384x1x1, .i1⟩
  | 72 => ⟨S16384x1x1, .i1⟩
  | 73 => ⟨S_, .i1⟩
  | 74 => ⟨S16384x1, .i1⟩
  | 75 => ⟨S16384x1x512, .f32⟩
  | 76 => ⟨S16384x1x512, .i1⟩
  | 77 => ⟨S_, .f32⟩
  | 78 => ⟨S16384x1x512, .f32⟩
  | 79 => ⟨S16384x1x512, .f32⟩
  | 80 => ⟨S16384x512, .f32⟩
  | 81 => ⟨S1x512, .f32⟩
  | 82 => ⟨S16384x512, .f32⟩
  | 83 => ⟨S16384x512, .f32⟩
  | 84 => ⟨S_, .f32⟩
  | 85 => ⟨S16384x512, .f32⟩
  | 86 => ⟨S16384x512, .f32⟩
  | 87 => ⟨S64x512, .f32⟩
  | 88 => ⟨S1x64x512, .f32⟩
  | 89 => ⟨S64x512, .f32⟩
  | 90 => ⟨S1x64x512, .f32⟩
  | 91 => ⟨S8x64x512, .f32⟩
  | 92 => ⟨S8x64x512, .f32⟩
  | 93 => ⟨S_, .f32⟩
  | 94 => ⟨S8x64x512, .f32⟩
  | 95 => ⟨S8x64x512, .f32⟩
  | 96 => ⟨S_, .f32⟩
  | 97 => ⟨S8x64x512, .f32⟩
  | 98 => ⟨S8x64x512, .f32⟩
  | 99 => ⟨S8x64x512, .f32⟩
  | 100 => ⟨S8x64x512, .f32⟩
  | 101 => ⟨S_, .f32⟩
  | 102 => ⟨S8x64x512, .f32⟩
  | 103 => ⟨S8x64x512, .f32⟩
  | 104 => ⟨S8x64x512, .f32⟩
  | 105 => ⟨S8x64x512, .f32⟩
  | 106 => ⟨S16384x8x64, .f32⟩
  | 107 => ⟨S16384x1x1, .i32⟩
  | 108 => ⟨S_, .i32⟩
  | 109 => ⟨S16384x1x1, .i32⟩
  | 110 => ⟨S16384x1x1, .i1⟩
  | 111 => ⟨S_, .i32⟩
  | 112 => ⟨S16384x1x1, .i32⟩
  | 113 => ⟨S16384x1x1, .i32⟩
  | 114 => ⟨S16384x1x1, .i32⟩
  | 115 => ⟨S1, .i32⟩
  | 116 => ⟨S_, .i32⟩
  | 117 => ⟨S16384x1x1, .i32⟩
  | 118 => ⟨S16384x1x1, .i1⟩
  | 119 => ⟨S1x1x1, .i32⟩
  | 120 => ⟨S16384x1x1, .i32⟩
  | 121 => ⟨S16384x1x1, .i1⟩
  | 122 => ⟨S16384x1x1, .i1⟩
  | 123 => ⟨S_, .i1⟩
  | 124 => ⟨S16384x1, .i1⟩
  | 125 => ⟨S16384x1x64, .f32⟩
  | 126 => ⟨S16384x1x64, .i1⟩
  | 127 => ⟨S_, .f32⟩
  | _ => ⟨S2048x8x512, .f32⟩

abbrev hbmTy0_2 (i : Nat) : BufTy := match i % 128 with
  | 0 => ⟨S16384x1x64, .f32⟩
  | 1 => ⟨S16384x1x64, .f32⟩
  | 2 => ⟨S16384x64, .f32⟩
  | 3 => ⟨S1x64, .f32⟩
  | 4 => ⟨S16384x64, .f32⟩
  | 5 => ⟨S16384x64, .f32⟩
  | 6 => ⟨S2048x8x64, .f32⟩
  | 7 => ⟨S2048x8x512, .f32⟩
  | _ => ⟨S2048x8x512, .f32⟩

abbrev hbmTy (i : Nat) : BufTy := match i / 128 with
  | 0 => hbmTy0_0 i
  | 1 => hbmTy0_1 i
  | 2 => hbmTy0_2 i
  | _ => ⟨S2048x8x512, .f32⟩

abbrev bufTy : (tb : Table) → Fin (tcTables nBuf tb) → BufTy
  | .hbm, ⟨i, _⟩ => hbmTy i
  | _, _ => ⟨S2048x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_cst : Ref sig .tc := ⟨.hbm, 36, rfl⟩
abbrev main_call0_v0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_c_2 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_c_3 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call2_cst : Ref sig .tc := ⟨.hbm, 69, rfl⟩
abbrev main_call2_v0 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_1 : Ref sig .tc := ⟨.hbm, 91, rfl⟩
abbrev main_v45 : Ref sig .tc := ⟨.hbm, 92, rfl⟩
abbrev main_v46 : Ref sig .tc := ⟨.hbm, 93, rfl⟩
abbrev main_cst_2 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_3 : Ref sig .tc := ⟨.hbm, 100, rfl⟩
abbrev main_v52 : Ref sig .tc := ⟨.hbm, 101, rfl⟩
abbrev main_v53 : Ref sig .tc := ⟨.hbm, 102, rfl⟩
abbrev main_cst_4 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_5 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_6 : Ref sig .tc := ⟨.hbm, 121, rfl⟩
abbrev main_v70 : Ref sig .tc := ⟨.hbm, 122, rfl⟩
abbrev main_v71 : Ref sig .tc := ⟨.hbm, 123, rfl⟩
abbrev main_cst_7 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_call3_cst : Ref sig .tc := ⟨.hbm, 129, rfl⟩
abbrev main_call3_v0 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_call4_c : Ref sig .tc := ⟨.hbm, 136, rfl⟩
abbrev main_call4_v0 : Ref sig .tc := ⟨.hbm, 137, rfl⟩
abbrev main_call4_v1 : Ref sig .tc := ⟨.hbm, 138, rfl⟩
abbrev main_call4_c_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_c_1 : Ref sig .tc := ⟨.hbm, 143, rfl⟩
abbrev main_call4_c_2 : Ref sig .tc := ⟨.hbm, 144, rfl⟩
abbrev main_call4_v5 : Ref sig .tc := ⟨.hbm, 145, rfl⟩
abbrev main_call4_v6 : Ref sig .tc := ⟨.hbm, 146, rfl⟩
abbrev main_call4_v7 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_call4_c_3 : Ref sig .tc := ⟨.hbm, 151, rfl⟩
abbrev main_call4_v11 : Ref sig .tc := ⟨.hbm, 152, rfl⟩
abbrev main_call4_v12 : Ref sig .tc := ⟨.hbm, 153, rfl⟩
abbrev main_call4_v13 : Ref sig .tc := ⟨.hbm, 154, rfl⟩
abbrev main_call4_cst : Ref sig .tc := ⟨.hbm, 155, rfl⟩
abbrev main_call4_v14 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_call5_cst : Ref sig .tc := ⟨.hbm, 162, rfl⟩
abbrev main_call5_v0 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_cst_8 : Ref sig .tc := ⟨.hbm, 171, rfl⟩
abbrev main_v93 : Ref sig .tc := ⟨.hbm, 172, rfl⟩
abbrev main_v94 : Ref sig .tc := ⟨.hbm, 173, rfl⟩
abbrev main_cst_9 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_call6_cst : Ref sig .tc := ⟨.hbm, 179, rfl⟩
abbrev main_call6_v0 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_c_1 : Ref sig .tc := ⟨.hbm, 193, rfl⟩
abbrev main_call7_c_2 : Ref sig .tc := ⟨.hbm, 194, rfl⟩
abbrev main_call7_v5 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_c_3 : Ref sig .tc := ⟨.hbm, 201, rfl⟩
abbrev main_call7_v11 : Ref sig .tc := ⟨.hbm, 202, rfl⟩
abbrev main_call7_v12 : Ref sig .tc := ⟨.hbm, 203, rfl⟩
abbrev main_call7_v13 : Ref sig .tc := ⟨.hbm, 204, rfl⟩
abbrev main_call7_cst : Ref sig .tc := ⟨.hbm, 205, rfl⟩
abbrev main_call7_v14 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_call8_cst : Ref sig .tc := ⟨.hbm, 212, rfl⟩
abbrev main_call8_v0 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_cst_10 : Ref sig .tc := ⟨.hbm, 221, rfl⟩
abbrev main_v116 : Ref sig .tc := ⟨.hbm, 222, rfl⟩
abbrev main_v117 : Ref sig .tc := ⟨.hbm, 223, rfl⟩
abbrev main_cst_11 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_call9_cst : Ref sig .tc := ⟨.hbm, 229, rfl⟩
abbrev main_call9_v0 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_call10_c : Ref sig .tc := ⟨.hbm, 236, rfl⟩
abbrev main_call10_v0 : Ref sig .tc := ⟨.hbm, 237, rfl⟩
abbrev main_call10_v1 : Ref sig .tc := ⟨.hbm, 238, rfl⟩
abbrev main_call10_c_0 : Ref sig .tc := ⟨.hbm, 239, rfl⟩
abbrev main_call10_v2 : Ref sig .tc := ⟨.hbm, 240, rfl⟩
abbrev main_call10_v3 : Ref sig .tc := ⟨.hbm, 241, rfl⟩
abbrev main_call10_v4 : Ref sig .tc := ⟨.hbm, 242, rfl⟩
abbrev main_call10_c_1 : Ref sig .tc := ⟨.hbm, 243, rfl⟩
abbrev main_call10_c_2 : Ref sig .tc := ⟨.hbm, 244, rfl⟩
abbrev main_call10_v5 : Ref sig .tc := ⟨.hbm, 245, rfl⟩
abbrev main_call10_v6 : Ref sig .tc := ⟨.hbm, 246, rfl⟩
abbrev main_call10_v7 : Ref sig .tc := ⟨.hbm, 247, rfl⟩
abbrev main_call10_v8 : Ref sig .tc := ⟨.hbm, 248, rfl⟩
abbrev main_call10_v9 : Ref sig .tc := ⟨.hbm, 249, rfl⟩
abbrev main_call10_v10 : Ref sig .tc := ⟨.hbm, 250, rfl⟩
abbrev main_call10_c_3 : Ref sig .tc := ⟨.hbm, 251, rfl⟩
abbrev main_call10_v11 : Ref sig .tc := ⟨.hbm, 252, rfl⟩
abbrev main_call10_v12 : Ref sig .tc := ⟨.hbm, 253, rfl⟩
abbrev main_call10_v13 : Ref sig .tc := ⟨.hbm, 254, rfl⟩
abbrev main_call10_cst : Ref sig .tc := ⟨.hbm, 255, rfl⟩
abbrev main_call10_v14 : Ref sig .tc := ⟨.hbm, 256, rfl⟩
abbrev main_v127 : Ref sig .tc := ⟨.hbm, 257, rfl⟩
abbrev main_v128 : Ref sig .tc := ⟨.hbm, 258, rfl⟩
abbrev main_v129 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩

abbrev nD : Nat := 1
abbrev τ : Topo := Topo.v7x

variable {F : FTy → Type} [FloatOps F]

class Facts₀ : Prop where
  shapeCasts_S2048x8x512_S16384x512 : S2048x8x512.ShapeCasts S16384x512
  shapeCasts_S2048x8_S16384 : S2048x8.ShapeCasts S16384
  bcast_S512x512_S1x512x512_1_2 : S512x512.BroadcastsInDim S1x512x512 (![1, 2] : Fin 2 → Fin S1x512x512.rank)
  bcast_S_S8x512x512 : S_.BroadcastsInDim S8x512x512 (![] : Fin 0 → Fin S8x512x512.rank)
  bcast_S1x512x512_S8x512x512_0_1_2 : S1x512x512.BroadcastsInDim S8x512x512 (![0, 1, 2] : Fin 3 → Fin S8x512x512.rank)
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x512_0_1 : S16384x1.BroadcastsInDim S16384x1x512 (![0, 1] : Fin 2 → Fin S16384x1x512.rank)
  bcast_S_S16384x1x512 : S_.BroadcastsInDim S16384x1x512 (![] : Fin 0 → Fin S16384x1x512.rank)
  shapeCasts_S16384x1x512_S16384x512 : S16384x1x512.ShapeCasts S16384x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S1536x512_S512x1536_1_0 : S1536x512.Transposes [1, 0] S512x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  bcast_S64x512_S1x64x512_1_2 : S64x512.BroadcastsInDim S1x64x512 (![1, 2] : Fin 2 → Fin S1x64x512.rank)
  bcast_S_S8x64x512 : S_.BroadcastsInDim S8x64x512 (![] : Fin 0 → Fin S8x64x512.rank)
  bcast_S1x64x512_S8x64x512_0_1_2 : S1x64x512.BroadcastsInDim S8x64x512 (![0, 1, 2] : Fin 3 → Fin S8x64x512.rank)
  bcast_S16384x1_S16384x1x64_0_1 : S16384x1.BroadcastsInDim S16384x1x64 (![0, 1] : Fin 2 → Fin S16384x1x64.rank)
  bcast_S_S16384x1x64 : S_.BroadcastsInDim S16384x1x64 (![] : Fin 0 → Fin S16384x1x64.rank)
  shapeCasts_S16384x1x64_S16384x64 : S16384x1x64.ShapeCasts S16384x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S2048x8x64 : S16384x64.ShapeCasts S2048x8x64
  shapeCasts_S16384x512_S2048x8x512 : S16384x512.ShapeCasts S2048x8x512
  dot_S16384x512_S8x512x512_S16384x8x512_1_2_0_01_n_n_wf : DotDims.WF S16384x512 S8x512x512 S16384x8x512 [1] [2] [0] [0, 1] [] []
  gather_S16384x8x512_S16384x1x1_S16384x1x512_2_1_0_0_1_2_11512_wf : GatherDims.WF S16384x8x512 S16384x1x1 S16384x1x512 [2] [1] [0] [1] [0] 2 ![1, 1, 512]
  dot_S16384x512_S512x1536_S16384x1536_1_0_0_1_n_n_wf : DotDims.WF S16384x512 S512x1536 S16384x1536 [1] [0] [0] [1] [] []
  dot_S16384x512_S8x64x512_S16384x8x64_1_2_0_01_n_n_wf : DotDims.WF S16384x512 S8x64x512 S16384x8x64 [1] [2] [0] [0, 1] [] []
  gather_S16384x8x64_S16384x1x1_S16384x1x64_2_1_0_0_1_2_1164_wf : GatherDims.WF S16384x8x64 S16384x1x1 S16384x1x64 [2] [1] [0] [1] [0] 2 ![1, 1, 64]

variable [Facts₀]

def dot_S16384x512_S8x512x512_S16384x8x512_1_2_0_01_n_n : DotDims S16384x512 S8x512x512 S16384x8x512 where
  lhsContracting := [1]
  rhsContracting := [2]
  lhsNonContracting := [0]
  rhsNonContracting := [0, 1]
  lhsBatch := []
  rhsBatch := []
  wf := dot_S16384x512_S8x512x512_S16384x8x512_1_2_0_01_n_n_wf
def gather_S16384x8x512_S16384x1x1_S16384x1x512_2_1_0_0_1_2_11512 : GatherDims S16384x8x512 S16384x1x1 S16384x1x512 where
  offsetDims := [2]
  collapsedSliceDims := [1]
  operandBatchingDims := [0]
  startIndicesBatchingDims := [0]
  startIndexMap := [1]
  indexVectorDim := 2
  sliceSizes := ![1, 1, 512]
  wf := gather_S16384x8x512_S16384x1x1_S16384x1x512_2_1_0_0_1_2_11512_wf
def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf
def dot_S16384x512_S8x64x512_S16384x8x64_1_2_0_01_n_n : DotDims S16384x512 S8x64x512 S16384x8x64 where
  lhsContracting := [1]
  rhsContracting := [2]
  lhsNonContracting := [0]
  rhsNonContracting := [0, 1]
  lhsBatch := []
  rhsBatch := []
  wf := dot_S16384x512_S8x64x512_S16384x8x64_1_2_0_01_n_n_wf
def gather_S16384x8x64_S16384x1x1_S16384x1x64_2_1_0_0_1_2_1164 : GatherDims S16384x8x64 S16384x1x1 S16384x1x64 where
  offsetDims := [2]
  collapsedSliceDims := [1]
  operandBatchingDims := [0]
  startIndicesBatchingDims := [0]
  startIndexMap := [1]
  indexVectorDim := 2
  sliceSizes := ![1, 1, 64]
  wf := gather_S16384x8x64_S16384x1x1_S16384x1x64_2_1_0_0_1_2_1164_wf

class Facts : Prop extends Facts₀ where

variable [Facts]
-- ==== Proof.KRegion0.lean ====
import proofs.«409439_j24232205484239_2_alg».proof.Proof.Gen.Kernel.Launch
import proofs.«409439_j24232205484239_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (V : (c : Dev nD) → (b : Ref sig .tc) → Buf (Elt F) ((c : Thread nD τ).loc b)) (ad : (pcfg0 (F := F)).Adm)

def iblk (c : Dev nD) (w : Fin (cfg0 ad).W) (t : Fin (cfg0 ad).N) : (((cfg0 ad).win w).xblock ((cfg0 ad).grid.coords t)).Idx → Elt F ((cfg0 ad).win w).elt :=
  (((cfg0 ad).win w).blk t).view.read (Elt F) (V c (Pipeline.arrRef spec0 w))

abbrev rX : Rect S512x512 := Rect.unit (s := S512x512) ![0, 0] S512x512.size inb_S512x512_S512x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rG : Rect S1x512x512 := Rect.unit (s := S1x512x512) ![0, 0, 0] S1x512x512.size inb_S1x512x512_S1x512x512_0_0_0
abbrev rO : Rect S512x512 := Rect.unit (s := S512x512) ![0, 0] S512x512.size inb_S512x512_S512x512_0_0

def out (x0 : Vec F S512x512 .f32) (x1 : Vec F S512x512 .f32) (x2 : Vec F S1x512 .f32) (x3 : Vec F S1x512x512 .f32) : Vec F S512x512 .f32 :=
  View.canon [⟨rO, k0_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc0__kalei_grouped_kernel i arg1 harg1 arg2 harg2 arg3 harg3 arg4 harg4 arg5 harg5 arg6 harg6) K := by
  simp only [cc0__kalei_grouped_kernel_eq_skeleton]; unfold cc0__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x512.size (by rfl))

def dat (c : Dev nD) : Dat τ (Elt F) Unit ℕ (UR sig nD τ) ℕ (cfg0 ad) c where
  A w := V c (Pipeline.arrRef spec0 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec0 c ∗ Pipeline.prefHeld pre0 c (fun _ => fullShare) ad.1)
  q _ := fullShare
  owed _ := 0

theorem A_eq (c : Dev nD) (w : Fin (cfg0 ad).W) : (dat V ad c).A w = V c (Pipeline.arrRef spec0 w) := rfl

theorem Phi_eq (c : Dev nD) (i : Fin ((cfg0 ad).N + 1)) :
    (dat V ad c).Φ i = iprop(Pipeline.ΦA spec0 c ∗ Pipeline.prefHeld pre0 c (fun _ => fullShare) ad.1) := rfl

theorem after_out (c : Dev nD) (t : Fin (cfg0 ad).N) :
    (dat V ad c).after 4 t = out (iblk V ad c 0 t) (iblk V ad c 1 t) (iblk V ad c 2 t) (iblk V ad c 3 t) := by dsimp only [dat]; try rfl

theorem before_in (c : Dev nD) (t : Fin (cfg0 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W0, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.Kernel.Reg0

end
-- ==== Proof.KRegion1.lean ====
import proofs.«409439_j24232205484239_2_alg».proof.Proof.Gen.Kernel.Launch
import proofs.«409439_j24232205484239_2_alg».proof.Proof.Gen.Kernel.Skeleton
import proofs.«409439_j24232205484239_2_alg».proof.Proof.Gen.Kernel.Points
import Idealize.ShloMosaic.Lib.Pipeline.Value
import Idealize.ShloMosaic.Lib.Tactic

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S512x512 := Rect.unit (s := S512x512) ![0, 0] S512x512.size inb_S512x512_S512x512_0_0
abbrev rW : Rect S1536x512 := Rect.unit (s := S1536x512) ![0, 0] S1536x512.size inb_S1536x512_S1536x512_0_0
abbrev rB : Rect S1x1536 := Rect.unit (s := S1x1536) ![0, 0] S1x1536.size inb_S1x1536_S1x1536_0_0

def out (x0 x1 : Vec F S512x512 .f32) (x2 x3 : Vec F S1536x512 .f32) (x4 x5 : Vec F S1x1536 .f32) : Vec F S512x512 .f32 :=
  View.canon [⟨rX, k1_pay1 (View.ld x0 rX) (View.ld x1 rX) (View.ld x2 rW) (View.ld x3 rW) (View.ld x4 rB) (View.ld x5 rB)⟩]

theorem sound_kernel (c : Dev nD) (E : Set ℕ) (i : grid1.Coords) {a0 a1 a6 : Memref sig .tc .vmem S512x512 .f32}
    {a2 a3 : Memref sig .tc .vmem S1536x512 .f32} {a4 a5 : Memref sig .tc .vmem S1x1536 .f32}
    (h0 : a0.IsWhole) (h1 : a1.IsWhole) (h2 : a2.IsWhole) (h3 : a3.IsWhole) (h4 : a4.IsWhole) (h5 : a5.IsWhole) (h6 : a6.IsWhole)
    {x0 x1 d : Vec F S512x512 .f32} {x2 x3 : Vec F S1536x512 .f32} {x4 x5 : Vec F S1x1536 .f32} (K : PUnit → sProp 𝕄) :
    iprop(owns c a0 fullShare x0 ∗ owns c a1 fullShare x1 ∗ owns c a2 fullShare x2 ∗ owns c a3 fullShare x3 ∗ owns c a4 fullShare x4 ∗ owns c a5 fullShare x5 ∗ owns c a6 fullShare d
        ∗ (iprop(owns c a0 fullShare x0 ∗ owns c a1 fullShare x1 ∗ owns c a2 fullShare x2 ∗ owns c a3 fullShare x3 ∗ owns c a4 fullShare x4 ∗ owns c a5 fullShare x5 ∗ owns c a6 fullShare (out x0 x1 x2 x3 x4 x5)) -∗ K ⟨⟩))
      ⊢ wp frame (wpE (defs₀ (F := F)) Variants.none c none) E (cc1__gru_kernel i a0 h0 a1 h1 a2 h2 a3 h3 a4 h4 a5 h5 a6 h6) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => ⟨_, List.mem_singleton_self _, View.mem_set_unit_zero (funext fun a => by fin_cases a <;> rfl) inb_S512x512_S512x512_0_0 y⟩

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := rfl

theorem after_out (c : Dev nD) (t : Fin cfg1.N) :
    (dat V c).after 6 t = out (iblk V c 0 t) (iblk V c 1 t) (iblk V c 2 t) (iblk V c 3 t) (iblk V c 4 t) (iblk V c 5 t) := by
  dsimp only [dat]

theorem before_in (c : Dev nD) (t : Fin cfg1.N) : ∀ w : Fin cfg1.W, (cfg1.win w).isOut = false → ∀ d, (dat V c).before w t d = (dat V c).after w t
  | ⟨0, _⟩, _, d | ⟨1, _⟩, _, d | ⟨2, _⟩, _, d | ⟨3, _⟩, _, d | ⟨4, _⟩, _, d | ⟨5, _⟩, _, d =>
    (dat V c).before_in_eq_fetched _ rfl (fun _ => rfl) (fun _ _ _ => rfl) (fun _ => rfl) t d
  | ⟨6, _⟩, h, _ => nomatch h

theorem body_obligation (c : Dev nD) : BodyObligation (dat (F := F) V c) (defs₀ (F := F)) Variants.none () Set.univ := fun t => by
  rw [bigSep_W1, bigSep_W1]
  sl_whnfR [defs₀, Defs.onTc]
  simp (disch := exact rfl) only [before_in V c t]
  dsimp only [dat, Dat.owesAt, Dat.bound]
  iintro ⟨HΦ, Ho, ⟨%_, H0⟩, ⟨%_, H1⟩, ⟨%_, H2⟩, ⟨%_, H3⟩, ⟨%_, H4⟩, ⟨%_, H5⟩, ⟨%_, H6⟩⟩
  iapply sound_kernel c Set.univ (grid1.coords t)
  iframe H0 H1 H2 H3 H4 H5 H6
  iintro ⟨H0, H1, H2, H3, H4, H5, H6⟩
  iframe

end Cert.Kernel.Reg1

end
-- ==== Proof.KRegion2.lean ====
import proofs.«409439_j24232205484239_2_alg».proof.Proof.Gen.Kernel.Launch
import proofs.«409439_j24232205484239_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (V : (c : Dev nD) → (b : Ref sig .tc) → Buf (Elt F) ((c : Thread nD τ).loc b)) (ad : (pcfg2 (F := F)).Adm)

def iblk (c : Dev nD) (w : Fin (cfg2 ad).W) (t : Fin (cfg2 ad).N) : (((cfg2 ad).win w).xblock ((cfg2 ad).grid.coords t)).Idx → Elt F ((cfg2 ad).win w).elt :=
  (((cfg2 ad).win w).blk t).view.read (Elt F) (V c (Pipeline.arrRef spec2 w))

abbrev rX : Rect S512x512 := Rect.unit (s := S512x512) ![0, 0] S512x512.size inb_S512x512_S512x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rG : Rect S1x512x512 := Rect.unit (s := S1x512x512) ![0, 0, 0] S1x512x512.size inb_S1x512x512_S1x512x512_0_0_0
abbrev rO : Rect S512x512 := Rect.unit (s := S512x512) ![0, 0] S512x512.size inb_S512x512_S512x512_0_0

def out (x0 : Vec F S512x512 .f32) (x1 : Vec F S512x512 .f32) (x2 : Vec F S1x512 .f32) (x3 : Vec F S1x512x512 .f32) : Vec F S512x512 .f32 :=
  View.canon [⟨rO, k2_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc2__kalei_grouped_kernel i arg1 harg1 arg2 harg2 arg3 harg3 arg4 harg4 arg5 harg5 arg6 harg6) K := by
  simp only [cc2__kalei_grouped_kernel_eq_skeleton]; unfold cc2__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x512.size (by rfl))

def dat (c : Dev nD) : Dat τ (Elt F) Unit ℕ (UR sig nD τ) ℕ (cfg2 ad) c where
  A w := V c (Pipeline.arrRef spec2 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec2 c ∗ Pipeline.prefHeld pre2 c (fun _ => fullShare) ad.1)
  q _ := fullShare
  owed _ := 0

theorem A_eq (c : Dev nD) (w : Fin (cfg2 ad).W) : (dat V ad c).A w = V c (Pipeline.arrRef spec2 w) := rfl

theorem Phi_eq (c : Dev nD) (i : Fin ((cfg2 ad).N + 1)) :
    (dat V ad c).Φ i = iprop(Pipeline.ΦA spec2 c ∗ Pipeline.prefHeld pre2 c (fun _ => fullShare) ad.1) := rfl

theorem after_out (c : Dev nD) (t : Fin (cfg2 ad).N) :
    (dat V ad c).after 4 t = out (iblk V ad c 0 t) (iblk V ad c 1 t) (iblk V ad c 2 t) (iblk V ad c 3 t) := by dsimp only [dat]; try rfl

theorem before_in (c : Dev nD) (t : Fin (cfg2 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W2, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.Kernel.Reg2

end
-- ==== Proof.KRegion3.lean ====
import proofs.«409439_j24232205484239_2_alg».proof.Proof.Gen.Kernel.Launch
import proofs.«409439_j24232205484239_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (V : (c : Dev nD) → (b : Ref sig .tc) → Buf (Elt F) ((c : Thread nD τ).loc b)) (ad : (pcfg3 (F := F)).Adm)

def iblk (c : Dev nD) (w : Fin (cfg3 ad).W) (t : Fin (cfg3 ad).N) : (((cfg3 ad).win w).xblock ((cfg3 ad).grid.coords t)).Idx → Elt F ((cfg3 ad).win w).elt :=
  (((cfg3 ad).win w).blk t).view.read (Elt F) (V c (Pipeline.arrRef spec3 w))

abbrev rX : Rect S512x512 := Rect.unit (s := S512x512) ![0, 0] S512x512.size inb_S512x512_S512x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rG : Rect S1x512x512 := Rect.unit (s := S1x512x512) ![0, 0, 0] S1x512x512.size inb_S1x512x512_S1x512x512_0_0_0
abbrev rO : Rect S512x512 := Rect.unit (s := S512x512) ![0, 0] S512x512.size inb_S512x512_S512x512_0_0

def out (x0 : Vec F S512x512 .f32) (x1 : Vec F S512x512 .f32) (x2 : Vec F S1x512 .f32) (x3 : Vec F S1x512x512 .f32) : Vec F S512x512 .f32 :=
  View.canon [⟨rO, k3_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc3__kalei_grouped_kernel i arg1 harg1 arg2 harg2 arg3 harg3 arg4 harg4 arg5 harg5 arg6 harg6) K := by
  simp only [cc3__kalei_grouped_kernel_eq_skeleton]; unfold cc3__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x512.size (by rfl))

def dat (c : Dev nD) : Dat τ (Elt F) Unit ℕ (UR sig nD τ) ℕ (cfg3 ad) c where
  A w := V c (Pipeline.arrRef spec3 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec3 c ∗ Pipeline.prefHeld pre3 c (fun _ => fullShare) ad.1)
  q _ := fullShare
  owed _ := 0

theorem A_eq (c : Dev nD) (w : Fin (cfg3 ad).W) : (dat V ad c).A w = V c (Pipeline.arrRef spec3 w) := rfl

theorem Phi_eq (c : Dev nD) (i : Fin ((cfg3 ad).N + 1)) :
    (dat V ad c).Φ i = iprop(Pipeline.ΦA spec3 c ∗ Pipeline.prefHeld pre3 c (fun _ => fullShare) ad.1) := rfl

theorem after_out (c : Dev nD) (t : Fin (cfg3 ad).N) :
    (dat V ad c).after 4 t = out (iblk V ad c 0 t) (iblk V ad c 1 t) (iblk V ad c 2 t) (iblk V ad c 3 t) := by dsimp only [dat]; try rfl

theorem before_in (c : Dev nD) (t : Fin (cfg3 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W3, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.Kernel.Reg3

end
-- ==== Proof.KRegion4.lean ====
import proofs.«409439_j24232205484239_2_alg».proof.Proof.Gen.Kernel.Launch
import proofs.«409439_j24232205484239_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (V : (c : Dev nD) → (b : Ref sig .tc) → Buf (Elt F) ((c : Thread nD τ).loc b)) (ad : (pcfg4 (F := F)).Adm)

def iblk (c : Dev nD) (w : Fin (cfg4 ad).W) (t : Fin (cfg4 ad).N) : (((cfg4 ad).win w).xblock ((cfg4 ad).grid.coords t)).Idx → Elt F ((cfg4 ad).win w).elt :=
  (((cfg4 ad).win w).blk t).view.read (Elt F) (V c (Pipeline.arrRef spec4 w))

abbrev rX : Rect S512x512 := Rect.unit (s := S512x512) ![0, 0] S512x512.size inb_S512x512_S512x512_0_0
abbrev rW : Rect S64x512 := Rect.unit (s := S64x512) ![0, 0] S64x512.size inb_S64x512_S64x512_0_0
abbrev rB : Rect S1x64 := Rect.unit (s := S1x64) ![0, 0] S1x64.size inb_S1x64_S1x64_0_0
abbrev rG : Rect S1x64x512 := Rect.unit (s := S1x64x512) ![0, 0, 0] S1x64x512.size inb_S1x64x512_S1x64x512_0_0_0
abbrev rO : Rect S512x64 := Rect.unit (s := S512x64) ![0, 0] S512x64.size inb_S512x64_S512x64_0_0

def out (x0 : Vec F S512x512 .f32) (x1 : Vec F S64x512 .f32) (x2 : Vec F S1x64 .f32) (x3 : Vec F S1x64x512 .f32) : Vec F S512x64 .f32 :=
  View.canon [⟨rO, k4_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc4__kalei_grouped_kernel i arg1 harg1 arg2 harg2 arg3 harg3 arg4 harg4 arg5 harg5 arg6 harg6) K := by
  simp only [cc4__kalei_grouped_kernel_eq_skeleton]; unfold cc4__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x64.size (by rfl))

def dat (c : Dev nD) : Dat τ (Elt F) Unit ℕ (UR sig nD τ) ℕ (cfg4 ad) c where
  A w := V c (Pipeline.arrRef spec4 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec4 c ∗ Pipeline.prefHeld pre4 c (fun _ => fullShare) ad.1)
  q _ := fullShare
  owed _ := 0

theorem A_eq (c : Dev nD) (w : Fin (cfg4 ad).W) : (dat V ad c).A w = V c (Pipeline.arrRef spec4 w) := rfl

theorem Phi_eq (c : Dev nD) (i : Fin ((cfg4 ad).N + 1)) :
    (dat V ad c).Φ i = iprop(Pipeline.ΦA spec4 c ∗ Pipeline.prefHeld pre4 c (fun _ => fullShare) ad.1) := rfl

theorem after_out (c : Dev nD) (t : Fin (cfg4 ad).N) :
    (dat V ad c).after 4 t = out (iblk V ad c 0 t) (iblk V ad c 1 t) (iblk V ad c 2 t) (iblk V ad c 3 t) := by dsimp only [dat]; try rfl

theorem before_in (c : Dev nD) (t : Fin (cfg4 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W4, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.Kernel.Reg4

end
-- ==== Proof.KRunAll.lean ====
import proofs.«409439_j24232205484239_2_alg».proof.Proof.Gen.Kernel.Regions
import proofs.«409439_j24232205484239_2_alg».proof.Proof.KRegion0
import proofs.«409439_j24232205484239_2_alg».proof.Proof.KRegion1
import proofs.«409439_j24232205484239_2_alg».proof.Proof.KRegion2
import proofs.«409439_j24232205484239_2_alg».proof.Proof.KRegion3
import proofs.«409439_j24232205484239_2_alg».proof.Proof.KRegion4
import Idealize.ShloMosaic.Lib.Pipeline.RegionsLoop
import Idealize.ShloMosaic.Lib.Pipeline.Kit

set_option maxRecDepth 16384

noncomputable section

namespace Cert.Kernel.RunAll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

abbrev atTc (W : Dev nD → Valuation τ sig (Elt F)) : (c : Dev nD) → (b : Ref sig .tc) → Buf (Elt F) ((c : Thread nD τ).loc b) :=
  fun c b => W c b
def tbl0 : pre0.Contents (Elt F) := fun k => V13 m (0 : Dev nD) (pre0.ref k)
def tbl2 : pre2.Contents (Elt F) := fun k => V13 m (0 : Dev nD) (pre2.ref k)
def tbl3 : pre3.Contents (Elt F) := fun k => V13 m (0 : Dev nD) (pre3.ref k)
def tbl4 : pre4.Contents (Elt F) := fun k => V13 m (0 : Dev nD) (pre4.ref k)
structure Ok : Prop where
  o0 : ok0 (F := F) (tbl0 m)
  o2 : ok2 (F := F) (tbl2 m)
  o3 : ok3 (F := F) (tbl3 m)
  o4 : ok4 (F := F) (tbl4 m)

variable (hO : Ok m)

def adm : (p : Fin 5) → (pcfgs (F := F) p).Adm
  | ⟨0, _⟩ => ⟨tbl0 m, hO.o0⟩
  | ⟨1, _⟩ => cfg1.toPCfg_adm
  | ⟨2, _⟩ => ⟨tbl2 m, hO.o2⟩
  | ⟨3, _⟩ => ⟨tbl3 m, hO.o3⟩
  | ⟨4, _⟩ => ⟨tbl4 m, hO.o4⟩

def O14 (c : Dev nD) : Buf (Elt F) ((c : Thread nD τ).loc main_v83) :=
  (Reg0.dat (atTc (V13 m)) (adm m hO 0) c).arrAt 4 (cfg0 (adm m hO 0)).N
def W14 (c : Dev nD) : Valuation τ sig (Elt F) := Function.update (V13 m c) main_v83 (O14 m hO c)
def W15 (c : Dev nD) : Valuation τ sig (Elt F) := StableHlo.after hostOps1 (W14 m hO c)
def O16 (c : Dev nD) : Buf (Elt F) ((c : Thread nD τ).loc main_v86) :=
  (Reg1.dat (atTc (W15 m hO)) c).arrAt 6 cfg1.N
def W16 (c : Dev nD) : Valuation τ sig (Elt F) := Function.update (W15 m hO c) main_v86 (O16 m hO c)
def W17 (c : Dev nD) : Valuation τ sig (Elt F) := StableHlo.after hostOps2 (W16 m hO c)
def O18 (c : Dev nD) : Buf (Elt F) ((c : Thread nD τ).loc main_v88) :=
  (Reg2.dat (atTc (W17 m hO)) (adm m hO 2) c).arrAt 4 (cfg2 (adm m hO 2)).N
def W18 (c : Dev nD) : Valuation τ sig (Elt F) := Function.update (W17 m hO c) main_v88 (O18 m hO c)
def W19 (c : Dev nD) : Valuation τ sig (Elt F) := StableHlo.after hostOps3 (W18 m hO c)
def O20 (c : Dev nD) : Buf (Elt F) ((c : Thread nD τ).loc main_v90) :=
  (Reg3.dat (atTc (W19 m hO)) (adm m hO 3) c).arrAt 4 (cfg3 (adm m hO 3)).N
def W20 (c : Dev nD) : Valuation τ sig (Elt F) := Function.update (W19 m hO c) main_v90 (O20 m hO c)
def W21 (c : Dev nD) : Valuation τ sig (Elt F) := StableHlo.after hostOps4 (W20 m hO c)
def O22 (c : Dev nD) : Buf (Elt F) ((c : Thread nD τ).loc main_v92) :=
  (Reg4.dat (atTc (W21 m hO)) (adm m hO 4) c).arrAt 4 (cfg4 (adm m hO 4)).N
def W22 (c : Dev nD) : Valuation τ sig (Elt F) := Function.update (W21 m hO c) main_v92 (O22 m hO c)

def outs : Outs (F := F) := fun n r c =>
  match n with
  | 14 => W14 m hO c r
  | 16 => W16 m hO c r
  | 18 => W18 m hO c r
  | 20 => W20 m hO c r
  | 22 => W22 m hO c r
  | _ => V13 m c r

/-- Overwriting a slot with what an equal function, overwritten there, holds there gives that overwritten function. -/
theorem upd_eq {α : Type*} [DecidableEq α] {β : α → Type*} {f g : ∀ a, β a} (h : f = g) (a : α) (v : β a) :
    Function.update f a (Function.update g a v a) = Function.update g a v := by rw [h, Function.update_self]

theorem upd_at {α : Type*} [DecidableEq α] {β : α → Type*} (f : ∀ a, β a) (a : α) (v : β a) : Function.update f a v a = v :=
  Function.update_self a v f

theorem V14_eq : V14 m (outs m hO) = W14 m hO := funext fun c => upd_eq (f := V13 m c) rfl main_v83 (O14 m hO c)
theorem V15_eq : V15 m (outs m hO) = W15 m hO := funext fun c => congrArg (StableHlo.after hostOps1) (congrFun (V14_eq m hO) c)
theorem V16_eq : V16 m (outs m hO) = W16 m hO := funext fun c => upd_eq (congrFun (V15_eq m hO) c) main_v86 (O16 m hO c)
theorem V17_eq : V17 m (outs m hO) = W17 m hO := funext fun c => congrArg (StableHlo.after hostOps2) (congrFun (V16_eq m hO) c)
theorem V18_eq : V18 m (outs m hO) = W18 m hO := funext fun c => upd_eq (congrFun (V17_eq m hO) c) main_v88 (O18 m hO c)
theorem V19_eq : V19 m (outs m hO) = W19 m hO := funext fun c => congrArg (StableHlo.after hostOps3) (congrFun (V18_eq m hO) c)
theorem V20_eq : V20 m (outs m hO) = W20 m hO := funext fun c => upd_eq (congrFun (V19_eq m hO) c) main_v90 (O20 m hO c)
theorem V21_eq : V21 m (outs m hO) = W21 m hO := funext fun c => congrArg (StableHlo.after hostOps4) (congrFun (V20_eq m hO) c)

def pdats : (p : Fin 5) → (c : Dev nD) → Dat τ (Elt F) Unit ℕ (UR sig nD τ) ℕ (Pipeline.pin (pcfgs (F := F)) (adm m hO) p) c
  | ⟨0, _⟩ => fun c => Reg0.dat (atTc (V13 m)) (adm m hO 0) c
  | ⟨1, _⟩ => fun c => Reg1.dat (atTc (V15 m (outs m hO))) c
  | ⟨2, _⟩ => fun c => Reg2.dat (atTc (V17 m (outs m hO))) (adm m hO 2) c
  | ⟨3, _⟩ => fun c => Reg3.dat (atTc (V19 m (outs m hO))) (adm m hO 3) c
  | ⟨4, _⟩ => fun c => Reg4.dat (atTc (V21 m (outs m hO))) (adm m hO 4) c

theorem outs_14 (c : Dev nD) : outs m hO 14 main_v83 c = (pdats m hO 0 c).arrAt 4 (cfg0 (adm m hO 0)).N := by
  show W14 m hO c main_v83 = _
  unfold W14; rw [Function.update_self]; rfl
theorem outs_16 (c : Dev nD) : outs m hO 16 main_v86 c = (pdats m hO 1 c).arrAt 6 cfg1.N := by
  show W16 m hO c main_v86 = (Reg1.dat (atTc (V15 m (outs m hO))) c).arrAt 6 cfg1.N
  rw [V15_eq m hO]; unfold W16; rw [Function.update_self]; rfl
theorem outs_18 (c : Dev nD) : outs m hO 18 main_v88 c = (pdats m hO 2 c).arrAt 4 (cfg2 (adm m hO 2)).N := by
  show W18 m hO c main_v88 = (Reg2.dat (atTc (V17 m (outs m hO))) (adm m hO 2) c).arrAt 4 _
  rw [V17_eq m hO]; unfold W18; rw [Function.update_self]; rfl
theorem outs_20 (c : Dev nD) : outs m hO 20 main_v90 c = (pdats m hO 3 c).arrAt 4 (cfg3 (adm m hO 3)).N := by
  show W20 m hO c main_v90 = (Reg3.dat (atTc (V19 m (outs m hO))) (adm m hO 3) c).arrAt 4 _
  rw [V19_eq m hO]; unfold W20; rw [Function.update_self]; rfl
theorem outs_22 (c : Dev nD) : outs m hO 22 main_v92 c = (pdats m hO 4 c).arrAt 4 (cfg4 (adm m hO 4)).N := by
  show W22 m hO c main_v92 = (Reg4.dat (atTc (V21 m (outs m hO))) (adm m hO 4) c).arrAt 4 _
  rw [V21_eq m hO]; unfold W22; rw [Function.update_self]; rfl

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem at_of_eq (W W' : Dev nD → Valuation τ sig (Elt F)) (c : Dev nD) (h : atTc W c main_v79 = atTc W' c main_v79) (r : Ref sig .tc) (hr : r = main_v79) :
    atTc W c r = atTc W' c r := by subst hr; exact h

/-- Valuations that agree with `V13` at `main_v79` read the same table as `V13` does. -/
theorem tbl_at {pre : Pipeline.Prefetch sig} (hr : ∀ k, pre.ref k = main_v79) (W : Dev nD → Valuation τ sig (Elt F))
    (h : ∀ c, atTc W c main_v79 = atTc (V13 m) c main_v79) (c : Dev nD) :
    (fun k => atTc W c (pre.ref k) : pre.Contents (Elt F)) = fun k => V13 m (0 : Dev nD) (pre.ref k) := by
  obtain rfl : c = 0 := Subsingleton.elim _ _
  exact funext fun k => at_of_eq W (V13 m) 0 (h 0) _ (hr k)

section Table

variable (p : Fin 5) (lf : Pipeline.PLaunchFacts (nD := nD) (τ := τ) (pcfgs (F := F)) p)
  (V V' : Dev nD → Valuation τ sig (Elt F)) (o : Fin (pcfgs (F := F) p).W)
  (hV' : ∀ c r, r ∉ [Pipeline.arrRef (pcfgs (F := F) p).spec o] → V' c r = V c r)
  (hA : ∀ c w, (pdats m hO p c).A w = atTc V c (Pipeline.arrRef (pcfgs (F := F) p).spec w))
  (hio : ∀ w, w ≠ o → ((pcfgs (F := F) p).spec w).isOut = false ∧ Pipeline.arrRef (pcfgs (F := F) p).spec w ≠ Pipeline.arrRef (pcfgs (F := F) p).spec o)
  (ho : ∀ c, V' c (Pipeline.arrRef (pcfgs (F := F) p).spec o) = (pdats m hO p c).arrAt o (Pipeline.pin (pcfgs (F := F)) (adm m hO) p).N)

include hV' in
/-- A valuation that is `V` off window `o`'s array is `V` off all the windows' arrays. -/
theorem hrest_of (c : Dev nD) (b : Ref sig .tc) (hb : b ∉ Finset.univ.image (Pipeline.arrRef (pcfgs (F := F) p).spec)) : atTc V' c b = atTc V c b :=
  hV' c b fun hmem => hb (Finset.mem_image.mpr ⟨o, Finset.mem_univ _, (List.mem_singleton.mp hmem).symm⟩)

include hV' hA hio ho in
/-- At the exit an input window's array is as entered, and `V'` has it so; the one output window `o`'s is what `V'` has there. -/
theorem hF_of (c : Dev nD) (w : Fin (pcfgs (F := F) p).W) :
    (pdats m hO p c).arrAt w (Pipeline.pin (pcfgs (F := F)) (adm m hO) p).N = atTc V' c (Pipeline.arrRef (pcfgs (F := F) p).spec w) := by
  by_cases h : w = o
  · subst h; exact (ho c).symm
  · exact ((pdats m hO p c).arrAt_in w (hio w h).1 _).trans ((hA c w).trans (hV' c _ (mt List.mem_singleton.mp (hio w h).2)).symm)

set_option backward.isDefEq.respectTransparency.types false in
/-- A table region between valuations `V` and `V'`, where `V'` has the region's output and is `V` elsewhere. -/
def tblReg (hbody : ∀ c, BodyObligation (pdats m hO p c) (defs₀ (F := F)) 𝒱₀ () Set.univ)
    (howed : ∀ c t, (pdats m hO p c).owed t = 0) (hrec : ∀ c t, (pdats m hO p c).recorded t = Set.univ)
    (hq : ∀ c w, (pdats m hO p c).q w = fullShare)
    (hΦ : ∀ c i, (pdats m hO p c).Φ i = iprop(Pipeline.ΦA (pcfgs (F := F) p).spec c ∗ Pipeline.prefHeld (pcfgs (F := F) p).pre c (fun _ => fullShare) (adm m hO p).1))
    (htbl : ∀ c, (fun k => atTc V c ((pcfgs (F := F) p).pre.ref k)) = (adm m hO p).1) :
    Pipeline.RegionSeg (pcfgs (F := F)) (adm m hO) (pdats m hO) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop((∃ r, prngReg c r) ∗ Pipeline.prefHeld (pcfgs (F := F) p).pre c (fun _ => fullShare) (adm m hO p).1)
  Z c := Pipeline.unscopedRestP (Ix := Unit) (Name := ℕ) (U := UR sig nD τ) (Lvl := ℕ) (pcfgs (F := F) p).pre (pcfgs (F := F) p).spec c (atTc V c)
  hentry c := by
    have hsplit : (unscopedBufs c (atTc V c) : sProp 𝕄)
        ⊢ iprop((pdats m hO p c).arrays ((pdats m hO p c).arrAt · 0) ∗ Pipeline.unscopedRest (pcfgs (F := F) p).spec c (atTc V c)) :=
      Pipeline.arrays_of_unscopedBufs (p := p) (pcfgs (F := F)) (adm m hO) (pdats m hO) lf.win lf.arr_whole c
        ((pdats m hO p c).share_full (hq c)) (atTc V c) (hA c)
    rw [Pipeline.unscopedBufs_held, Pipeline.unscopedRest_split lf.pre c (atTc V c), htbl c] at hsplit
    rw [Pipeline.ownSems0_none]
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin; rw [howed]
      icases HO with ⟨%W, HO⟩; iexists W; isplitr; · ipureintro; exact fun _ _ => Or.inl ((hrec c _).symm ▸ Set.mem_univ _)
      iexact HO
    isplitl [Hp]; · iexact Hp
    iexact Hrest
  hin c := by
    rw [hΦ]; unfold Pipeline.ΦA
    iintro ⟨Hp, Ht, Hr⟩
    isplitl [Hr Hp]
    · isplitl [Hr]; · iexact Hr
      iexact Hp
    iexact Ht
  hout c := by
    rw [Pipeline.ownSems0_none, hΦ]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m hO p c).arrays ((pdats m hO p c).arrAt · (Pipeline.pin (pcfgs (F := F)) (adm m hO) p).N)
          ∗ Pipeline.unscopedRest (pcfgs (F := F) p).spec c (atTc V c))
        ⊢ (unscopedBufs c (atTc V' c) : sProp 𝕄) :=
      Pipeline.unscopedBufs_of_arrays (p := p) (pcfgs (F := F)) (adm m hO) (Ix := Unit) (Name := ℕ) (U := UR sig nD τ) (Lvl := ℕ)
        lf.win lf.arr_whole c (pdats m hO) ((pdats m hO p c).share_full (hq c))
        (atTc V c) (atTc V' c) ((pdats m hO p c).arrAt · (Pipeline.pin (pcfgs (F := F)) (adm m hO) p).N) (hF_of m hO p V V' o hV' hA hio ho c) (hrest_of p V V' o hV' c)
    rw [Pipeline.unscopedBufs_held, Pipeline.unscopedRest_split lf.pre c (atTc V c), htbl c] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin; rw [howed]
    icases HO with ⟨%W, -, HO⟩; iexists W; iexact HO

end Table

def reg1 : Pipeline.RegionSeg (pcfgs (F := F)) (adm m hO) (pdats m hO) () defs₀ 𝒱₀ L lv 1 :=
  tblReg m hO 1 launch1 (V15 m (outs m hO)) (V16 m (outs m hO)) 6 (V16_of m _) (Reg1.A_eq _)
    (show ∀ w : Fin 7, w ≠ 6 → (spec1 w).isOut = false ∧ Pipeline.arrRef spec1 w ≠ Pipeline.arrRef spec1 6 by decide)
    (fun c => (upd_at (V15 m (outs m hO) c) main_v86 _).trans (outs_16 m hO c))
    (Reg1.body_obligation _) (fun _ _ => rfl) (fun _ _ => rfl) (fun _ _ => rfl)
    (fun _ _ => Entails.antisymm sep_emp_intro sep_emp_elim) (fun _ => funext fun k => k.elim0)

theorem v79_13 (c : Dev nD) : atTc (V13 m) c main_v79 = atTc (V13 m) c main_v79 := rfl

theorem pre0_ref (k : Fin pre0.K) : pre0.ref k = main_v79 := by
  match k with
  | ⟨0, _⟩ => rfl
  | ⟨_ + 1, h⟩ => exact absurd h (Nat.not_lt.2 (Nat.le_add_left _ _))

theorem tbl0_at (c : Dev nD) : (fun k => atTc (V13 m) c (pre0.ref k) : pre0.Contents (Elt F)) = (adm m hO 0).1 :=
  tbl_at m pre0_ref _ (v79_13 m) c

def reg0 : Pipeline.RegionSeg (pcfgs (F := F)) (adm m hO) (pdats m hO) () defs₀ 𝒱₀ L lv 0 :=
  tblReg m hO 0 launch0 (V13 m) (V14 m (outs m hO)) 4 (V14_of m _) (Reg0.A_eq _ _)
    (show ∀ w : Fin 5, w ≠ 4 → (spec0 w).isOut = false ∧ Pipeline.arrRef spec0 w ≠ Pipeline.arrRef spec0 4 by decide)
    (fun c => (upd_at (V13 m c) main_v83 _).trans (outs_14 m hO c))
    (Reg0.body_obligation _ _) (fun _ _ => rfl) (fun _ _ => rfl) (fun _ _ => rfl) (Reg0.Phi_eq _ _) (tbl0_at m hO)

theorem v79_17 (c : Dev nD) : atTc (V17 m (outs m hO)) c main_v79 = atTc (V13 m) c main_v79 := (V17_of m (outs m hO) c main_v79 (by decide)).trans <| (V16_of m (outs m hO) c main_v79 (by decide)).trans <| (V15_of m (outs m hO) c main_v79 (by decide)).trans <| V14_of m (outs m hO) c main_v79 (by decide)

theorem pre2_ref (k : Fin pre2.K) : pre2.ref k = main_v79 := pre0_ref k

theorem tbl2_at (c : Dev nD) : (fun k => atTc (V17 m (outs m hO)) c (pre2.ref k) : pre2.Contents (Elt F)) = (adm m hO 2).1 :=
  tbl_at m pre2_ref _ (v79_17 m hO) c

def reg2 : Pipeline.RegionSeg (pcfgs (F := F)) (adm m hO) (pdats m hO) () defs₀ 𝒱₀ L lv 2 :=
  tblReg m hO 2 launch2 (V17 m (outs m hO)) (V18 m (outs m hO)) 4 (V18_of m _) (Reg2.A_eq _ _)
    (show ∀ w : Fin 5, w ≠ 4 → (spec2 w).isOut = false ∧ Pipeline.arrRef spec2 w ≠ Pipeline.arrRef spec2 4 by decide)
    (fun c => (upd_at (V17 m (outs m hO) c) main_v88 _).trans (outs_18 m hO c))
    (Reg2.body_obligation _ _) (fun _ _ => rfl) (fun _ _ => rfl) (fun _ _ => rfl) (Reg2.Phi_eq _ _) (tbl2_at m hO)

theorem v79_19 (c : Dev nD) : atTc (V19 m (outs m hO)) c main_v79 = atTc (V13 m) c main_v79 := (V19_of m (outs m hO) c main_v79 (by decide)).trans <| (V18_of m (outs m hO) c main_v79 (by decide)).trans <| v79_17 m hO c

theorem pre3_ref (k : Fin pre3.K) : pre3.ref k = main_v79 := pre0_ref k

theorem tbl3_at (c : Dev nD) : (fun k => atTc (V19 m (outs m hO)) c (pre3.ref k) : pre3.Contents (Elt F)) = (adm m hO 3).1 :=
  tbl_at m pre3_ref _ (v79_19 m hO) c

def reg3 : Pipeline.RegionSeg (pcfgs (F := F)) (adm m hO) (pdats m hO) () defs₀ 𝒱₀ L lv 3 :=
  tblReg m hO 3 launch3 (V19 m (outs m hO)) (V20 m (outs m hO)) 4 (V20_of m _) (Reg3.A_eq _ _)
    (show ∀ w : Fin 5, w ≠ 4 → (spec3 w).isOut = false ∧ Pipeline.arrRef spec3 w ≠ Pipeline.arrRef spec3 4 by decide)
    (fun c => (upd_at (V19 m (outs m hO) c) main_v90 _).trans (outs_20 m hO c))
    (Reg3.body_obligation _ _) (fun _ _ => rfl) (fun _ _ => rfl) (fun _ _ => rfl) (Reg3.Phi_eq _ _) (tbl3_at m hO)

theorem v79_21 (c : Dev nD) : atTc (V21 m (outs m hO)) c main_v79 = atTc (V13 m) c main_v79 := (V21_of m (outs m hO) c main_v79 (by decide)).trans <| (V20_of m (outs m hO) c main_v79 (by decide)).trans <| v79_19 m hO c

theorem pre4_ref (k : Fin pre4.K) : pre4.ref k = main_v79 := pre0_ref k

theorem tbl4_at (c : Dev nD) : (fun k => atTc (V21 m (outs m hO)) c (pre4.ref k) : pre4.Contents (Elt F)) = (adm m hO 4).1 :=
  tbl_at m pre4_ref _ (v79_21 m hO) c

def reg4 : Pipeline.RegionSeg (pcfgs (F := F)) (adm m hO) (pdats m hO) () defs₀ 𝒱₀ L lv 4 :=
  tblReg m hO 4 launch4 (V21 m (outs m hO)) (V22 m (outs m hO)) 4 (V22_of m _) (Reg4.A_eq _ _)
    (show ∀ w : Fin 5, w ≠ 4 → (spec4 w).isOut = false ∧ Pipeline.arrRef spec4 w ≠ Pipeline.arrRef spec4 4 by decide)
    (fun c => (upd_at (V21 m (outs m hO) c) main_v92 _).trans (outs_22 m hO c))
    (Reg4.body_obligation _ _) (fun _ _ => rfl) (fun _ _ => rfl) (fun _ _ => rfl) (Reg4.Phi_eq _ _) (tbl4_at m hO)

abbrev E : Fin 6 → Dev nD → sProp 𝕄 := fun _ c => R c

abbrev allSegs (c : Dev nD) :=
  segs m (outs m hO) 𝒱₀ L lv E () (adm m hO) (pdats m hO) (reg0 m hO) (reg1 m hO) (reg2 m hO) (reg3 m hO) (reg4 m hO) c

abbrev u₀ : UR sig nD τ :=
  initOf (Pipeline.cells (Pipeline.pin (pcfgs (F := F)) (adm m hO)) (cellOf_inj (adm m hO)))
    (Pipeline.launchToks (Pipeline.pin (pcfgs (F := F)) (adm m hO)) (cellOf_inj (adm m hO)))

set_option backward.isDefEq.respectTransparency.types false in

theorem run : θ_run defs (onTc (τ := τ) (main (F := F))) ⟨m, fun _ => 0, ρ⟩
    (fun r => ∀ c : Dev nD, ∀ b ∈ Pipeline.ucRefs τ sig, r.2.mem ((c : Thread nD τ).1, b) = V25 m (outs m hO) c b) := by
  refine Pipeline.θ_run_regions_kit_dev (pcfgs (F := F)) (adm m hO) (pdats m hO) () (cellOf_inj (adm m hO)) emb₁ defs₀ 𝒱₀ L lv m ρ main
    (allSegs m hO)
    (fun c Q => by
      rewrite [main_chain c, Pipeline.Seg.run_eq_chain,
        show (allSegs m hO c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2 ] from rfl]
      exact .rfl)
    (fun c => by simp only [allSegs, segs, Pipeline.Seg.pipes_host, Pipeline.Seg.pipes_region, Pipeline.Seg.pipes_nil]; decide)
    (0 : Dev nD → CellTallies nD τ sig Unit) (fun _ _ => rfl) (fun _ => iprop(emp)) (u₀ m hO) ?hu
    (T₀ := fun c => iprop(StableHlo.held (c : Thread nD τ) (Pipeline.ucRefs τ sig) (V0 m c) ∗ R c))
    (Tₙ := fun c => StableHlo.held (c : Thread nD τ) (Pipeline.ucRefs τ sig) (V25 m (outs m hO) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?hi)
    (QY := fun c s => ∀ b ∈ Pipeline.ucRefs τ sig, s.mem ((c : Thread nD τ).1, b) = V25 m (outs m hO) c b)
    (hfin := fun c s' => ?hf) (hQ := fun _ h => h)
  case hu =>

    rw [ownU_emb₁, show (bigSep Finset.univ fun _ : Dev nD => (iprop(emp) : sProp 𝕄)) = BI.emp from BI.bigSep_emp_const _]
    iintro Hu; imodintro
    isplitl [Hu]; · iexact Hu
    iempintro
  case hi =>

    refine Pipeline.initEach L lv fun c => ?_
    rw [Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  case hf =>

    unfold StableHlo.held
    iintro ⟨Hh, HSI⟩
    imodintro
    iapply (pointsTo_read_all (Pipeline.ucRefs τ sig) (fun b => ((c : Thread nD τ).1, b)) (V25 m (outs m hO) c) s')
    isplitl [Hh] <;> iassumption

theorem run_results : θ_run defs (onTc (τ := τ) (main (F := F))) ⟨m, fun _ => 0, ρ⟩ (fun r => ∀ c : Dev nD,
      r.2.mem ((c.tc : Thread nD τ).loc main_v95) = V25 m (outs m hO) c main_v95
      ∧ r.2.mem ((c.tc : Thread nD τ).loc main_v96) = V25 m (outs m hO) c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have k {b : Ref sig .tc} {x} (hb : ¬ (Proc.devRef .tc b : DevRef τ sig).isScoped) (e : V25 m (outs m hO) c b = x) :
        r.2.mem ((c : Thread nD τ).1, Proc.devRef .tc b) = x := (h c _ (mem_uc b hb)).trans e
    ⟨h c _ (mem_uc main_v95 (by decide)), h c _ (mem_uc main_v96 (by decide)),
      k (by decide) (V25_main_arg0 m _ c),
      k (by decide) (V25_main_arg1 m _ c),
      k (by decide) (V25_main_arg2 m _ c),
      k (by decide) (V25_main_arg3 m _ c),
      k (by decide) (V25_main_arg4 m _ c),
      k (by decide) (V25_main_arg5 m _ c),
      k (by decide) (V25_main_arg6 m _ c),
      k (by decide) (V25_main_arg7 m _ c),
      k (by decide) (V25_main_arg8 m _ c),
      k (by decide) (V25_main_arg9 m _ c),
      k (by decide) (V25_main_arg10 m _ c),
      k (by decide) (V25_main_arg11 m _ c),
      k (by decide) (V25_main_arg12 m _ c),
      k (by decide) (V25_main_arg13 m _ c),
      k (by decide) (V25_main_arg14 m _ c),
      k (by decide) (V25_main_arg15 m _ c),
      k (by decide) (V25_main_arg16 m _ c),
      k (by decide) (V25_main_arg17 m _ c),
      k (by decide) (V25_main_arg18 m _ c)⟩) (run m ρ hO)

include hO in
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_results m ρ hO)

end Cert.Kernel.RunAll

end
-- ==== Proof.RouteArith.lean ====
import Idealize.ShloMosaic.Lib.StableHlo.Predicate
import Idealize.ShloMosaic.Lib.ValueIdx
import Idealize.ShloMosaic.Lib.Pipeline.Value
import Idealize.ShloMosaic.Lib.WordArith
import Mathlib.Algebra.BigOperators.Fin
import Mathlib.Data.BitVec
import Mathlib.Tactic.IntervalCases

noncomputable section

namespace Cert.RouteArith

open Idealize.ShloMosaic Idealize.ShloMosaic.StableHlo.Predicate
open scoped BigOperators

/-- A vector of n 32-bit words. -/
abbrev Vec (n : ℕ) : Type := (⟨1, ![n]⟩ : Shape).Idx → BitVec 32

theorem foldl_finRange_cast {β : Type} {n k : ℕ} (h : n = k) (f : β → Fin n → β) (b : β) :
    (List.finRange n).foldl f b = (List.finRange k).foldl (fun r i => f r (i.cast h.symm)) b := by
  subst h; rfl

theorem foldl_add_finRange (f : ℕ → BitVec 32) (n : ℕ) :
    List.foldl (fun r (i : Fin n) => IntOp.addi r (f i.val)) 0#32 (List.finRange n) = ∑ k ∈ Finset.range n, f k := by
  rw [← Fin.sum_univ_eq_sum_range, Fin.sum_univ_def, List.sum_eq_foldl, List.foldl_map]
  rfl

/-- Entry k of an 8-vector, zero past the end. -/
def ent (x : Vec 8) (k : ℕ) : BitVec 32 := if h : k < 8 then x (ValueIdx.ix1 ⟨k, h⟩) else 0#32

theorem ent_val (x : Vec 8) (a : Fin 8) : ent x a.val = x (ValueIdx.ix1 a) := by
  unfold ent; rw [dif_pos a.isLt]

theorem ent_apply (x : Vec 8) (j : (⟨1, ![8]⟩ : Shape).Idx) : x j = ent x (j 0).val :=
  (congrArg x (ValueIdx.eq_ix1 j)).trans (ent_val x (j 0)).symm

theorem sum_shift (f : ℕ → BitVec 32) (a : ℕ) (ha : a < 8) :
    ∑ n ∈ Finset.range 8, (if 7 ≤ a + n then f (a + n - 7) else 0#32) = ∑ b ∈ Finset.range (a + 1), f b := by
  interval_cases a <;> simp [Finset.sum_range_succ]

set_option maxHeartbeats 400000 in
/-- A window of 8 over 7 cells of zero padding in front sums entries 0..a at position a. -/
theorem cumsum8 (x : Vec 8) (v : (⟨0, ![]⟩ : Shape).Idx → BitVec 32)
    (h : (⟨1, ![8]⟩ : Shape).ReduceWindows (![8] : Fin 1 → Nat) ![1] ![7] ![0] ⟨1, ![8]⟩)
    (hu : 0 < (⟨0, ![]⟩ : Shape).numel) (hv : v (Shape.Idx.first hu) = 0#32) (a : Fin 8) :
    Host.reduceWindow IntOp.addi ![8] ![1] ![7] ![0] x v h hu (ValueIdx.ix1 a)
      = ∑ b ∈ Finset.range (a.val + 1), ent x b := by
  unfold Host.reduceWindow
  dsimp only
  rw [hv, foldl_finRange_cast (Shape.numel_rank1 _)]
  have hi : ∀ i : Fin (![8] 0), (((⟨1, ![8]⟩ : Shape).rowMajor.symm (Fin.cast (Shape.numel_rank1 _).symm i)) 0).val = i.val := by
    intro i
    have := Shape.rowMajor_val_one ((⟨1, ![8]⟩ : Shape).rowMajor.symm (Fin.cast (Shape.numel_rank1 _).symm i))
    rw [Equiv.apply_symm_apply] at this
    exact this.symm
  refine Eq.trans (congrArg (fun G => List.foldl G 0#32 (List.finRange (![8] 0))) (funext fun r => funext fun i =>
    congrArg (IntOp.addi r) (?_ : _ = if 7 ≤ a.val + i.val then ent x (a.val + i.val - 7) else 0#32))) ?_
  · have hlt : i.val < 8 := i.isLt
    have ha := a.isLt
    by_cases h7 : 7 ≤ a.val + i.val
    · rw [if_pos h7, dif_pos, ent_apply x]
      · refine congrArg (ent x) ?_
        show a.val * 1 + (((⟨1, ![8]⟩ : Shape).rowMajor.symm (Fin.cast (Shape.numel_rank1 _).symm i)) 0).val - 7 = _
        rw [hi]; omega
      · intro d
        have hd : d = 0 := Subsingleton.elim _ _
        subst hd
        show 7 ≤ a.val * 1 + (((⟨1, ![8]⟩ : Shape).rowMajor.symm (Fin.cast (Shape.numel_rank1 _).symm i)) 0).val
          ∧ a.val * 1 + (((⟨1, ![8]⟩ : Shape).rowMajor.symm (Fin.cast (Shape.numel_rank1 _).symm i)) 0).val - 7 < 8
        rw [hi]; omega
    · rw [if_neg h7, dif_neg]
      intro hall
      have h0' : 7 ≤ a.val * 1 + (((⟨1, ![8]⟩ : Shape).rowMajor.symm (Fin.cast (Shape.numel_rank1 _).symm i)) 0).val := (hall 0).1
      rw [hi] at h0'; omega
  · exact (foldl_add_finRange (fun k : ℕ => if 7 ≤ a.val + k then ent x (a.val + k - 7) else 0#32) 8).trans (sum_shift _ a.val a.isLt)

theorem sum_ofNat (f : ℕ → ℕ) (n : ℕ) :
    ∑ b ∈ Finset.range n, BitVec.ofNat 32 (f b) = BitVec.ofNat 32 (∑ b ∈ Finset.range n, f b) := by
  induction n with
  | zero => rfl
  | succ n ih => rw [Finset.sum_range_succ, Finset.sum_range_succ, ih, BitVec.ofNat_add]

theorem eq_ofNat_iff (w : BitVec 32) (k : ℕ) (hk : k < 2 ^ 32) : w = BitVec.ofNat 32 k ↔ w.toNat = k :=
  ⟨fun h => by rw [h, WordArith.toNat_ofNat_of_lt _ hk], fun h => BitVec.eq_of_toNat_eq (by rw [h, WordArith.toNat_ofNat_of_lt _ hk])⟩

/-- The sign of a word: 0, −1 or 1. -/
def sgn (x : BitVec 32) : BitVec 32 := if x = 0 then 0 else if x.msb then -1 else 1

/-- The quotient by 512 rounded towards −∞: the truncated quotient, less one when the signs differ and the remainder is not zero. -/
def fdiv (w : BitVec 32) : BitVec 32 :=
  Scalar.select (IntOp.andi (IntOp.cmpi .ne (sgn w) (sgn 512#32)) (IntOp.cmpi .ne (IntOp.remsi .host w 512#32) 0#32))
    (IntOp.subi (IntOp.divsi .host w 512#32) 1#32) (IntOp.divsi .host w 512#32)

theorem divsi512 (k : ℕ) (hk : k < 2 ^ 31) : IntOp.divsi .host (BitVec.ofNat 32 k) 512#32 = BitVec.ofNat 32 (k / 512) := by
  have hcorner : ¬ IntOp.SDivCorner (BitVec.ofNat 32 k) 512#32 := by
    intro hc; rcases hc with hc | ⟨_, hc⟩ <;> exact absurd hc (by decide)
  have hm : (BitVec.ofNat 32 k).msb = false :=
    BitVec.msb_eq_false_iff_two_mul_lt.mpr (by rw [WordArith.toNat_ofNat_of_lt k (by omega)]; omega)
  apply BitVec.eq_of_toNat_eq
  simp only [IntOp.divsi, if_neg hcorner, BitVec.sdiv_eq, hm, show (512#32 : BitVec 32).msb = false from by decide, BitVec.udiv_eq,
    BitVec.toNat_udiv, BitVec.toNat_ofNat]
  have e1 : k % 2 ^ 32 = k := Nat.mod_eq_of_lt (by omega)
  have e2 : (512 : ℕ) % 2 ^ 32 = 512 := by norm_num
  have e3 : k / 512 % 2 ^ 32 = k / 512 := Nat.mod_eq_of_lt (by omega)
  rw [e1, e2, e3]

/-- On a positive word below 2³¹ both signs are 1, so the rounded quotient is the plain one. -/
theorem fdiv_ofNat (k : ℕ) (hk : 0 < k) (hk' : k < 2 ^ 31) : fdiv (BitVec.ofNat 32 k) = BitVec.ofNat 32 (k / 512) := by
  have hne : BitVec.ofNat 32 k ≠ 0 := by
    intro h; have := congrArg BitVec.toNat h; rw [WordArith.toNat_ofNat_of_lt k (by omega)] at this; simp at this; omega
  have hm : (BitVec.ofNat 32 k).msb = false :=
    BitVec.msb_eq_false_iff_two_mul_lt.mpr (by rw [WordArith.toNat_ofNat_of_lt k (by omega)]; omega)
  have hs : sgn (BitVec.ofNat 32 k) = 1 := by unfold sgn; rw [if_neg hne, hm]; rfl
  have hs' : sgn 512#32 = 1 := by decide
  unfold fdiv
  rw [hs, hs', show IntOp.cmpi .ne (1 : BitVec 32) 1 = 0#1 from by decide, show ∀ y : BitVec 1, IntOp.andi 0#1 y = 0#1 from by decide]
  show (if (0#1 : BitVec 1) = 1 then _ else _) = _
  rw [if_neg (by decide), divsi512 k hk']

/-- A count k up to 2³⁰ rounded up to whole tiles of 512: ((k + 512 − 1) div 512) · 512 on words is the same on naturals. -/
theorem pad_word (k : ℕ) (hk : k < 2 ^ 30) :
    IntOp.muli (fdiv (IntOp.subi (IntOp.addi (BitVec.ofNat 32 k) 512#32) 1#32)) 512#32 = BitVec.ofNat 32 ((k + 511) / 512 * 512) := by
  have e : IntOp.subi (IntOp.addi (BitVec.ofNat 32 k) 512#32) 1#32 = BitVec.ofNat 32 (k + 511) := by
    apply BitVec.eq_of_toNat_eq
    show ((BitVec.ofNat 32 k + 512#32) - 1#32).toNat = _
    simp only [BitVec.toNat_sub, BitVec.toNat_add, BitVec.toNat_ofNat]
    omega
  rw [e, fdiv_ofNat _ (by omega) (by omega)]
  show BitVec.ofNat 32 _ * BitVec.ofNat 32 512 = _
  rw [← BitVec.ofNat_mul]

/-- The clip of a signed word to [0, 7] is below 8. -/
theorem clip_lt (w : BitVec 32) : (IntOp.minsi 7#32 (IntOp.maxsi 0#32 w)).toNat < 8 := by
  have h2 := WordArith.two_mul_toNat_maxsi_zero_lt w
  rw [WordArith.toNat_minsi_of_lt 7#32 _ (by decide) (by unfold Scalar.maxsi at h2; omega)]
  exact lt_of_le_of_lt (min_le_left _ _) (by decide)

theorem clip_ofNat (k : ℕ) (hk : k ≤ 7) : IntOp.minsi 7#32 (IntOp.maxsi 0#32 (BitVec.ofNat 32 k)) = BitVec.ofNat 32 k := by
  have h2 := WordArith.two_mul_toNat_maxsi_zero_lt (BitVec.ofNat 32 k)
  apply BitVec.eq_of_toNat_eq
  rw [WordArith.toNat_minsi_of_lt 7#32 _ (by decide) (by unfold Scalar.maxsi at h2; omega), WordArith.toNat_maxsi_zero,
    toInt_ofNat_small k (by omega), WordArith.toNat_ofNat_of_lt k (by omega)]
  show min 7 ((k : ℤ).toNat) = k
  simp only [Int.toNat_natCast]
  omega

/-- The vector [z, y₀, …, y₆]. -/
theorem shift_apply (z : Vec 1) (y : Vec 8) (h1 : (⟨1, ![8]⟩ : Shape).Slices ![0] ⟨1, ![7]⟩)
    (h2 : Shape.Concatenates [(⟨1, ![1]⟩ : Shape), ⟨1, ![7]⟩] ⟨1, ![8]⟩ 0) (a : Fin 8) :
    concatenate ⟨1, ![8]⟩ 0 [⟨⟨1, ![1]⟩, z⟩, ⟨⟨1, ![7]⟩, extractStridedSlice ⟨1, ![7]⟩ ![0] y h1⟩] h2 (ValueIdx.ix1 a)
      = if a.val = 0 then z (ValueIdx.ix1 0) else ent y (a.val - 1) := by
  by_cases ha : a.val = 0
  · rw [if_pos ha]
    refine concatenate_pair_apply_left (t := ⟨1, ![8]⟩) (s₁ := ⟨1, ![1]⟩) (s₂ := ⟨1, ![7]⟩) 0 z _ h2 (ValueIdx.ix1 a) rfl (ValueIdx.ix1 0) ?_
    intro b
    have hb : b = 0 := Subsingleton.elim _ _
    subst hb
    show (0 : ℕ) = a.val
    omega
  · rw [if_neg ha]
    have hlt : a.val - 1 < 7 := by have := a.isLt; omega
    have hlt8 : a.val - 1 < 8 := by omega
    rw [concatenate_pair_apply_right (t := ⟨1, ![8]⟩) (s₁ := ⟨1, ![1]⟩) (s₂ := ⟨1, ![7]⟩) 0 z _ h2 (ValueIdx.ix1 a) rfl rfl (ValueIdx.ix1 ⟨a.val - 1, hlt⟩)
      (fun b hb => absurd (Subsingleton.elim _ _) hb) (by show (a.val - 1) + 1 = a.val; omega)]
    rw [extractStridedSlice_apply (s := ⟨1, ![8]⟩) (t := ⟨1, ![7]⟩) ![0] y h1 (ValueIdx.ix1 ⟨a.val - 1, hlt⟩) (ValueIdx.ix1 ⟨a.val - 1, hlt8⟩)
      (fun b => by have hb : b = 0 := Subsingleton.elim _ _; subst hb; show a.val - 1 = 0 + (a.val - 1); omega)]
    exact (ent_val y ⟨a.val - 1, hlt8⟩).symm

/-- A zero in front of the running sums of words that are small naturals: entry a is the sum of the naturals below a. -/
theorem prefix_ofNat (x : Vec 8) (f : ℕ → ℕ) (hx : ∀ a : Fin 8, x (ValueIdx.ix1 a) = BitVec.ofNat 32 (f a.val))
    (y : Vec 8) (hy : ∀ a : Fin 8, y (ValueIdx.ix1 a) = ∑ b ∈ Finset.range (a.val + 1), ent x b)
    (z : Vec 1) (hz : z (ValueIdx.ix1 0) = 0#32) (a : Fin 8) :
    (if a.val = 0 then z (ValueIdx.ix1 0) else ent y (a.val - 1)) = BitVec.ofNat 32 (∑ b ∈ Finset.range a.val, f b) := by
  have ha := a.isLt
  by_cases h0 : a.val = 0
  · rw [if_pos h0, hz, h0]; rfl
  · rw [if_neg h0, ← sum_ofNat, show a.val - 1 = (⟨a.val - 1, by omega⟩ : Fin 8).val from rfl, ent_val, hy]
    show ∑ b ∈ Finset.range (a.val - 1 + 1), ent x b = _
    rw [show a.val - 1 + 1 = a.val from by omega]
    exact Finset.sum_congr rfl fun b hb => by
      have hb8 : b < 8 := by have := Finset.mem_range.1 hb; omega
      exact (ent_val x ⟨b, hb8⟩).trans (hx ⟨b, hb8⟩)

theorem card_fin8 (p : ℕ → Prop) [DecidablePred p] :
    (Finset.univ.filter fun q : Fin 8 => p q.val).card = ((Finset.range 8).filter p).card := by
  rw [Finset.card_filter, Finset.card_filter, Fin.sum_univ_eq_sum_range (fun i => if p i then 1 else 0)]

/-- Tile t's label: of eight words holding naturals P q ≤ 20472 with P 0 = 0, the number not above 512·t, less one. -/
theorem tile_word (g : Fin 8 → BitVec 32) (P : ℕ → ℕ) (hg : ∀ q, g q = BitVec.ofNat 32 (P q.val))
    (hP : ∀ q < 8, P q ≤ 20472) (h0 : P 0 = 0) (t : ℕ) (ht : t < 40) :
    IntOp.subi (BitVec.ofNat 32 (Finset.univ.filter fun q : Fin 8 =>
        IntOp.cmpi .sle (g q) (IntOp.muli (BitVec.ofNat 32 t) 512#32) = 1#1).card) 1#32
      = BitVec.ofNat 32 (((Finset.range 8).filter fun a => P a ≤ 512 * t).card - 1) := by
  have hcard : (Finset.univ.filter fun q : Fin 8 =>
      IntOp.cmpi .sle (g q) (IntOp.muli (BitVec.ofNat 32 t) 512#32) = 1#1).card
      = ((Finset.range 8).filter fun a => P a ≤ 512 * t).card := by
    rw [← card_fin8]
    refine congrArg Finset.card (Finset.filter_congr fun q _ => ?_)
    have hp := hP q.val q.isLt
    rw [hg, show IntOp.muli (BitVec.ofNat 32 t) 512#32 = BitVec.ofNat 32 (t * 512) from (BitVec.ofNat_mul ..).symm,
      sle_iff_toNat (by rw [WordArith.toNat_ofNat_of_lt _ (by omega)]; omega) (by rw [WordArith.toNat_ofNat_of_lt _ (by omega)]; omega),
      WordArith.toNat_ofNat_of_lt _ (by omega), WordArith.toNat_ofNat_of_lt _ (by omega)]
    omega
  rw [hcard]
  have h1 : 1 ≤ ((Finset.range 8).filter fun a => P a ≤ 512 * t).card :=
    Finset.card_pos.2 ⟨0, Finset.mem_filter.2 ⟨Finset.mem_range.2 (by omega), by rw [h0]; exact Nat.zero_le _⟩⟩
  exact sub_one_ofNat _ h1 ((Finset.card_filter_le _ _).trans_lt (by rw [Finset.card_range]; omega))

/-- For v < 8 the index (v, 0, 0), counted in steps of [1, n, 512], stays inside [8, n, 512]. -/
theorem blk_le {T : Fin 3 → ℕ} (n : ℕ) (h0 : T 0 < 8) (h1 : T 1 = 0) (h2 : T 2 = 0) (a : Fin 3) :
    (T a + 1) * (![1, n, 512] : Fin 3 → ℕ) a ≤ (![8, n, 512] : Fin 3 → ℕ) a := by
  match a with
  | ⟨0, _⟩ => show (T 0 + 1) * 1 ≤ 8; omega
  | ⟨1, _⟩ => show (T 1 + 1) * n ≤ n; rw [h1]; omega
  | ⟨2, _⟩ => show (T 2 + 1) * 512 ≤ 512; rw [h2]

end Cert.RouteArith

end
-- ==== Proof.KRouteTables.lean ====
import proofs.«409439_j24232205484239_2_alg».proof.Proof.Gen.Kernel.Regions
import proofs.«409439_j24232205484239_2_alg».proof.Proof.RouteArith
import Idealize.ShloMosaic.Lib.StableHlo.Run

set_option maxRecDepth 1700

noncomputable section

namespace Cert.Kernel.RouteT

open Idealize.ShloMosaic Idealize.ShloMosaic.TcCoe Idealize.ShloMosaic.StableHlo
open Cert.Kernel Cert.Kernel.Gen Cert.RouteArith

variable {F : FTy → Type} [BitOps F]

theorem c21_stage (W : Valuation τ sig (Elt F)) :
    (StableHlo.after hostOps0_8 W (Proc.devRef .tc main_c_21) : S_.Idx → BitVec 32) = constantI S_ 32 0#32 := by
  after_results_simp

theorem c22_stage (W : Valuation τ sig (Elt F)) :
    (StableHlo.after hostOps0_8 W (Proc.devRef .tc main_c_22) : S_.Idx → BitVec 32) = constantI S_ 32 7#32 := by
  after_results_simp

theorem v79_stage (W : Valuation τ sig (Elt F))
    (h0 : (W (Proc.devRef .tc main_c_21) : S_.Idx → BitVec 32) = constantI S_ 32 0#32)
    (h7 : (W (Proc.devRef .tc main_c_22) : S_.Idx → BitVec 32) = constantI S_ 32 7#32) (j : S40.Idx) :
    (StableHlo.after hostOps0_9 W (Proc.devRef .tc main_v79) : S40.Idx → BitVec 32) j
      = IntOp.minsi 7#32 (IntOp.maxsi 0#32 ((W (Proc.devRef .tc main_v78) : S40.Idx → BitVec 32) j)) := by
  after_results
  simp only [TRef.ofBuf, TRef.toBuf, cast_eq, id]
  rw [h0, h7]
  rfl

theorem ok0_of_lt (pf : pre0.Contents (Elt F)) (h : ∀ j : S40.Idx, ((pf 0 : S40.Idx → BitVec 32) j).toNat < 8) : ok0 pf :=
  fun i => ⟨blk_le 512 (h _) rfl rfl, Or.inl rfl⟩

theorem ok2_of_lt (pf : pre2.Contents (Elt F)) (h : ∀ j : S40.Idx, ((pf 0 : S40.Idx → BitVec 32) j).toNat < 8) : ok2 pf :=
  fun i => ⟨blk_le 512 (h _) rfl rfl, Or.inl rfl⟩

theorem ok3_of_lt (pf : pre3.Contents (Elt F)) (h : ∀ j : S40.Idx, ((pf 0 : S40.Idx → BitVec 32) j).toNat < 8) : ok3 pf :=
  fun i => ⟨blk_le 512 (h _) rfl rfl, Or.inl rfl⟩

theorem ok4_of_lt (pf : pre4.Contents (Elt F)) (h : ∀ j : S40.Idx, ((pf 0 : S40.Idx → BitVec 32) j).toNat < 8) : ok4 pf :=
  fun i => ⟨blk_le 64 (h _) rfl rfl, Or.inl rfl⟩

section Launch

variable (m : (ℓ : Loc nD τ sig) → Buf (Elt F) ℓ) (c : Dev nD)

theorem v79_at (j : S40.Idx) : (V13 m c (Proc.devRef .tc main_v79) : S40.Idx → BitVec 32) j
    = IntOp.minsi 7#32 (IntOp.maxsi 0#32 ((V9 m c (Proc.devRef .tc main_v78) : S40.Idx → BitVec 32) j)) := by
  rw [(V13_of m c main_v79 (by decide)).trans ((V12_of m c main_v79 (by decide)).trans (V11_of m c main_v79 (by decide)))]
  exact v79_stage (V9 m c) (c21_stage (V8 m c)) (c22_stage (V8 m c)) j

/-- The clip alone puts every entry of the tile table below 8. -/
theorem tile_lt_idx (j : S40.Idx) : ((V13 m c (Proc.devRef .tc main_v79) : S40.Idx → BitVec 32) j).toNat < 8 := by
  rw [v79_at m c]
  exact clip_lt _

theorem ok0_tbl : ok0 (F := F) (fun k => V13 m c (pre0.ref k)) := ok0_of_lt _ (tile_lt_idx m c)

theorem ok2_tbl : ok2 (F := F) (fun k => V13 m c (pre2.ref k)) := ok2_of_lt _ (tile_lt_idx m c)

theorem ok3_tbl : ok3 (F := F) (fun k => V13 m c (pre3.ref k)) := ok3_of_lt _ (tile_lt_idx m c)

theorem ok4_tbl : ok4 (F := F) (fun k => V13 m c (pre4.ref k)) := ok4_of_lt _ (tile_lt_idx m c)

end Launch

end Cert.Kernel.RouteT

end
-- ==== Proof.KOkAll.lean ====
/- Every word of the tile-to-agent table is an agent number, so it names a gate slice that exists. -/
import proofs.«409439_j24232205484239_2_alg».proof.Proof.KRunAll
import proofs.«409439_j24232205484239_2_alg».proof.Proof.KRouteTables

noncomputable section

namespace Cert.Kernel.RunAll

open Idealize.ShloMosaic Idealize.ShloMosaic.TcCoe
open Cert.Kernel.Gen

variable {F : FTy → Type} [BitOps F]
variable (m : (ℓ : Loc nD τ sig) → Buf (Elt F) ℓ)

theorem ok_all : Ok m := ⟨RouteT.ok0_tbl m 0, RouteT.ok2_tbl m 0, RouteT.ok3_tbl m 0, RouteT.ok4_tbl m 0⟩

end Cert.Kernel.RunAll

end
-- ==== Proof.Region0.lean ====
import proofs.«409439_j24232205484239_2_alg».proof.Proof.Gen.KernelIdeal.Launch
import proofs.«409439_j24232205484239_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (ad : (pcfg0 (F := F)).Adm)

def iblk (c : Dev nD) (w : Fin (cfg0 ad).W) (t : Fin (cfg0 ad).N) : (((cfg0 ad).win w).xblock ((cfg0 ad).grid.coords t)).Idx → Elt F ((cfg0 ad).win w).elt :=
  (((cfg0 ad).win w).blk t).view.read (Elt F) (V c (Pipeline.arrRef spec0 w))

abbrev rX : Rect S512x512 := Rect.unit (s := S512x512) ![0, 0] S512x512.size inb_S512x512_S512x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rG : Rect S1x512x512 := Rect.unit (s := S1x512x512) ![0, 0, 0] S1x512x512.size inb_S1x512x512_S1x512x512_0_0_0
abbrev rO : Rect S512x512 := Rect.unit (s := S512x512) ![0, 0] S512x512.size inb_S512x512_S512x512_0_0

def out (x0 : Vec F S512x512 .f32) (x1 : Vec F S512x512 .f32) (x2 : Vec F S1x512 .f32) (x3 : Vec F S1x512x512 .f32) : Vec F S512x512 .f32 :=
  View.canon [⟨rO, k0_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc0__kalei_grouped_kernel i arg1 harg1 arg2 harg2 arg3 harg3 arg4 harg4 arg5 harg5 arg6 harg6) K := by
  simp only [cc0__kalei_grouped_kernel_eq_skeleton]; unfold cc0__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x512.size (by rfl))

def dat (c : Dev nD) : Dat τ (Elt F) Unit ℕ (UR sig nD τ) ℕ (cfg0 ad) c where
  A w := V c (Pipeline.arrRef spec0 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec0 c ∗ Pipeline.prefHeld pre0 c (fun _ => fullShare) ad.1)
  q _ := fullShare
  owed _ := 0

theorem A_eq (c : Dev nD) (w : Fin (cfg0 ad).W) : (dat V ad c).A w = V c (Pipeline.arrRef spec0 w) := rfl

theorem Phi_eq (c : Dev nD) (i : Fin ((cfg0 ad).N + 1)) :
    (dat V ad c).Φ i = iprop(Pipeline.ΦA spec0 c ∗ Pipeline.prefHeld pre0 c (fun _ => fullShare) ad.1) := rfl

theorem after_out (c : Dev nD) (t : Fin (cfg0 ad).N) :
    (dat V ad c).after 4 t = out (iblk V ad c 0 t) (iblk V ad c 1 t) (iblk V ad c 2 t) (iblk V ad c 3 t) := by dsimp only [dat]; try rfl

theorem before_in (c : Dev nD) (t : Fin (cfg0 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W0, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.KernelIdeal.Reg0

end
-- ==== Proof.Region1.lean ====
import proofs.«409439_j24232205484239_2_alg».proof.Proof.Gen.KernelIdeal.Launch
import proofs.«409439_j24232205484239_2_alg».proof.Proof.Gen.KernelIdeal.Skeleton
import proofs.«409439_j24232205484239_2_alg».proof.Proof.Gen.KernelIdeal.Points
import Idealize.ShloMosaic.Lib.Pipeline.Value
import Idealize.ShloMosaic.Lib.Tactic

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S512x512 := Rect.unit (s := S512x512) ![0, 0] S512x512.size inb_S512x512_S512x512_0_0
abbrev rW : Rect S1536x512 := Rect.unit (s := S1536x512) ![0, 0] S1536x512.size inb_S1536x512_S1536x512_0_0
abbrev rB : Rect S1x1536 := Rect.unit (s := S1x1536) ![0, 0] S1x1536.size inb_S1x1536_S1x1536_0_0

def out (x0 x1 : Vec F S512x512 .f32) (x2 x3 : Vec F S1536x512 .f32) (x4 x5 : Vec F S1x1536 .f32) : Vec F S512x512 .f32 :=
  View.canon [⟨rX, k1_pay1 (View.ld x0 rX) (View.ld x1 rX) (View.ld x2 rW) (View.ld x3 rW) (View.ld x4 rB) (View.ld x5 rB)⟩]

theorem sound_kernel (c : Dev nD) (E : Set ℕ) (i : grid1.Coords) {a0 a1 a6 : Memref sig .tc .vmem S512x512 .f32}
    {a2 a3 : Memref sig .tc .vmem S1536x512 .f32} {a4 a5 : Memref sig .tc .vmem S1x1536 .f32}
    (h0 : a0.IsWhole) (h1 : a1.IsWhole) (h2 : a2.IsWhole) (h3 : a3.IsWhole) (h4 : a4.IsWhole) (h5 : a5.IsWhole) (h6 : a6.IsWhole)
    {x0 x1 d : Vec F S512x512 .f32} {x2 x3 : Vec F S1536x512 .f32} {x4 x5 : Vec F S1x1536 .f32} (K : PUnit → sProp 𝕄) :
    iprop(owns c a0 fullShare x0 ∗ owns c a1 fullShare x1 ∗ owns c a2 fullShare x2 ∗ owns c a3 fullShare x3 ∗ owns c a4 fullShare x4 ∗ owns c a5 fullShare x5 ∗ owns c a6 fullShare d
        ∗ (iprop(owns c a0 fullShare x0 ∗ owns c a1 fullShare x1 ∗ owns c a2 fullShare x2 ∗ owns c a3 fullShare x3 ∗ owns c a4 fullShare x4 ∗ owns c a5 fullShare x5 ∗ owns c a6 fullShare (out x0 x1 x2 x3 x4 x5)) -∗ K ⟨⟩))
      ⊢ wp frame (wpE (defs₀ (F := F)) Variants.none c none) E (cc1__gru_kernel i a0 h0 a1 h1 a2 h2 a3 h3 a4 h4 a5 h5 a6 h6) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => ⟨_, List.mem_singleton_self _, View.mem_set_unit_zero (funext fun a => by fin_cases a <;> rfl) inb_S512x512_S512x512_0_0 y⟩

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := rfl

theorem after_out (c : Dev nD) (t : Fin cfg1.N) :
    (dat V c).after 6 t = out (iblk V c 0 t) (iblk V c 1 t) (iblk V c 2 t) (iblk V c 3 t) (iblk V c 4 t) (iblk V c 5 t) := by
  dsimp only [dat]

theorem before_in (c : Dev nD) (t : Fin cfg1.N) : ∀ w : Fin cfg1.W, (cfg1.win w).isOut = false → ∀ d, (dat V c).before w t d = (dat V c).after w t
  | ⟨0, _⟩, _, d | ⟨1, _⟩, _, d | ⟨2, _⟩, _, d | ⟨3, _⟩, _, d | ⟨4, _⟩, _, d | ⟨5, _⟩, _, d =>
    (dat V c).before_in_eq_fetched _ rfl (fun _ => rfl) (fun _ _ _ => rfl) (fun _ => rfl) t d
  | ⟨6, _⟩, h, _ => nomatch h

theorem body_obligation (c : Dev nD) : BodyObligation (dat (F := F) V c) (defs₀ (F := F)) Variants.none () Set.univ := fun t => by
  rw [bigSep_W1, bigSep_W1]
  sl_whnfR [defs₀, Defs.onTc]
  simp (disch := exact rfl) only [before_in V c t]
  dsimp only [dat, Dat.owesAt, Dat.bound]
  iintro ⟨HΦ, Ho, ⟨%_, H0⟩, ⟨%_, H1⟩, ⟨%_, H2⟩, ⟨%_, H3⟩, ⟨%_, H4⟩, ⟨%_, H5⟩, ⟨%_, H6⟩⟩
  iapply sound_kernel c Set.univ (grid1.coords t)
  iframe H0 H1 H2 H3 H4 H5 H6
  iintro ⟨H0, H1, H2, H3, H4, H5, H6⟩
  iframe

end Cert.KernelIdeal.Reg1

end
-- ==== Proof.Region2.lean ====
import proofs.«409439_j24232205484239_2_alg».proof.Proof.Gen.KernelIdeal.Launch
import proofs.«409439_j24232205484239_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (ad : (pcfg2 (F := F)).Adm)

def iblk (c : Dev nD) (w : Fin (cfg2 ad).W) (t : Fin (cfg2 ad).N) : (((cfg2 ad).win w).xblock ((cfg2 ad).grid.coords t)).Idx → Elt F ((cfg2 ad).win w).elt :=
  (((cfg2 ad).win w).blk t).view.read (Elt F) (V c (Pipeline.arrRef spec2 w))

abbrev rX : Rect S512x512 := Rect.unit (s := S512x512) ![0, 0] S512x512.size inb_S512x512_S512x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rG : Rect S1x512x512 := Rect.unit (s := S1x512x512) ![0, 0, 0] S1x512x512.size inb_S1x512x512_S1x512x512_0_0_0
abbrev rO : Rect S512x512 := Rect.unit (s := S512x512) ![0, 0] S512x512.size inb_S512x512_S512x512_0_0

def out (x0 : Vec F S512x512 .f32) (x1 : Vec F S512x512 .f32) (x2 : Vec F S1x512 .f32) (x3 : Vec F S1x512x512 .f32) : Vec F S512x512 .f32 :=
  View.canon [⟨rO, k2_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc2__kalei_grouped_kernel i arg1 harg1 arg2 harg2 arg3 harg3 arg4 harg4 arg5 harg5 arg6 harg6) K := by
  simp only [cc2__kalei_grouped_kernel_eq_skeleton]; unfold cc2__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x512.size (by rfl))

def dat (c : Dev nD) : Dat τ (Elt F) Unit ℕ (UR sig nD τ) ℕ (cfg2 ad) c where
  A w := V c (Pipeline.arrRef spec2 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec2 c ∗ Pipeline.prefHeld pre2 c (fun _ => fullShare) ad.1)
  q _ := fullShare
  owed _ := 0

theorem A_eq (c : Dev nD) (w : Fin (cfg2 ad).W) : (dat V ad c).A w = V c (Pipeline.arrRef spec2 w) := rfl

theorem Phi_eq (c : Dev nD) (i : Fin ((cfg2 ad).N + 1)) :
    (dat V ad c).Φ i = iprop(Pipeline.ΦA spec2 c ∗ Pipeline.prefHeld pre2 c (fun _ => fullShare) ad.1) := rfl

theorem after_out (c : Dev nD) (t : Fin (cfg2 ad).N) :
    (dat V ad c).after 4 t = out (iblk V ad c 0 t) (iblk V ad c 1 t) (iblk V ad c 2 t) (iblk V ad c 3 t) := by dsimp only [dat]; try rfl

theorem before_in (c : Dev nD) (t : Fin (cfg2 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W2, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.KernelIdeal.Reg2

end
-- ==== Proof.Region3.lean ====
import proofs.«409439_j24232205484239_2_alg».proof.Proof.Gen.KernelIdeal.Launch
import proofs.«409439_j24232205484239_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (ad : (pcfg3 (F := F)).Adm)

def iblk (c : Dev nD) (w : Fin (cfg3 ad).W) (t : Fin (cfg3 ad).N) : (((cfg3 ad).win w).xblock ((cfg3 ad).grid.coords t)).Idx → Elt F ((cfg3 ad).win w).elt :=
  (((cfg3 ad).win w).blk t).view.read (Elt F) (V c (Pipeline.arrRef spec3 w))

abbrev rX : Rect S512x512 := Rect.unit (s := S512x512) ![0, 0] S512x512.size inb_S512x512_S512x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rG : Rect S1x512x512 := Rect.unit (s := S1x512x512) ![0, 0, 0] S1x512x512.size inb_S1x512x512_S1x512x512_0_0_0
abbrev rO : Rect S512x512 := Rect.unit (s := S512x512) ![0, 0] S512x512.size inb_S512x512_S512x512_0_0

def out (x0 : Vec F S512x512 .f32) (x1 : Vec F S512x512 .f32) (x2 : Vec F S1x512 .f32) (x3 : Vec F S1x512x512 .f32) : Vec F S512x512 .f32 :=
  View.canon [⟨rO, k3_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc3__kalei_grouped_kernel i arg1 harg1 arg2 harg2 arg3 harg3 arg4 harg4 arg5 harg5 arg6 harg6) K := by
  simp only [cc3__kalei_grouped_kernel_eq_skeleton]; unfold cc3__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x512.size (by rfl))

def dat (c : Dev nD) : Dat τ (Elt F) Unit ℕ (UR sig nD τ) ℕ (cfg3 ad) c where
  A w := V c (Pipeline.arrRef spec3 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec3 c ∗ Pipeline.prefHeld pre3 c (fun _ => fullShare) ad.1)
  q _ := fullShare
  owed _ := 0

theorem A_eq (c : Dev nD) (w : Fin (cfg3 ad).W) : (dat V ad c).A w = V c (Pipeline.arrRef spec3 w) := rfl

theorem Phi_eq (c : Dev nD) (i : Fin ((cfg3 ad).N + 1)) :
    (dat V ad c).Φ i = iprop(Pipeline.ΦA spec3 c ∗ Pipeline.prefHeld pre3 c (fun _ => fullShare) ad.1) := rfl

theorem after_out (c : Dev nD) (t : Fin (cfg3 ad).N) :
    (dat V ad c).after 4 t = out (iblk V ad c 0 t) (iblk V ad c 1 t) (iblk V ad c 2 t) (iblk V ad c 3 t) := by dsimp only [dat]; try rfl

theorem before_in (c : Dev nD) (t : Fin (cfg3 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W3, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.KernelIdeal.Reg3

end
-- ==== Proof.Region4.lean ====
import proofs.«409439_j24232205484239_2_alg».proof.Proof.Gen.KernelIdeal.Launch
import proofs.«409439_j24232205484239_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (ad : (pcfg4 (F := F)).Adm)

def iblk (c : Dev nD) (w : Fin (cfg4 ad).W) (t : Fin (cfg4 ad).N) : (((cfg4 ad).win w).xblock ((cfg4 ad).grid.coords t)).Idx → Elt F ((cfg4 ad).win w).elt :=
  (((cfg4 ad).win w).blk t).view.read (Elt F) (V c (Pipeline.arrRef spec4 w))

abbrev rX : Rect S512x512 := Rect.unit (s := S512x512) ![0, 0] S512x512.size inb_S512x512_S512x512_0_0
abbrev rW : Rect S64x512 := Rect.unit (s := S64x512) ![0, 0] S64x512.size inb_S64x512_S64x512_0_0
abbrev rB : Rect S1x64 := Rect.unit (s := S1x64) ![0, 0] S1x64.size inb_S1x64_S1x64_0_0
abbrev rG : Rect S1x64x512 := Rect.unit (s := S1x64x512) ![0, 0, 0] S1x64x512.size inb_S1x64x512_S1x64x512_0_0_0
abbrev rO : Rect S512x64 := Rect.unit (s := S512x64) ![0, 0] S512x64.size inb_S512x64_S512x64_0_0

def out (x0 : Vec F S512x512 .f32) (x1 : Vec F S64x512 .f32) (x2 : Vec F S1x64 .f32) (x3 : Vec F S1x64x512 .f32) : Vec F S512x64 .f32 :=
  View.canon [⟨rO, k4_pay1 (View.ld x0 rX) (View.ld x1 rW) (View.ld x3 rG) (View.ld x2 rB)⟩]

set_option maxHeartbeats 1000000 in
theorem sound_kernel (c : Dev nD) (E : Set ℕ) (i arg1 harg1 arg2 harg2 arg3 harg3 arg4 harg4 arg5 harg5 arg6 harg6 x0 x1 x2 x3)
    (K : PUnit → sProp 𝕄) :
    iprop(owns c arg2 fullShare x0 ∗ owns c arg3 fullShare x1
        ∗ owns c arg4 fullShare x2 ∗ owns c arg5 fullShare x3
        ∗ (∃ d, owns c arg6 fullShare d)
        ∗ (owns c arg2 fullShare x0 ∗ owns c arg3 fullShare x1
            ∗ owns c arg4 fullShare x2 ∗ owns c arg5 fullShare x3
            ∗ owns c arg6 fullShare (out x0 x1 x2 x3) -∗ K ⟨⟩))
      ⊢ wp frame (wpE (defs₀ (F := F)) Variants.none c none) E (cc4__kalei_grouped_kernel i arg1 harg1 arg2 harg2 arg3 harg3 arg4 harg4 arg5 harg5 arg6 harg6) K := by
  simp only [cc4__kalei_grouped_kernel_eq_skeleton]; unfold cc4__kalei_grouped_kernel_skel owns
  iintro ⟨⟨%f0, %h0, H0⟩, ⟨%f1, %h1, H1⟩, ⟨%f2, %h2, H2⟩, ⟨%f3, %h3, H3⟩, ⟨%d, %f4, -, H4⟩, Hk⟩
  subst h0 h1 h2 h3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x64.size (by rfl))

def dat (c : Dev nD) : Dat τ (Elt F) Unit ℕ (UR sig nD τ) ℕ (cfg4 ad) c where
  A w := V c (Pipeline.arrRef spec4 w)
  after w t := match w with
    | ⟨0, _⟩ => iblk V ad c 0 t
    | ⟨1, _⟩ => iblk V ad c 1 t
    | ⟨2, _⟩ => iblk V ad c 2 t
    | ⟨3, _⟩ => iblk V ad c 3 t
    | ⟨4, _⟩ => out (iblk V ad c 0 t) (iblk V ad c 1 t) (iblk V ad c 2 t) (iblk V ad c 3 t)
  Φ _ := iprop(Pipeline.ΦA spec4 c ∗ Pipeline.prefHeld pre4 c (fun _ => fullShare) ad.1)
  q _ := fullShare
  owed _ := 0

theorem A_eq (c : Dev nD) (w : Fin (cfg4 ad).W) : (dat V ad c).A w = V c (Pipeline.arrRef spec4 w) := rfl

theorem Phi_eq (c : Dev nD) (i : Fin ((cfg4 ad).N + 1)) :
    (dat V ad c).Φ i = iprop(Pipeline.ΦA spec4 c ∗ Pipeline.prefHeld pre4 c (fun _ => fullShare) ad.1) := rfl

theorem after_out (c : Dev nD) (t : Fin (cfg4 ad).N) :
    (dat V ad c).after 4 t = out (iblk V ad c 0 t) (iblk V ad c 1 t) (iblk V ad c 2 t) (iblk V ad c 3 t) := by dsimp only [dat]; try rfl

theorem before_in (c : Dev nD) (t : Fin (cfg4 ad).N) (w : Fin 5) (hw : w ≠ 4 := by decide) :
    ∀ d, (dat V ad c).before w t d = iblk V ad c w t :=
  match w, hw with
  | ⟨0, _⟩, _ | ⟨1, _⟩, _ | ⟨2, _⟩, _ | ⟨3, _⟩, _ =>
    (dat V ad c).before_in_eq_fetched _ rfl (fun _ => rfl) (fun _ _ _ => rfl) (fun _ => rfl) t
  | ⟨4, _⟩, h => absurd rfl h

theorem body_obligation (c : Dev nD) : BodyObligation (dat (F := F) V ad c) (defs₀ (F := F)) Variants.none () Set.univ := fun t => by
  simp only [bigSep_W4, Phi_eq, after_out, before_in V ad c t 0, before_in V ad c t 1, before_in V ad c t 2, before_in V ad c t 3]
  sl_whnfR [defs₀, Defs.onTc]
  iintro ⟨HΦ, Ho, ⟨%_, H0⟩, ⟨%_, H1⟩, ⟨%_, H2⟩, ⟨%_, H3⟩, %_, H4⟩
  iapply sound_kernel
  iframe H0 H1 H2 H3
  isplitl [H4]; · iexists _; iexact H4
  iintro H
  isplitl [HΦ]; · iexact HΦ
  isplitl [Ho]; · iexact Ho
  iexact H

end Cert.KernelIdeal.Reg4

end
-- ==== Proof.RunAll.lean ====
import proofs.«409439_j24232205484239_2_alg».proof.Proof.Gen.KernelIdeal.Regions
import proofs.«409439_j24232205484239_2_alg».proof.Proof.Region0
import proofs.«409439_j24232205484239_2_alg».proof.Proof.Region1
import proofs.«409439_j24232205484239_2_alg».proof.Proof.Region2
import proofs.«409439_j24232205484239_2_alg».proof.Proof.Region3
import proofs.«409439_j24232205484239_2_alg».proof.Proof.Region4
import Idealize.ShloMosaic.Lib.Pipeline.RegionsLoop
import Idealize.ShloMosaic.Lib.Pipeline.Kit

set_option maxRecDepth 16384

noncomputable section

namespace Cert.KernelIdeal.RunAll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev atTc (W : Dev nD → Valuation τ sig (Elt F)) : (c : Dev nD) → (b : Ref sig .tc) → Buf (Elt F) ((c : Thread nD τ).loc b) :=
  fun c b => W c b
def tbl0 : pre0.Contents (Elt F) := fun k => V13 m (0 : Dev nD) (pre0.ref k)
def tbl2 : pre2.Contents (Elt F) := fun k => V13 m (0 : Dev nD) (pre2.ref k)
def tbl3 : pre3.Contents (Elt F) := fun k => V13 m (0 : Dev nD) (pre3.ref k)
def tbl4 : pre4.Contents (Elt F) := fun k => V13 m (0 : Dev nD) (pre4.ref k)
structure Ok : Prop where
  o0 : ok0 (F := F) (tbl0 m)
  o2 : ok2 (F := F) (tbl2 m)
  o3 : ok3 (F := F) (tbl3 m)
  o4 : ok4 (F := F) (tbl4 m)

variable (hO : Ok m)

def adm : (p : Fin 5) → (pcfgs (F := F) p).Adm
  | ⟨0, _⟩ => ⟨tbl0 m, hO.o0⟩
  | ⟨1, _⟩ => cfg1.toPCfg_adm
  | ⟨2, _⟩ => ⟨tbl2 m, hO.o2⟩
  | ⟨3, _⟩ => ⟨tbl3 m, hO.o3⟩
  | ⟨4, _⟩ => ⟨tbl4 m, hO.o4⟩

def O14 (c : Dev nD) : Buf (Elt F) ((c : Thread nD τ).loc main_v83) :=
  (Reg0.dat (atTc (V13 m)) (adm m hO 0) c).arrAt 4 (cfg0 (adm m hO 0)).N
def W14 (c : Dev nD) : Valuation τ sig (Elt F) := Function.update (V13 m c) main_v83 (O14 m hO c)
def W15 (c : Dev nD) : Valuation τ sig (Elt F) := StableHlo.after hostOps1 (W14 m hO c)
def O16 (c : Dev nD) : Buf (Elt F) ((c : Thread nD τ).loc main_v86) :=
  (Reg1.dat (atTc (W15 m hO)) c).arrAt 6 cfg1.N
def W16 (c : Dev nD) : Valuation τ sig (Elt F) := Function.update (W15 m hO c) main_v86 (O16 m hO c)
def W17 (c : Dev nD) : Valuation τ sig (Elt F) := StableHlo.after hostOps2 (W16 m hO c)
def O18 (c : Dev nD) : Buf (Elt F) ((c : Thread nD τ).loc main_v88) :=
  (Reg2.dat (atTc (W17 m hO)) (adm m hO 2) c).arrAt 4 (cfg2 (adm m hO 2)).N
def W18 (c : Dev nD) : Valuation τ sig (Elt F) := Function.update (W17 m hO c) main_v88 (O18 m hO c)
def W19 (c : Dev nD) : Valuation τ sig (Elt F) := StableHlo.after hostOps3 (W18 m hO c)
def O20 (c : Dev nD) : Buf (Elt F) ((c : Thread nD τ).loc main_v90) :=
  (Reg3.dat (atTc (W19 m hO)) (adm m hO 3) c).arrAt 4 (cfg3 (adm m hO 3)).N
def W20 (c : Dev nD) : Valuation τ sig (Elt F) := Function.update (W19 m hO c) main_v90 (O20 m hO c)
def W21 (c : Dev nD) : Valuation τ sig (Elt F) := StableHlo.after hostOps4 (W20 m hO c)
def O22 (c : Dev nD) : Buf (Elt F) ((c : Thread nD τ).loc main_v92) :=
  (Reg4.dat (atTc (W21 m hO)) (adm m hO 4) c).arrAt 4 (cfg4 (adm m hO 4)).N
def W22 (c : Dev nD) : Valuation τ sig (Elt F) := Function.update (W21 m hO c) main_v92 (O22 m hO c)

def outs : Outs (F := F) := fun n r c =>
  match n with
  | 14 => W14 m hO c r
  | 16 => W16 m hO c r
  | 18 => W18 m hO c r
  | 20 => W20 m hO c r
  | 22 => W22 m hO c r
  | _ => V13 m c r

/-- Overwriting a slot with what an equal function, overwritten there, holds there gives that overwritten function. -/
theorem upd_eq {α : Type*} [DecidableEq α] {β : α → Type*} {f g : ∀ a, β a} (h : f = g) (a : α) (v : β a) :
    Function.update f a (Function.update g a v a) = Function.update g a v := by rw [h, Function.update_self]

theorem upd_at {α : Type*} [DecidableEq α] {β : α → Type*} (f : ∀ a, β a) (a : α) (v : β a) : Function.update f a v a = v :=
  Function.update_self a v f

theorem V14_eq : V14 m (outs m hO) = W14 m hO := funext fun c => upd_eq (f := V13 m c) rfl main_v83 (O14 m hO c)
theorem V15_eq : V15 m (outs m hO) = W15 m hO := funext fun c => congrArg (StableHlo.after hostOps1) (congrFun (V14_eq m hO) c)
theorem V16_eq : V16 m (outs m hO) = W16 m hO := funext fun c => upd_eq (congrFun (V15_eq m hO) c) main_v86 (O16 m hO c)
theorem V17_eq : V17 m (outs m hO) = W17 m hO := funext fun c => congrArg (StableHlo.after hostOps2) (congrFun (V16_eq m hO) c)
theorem V18_eq : V18 m (outs m hO) = W18 m hO := funext fun c => upd_eq (congrFun (V17_eq m hO) c) main_v88 (O18 m hO c)
theorem V19_eq : V19 m (outs m hO) = W19 m hO := funext fun c => congrArg (StableHlo.after hostOps3) (congrFun (V18_eq m hO) c)
theorem V20_eq : V20 m (outs m hO) = W20 m hO := funext fun c => upd_eq (congrFun (V19_eq m hO) c) main_v90 (O20 m hO c)
theorem V21_eq : V21 m (outs m hO) = W21 m hO := funext fun c => congrArg (StableHlo.after hostOps4) (congrFun (V20_eq m hO) c)

def pdats : (p : Fin 5) → (c : Dev nD) → Dat τ (Elt F) Unit ℕ (UR sig nD τ) ℕ (Pipeline.pin (pcfgs (F := F)) (adm m hO) p) c
  | ⟨0, _⟩ => fun c => Reg0.dat (atTc (V13 m)) (adm m hO 0) c
  | ⟨1, _⟩ => fun c => Reg1.dat (atTc (V15 m (outs m hO))) c
  | ⟨2, _⟩ => fun c => Reg2.dat (atTc (V17 m (outs m hO))) (adm m hO 2) c
  | ⟨3, _⟩ => fun c => Reg3.dat (atTc (V19 m (outs m hO))) (adm m hO 3) c
  | ⟨4, _⟩ => fun c => Reg4.dat (atTc (V21 m (outs m hO))) (adm m hO 4) c

theorem outs_14 (c : Dev nD) : outs m hO 14 main_v83 c = (pdats m hO 0 c).arrAt 4 (cfg0 (adm m hO 0)).N := by
  show W14 m hO c main_v83 = _
  unfold W14; rw [Function.update_self]; rfl
theorem outs_16 (c : Dev nD) : outs m hO 16 main_v86 c = (pdats m hO 1 c).arrAt 6 cfg1.N := by
  show W16 m hO c main_v86 = (Reg1.dat (atTc (V15 m (outs m hO))) c).arrAt 6 cfg1.N
  rw [V15_eq m hO]; unfold W16; rw [Function.update_self]; rfl
theorem outs_18 (c : Dev nD) : outs m hO 18 main_v88 c = (pdats m hO 2 c).arrAt 4 (cfg2 (adm m hO 2)).N := by
  show W18 m hO c main_v88 = (Reg2.dat (atTc (V17 m (outs m hO))) (adm m hO 2) c).arrAt 4 _
  rw [V17_eq m hO]; unfold W18; rw [Function.update_self]; rfl
theorem outs_20 (c : Dev nD) : outs m hO 20 main_v90 c = (pdats m hO 3 c).arrAt 4 (cfg3 (adm m hO 3)).N := by
  show W20 m hO c main_v90 = (Reg3.dat (atTc (V19 m (outs m hO))) (adm m hO 3) c).arrAt 4 _
  rw [V19_eq m hO]; unfold W20; rw [Function.update_self]; rfl
theorem outs_22 (c : Dev nD) : outs m hO 22 main_v92 c = (pdats m hO 4 c).arrAt 4 (cfg4 (adm m hO 4)).N := by
  show W22 m hO c main_v92 = (Reg4.dat (atTc (V21 m (outs m hO))) (adm m hO 4) c).arrAt 4 _
  rw [V21_eq m hO]; unfold W22; rw [Function.update_self]; rfl

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem at_of_eq (W W' : Dev nD → Valuation τ sig (Elt F)) (c : Dev nD) (h : atTc W c main_v79 = atTc W' c main_v79) (r : Ref sig .tc) (hr : r = main_v79) :
    atTc W c r = atTc W' c r := by subst hr; exact h

/-- Valuations that agree with `V13` at `main_v79` read the same table as `V13` does. -/
theorem tbl_at {pre : Pipeline.Prefetch sig} (hr : ∀ k, pre.ref k = main_v79) (W : Dev nD → Valuation τ sig (Elt F))
    (h : ∀ c, atTc W c main_v79 = atTc (V13 m) c main_v79) (c : Dev nD) :
    (fun k => atTc W c (pre.ref k) : pre.Contents (Elt F)) = fun k => V13 m (0 : Dev nD) (pre.ref k) := by
  obtain rfl : c = 0 := Subsingleton.elim _ _
  exact funext fun k => at_of_eq W (V13 m) 0 (h 0) _ (hr k)

section Table

variable (p : Fin 5) (lf : Pipeline.PLaunchFacts (nD := nD) (τ := τ) (pcfgs (F := F)) p)
  (V V' : Dev nD → Valuation τ sig (Elt F)) (o : Fin (pcfgs (F := F) p).W)
  (hV' : ∀ c r, r ∉ [Pipeline.arrRef (pcfgs (F := F) p).spec o] → V' c r = V c r)
  (hA : ∀ c w, (pdats m hO p c).A w = atTc V c (Pipeline.arrRef (pcfgs (F := F) p).spec w))
  (hio : ∀ w, w ≠ o → ((pcfgs (F := F) p).spec w).isOut = false ∧ Pipeline.arrRef (pcfgs (F := F) p).spec w ≠ Pipeline.arrRef (pcfgs (F := F) p).spec o)
  (ho : ∀ c, V' c (Pipeline.arrRef (pcfgs (F := F) p).spec o) = (pdats m hO p c).arrAt o (Pipeline.pin (pcfgs (F := F)) (adm m hO) p).N)

include hV' in
/-- A valuation that is `V` off window `o`'s array is `V` off all the windows' arrays. -/
theorem hrest_of (c : Dev nD) (b : Ref sig .tc) (hb : b ∉ Finset.univ.image (Pipeline.arrRef (pcfgs (F := F) p).spec)) : atTc V' c b = atTc V c b :=
  hV' c b fun hmem => hb (Finset.mem_image.mpr ⟨o, Finset.mem_univ _, (List.mem_singleton.mp hmem).symm⟩)

include hV' hA hio ho in
/-- At the exit an input window's array is as entered, and `V'` has it so; the one output window `o`'s is what `V'` has there. -/
theorem hF_of (c : Dev nD) (w : Fin (pcfgs (F := F) p).W) :
    (pdats m hO p c).arrAt w (Pipeline.pin (pcfgs (F := F)) (adm m hO) p).N = atTc V' c (Pipeline.arrRef (pcfgs (F := F) p).spec w) := by
  by_cases h : w = o
  · subst h; exact (ho c).symm
  · exact ((pdats m hO p c).arrAt_in w (hio w h).1 _).trans ((hA c w).trans (hV' c _ (mt List.mem_singleton.mp (hio w h).2)).symm)

set_option backward.isDefEq.respectTransparency.types false in
/-- A table region between valuations `V` and `V'`, where `V'` has the region's output and is `V` elsewhere. -/
def tblReg (hbody : ∀ c, BodyObligation (pdats m hO p c) (defs₀ (F := F)) 𝒱₀ () Set.univ)
    (howed : ∀ c t, (pdats m hO p c).owed t = 0) (hrec : ∀ c t, (pdats m hO p c).recorded t = Set.univ)
    (hq : ∀ c w, (pdats m hO p c).q w = fullShare)
    (hΦ : ∀ c i, (pdats m hO p c).Φ i = iprop(Pipeline.ΦA (pcfgs (F := F) p).spec c ∗ Pipeline.prefHeld (pcfgs (F := F) p).pre c (fun _ => fullShare) (adm m hO p).1))
    (htbl : ∀ c, (fun k => atTc V c ((pcfgs (F := F) p).pre.ref k)) = (adm m hO p).1) :
    Pipeline.RegionSeg (pcfgs (F := F)) (adm m hO) (pdats m hO) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop((∃ r, prngReg c r) ∗ Pipeline.prefHeld (pcfgs (F := F) p).pre c (fun _ => fullShare) (adm m hO p).1)
  Z c := Pipeline.unscopedRestP (Ix := Unit) (Name := ℕ) (U := UR sig nD τ) (Lvl := ℕ) (pcfgs (F := F) p).pre (pcfgs (F := F) p).spec c (atTc V c)
  hentry c := by
    have hsplit : (unscopedBufs c (atTc V c) : sProp 𝕄)
        ⊢ iprop((pdats m hO p c).arrays ((pdats m hO p c).arrAt · 0) ∗ Pipeline.unscopedRest (pcfgs (F := F) p).spec c (atTc V c)) :=
      Pipeline.arrays_of_unscopedBufs (p := p) (pcfgs (F := F)) (adm m hO) (pdats m hO) lf.win lf.arr_whole c
        ((pdats m hO p c).share_full (hq c)) (atTc V c) (hA c)
    rw [Pipeline.unscopedBufs_held, Pipeline.unscopedRest_split lf.pre c (atTc V c), htbl c] at hsplit
    rw [Pipeline.ownSems0_none]
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin; rw [howed]
      icases HO with ⟨%W, HO⟩; iexists W; isplitr; · ipureintro; exact fun _ _ => Or.inl ((hrec c _).symm ▸ Set.mem_univ _)
      iexact HO
    isplitl [Hp]; · iexact Hp
    iexact Hrest
  hin c := by
    rw [hΦ]; unfold Pipeline.ΦA
    iintro ⟨Hp, Ht, Hr⟩
    isplitl [Hr Hp]
    · isplitl [Hr]; · iexact Hr
      iexact Hp
    iexact Ht
  hout c := by
    rw [Pipeline.ownSems0_none, hΦ]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m hO p c).arrays ((pdats m hO p c).arrAt · (Pipeline.pin (pcfgs (F := F)) (adm m hO) p).N)
          ∗ Pipeline.unscopedRest (pcfgs (F := F) p).spec c (atTc V c))
        ⊢ (unscopedBufs c (atTc V' c) : sProp 𝕄) :=
      Pipeline.unscopedBufs_of_arrays (p := p) (pcfgs (F := F)) (adm m hO) (Ix := Unit) (Name := ℕ) (U := UR sig nD τ) (Lvl := ℕ)
        lf.win lf.arr_whole c (pdats m hO) ((pdats m hO p c).share_full (hq c))
        (atTc V c) (atTc V' c) ((pdats m hO p c).arrAt · (Pipeline.pin (pcfgs (F := F)) (adm m hO) p).N) (hF_of m hO p V V' o hV' hA hio ho c) (hrest_of p V V' o hV' c)
    rw [Pipeline.unscopedBufs_held, Pipeline.unscopedRest_split lf.pre c (atTc V c), htbl c] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin; rw [howed]
    icases HO with ⟨%W, -, HO⟩; iexists W; iexact HO

end Table

def reg1 : Pipeline.RegionSeg (pcfgs (F := F)) (adm m hO) (pdats m hO) () defs₀ 𝒱₀ L lv 1 :=
  tblReg m hO 1 launch1 (V15 m (outs m hO)) (V16 m (outs m hO)) 6 (V16_of m _) (Reg1.A_eq _)
    (show ∀ w : Fin 7, w ≠ 6 → (spec1 w).isOut = false ∧ Pipeline.arrRef spec1 w ≠ Pipeline.arrRef spec1 6 by decide)
    (fun c => (upd_at (V15 m (outs m hO) c) main_v86 _).trans (outs_16 m hO c))
    (Reg1.body_obligation _) (fun _ _ => rfl) (fun _ _ => rfl) (fun _ _ => rfl)
    (fun _ _ => Entails.antisymm sep_emp_intro sep_emp_elim) (fun _ => funext fun k => k.elim0)

theorem v79_13 (c : Dev nD) : atTc (V13 m) c main_v79 = atTc (V13 m) c main_v79 := rfl

theorem pre0_ref (k : Fin pre0.K) : pre0.ref k = main_v79 := by
  match k with
  | ⟨0, _⟩ => rfl
  | ⟨_ + 1, h⟩ => exact absurd h (Nat.not_lt.2 (Nat.le_add_left _ _))

theorem tbl0_at (c : Dev nD) : (fun k => atTc (V13 m) c (pre0.ref k) : pre0.Contents (Elt F)) = (adm m hO 0).1 :=
  tbl_at m pre0_ref _ (v79_13 m) c

def reg0 : Pipeline.RegionSeg (pcfgs (F := F)) (adm m hO) (pdats m hO) () defs₀ 𝒱₀ L lv 0 :=
  tblReg m hO 0 launch0 (V13 m) (V14 m (outs m hO)) 4 (V14_of m _) (Reg0.A_eq _ _)
    (show ∀ w : Fin 5, w ≠ 4 → (spec0 w).isOut = false ∧ Pipeline.arrRef spec0 w ≠ Pipeline.arrRef spec0 4 by decide)
    (fun c => (upd_at (V13 m c) main_v83 _).trans (outs_14 m hO c))
    (Reg0.body_obligation _ _) (fun _ _ => rfl) (fun _ _ => rfl) (fun _ _ => rfl) (Reg0.Phi_eq _ _) (tbl0_at m hO)

theorem v79_17 (c : Dev nD) : atTc (V17 m (outs m hO)) c main_v79 = atTc (V13 m) c main_v79 := (V17_of m (outs m hO) c main_v79 (by decide)).trans <| (V16_of m (outs m hO) c main_v79 (by decide)).trans <| (V15_of m (outs m hO) c main_v79 (by decide)).trans <| V14_of m (outs m hO) c main_v79 (by decide)

theorem pre2_ref (k : Fin pre2.K) : pre2.ref k = main_v79 := pre0_ref k

theorem tbl2_at (c : Dev nD) : (fun k => atTc (V17 m (outs m hO)) c (pre2.ref k) : pre2.Contents (Elt F)) = (adm m hO 2).1 :=
  tbl_at m pre2_ref _ (v79_17 m hO) c

def reg2 : Pipeline.RegionSeg (pcfgs (F := F)) (adm m hO) (pdats m hO) () defs₀ 𝒱₀ L lv 2 :=
  tblReg m hO 2 launch2 (V17 m (outs m hO)) (V18 m (outs m hO)) 4 (V18_of m _) (Reg2.A_eq _ _)
    (show ∀ w : Fin 5, w ≠ 4 → (spec2 w).isOut = false ∧ Pipeline.arrRef spec2 w ≠ Pipeline.arrRef spec2 4 by decide)
    (fun c => (upd_at (V17 m (outs m hO) c) main_v88 _).trans (outs_18 m hO c))
    (Reg2.body_obligation _ _) (fun _ _ => rfl) (fun _ _ => rfl) (fun _ _ => rfl) (Reg2.Phi_eq _ _) (tbl2_at m hO)

theorem v79_19 (c : Dev nD) : atTc (V19 m (outs m hO)) c main_v79 = atTc (V13 m) c main_v79 := (V19_of m (outs m hO) c main_v79 (by decide)).trans <| (V18_of m (outs m hO) c main_v79 (by decide)).trans <| v79_17 m hO c

theorem pre3_ref (k : Fin pre3.K) : pre3.ref k = main_v79 := pre0_ref k

theorem tbl3_at (c : Dev nD) : (fun k => atTc (V19 m (outs m hO)) c (pre3.ref k) : pre3.Contents (Elt F)) = (adm m hO 3).1 :=
  tbl_at m pre3_ref _ (v79_19 m hO) c

def reg3 : Pipeline.RegionSeg (pcfgs (F := F)) (adm m hO) (pdats m hO) () defs₀ 𝒱₀ L lv 3 :=
  tblReg m hO 3 launch3 (V19 m (outs m hO)) (V20 m (outs m hO)) 4 (V20_of m _) (Reg3.A_eq _ _)
    (show ∀ w : Fin 5, w ≠ 4 → (spec3 w).isOut = false ∧ Pipeline.arrRef spec3 w ≠ Pipeline.arrRef spec3 4 by decide)
    (fun c => (upd_at (V19 m (outs m hO) c) main_v90 _).trans (outs_20 m hO c))
    (Reg3.body_obligation _ _) (fun _ _ => rfl) (fun _ _ => rfl) (fun _ _ => rfl) (Reg3.Phi_eq _ _) (tbl3_at m hO)

theorem v79_21 (c : Dev nD) : atTc (V21 m (outs m hO)) c main_v79 = atTc (V13 m) c main_v79 := (V21_of m (outs m hO) c main_v79 (by decide)).trans <| (V20_of m (outs m hO) c main_v79 (by decide)).trans <| v79_19 m hO c

theorem pre4_ref (k : Fin pre4.K) : pre4.ref k = main_v79 := pre0_ref k

theorem tbl4_at (c : Dev nD) : (fun k => atTc (V21 m (outs m hO)) c (pre4.ref k) : pre4.Contents (Elt F)) = (adm m hO 4).1 :=
  tbl_at m pre4_ref _ (v79_21 m hO) c

def reg4 : Pipeline.RegionSeg (pcfgs (F := F)) (adm m hO) (pdats m hO) () defs₀ 𝒱₀ L lv 4 :=
  tblReg m hO 4 launch4 (V21 m (outs m hO)) (V22 m (outs m hO)) 4 (V22_of m _) (Reg4.A_eq _ _)
    (show ∀ w : Fin 5, w ≠ 4 → (spec4 w).isOut = false ∧ Pipeline.arrRef spec4 w ≠ Pipeline.arrRef spec4 4 by decide)
    (fun c => (upd_at (V21 m (outs m hO) c) main_v92 _).trans (outs_22 m hO c))
    (Reg4.body_obligation _ _) (fun _ _ => rfl) (fun _ _ => rfl) (fun _ _ => rfl) (Reg4.Phi_eq _ _) (tbl4_at m hO)

abbrev E : Fin 6 → Dev nD → sProp 𝕄 := fun _ c => R c

abbrev allSegs (c : Dev nD) :=
  segs m (outs m hO) 𝒱₀ L lv E () (adm m hO) (pdats m hO) (reg0 m hO) (reg1 m hO) (reg2 m hO) (reg3 m hO) (reg4 m hO) c

abbrev u₀ : UR sig nD τ :=
  initOf (Pipeline.cells (Pipeline.pin (pcfgs (F := F)) (adm m hO)) (cellOf_inj (adm m hO)))
    (Pipeline.launchToks (Pipeline.pin (pcfgs (F := F)) (adm m hO)) (cellOf_inj (adm m hO)))

set_option backward.isDefEq.respectTransparency.types false in

theorem run : θ_run defs (onTc (τ := τ) (main (F := F))) ⟨m, fun _ => 0, ρ⟩
    (fun r => ∀ c : Dev nD, ∀ b ∈ Pipeline.ucRefs τ sig, r.2.mem ((c : Thread nD τ).1, b) = V25 m (outs m hO) c b) := by
  refine Pipeline.θ_run_regions_kit_dev (pcfgs (F := F)) (adm m hO) (pdats m hO) () (cellOf_inj (adm m hO)) emb₁ defs₀ 𝒱₀ L lv m ρ main
    (allSegs m hO)
    (fun c Q => by
      rewrite [main_chain c, Pipeline.Seg.run_eq_chain,
        show (allSegs m hO c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2 ] from rfl]
      exact .rfl)
    (fun c => by simp only [allSegs, segs, Pipeline.Seg.pipes_host, Pipeline.Seg.pipes_region, Pipeline.Seg.pipes_nil]; decide)
    (0 : Dev nD → CellTallies nD τ sig Unit) (fun _ _ => rfl) (fun _ => iprop(emp)) (u₀ m hO) ?hu
    (T₀ := fun c => iprop(StableHlo.held (c : Thread nD τ) (Pipeline.ucRefs τ sig) (V0 m c) ∗ R c))
    (Tₙ := fun c => StableHlo.held (c : Thread nD τ) (Pipeline.ucRefs τ sig) (V25 m (outs m hO) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?hi)
    (QY := fun c s => ∀ b ∈ Pipeline.ucRefs τ sig, s.mem ((c : Thread nD τ).1, b) = V25 m (outs m hO) c b)
    (hfin := fun c s' => ?hf) (hQ := fun _ h => h)
  case hu =>

    rw [ownU_emb₁, show (bigSep Finset.univ fun _ : Dev nD => (iprop(emp) : sProp 𝕄)) = BI.emp from BI.bigSep_emp_const _]
    iintro Hu; imodintro
    isplitl [Hu]; · iexact Hu
    iempintro
  case hi =>

    refine Pipeline.initEach L lv fun c => ?_
    rw [Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  case hf =>

    unfold StableHlo.held
    iintro ⟨Hh, HSI⟩
    imodintro
    iapply (pointsTo_read_all (Pipeline.ucRefs τ sig) (fun b => ((c : Thread nD τ).1, b)) (V25 m (outs m hO) c) s')
    isplitl [Hh] <;> iassumption

theorem run_results : θ_run defs (onTc (τ := τ) (main (F := F))) ⟨m, fun _ => 0, ρ⟩ (fun r => ∀ c : Dev nD,
      r.2.mem ((c.tc : Thread nD τ).loc main_v95) = V25 m (outs m hO) c main_v95
      ∧ r.2.mem ((c.tc : Thread nD τ).loc main_v96) = V25 m (outs m hO) c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have k {b : Ref sig .tc} {x} (hb : ¬ (Proc.devRef .tc b : DevRef τ sig).isScoped) (e : V25 m (outs m hO) c b = x) :
        r.2.mem ((c : Thread nD τ).1, Proc.devRef .tc b) = x := (h c _ (mem_uc b hb)).trans e
    ⟨h c _ (mem_uc main_v95 (by decide)), h c _ (mem_uc main_v96 (by decide)),
      k (by decide) (V25_main_arg0 m _ c),
      k (by decide) (V25_main_arg1 m _ c),
      k (by decide) (V25_main_arg2 m _ c),
      k (by decide) (V25_main_arg3 m _ c),
      k (by decide) (V25_main_arg4 m _ c),
      k (by decide) (V25_main_arg5 m _ c),
      k (by decide) (V25_main_arg6 m _ c),
      k (by decide) (V25_main_arg7 m _ c),
      k (by decide) (V25_main_arg8 m _ c),
      k (by decide) (V25_main_arg9 m _ c),
      k (by decide) (V25_main_arg10 m _ c),
      k (by decide) (V25_main_arg11 m _ c),
      k (by decide) (V25_main_arg12 m _ c),
      k (by decide) (V25_main_arg13 m _ c),
      k (by decide) (V25_main_arg14 m _ c),
      k (by decide) (V25_main_arg15 m _ c),
      k (by decide) (V25_main_arg16 m _ c),
      k (by decide) (V25_main_arg17 m _ c),
      k (by decide) (V25_main_arg18 m _ c)⟩) (run m ρ hO)

include hO in
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_results m ρ hO)

end Cert.KernelIdeal.RunAll

end
-- ==== Proof.RouteTables.lean ====
import proofs.«409439_j24232205484239_2_alg».proof.Proof.Gen.KernelIdeal.Regions
import proofs.«409439_j24232205484239_2_alg».proof.Proof.RouteArith
import Idealize.ShloMosaic.Lib.StableHlo.Run

set_option maxRecDepth 1700

noncomputable section

namespace Cert.KernelIdeal.RouteT

open Idealize.ShloMosaic Idealize.ShloMosaic.TcCoe Idealize.ShloMosaic.StableHlo
open Cert.KernelIdeal Cert.KernelIdeal.Gen Cert.RouteArith

variable {F : FTy → Type} [FloatOps F]

theorem c21_stage (W : Valuation τ sig (Elt F)) :
    (StableHlo.after hostOps0_8 W (Proc.devRef .tc main_c_21) : S_.Idx → BitVec 32) = constantI S_ 32 0#32 := by
  after_results_simp

theorem c22_stage (W : Valuation τ sig (Elt F)) :
    (StableHlo.after hostOps0_8 W (Proc.devRef .tc main_c_22) : S_.Idx → BitVec 32) = constantI S_ 32 7#32 := by
  after_results_simp

theorem v79_stage (W : Valuation τ sig (Elt F))
    (h0 : (W (Proc.devRef .tc main_c_21) : S_.Idx → BitVec 32) = constantI S_ 32 0#32)
    (h7 : (W (Proc.devRef .tc main_c_22) : S_.Idx → BitVec 32) = constantI S_ 32 7#32) (j : S40.Idx) :
    (StableHlo.after hostOps0_9 W (Proc.devRef .tc main_v79) : S40.Idx → BitVec 32) j
      = IntOp.minsi 7#32 (IntOp.maxsi 0#32 ((W (Proc.devRef .tc main_v78) : S40.Idx → BitVec 32) j)) := by
  after_results
  simp only [TRef.ofBuf, TRef.toBuf, cast_eq, id]
  rw [h0, h7]
  rfl

theorem ok0_of_lt (pf : pre0.Contents (Elt F)) (h : ∀ j : S40.Idx, ((pf 0 : S40.Idx → BitVec 32) j).toNat < 8) : ok0 pf :=
  fun i => ⟨blk_le 512 (h _) rfl rfl, Or.inl rfl⟩

theorem ok2_of_lt (pf : pre2.Contents (Elt F)) (h : ∀ j : S40.Idx, ((pf 0 : S40.Idx → BitVec 32) j).toNat < 8) : ok2 pf :=
  fun i => ⟨blk_le 512 (h _) rfl rfl, Or.inl rfl⟩

theorem ok3_of_lt (pf : pre3.Contents (Elt F)) (h : ∀ j : S40.Idx, ((pf 0 : S40.Idx → BitVec 32) j).toNat < 8) : ok3 pf :=
  fun i => ⟨blk_le 512 (h _) rfl rfl, Or.inl rfl⟩

theorem ok4_of_lt (pf : pre4.Contents (Elt F)) (h : ∀ j : S40.Idx, ((pf 0 : S40.Idx → BitVec 32) j).toNat < 8) : ok4 pf :=
  fun i => ⟨blk_le 64 (h _) rfl rfl, Or.inl rfl⟩

section Launch

variable (m : (ℓ : Loc nD τ sig) → Buf (Elt F) ℓ) (c : Dev nD)

theorem v79_at (j : S40.Idx) : (V13 m c (Proc.devRef .tc main_v79) : S40.Idx → BitVec 32) j
    = IntOp.minsi 7#32 (IntOp.maxsi 0#32 ((V9 m c (Proc.devRef .tc main_v78) : S40.Idx → BitVec 32) j)) := by
  rw [(V13_of m c main_v79 (by decide)).trans ((V12_of m c main_v79 (by decide)).trans (V11_of m c main_v79 (by decide)))]
  exact v79_stage (V9 m c) (c21_stage (V8 m c)) (c22_stage (V8 m c)) j

/-- The clip alone puts every entry of the tile table below 8. -/
theorem tile_lt_idx (j : S40.Idx) : ((V13 m c (Proc.devRef .tc main_v79) : S40.Idx → BitVec 32) j).toNat < 8 := by
  rw [v79_at m c]
  exact clip_lt _

theorem ok0_tbl : ok0 (F := F) (fun k => V13 m c (pre0.ref k)) := ok0_of_lt _ (tile_lt_idx m c)

theorem ok2_tbl : ok2 (F := F) (fun k => V13 m c (pre2.ref k)) := ok2_of_lt _ (tile_lt_idx m c)

theorem ok3_tbl : ok3 (F := F) (fun k => V13 m c (pre3.ref k)) := ok3_of_lt _ (tile_lt_idx m c)

theorem ok4_tbl : ok4 (F := F) (fun k => V13 m c (pre4.ref k)) := ok4_of_lt _ (tile_lt_idx m c)

end Launch

end Cert.KernelIdeal.RouteT

end
-- ==== Proof.OkAll.lean ====
/- Every word of the tile-to-agent table is an agent number, so it names a gate slice that exists. -/
import proofs.«409439_j24232205484239_2_alg».proof.Proof.RunAll
import proofs.«409439_j24232205484239_2_alg».proof.Proof.RouteTables

noncomputable section

namespace Cert.KernelIdeal.RunAll

open Idealize.ShloMosaic Idealize.ShloMosaic.TcCoe
open Cert.KernelIdeal.Gen

variable {F : FTy → Type} [FloatOps F]
variable (m : (ℓ : Loc nD τ sig) → Buf (Elt F) ℓ)

theorem ok_all : Ok m := ⟨RouteT.ok0_tbl m 0, RouteT.ok2_tbl m 0, RouteT.ok3_tbl m 0, RouteT.ok4_tbl m 0⟩

end Cert.KernelIdeal.RunAll

end
-- ==== Proof.Spec.lean ====
/- The network one row at a time on the extended reals: a masked layer with a rectifier, a recurrent cell, two more masked layers with rectifiers, and a last one of width 64. -/
import Idealize.ShloMosaic.PureOps.Ideal

noncomputable section

open scoped BigOperators

namespace Cert.Spec

open Idealize.ShloMosaic

def wmask (w t : EReal) : EReal := Ideal.sign w * max (max w (-w) - Ideal.logistic t) 0

def relu (x : EReal) : EReal := max x 0

def dense {J I : Type} [Fintype I] (x : I → EReal) (W : J → I → EReal) (b : J → EReal) (j : J) : EReal :=
  (∑ i, x i * W j i) + b j

def kalei {J I : Type} [Fintype I] (x : I → EReal) (W t : J → I → EReal) (b : J → EReal) (j : J) : EReal :=
  (∑ i, x i * wmask (W j i) (t j i)) + b j

def gate (k : Fin 3) (o : Fin 512) : Fin 1536 := ⟨512 * k.val + o.val, by have := k.isLt; have := o.isLt; omega⟩

def gru (x h : Fin 512 → EReal) (wih whh : Fin 1536 → Fin 512 → EReal) (bih bhh : Fin 1536 → EReal)
    (o : Fin 512) : EReal :=
  let gi := dense x wih bih
  let gh := dense h whh bhh
  let r := Ideal.logistic (gi (gate 0 o) + gh (gate 0 o))
  let z := Ideal.logistic (gi (gate 1 o) + gh (gate 1 o))
  let n := Ideal.tanh (gi (gate 2 o) + r * gh (gate 2 o))
  (1 - z) * n + z * h o

structure Params where
  W1 : Fin 512 → Fin 512 → EReal
  b1 : Fin 512 → EReal
  t1 : Fin 8 → Fin 512 → Fin 512 → EReal
  wih : Fin 1536 → Fin 512 → EReal
  whh : Fin 1536 → Fin 512 → EReal
  bih : Fin 1536 → EReal
  bhh : Fin 1536 → EReal
  W2 : Fin 512 → Fin 512 → EReal
  b2 : Fin 512 → EReal
  t2 : Fin 8 → Fin 512 → Fin 512 → EReal
  W3 : Fin 512 → Fin 512 → EReal
  b3 : Fin 512 → EReal
  t3 : Fin 8 → Fin 512 → Fin 512 → EReal
  W4 : Fin 64 → Fin 512 → EReal
  b4 : Fin 64 → EReal
  t4 : Fin 8 → Fin 64 → Fin 512 → EReal

def l1 (P : Params) (a : Fin 8) (x : Fin 512 → EReal) : Fin 512 → EReal :=
  fun o => relu (kalei x P.W1 (P.t1 a) P.b1 o)

def hid (P : Params) (a : Fin 8) (x h : Fin 512 → EReal) : Fin 512 → EReal :=
  gru (l1 P a x) h P.wih P.whh P.bih P.bhh

def l2 (P : Params) (a : Fin 8) (x h : Fin 512 → EReal) : Fin 512 → EReal :=
  fun o => relu (kalei (hid P a x h) P.W2 (P.t2 a) P.b2 o)

def l3 (P : Params) (a : Fin 8) (x h : Fin 512 → EReal) : Fin 512 → EReal :=
  fun o => relu (kalei (l2 P a x h) P.W3 (P.t3 a) P.b3 o)

def q (P : Params) (a : Fin 8) (x h : Fin 512 → EReal) : Fin 64 → EReal :=
  kalei (l3 P a x h) P.W4 (P.t4 a) P.b4

end Cert.Spec

end
-- ==== Proof.Region0Value.lean ====
import proofs.«409439_j24232205484239_2_alg».proof.Proof.Region0
import proofs.«409439_j24232205484239_2_alg».proof.Proof.Spec
import Idealize.ShloMosaic.Lib.Pipeline.Value
import Idealize.ShloMosaic.Lib.ValueIdx

noncomputable section

namespace Cert.KernelIdeal.Reg0

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (ad : (pcfg0 (F := Ideal)).Adm)

abbrev WS : Shape := S512x512
abbrev BS : Shape := S1x512
abbrev GS : Shape := S1x512x512
abbrev GA : Shape := S8x512x512
abbrev OA : Shape := S20480x512
abbrev nO : ℕ := 512
abbrev act (x : EReal) : EReal := Cert.Spec.relu x

theorem hz2 : (![0, 0] : Fin 2 → Nat) = fun _ => 0 := by decide
theorem hz3 : (![0, 0, 0] : Fin 3 → Nat) = fun _ => 0 := by decide

def tile (t : Fin (cfg0 ad).N) : Fin 40 := ⟨t.val, (show t.val < grid0.N from t.isLt).trans_eq N_0⟩

def tileOf (p : Fin 20480) : Fin 40 := ⟨p.val / 512, by have := p.isLt; omega⟩

def tg (k : Fin 40) : ℕ := (ad.1 0 (ValueIdx.ix1 k)).toNat

-- The index maps over the grid, decided: rows and outputs at the tile's number, weight and bias at zero, the table at the tile's word.
theorem idx_facts : ∀ t : Fin grid0.N, cc0_transform_0 (grid0.coords t) 0 = t.val ∧ cc0_transform_0 (grid0.coords t) 1 = 0
    ∧ (∀ a, cc0_transform_1 (grid0.coords t) a = 0) ∧ (∀ a, cc0_transform_2 (grid0.coords t) a = 0)
    ∧ cc0_transform_4 (grid0.coords t) 0 = t.val ∧ cc0_transform_4 (grid0.coords t) 1 = 0
    ∧ k0_off1 (grid0.coords t) 0 = t.val ∧ Pipeline.Window.flushOf grid0 true cc0_transform_4 t = true := by decide +kernel

theorem index3 (t : Fin (cfg0 ad).N) : ((cfg0 ad).win 3).index t (0 : Fin 3) = tg ad (tile ad t)
    ∧ ((cfg0 ad).win 3).index t (1 : Fin 3) = 0 ∧ ((cfg0 ad).win 3).index t (2 : Fin 3) = 0 := by
  refine ⟨?_, rfl, rfl⟩
  show (ad.1 0 _).toNat = (ad.1 0 _).toNat
  apply congrArg (fun z => (ad.1 0 z).toNat)
  funext a
  apply Fin.ext
  match a with
  | ⟨0, _⟩ =>
    show k0_off1 (grid0.coords t) 0 + 1 * 0 = t.val
    rw [(idx_facts t).2.2.2.2.2.2.1]; omega

-- A word of an admitted table names a slice of the gate array.
theorem tg_lt (k : Fin 40) : tg ad k < 8 := by
  have h : (((cfg0 ad).win 3).index ⟨k.val, k.isLt.trans_eq N_0.symm⟩ (0 : Fin 3) + 1) * 1 ≤ 8 :=
    (ad.2 (grid0.coords ⟨k.val, k.isLt.trans_eq N_0.symm⟩)).1 (0 : Fin 3)
  rw [(index3 ad _).1] at h
  change (tg ad k + 1) * 1 ≤ 8 at h
  omega

-- Row `p`, output `o` of the layer, with the gates of the agent of `p`'s tile.
def G (c : Dev nD) : OA.Idx → EReal := fun i =>
  act (Cert.Spec.kalei (fun k : Fin 512 => V c main_v80 (ValueIdx.ix2 (i 0 : Fin 20480) k))
    (fun (o : Fin nO) (k : Fin 512) => V c main_arg3 (ValueIdx.ix2 o k))
    (fun (o : Fin nO) (k : Fin 512) => V c main_arg5 (ValueIdx.ix3 (⟨tg ad (tileOf (i 0 : Fin 20480)), tg_lt ad _⟩ : Fin 8) o k))
    (fun (o : Fin nO) => V c main_v82 (ValueIdx.ix2 (0 : Fin 1) o)) (i 1 : Fin nO))

-- Through whole-block rectangles at offset zero, reading and writing are the identity.
theorem out_eq (x0 : Vec Ideal S512x512 .f32) (x1 : Vec Ideal WS .f32) (x2 : Vec Ideal BS .f32) (x3 : Vec Ideal GS .f32) :
    out x0 x1 x2 x3 = Gen.k0_pay1 (F := Ideal) x0 x1 x3 x2 := by
  unfold out
  rw [View.canon_unit_zero hz2, View.ld_unit_zero (S := S512x512) hz2, View.ld_unit_zero (S := WS) hz2,
    View.ld_unit_zero (S := BS) hz2, View.ld_unit_zero (S := GS) hz3]

theorem value (c : Dev nD)
    (hpay : ∀ (x : Vec Ideal S512x512 .f32) (w : Vec Ideal S512x512 .f32) (t : Vec Ideal S1x512x512 .f32) (b : Vec Ideal S1x512 .f32) (r : Fin 512) (o : Fin 512),
      Gen.k0_pay1 (F := Ideal) x w t b (ValueIdx.ix2 r o)
        = Cert.Spec.relu (Cert.Spec.kalei (fun i : Fin 512 => x (ValueIdx.ix2 r i)) (fun o i => w (ValueIdx.ix2 o i)) (fun o i => t (ValueIdx.ix3 (0 : Fin 1) o i)) (fun o => b (ValueIdx.ix2 (0 : Fin 1) o)) o))
    (p : Fin 20480) (o : Fin 512) :
    (dat (F := Ideal) V ad c).arrAt 4 (cfg0 ad).N (ValueIdx.ix2 p o)
      = Cert.Spec.relu (Cert.Spec.kalei (fun i : Fin 512 => V c main_v80 (ValueIdx.ix2 p i)) (fun o i => V c main_arg3 (ValueIdx.ix2 o i)) (fun o i => V c main_arg5 (ValueIdx.ix3 (⟨tg ad (tileOf p), tg_lt ad (tileOf p)⟩ : Fin 8) o i)) (fun o => V c main_v82 (ValueIdx.ix2 (0 : Fin 1) o)) o) := by
  have hN : (cfg0 ad).N = 40 := N_0
  have hp : p.val < 20480 := p.isLt
  obtain ⟨T, hT⟩ : ∃ T : Fin (cfg0 ad).N, T.val = p.val / 512 := ⟨⟨p.val / 512, by omega⟩, rfl⟩
  obtain ⟨-, -, -, -, f0, f1, -, hf⟩ := idx_facts T
  refine (dat V ad c).arrAt_apply_of_mem 4 (G V ad c) (fun t _ => funext fun j => ?_) _ T (ValueIdx.ix2 p o) T.isLt hf ?_
  · obtain ⟨e00, e01, z1, z2, e40, e41, -, -⟩ := idx_facts t
    obtain ⟨e30, e31, e32⟩ := index3 ad t
    obtain ⟨r, o, rfl⟩ : ∃ (r : Fin 512) (o : Fin nO), j = ValueIdx.ix2 r o := ⟨_, _, ValueIdx.eq_ix2 (n0 := 512) (n1 := nO) j⟩
    have hr : r.val < 512 := r.isLt
    refine (congrFun ((after_out V ad c t).trans (out_eq _ _ _ _)) _).trans ((hpay _ _ _ _ r o).trans
      (?_ : act (Cert.Spec.kalei _ _ _ _ o) = G V ad c ((((cfg0 ad).win 4).blk t).view.emb (ValueIdx.ix2 r o))))
    unfold G iblk
    congr 2
    · funext i
      refine congrArg (V c main_v80 : S20480x512.Idx → EReal) (Shape.idx_ext₂ ?_ ?_)
      · show cc0_transform_0 (grid0.coords t) 0 * 512 + 1 * r.val = cc0_transform_4 (grid0.coords t) 0 * 512 + 1 * r.val
        rw [e00, e40]
      · show cc0_transform_0 (grid0.coords t) 1 * 512 + 1 * i.val = i.val
        rw [e01]; omega
    · funext o i
      refine congrArg (V c main_arg3 : WS.Idx → EReal) (Shape.idx_ext₂ ?_ ?_)
      · show cc0_transform_1 (grid0.coords t) 0 * _ + 1 * o.val = o.val; rw [z1]; omega
      · show cc0_transform_1 (grid0.coords t) 1 * _ + 1 * i.val = i.val; rw [z1]; omega
    · funext o i
      refine congrArg (V c main_arg5 : GA.Idx → EReal) (funext fun a => Fin.ext ?_)
      match a with
      | ⟨0, _⟩ =>
        show ((cfg0 ad).win 3).index t (0 : Fin 3) * 1 + 1 * 0 = tg ad (tileOf _)
        rw [e30, Nat.mul_one, Nat.mul_zero, Nat.add_zero]
        exact congrArg (tg ad) (Fin.ext (by show t.val = (cc0_transform_4 (grid0.coords t) 0 * 512 + 1 * r.val) / 512; rw [e40]; omega))
      | ⟨1, _⟩ => show ((cfg0 ad).win 3).index t (1 : Fin 3) * _ + 1 * o.val = o.val; rw [e31]; omega
      | ⟨2, _⟩ => show ((cfg0 ad).win 3).index t (2 : Fin 3) * _ + 1 * i.val = i.val; rw [e32]; omega
    · funext o
      refine congrArg (V c main_v82 : BS.Idx → EReal) (Shape.idx_ext₂ ?_ ?_)
      · show cc0_transform_2 (grid0.coords t) 0 * _ + 1 * 0 = 0; rw [z2]; omega
      · show cc0_transform_2 (grid0.coords t) 1 * _ + 1 * o.val = o.val; rw [z2]; omega
    · exact Fin.ext (by show o.val = cc0_transform_4 (grid0.coords t) 1 * _ + 1 * o.val; rw [e41]; omega)
  · have hy : (((cfg0 ad).win 4).blk T).view.emb (ValueIdx.ix2 (⟨p.val % 512, by omega⟩ : Fin 512) (o : Fin nO)) = ValueIdx.ix2 p o :=
      Shape.idx_ext₂ (by show cc0_transform_4 (grid0.coords T) 0 * 512 + 1 * (p.val % 512) = p.val; rw [f0]; omega)
        (by show cc0_transform_4 (grid0.coords T) 1 * _ + 1 * o.val = o.val; rw [f1]; omega)
    rw [← hy]
    exact View.emb_mem_set _ _

end Cert.KernelIdeal.Reg0

end
-- ==== Proof.Region1Value.lean ====
import proofs.«409439_j24232205484239_2_alg».proof.Proof.Region1
import proofs.«409439_j24232205484239_2_alg».proof.Proof.Spec
import Idealize.ShloMosaic.Lib.Pipeline.Value
import Idealize.ShloMosaic.Lib.ValueIdx

noncomputable section

namespace Cert.KernelIdeal.Reg1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

-- At point t the row windows' blocks start at row 512 t; the other windows' blocks start at the origin.
theorem idx_facts : ∀ t : Fin cfg1.N,
    (win1_0.index t (0 : Fin 2) = t.val ∧ win1_0.index t (1 : Fin 2) = 0) ∧ (win1_1.index t (0 : Fin 2) = t.val ∧ win1_1.index t (1 : Fin 2) = 0)
    ∧ (win1_6.index t (0 : Fin 2) = t.val ∧ win1_6.index t (1 : Fin 2) = 0)
    ∧ (∀ a : Fin 2, win1_2.index t a = 0) ∧ (∀ a : Fin 2, win1_3.index t a = 0) ∧ (∀ a : Fin 2, win1_4.index t a = 0) ∧ ∀ a : Fin 2, win1_5.index t a = 0 :=
  (by decide +kernel : ∀ t : Fin grid1.N, _)

def row (t : Fin cfg1.N) (r : Fin 512) : Fin 20480 :=
  ⟨t.val * 512 + r.val, by have := Nat.lt_of_lt_of_eq t.isLt N_1; have := r.isLt; omega⟩

theorem emb6 (t : Fin cfg1.N) (r i : Fin 512) : ((cfg1.win 6).blk t).view.emb (ValueIdx.ix2 r i) = ValueIdx.ix2 (row t r) i :=
  Shape.idx_ext₂ ((win1_6.rect_emb_val t (ValueIdx.ix2 r i) (0 : Fin 2)).trans (congrArg (· * 512 + r.val) (idx_facts t).2.2.1.1))
    (win1_6.rect_emb_val_of_index_zero t (1 : Fin 2) (idx_facts t).2.2.1.2 (ValueIdx.ix2 r i))

theorem iblk0_apply (c : Dev nD) (t : Fin cfg1.N) (r i : Fin 512) : iblk V c 0 t (ValueIdx.ix2 r i) = (V c main_v83 : S20480x512.Idx → EReal) (ValueIdx.ix2 (row t r) i) :=
  congrArg (V c main_v83 : S20480x512.Idx → EReal) (Shape.idx_ext₂ ((win1_0.rect_emb_val t (ValueIdx.ix2 r i) (0 : Fin 2)).trans (congrArg (· * 512 + r.val) (idx_facts t).1.1))
    (win1_0.rect_emb_val_of_index_zero t (1 : Fin 2) (idx_facts t).1.2 (ValueIdx.ix2 r i)))
theorem iblk1_apply (c : Dev nD) (t : Fin cfg1.N) (r i : Fin 512) : iblk V c 1 t (ValueIdx.ix2 r i) = (V c main_v81 : S20480x512.Idx → EReal) (ValueIdx.ix2 (row t r) i) :=
  congrArg (V c main_v81 : S20480x512.Idx → EReal) (Shape.idx_ext₂ ((win1_1.rect_emb_val t (ValueIdx.ix2 r i) (0 : Fin 2)).trans (congrArg (· * 512 + r.val) (idx_facts t).2.1.1))
    (win1_1.rect_emb_val_of_index_zero t (1 : Fin 2) (idx_facts t).2.1.2 (ValueIdx.ix2 r i)))
theorem iblk2_eq (c : Dev nD) (t : Fin cfg1.N) : iblk V c 2 t = (V c main_arg6 : S1536x512.Idx → EReal) :=
  funext fun y => congrArg (V c main_arg6 : S1536x512.Idx → EReal) (funext fun a => Fin.ext (win1_2.rect_emb_val_of_index_zero t a ((idx_facts t).2.2.2.1 a) y))
theorem iblk3_eq (c : Dev nD) (t : Fin cfg1.N) : iblk V c 3 t = (V c main_arg7 : S1536x512.Idx → EReal) :=
  funext fun y => congrArg (V c main_arg7 : S1536x512.Idx → EReal) (funext fun a => Fin.ext (win1_3.rect_emb_val_of_index_zero t a ((idx_facts t).2.2.2.2.1 a) y))
theorem iblk4_eq (c : Dev nD) (t : Fin cfg1.N) : iblk V c 4 t = (V c main_v84 : S1x1536.Idx → EReal) :=
  funext fun y => congrArg (V c main_v84 : S1x1536.Idx → EReal) (funext fun a => Fin.ext (win1_4.rect_emb_val_of_index_zero t a ((idx_facts t).2.2.2.2.2.1 a) y))
theorem iblk5_eq (c : Dev nD) (t : Fin cfg1.N) : iblk V c 5 t = (V c main_v85 : S1x1536.Idx → EReal) :=
  funext fun y => congrArg (V c main_v85 : S1x1536.Idx → EReal) (funext fun a => Fin.ext (win1_5.rect_emb_val_of_index_zero t a ((idx_facts t).2.2.2.2.2.2 a) y))

def G (c : Dev nD) : S20480x512.Idx → EReal := fun y =>
  Cert.Spec.gru (fun i : Fin 512 => (V c main_v83 : S20480x512.Idx → EReal) (ValueIdx.ix2 (y 0 : Fin 20480) i))
        (fun i => (V c main_v81 : S20480x512.Idx → EReal) (ValueIdx.ix2 (y 0 : Fin 20480) i))
        (fun j i => (V c main_arg6 : S1536x512.Idx → EReal) (ValueIdx.ix2 j i))
        (fun j i => (V c main_arg7 : S1536x512.Idx → EReal) (ValueIdx.ix2 j i))
        (fun j => (V c main_v84 : S1x1536.Idx → EReal) (ValueIdx.ix2 0 j))
        (fun j => (V c main_v85 : S1x1536.Idx → EReal) (ValueIdx.ix2 0 j)) (y 1 : Fin 512)

variable (c : Dev nD)
    (hpay : ∀ (x h : Vec Ideal S512x512 .f32) (wih whh : Vec Ideal S1536x512 .f32) (bih bhh : Vec Ideal S1x1536 .f32) (r o : Fin 512),
      Gen.k1_pay1 (F := Ideal) x h wih whh bih bhh (ValueIdx.ix2 r o)
        = Cert.Spec.gru (fun i : Fin 512 => x (ValueIdx.ix2 r i)) (fun i => h (ValueIdx.ix2 r i))
            (fun j i => wih (ValueIdx.ix2 j i)) (fun j i => whh (ValueIdx.ix2 j i))
            (fun j => bih (ValueIdx.ix2 0 j)) (fun j => bhh (ValueIdx.ix2 0 j)) o)

include hpay in
theorem flushed_eq (t : Fin cfg1.N) : (dat (F := Ideal) V c).flushed 6 t = ((cfg1.win 6).blk t).view.read (Elt Ideal) (G V c) := by
  show (cfg1.win 6).cut (grid1.coords t) ((dat V c).after 6 t) = _
  rw [after_out]
  unfold out
  rw [View.canon_unit_zero hz]
  simp only [View.ld_unit_zero (S := S512x512) hz, View.ld_unit_zero (S := S1536x512) hz, View.ld_unit_zero (S := S1x1536) hz]
  refine funext fun (j : S512x512.Idx) => ?_
  obtain ⟨r, o, rfl⟩ : ∃ r o : Fin 512, j = ValueIdx.ix2 r o := ⟨j 0, j 1, ValueIdx.eq_ix2 j⟩
  refine (hpay _ _ _ _ _ _ r o).trans ?_
  show _ = G V c (((cfg1.win 6).blk t).view.emb (ValueIdx.ix2 r o))
  rw [emb6]
  unfold G
  simp only [iblk0_apply, iblk1_apply, iblk2_eq, iblk3_eq, iblk4_eq, iblk5_eq]

include hpay in
-- Row p lies in the block of point p / 512.
theorem value (p : Fin 20480) (o : Fin 512) :
    (dat (F := Ideal) V c).arrAt 6 cfg1.N (ValueIdx.ix2 p o)
      = Cert.Spec.gru (fun i : Fin 512 => (V c main_v83 : S20480x512.Idx → EReal) (ValueIdx.ix2 p i))
        (fun i => (V c main_v81 : S20480x512.Idx → EReal) (ValueIdx.ix2 p i))
        (fun j i => (V c main_arg6 : S1536x512.Idx → EReal) (ValueIdx.ix2 j i))
        (fun j i => (V c main_arg7 : S1536x512.Idx → EReal) (ValueIdx.ix2 j i))
        (fun j => (V c main_v84 : S1x1536.Idx → EReal) (ValueIdx.ix2 0 j))
        (fun j => (V c main_v85 : S1x1536.Idx → EReal) (ValueIdx.ix2 0 j)) o := by
  have hlt : p.val / 512 < cfg1.N := Nat.lt_of_lt_of_eq (Nat.div_lt_of_lt_mul p.isLt) N_1.symm
  have hp : ((cfg1.win 6).blk ⟨p.val / 512, hlt⟩).view.emb (ValueIdx.ix2 ⟨p.val % 512, Nat.mod_lt _ (by decide)⟩ o) = ValueIdx.ix2 p o :=
    (emb6 _ _ o).trans (congrArg (ValueIdx.ix2 · o) (Fin.ext (Nat.div_add_mod' p.val 512)))
  exact ((dat V c).arrAt_apply_of_mem 6 (G V c) (fun t _ => flushed_eq V c hpay t) cfg1.N ⟨p.val / 512, hlt⟩ (ValueIdx.ix2 p o) hlt (flush1_6 _)
    (hp ▸ View.emb_mem_set _ _)).trans rfl

end Cert.KernelIdeal.Reg1

end
-- ==== Proof.Region2Value.lean ====
import proofs.«409439_j24232205484239_2_alg».proof.Proof.Region2
import proofs.«409439_j24232205484239_2_alg».proof.Proof.Spec
import Idealize.ShloMosaic.Lib.Pipeline.Value
import Idealize.ShloMosaic.Lib.ValueIdx

noncomputable section

namespace Cert.KernelIdeal.Reg2

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (ad : (pcfg2 (F := Ideal)).Adm)

abbrev WS : Shape := S512x512
abbrev BS : Shape := S1x512
abbrev GS : Shape := S1x512x512
abbrev GA : Shape := S8x512x512
abbrev OA : Shape := S20480x512
abbrev nO : ℕ := 512
abbrev act (x : EReal) : EReal := Cert.Spec.relu x

theorem hz2 : (![0, 0] : Fin 2 → Nat) = fun _ => 0 := by decide
theorem hz3 : (![0, 0, 0] : Fin 3 → Nat) = fun _ => 0 := by decide

def tile (t : Fin (cfg2 ad).N) : Fin 40 := ⟨t.val, (show t.val < grid2.N from t.isLt).trans_eq N_2⟩

def tileOf (p : Fin 20480) : Fin 40 := ⟨p.val / 512, by have := p.isLt; omega⟩

def tg (k : Fin 40) : ℕ := (ad.1 0 (ValueIdx.ix1 k)).toNat

-- The index maps over the grid, decided: rows and outputs at the tile's number, weight and bias at zero, the table at the tile's word.
theorem idx_facts : ∀ t : Fin grid2.N, cc2_transform_0 (grid2.coords t) 0 = t.val ∧ cc2_transform_0 (grid2.coords t) 1 = 0
    ∧ (∀ a, cc2_transform_1 (grid2.coords t) a = 0) ∧ (∀ a, cc2_transform_2 (grid2.coords t) a = 0)
    ∧ cc2_transform_4 (grid2.coords t) 0 = t.val ∧ cc2_transform_4 (grid2.coords t) 1 = 0
    ∧ k2_off1 (grid2.coords t) 0 = t.val ∧ Pipeline.Window.flushOf grid2 true cc2_transform_4 t = true := by decide +kernel

theorem index3 (t : Fin (cfg2 ad).N) : ((cfg2 ad).win 3).index t (0 : Fin 3) = tg ad (tile ad t)
    ∧ ((cfg2 ad).win 3).index t (1 : Fin 3) = 0 ∧ ((cfg2 ad).win 3).index t (2 : Fin 3) = 0 := by
  refine ⟨?_, rfl, rfl⟩
  show (ad.1 0 _).toNat = (ad.1 0 _).toNat
  apply congrArg (fun z => (ad.1 0 z).toNat)
  funext a
  apply Fin.ext
  match a with
  | ⟨0, _⟩ =>
    show k2_off1 (grid2.coords t) 0 + 1 * 0 = t.val
    rw [(idx_facts t).2.2.2.2.2.2.1]; omega

-- A word of an admitted table names a slice of the gate array.
theorem tg_lt (k : Fin 40) : tg ad k < 8 := by
  have h : (((cfg2 ad).win 3).index ⟨k.val, k.isLt.trans_eq N_2.symm⟩ (0 : Fin 3) + 1) * 1 ≤ 8 :=
    (ad.2 (grid2.coords ⟨k.val, k.isLt.trans_eq N_2.symm⟩)).1 (0 : Fin 3)
  rw [(index3 ad _).1] at h
  change (tg ad k + 1) * 1 ≤ 8 at h
  omega

-- Row `p`, output `o` of the layer, with the gates of the agent of `p`'s tile.
def G (c : Dev nD) : OA.Idx → EReal := fun i =>
  act (Cert.Spec.kalei (fun k : Fin 512 => V c main_v86 (ValueIdx.ix2 (i 0 : Fin 20480) k))
    (fun (o : Fin nO) (k : Fin 512) => V c main_arg10 (ValueIdx.ix2 o k))
    (fun (o : Fin nO) (k : Fin 512) => V c main_arg12 (ValueIdx.ix3 (⟨tg ad (tileOf (i 0 : Fin 20480)), tg_lt ad _⟩ : Fin 8) o k))
    (fun (o : Fin nO) => V c main_v87 (ValueIdx.ix2 (0 : Fin 1) o)) (i 1 : Fin nO))

-- Through whole-block rectangles at offset zero, reading and writing are the identity.
theorem out_eq (x0 : Vec Ideal S512x512 .f32) (x1 : Vec Ideal WS .f32) (x2 : Vec Ideal BS .f32) (x3 : Vec Ideal GS .f32) :
    out x0 x1 x2 x3 = Gen.k2_pay1 (F := Ideal) x0 x1 x3 x2 := by
  unfold out
  rw [View.canon_unit_zero hz2, View.ld_unit_zero (S := S512x512) hz2, View.ld_unit_zero (S := WS) hz2,
    View.ld_unit_zero (S := BS) hz2, View.ld_unit_zero (S := GS) hz3]

theorem value (c : Dev nD)
    (hpay : ∀ (x : Vec Ideal S512x512 .f32) (w : Vec Ideal S512x512 .f32) (t : Vec Ideal S1x512x512 .f32) (b : Vec Ideal S1x512 .f32) (r : Fin 512) (o : Fin 512),
      Gen.k2_pay1 (F := Ideal) x w t b (ValueIdx.ix2 r o)
        = Cert.Spec.relu (Cert.Spec.kalei (fun i : Fin 512 => x (ValueIdx.ix2 r i)) (fun o i => w (ValueIdx.ix2 o i)) (fun o i => t (ValueIdx.ix3 (0 : Fin 1) o i)) (fun o => b (ValueIdx.ix2 (0 : Fin 1) o)) o))
    (p : Fin 20480) (o : Fin 512) :
    (dat (F := Ideal) V ad c).arrAt 4 (cfg2 ad).N (ValueIdx.ix2 p o)
      = Cert.Spec.relu (Cert.Spec.kalei (fun i : Fin 512 => V c main_v86 (ValueIdx.ix2 p i)) (fun o i => V c main_arg10 (ValueIdx.ix2 o i)) (fun o i => V c main_arg12 (ValueIdx.ix3 (⟨tg ad (tileOf p), tg_lt ad (tileOf p)⟩ : Fin 8) o i)) (fun o => V c main_v87 (ValueIdx.ix2 (0 : Fin 1) o)) o) := by
  have hN : (cfg2 ad).N = 40 := N_2
  have hp : p.val < 20480 := p.isLt
  obtain ⟨T, hT⟩ : ∃ T : Fin (cfg2 ad).N, T.val = p.val / 512 := ⟨⟨p.val / 512, by omega⟩, rfl⟩
  obtain ⟨-, -, -, -, f0, f1, -, hf⟩ := idx_facts T
  refine (dat V ad c).arrAt_apply_of_mem 4 (G V ad c) (fun t _ => funext fun j => ?_) _ T (ValueIdx.ix2 p o) T.isLt hf ?_
  · obtain ⟨e00, e01, z1, z2, e40, e41, -, -⟩ := idx_facts t
    obtain ⟨e30, e31, e32⟩ := index3 ad t
    obtain ⟨r, o, rfl⟩ : ∃ (r : Fin 512) (o : Fin nO), j = ValueIdx.ix2 r o := ⟨_, _, ValueIdx.eq_ix2 (n0 := 512) (n1 := nO) j⟩
    have hr : r.val < 512 := r.isLt
    refine (congrFun ((after_out V ad c t).trans (out_eq _ _ _ _)) _).trans ((hpay _ _ _ _ r o).trans
      (?_ : act (Cert.Spec.kalei _ _ _ _ o) = G V ad c ((((cfg2 ad).win 4).blk t).view.emb (ValueIdx.ix2 r o))))
    unfold G iblk
    congr 2
    · funext i
      refine congrArg (V c main_v86 : S20480x512.Idx → EReal) (Shape.idx_ext₂ ?_ ?_)
      · show cc2_transform_0 (grid2.coords t) 0 * 512 + 1 * r.val = cc2_transform_4 (grid2.coords t) 0 * 512 + 1 * r.val
        rw [e00, e40]
      · show cc2_transform_0 (grid2.coords t) 1 * 512 + 1 * i.val = i.val
        rw [e01]; omega
    · funext o i
      refine congrArg (V c main_arg10 : WS.Idx → EReal) (Shape.idx_ext₂ ?_ ?_)
      · show cc2_transform_1 (grid2.coords t) 0 * _ + 1 * o.val = o.val; rw [z1]; omega
      · show cc2_transform_1 (grid2.coords t) 1 * _ + 1 * i.val = i.val; rw [z1]; omega
    · funext o i
      refine congrArg (V c main_arg12 : GA.Idx → EReal) (funext fun a => Fin.ext ?_)
      match a with
      | ⟨0, _⟩ =>
        show ((cfg2 ad).win 3).index t (0 : Fin 3) * 1 + 1 * 0 = tg ad (tileOf _)
        rw [e30, Nat.mul_one, Nat.mul_zero, Nat.add_zero]
        exact congrArg (tg ad) (Fin.ext (by show t.val = (cc2_transform_4 (grid2.coords t) 0 * 512 + 1 * r.val) / 512; rw [e40]; omega))
      | ⟨1, _⟩ => show ((cfg2 ad).win 3).index t (1 : Fin 3) * _ + 1 * o.val = o.val; rw [e31]; omega
      | ⟨2, _⟩ => show ((cfg2 ad).win 3).index t (2 : Fin 3) * _ + 1 * i.val = i.val; rw [e32]; omega
    · funext o
      refine congrArg (V c main_v87 : BS.Idx → EReal) (Shape.idx_ext₂ ?_ ?_)
      · show cc2_transform_2 (grid2.coords t) 0 * _ + 1 * 0 = 0; rw [z2]; omega
      · show cc2_transform_2 (grid2.coords t) 1 * _ + 1 * o.val = o.val; rw [z2]; omega
    · exact Fin.ext (by show o.val = cc2_transform_4 (grid2.coords t) 1 * _ + 1 * o.val; rw [e41]; omega)
  · have hy : (((cfg2 ad).win 4).blk T).view.emb (ValueIdx.ix2 (⟨p.val % 512, by omega⟩ : Fin 512) (o : Fin nO)) = ValueIdx.ix2 p o :=
      Shape.idx_ext₂ (by show cc2_transform_4 (grid2.coords T) 0 * 512 + 1 * (p.val % 512) = p.val; rw [f0]; omega)
        (by show cc2_transform_4 (grid2.coords T) 1 * _ + 1 * o.val = o.val; rw [f1]; omega)
    rw [← hy]
    exact View.emb_mem_set _ _

end Cert.KernelIdeal.Reg2

end
-- ==== Proof.Region3Value.lean ====
import proofs.«409439_j24232205484239_2_alg».proof.Proof.Region3
import proofs.«409439_j24232205484239_2_alg».proof.Proof.Spec
import Idealize.ShloMosaic.Lib.Pipeline.Value
import Idealize.ShloMosaic.Lib.ValueIdx

noncomputable section

namespace Cert.KernelIdeal.Reg3

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (ad : (pcfg3 (F := Ideal)).Adm)

abbrev WS : Shape := S512x512
abbrev BS : Shape := S1x512
abbrev GS : Shape := S1x512x512
abbrev GA : Shape := S8x512x512
abbrev OA : Shape := S20480x512
abbrev nO : ℕ := 512
abbrev act (x : EReal) : EReal := Cert.Spec.relu x

theorem hz2 : (![0, 0] : Fin 2 → Nat) = fun _ => 0 := by decide
theorem hz3 : (![0, 0, 0] : Fin 3 → Nat) = fun _ => 0 := by decide

def tile (t : Fin (cfg3 ad).N) : Fin 40 := ⟨t.val, (show t.val < grid3.N from t.isLt).trans_eq N_3⟩

def tileOf (p : Fin 20480) : Fin 40 := ⟨p.val / 512, by have := p.isLt; omega⟩

def tg (k : Fin 40) : ℕ := (ad.1 0 (ValueIdx.ix1 k)).toNat

-- The index maps over the grid, decided: rows and outputs at the tile's number, weight and bias at zero, the table at the tile's word.
theorem idx_facts : ∀ t : Fin grid3.N, cc3_transform_0 (grid3.coords t) 0 = t.val ∧ cc3_transform_0 (grid3.coords t) 1 = 0
    ∧ (∀ a, cc3_transform_1 (grid3.coords t) a = 0) ∧ (∀ a, cc3_transform_2 (grid3.coords t) a = 0)
    ∧ cc3_transform_4 (grid3.coords t) 0 = t.val ∧ cc3_transform_4 (grid3.coords t) 1 = 0
    ∧ k3_off1 (grid3.coords t) 0 = t.val ∧ Pipeline.Window.flushOf grid3 true cc3_transform_4 t = true := by decide +kernel

theorem index3 (t : Fin (cfg3 ad).N) : ((cfg3 ad).win 3).index t (0 : Fin 3) = tg ad (tile ad t)
    ∧ ((cfg3 ad).win 3).index t (1 : Fin 3) = 0 ∧ ((cfg3 ad).win 3).index t (2 : Fin 3) = 0 := by
  refine ⟨?_, rfl, rfl⟩
  show (ad.1 0 _).toNat = (ad.1 0 _).toNat
  apply congrArg (fun z => (ad.1 0 z).toNat)
  funext a
  apply Fin.ext
  match a with
  | ⟨0, _⟩ =>
    show k3_off1 (grid3.coords t) 0 + 1 * 0 = t.val
    rw [(idx_facts t).2.2.2.2.2.2.1]; omega

-- A word of an admitted table names a slice of the gate array.
theorem tg_lt (k : Fin 40) : tg ad k < 8 := by
  have h : (((cfg3 ad).win 3).index ⟨k.val, k.isLt.trans_eq N_3.symm⟩ (0 : Fin 3) + 1) * 1 ≤ 8 :=
    (ad.2 (grid3.coords ⟨k.val, k.isLt.trans_eq N_3.symm⟩)).1 (0 : Fin 3)
  rw [(index3 ad _).1] at h
  change (tg ad k + 1) * 1 ≤ 8 at h
  omega

-- Row `p`, output `o` of the layer, with the gates of the agent of `p`'s tile.
def G (c : Dev nD) : OA.Idx → EReal := fun i =>
  act (Cert.Spec.kalei (fun k : Fin 512 => V c main_v88 (ValueIdx.ix2 (i 0 : Fin 20480) k))
    (fun (o : Fin nO) (k : Fin 512) => V c main_arg13 (ValueIdx.ix2 o k))
    (fun (o : Fin nO) (k : Fin 512) => V c main_arg15 (ValueIdx.ix3 (⟨tg ad (tileOf (i 0 : Fin 20480)), tg_lt ad _⟩ : Fin 8) o k))
    (fun (o : Fin nO) => V c main_v89 (ValueIdx.ix2 (0 : Fin 1) o)) (i 1 : Fin nO))

-- Through whole-block rectangles at offset zero, reading and writing are the identity.
theorem out_eq (x0 : Vec Ideal S512x512 .f32) (x1 : Vec Ideal WS .f32) (x2 : Vec Ideal BS .f32) (x3 : Vec Ideal GS .f32) :
    out x0 x1 x2 x3 = Gen.k3_pay1 (F := Ideal) x0 x1 x3 x2 := by
  unfold out
  rw [View.canon_unit_zero hz2, View.ld_unit_zero (S := S512x512) hz2, View.ld_unit_zero (S := WS) hz2,
    View.ld_unit_zero (S := BS) hz2, View.ld_unit_zero (S := GS) hz3]

theorem value (c : Dev nD)
    (hpay : ∀ (x : Vec Ideal S512x512 .f32) (w : Vec Ideal S512x512 .f32) (t : Vec Ideal S1x512x512 .f32) (b : Vec Ideal S1x512 .f32) (r : Fin 512) (o : Fin 512),
      Gen.k3_pay1 (F := Ideal) x w t b (ValueIdx.ix2 r o)
        = Cert.Spec.relu (Cert.Spec.kalei (fun i : Fin 512 => x (ValueIdx.ix2 r i)) (fun o i => w (ValueIdx.ix2 o i)) (fun o i => t (ValueIdx.ix3 (0 : Fin 1) o i)) (fun o => b (ValueIdx.ix2 (0 : Fin 1) o)) o))
    (p : Fin 20480) (o : Fin 512) :
    (dat (F := Ideal) V ad c).arrAt 4 (cfg3 ad).N (ValueIdx.ix2 p o)
      = Cert.Spec.relu (Cert.Spec.kalei (fun i : Fin 512 => V c main_v88 (ValueIdx.ix2 p i)) (fun o i => V c main_arg13 (ValueIdx.ix2 o i)) (fun o i => V c main_arg15 (ValueIdx.ix3 (⟨tg ad (tileOf p), tg_lt ad (tileOf p)⟩ : Fin 8) o i)) (fun o => V c main_v89 (ValueIdx.ix2 (0 : Fin 1) o)) o) := by
  have hN : (cfg3 ad).N = 40 := N_3
  have hp : p.val < 20480 := p.isLt
  obtain ⟨T, hT⟩ : ∃ T : Fin (cfg3 ad).N, T.val = p.val / 512 := ⟨⟨p.val / 512, by omega⟩, rfl⟩
  obtain ⟨-, -, -, -, f0, f1, -, hf⟩ := idx_facts T
  refine (dat V ad c).arrAt_apply_of_mem 4 (G V ad c) (fun t _ => funext fun j => ?_) _ T (ValueIdx.ix2 p o) T.isLt hf ?_
  · obtain ⟨e00, e01, z1, z2, e40, e41, -, -⟩ := idx_facts t
    obtain ⟨e30, e31, e32⟩ := index3 ad t
    obtain ⟨r, o, rfl⟩ : ∃ (r : Fin 512) (o : Fin nO), j = ValueIdx.ix2 r o := ⟨_, _, ValueIdx.eq_ix2 (n0 := 512) (n1 := nO) j⟩
    have hr : r.val < 512 := r.isLt
    refine (congrFun ((after_out V ad c t).trans (out_eq _ _ _ _)) _).trans ((hpay _ _ _ _ r o).trans
      (?_ : act (Cert.Spec.kalei _ _ _ _ o) = G V ad c ((((cfg3 ad).win 4).blk t).view.emb (ValueIdx.ix2 r o))))
    unfold G iblk
    congr 2
    · funext i
      refine congrArg (V c main_v88 : S20480x512.Idx → EReal) (Shape.idx_ext₂ ?_ ?_)
      · show cc3_transform_0 (grid3.coords t) 0 * 512 + 1 * r.val = cc3_transform_4 (grid3.coords t) 0 * 512 + 1 * r.val
        rw [e00, e40]
      · show cc3_transform_0 (grid3.coords t) 1 * 512 + 1 * i.val = i.val
        rw [e01]; omega
    · funext o i
      refine congrArg (V c main_arg13 : WS.Idx → EReal) (Shape.idx_ext₂ ?_ ?_)
      · show cc3_transform_1 (grid3.coords t) 0 * _ + 1 * o.val = o.val; rw [z1]; omega
      · show cc3_transform_1 (grid3.coords t) 1 * _ + 1 * i.val = i.val; rw [z1]; omega
    · funext o i
      refine congrArg (V c main_arg15 : GA.Idx → EReal) (funext fun a => Fin.ext ?_)
      match a with
      | ⟨0, _⟩ =>
        show ((cfg3 ad).win 3).index t (0 : Fin 3) * 1 + 1 * 0 = tg ad (tileOf _)
        rw [e30, Nat.mul_one, Nat.mul_zero, Nat.add_zero]
        exact congrArg (tg ad) (Fin.ext (by show t.val = (cc3_transform_4 (grid3.coords t) 0 * 512 + 1 * r.val) / 512; rw [e40]; omega))
      | ⟨1, _⟩ => show ((cfg3 ad).win 3).index t (1 : Fin 3) * _ + 1 * o.val = o.val; rw [e31]; omega
      | ⟨2, _⟩ => show ((cfg3 ad).win 3).index t (2 : Fin 3) * _ + 1 * i.val = i.val; rw [e32]; omega
    · funext o
      refine congrArg (V c main_v89 : BS.Idx → EReal) (Shape.idx_ext₂ ?_ ?_)
      · show cc3_transform_2 (grid3.coords t) 0 * _ + 1 * 0 = 0; rw [z2]; omega
      · show cc3_transform_2 (grid3.coords t) 1 * _ + 1 * o.val = o.val; rw [z2]; omega
    · exact Fin.ext (by show o.val = cc3_transform_4 (grid3.coords t) 1 * _ + 1 * o.val; rw [e41]; omega)
  · have hy : (((cfg3 ad).win 4).blk T).view.emb (ValueIdx.ix2 (⟨p.val % 512, by omega⟩ : Fin 512) (o : Fin nO)) = ValueIdx.ix2 p o :=
      Shape.idx_ext₂ (by show cc3_transform_4 (grid3.coords T) 0 * 512 + 1 * (p.val % 512) = p.val; rw [f0]; omega)
        (by show cc3_transform_4 (grid3.coords T) 1 * _ + 1 * o.val = o.val; rw [f1]; omega)
    rw [← hy]
    exact View.emb_mem_set _ _

end Cert.KernelIdeal.Reg3

end
-- ==== Proof.Region4Value.lean ====
import proofs.«409439_j24232205484239_2_alg».proof.Proof.Region4
import proofs.«409439_j24232205484239_2_alg».proof.Proof.Spec
import Idealize.ShloMosaic.Lib.Pipeline.Value
import Idealize.ShloMosaic.Lib.ValueIdx

noncomputable section

namespace Cert.KernelIdeal.Reg4

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (ad : (pcfg4 (F := Ideal)).Adm)

abbrev WS : Shape := S64x512
abbrev BS : Shape := S1x64
abbrev GS : Shape := S1x64x512
abbrev GA : Shape := S8x64x512
abbrev OA : Shape := S20480x64
abbrev nO : ℕ := 64
abbrev act (x : EReal) : EReal := x

theorem hz2 : (![0, 0] : Fin 2 → Nat) = fun _ => 0 := by decide
theorem hz3 : (![0, 0, 0] : Fin 3 → Nat) = fun _ => 0 := by decide

def tile (t : Fin (cfg4 ad).N) : Fin 40 := ⟨t.val, (show t.val < grid4.N from t.isLt).trans_eq N_4⟩

def tileOf (p : Fin 20480) : Fin 40 := ⟨p.val / 512, by have := p.isLt; omega⟩

def tg (k : Fin 40) : ℕ := (ad.1 0 (ValueIdx.ix1 k)).toNat

-- The index maps over the grid, decided: rows and outputs at the tile's number, weight and bias at zero, the table at the tile's word.
theorem idx_facts : ∀ t : Fin grid4.N, cc4_transform_0 (grid4.coords t) 0 = t.val ∧ cc4_transform_0 (grid4.coords t) 1 = 0
    ∧ (∀ a, cc4_transform_1 (grid4.coords t) a = 0) ∧ (∀ a, cc4_transform_2 (grid4.coords t) a = 0)
    ∧ cc4_transform_4 (grid4.coords t) 0 = t.val ∧ cc4_transform_4 (grid4.coords t) 1 = 0
    ∧ k4_off1 (grid4.coords t) 0 = t.val ∧ Pipeline.Window.flushOf grid4 true cc4_transform_4 t = true := by decide +kernel

theorem index3 (t : Fin (cfg4 ad).N) : ((cfg4 ad).win 3).index t (0 : Fin 3) = tg ad (tile ad t)
    ∧ ((cfg4 ad).win 3).index t (1 : Fin 3) = 0 ∧ ((cfg4 ad).win 3).index t (2 : Fin 3) = 0 := by
  refine ⟨?_, rfl, rfl⟩
  show (ad.1 0 _).toNat = (ad.1 0 _).toNat
  apply congrArg (fun z => (ad.1 0 z).toNat)
  funext a
  apply Fin.ext
  match a with
  | ⟨0, _⟩ =>
    show k4_off1 (grid4.coords t) 0 + 1 * 0 = t.val
    rw [(idx_facts t).2.2.2.2.2.2.1]; omega

-- A word of an admitted table names a slice of the gate array.
theorem tg_lt (k : Fin 40) : tg ad k < 8 := by
  have h : (((cfg4 ad).win 3).index ⟨k.val, k.isLt.trans_eq N_4.symm⟩ (0 : Fin 3) + 1) * 1 ≤ 8 :=
    (ad.2 (grid4.coords ⟨k.val, k.isLt.trans_eq N_4.symm⟩)).1 (0 : Fin 3)
  rw [(index3 ad _).1] at h
  change (tg ad k + 1) * 1 ≤ 8 at h
  omega

-- Row `p`, output `o` of the layer, with the gates of the agent of `p`'s tile.
def G (c : Dev nD) : OA.Idx → EReal := fun i =>
  act (Cert.Spec.kalei (fun k : Fin 512 => V c main_v90 (ValueIdx.ix2 (i 0 : Fin 20480) k))
    (fun (o : Fin nO) (k : Fin 512) => V c main_arg16 (ValueIdx.ix2 o k))
    (fun (o : Fin nO) (k : Fin 512) => V c main_arg18 (ValueIdx.ix3 (⟨tg ad (tileOf (i 0 : Fin 20480)), tg_lt ad _⟩ : Fin 8) o k))
    (fun (o : Fin nO) => V c main_v91 (ValueIdx.ix2 (0 : Fin 1) o)) (i 1 : Fin nO))

-- Through whole-block rectangles at offset zero, reading and writing are the identity.
theorem out_eq (x0 : Vec Ideal S512x512 .f32) (x1 : Vec Ideal WS .f32) (x2 : Vec Ideal BS .f32) (x3 : Vec Ideal GS .f32) :
    out x0 x1 x2 x3 = Gen.k4_pay1 (F := Ideal) x0 x1 x3 x2 := by
  unfold out
  rw [View.canon_unit_zero hz2, View.ld_unit_zero (S := S512x512) hz2, View.ld_unit_zero (S := WS) hz2,
    View.ld_unit_zero (S := BS) hz2, View.ld_unit_zero (S := GS) hz3]

theorem value (c : Dev nD)
    (hpay : ∀ (x : Vec Ideal S512x512 .f32) (w : Vec Ideal S64x512 .f32) (t : Vec Ideal S1x64x512 .f32) (b : Vec Ideal S1x64 .f32) (r : Fin 512) (o : Fin 64),
      Gen.k4_pay1 (F := Ideal) x w t b (ValueIdx.ix2 r o)
        = Cert.Spec.kalei (fun i : Fin 512 => x (ValueIdx.ix2 r i)) (fun o i => w (ValueIdx.ix2 o i)) (fun o i => t (ValueIdx.ix3 (0 : Fin 1) o i)) (fun o => b (ValueIdx.ix2 (0 : Fin 1) o)) o)
    (p : Fin 20480) (o : Fin 64) :
    (dat (F := Ideal) V ad c).arrAt 4 (cfg4 ad).N (ValueIdx.ix2 p o)
      = Cert.Spec.kalei (fun i : Fin 512 => V c main_v90 (ValueIdx.ix2 p i)) (fun o i => V c main_arg16 (ValueIdx.ix2 o i)) (fun o i => V c main_arg18 (ValueIdx.ix3 (⟨tg ad (tileOf p), tg_lt ad (tileOf p)⟩ : Fin 8) o i)) (fun o => V c main_v91 (ValueIdx.ix2 (0 : Fin 1) o)) o := by
  have hN : (cfg4 ad).N = 40 := N_4
  have hp : p.val < 20480 := p.isLt
  obtain ⟨T, hT⟩ : ∃ T : Fin (cfg4 ad).N, T.val = p.val / 512 := ⟨⟨p.val / 512, by omega⟩, rfl⟩
  obtain ⟨-, -, -, -, f0, f1, -, hf⟩ := idx_facts T
  refine (dat V ad c).arrAt_apply_of_mem 4 (G V ad c) (fun t _ => funext fun j => ?_) _ T (ValueIdx.ix2 p o) T.isLt hf ?_
  · obtain ⟨e00, e01, z1, z2, e40, e41, -, -⟩ := idx_facts t
    obtain ⟨e30, e31, e32⟩ := index3 ad t
    obtain ⟨r, o, rfl⟩ : ∃ (r : Fin 512) (o : Fin nO), j = ValueIdx.ix2 r o := ⟨_, _, ValueIdx.eq_ix2 (n0 := 512) (n1 := nO) j⟩
    have hr : r.val < 512 := r.isLt
    refine (congrFun ((after_out V ad c t).trans (out_eq _ _ _ _)) _).trans ((hpay _ _ _ _ r o).trans
      (?_ : act (Cert.Spec.kalei _ _ _ _ o) = G V ad c ((((cfg4 ad).win 4).blk t).view.emb (ValueIdx.ix2 r o))))
    unfold G iblk
    congr 2
    · funext i
      refine congrArg (V c main_v90 : S20480x512.Idx → EReal) (Shape.idx_ext₂ ?_ ?_)
      · show cc4_transform_0 (grid4.coords t) 0 * 512 + 1 * r.val = cc4_transform_4 (grid4.coords t) 0 * 512 + 1 * r.val
        rw [e00, e40]
      · show cc4_transform_0 (grid4.coords t) 1 * 512 + 1 * i.val = i.val
        rw [e01]; omega
    · funext o i
      refine congrArg (V c main_arg16 : WS.Idx → EReal) (Shape.idx_ext₂ ?_ ?_)
      · show cc4_transform_1 (grid4.coords t) 0 * _ + 1 * o.val = o.val; rw [z1]; omega
      · show cc4_transform_1 (grid4.coords t) 1 * _ + 1 * i.val = i.val; rw [z1]; omega
    · funext o i
      refine congrArg (V c main_arg18 : GA.Idx → EReal) (funext fun a => Fin.ext ?_)
      match a with
      | ⟨0, _⟩ =>
        show ((cfg4 ad).win 3).index t (0 : Fin 3) * 1 + 1 * 0 = tg ad (tileOf _)
        rw [e30, Nat.mul_one, Nat.mul_zero, Nat.add_zero]
        exact congrArg (tg ad) (Fin.ext (by show t.val = (cc4_transform_4 (grid4.coords t) 0 * 512 + 1 * r.val) / 512; rw [e40]; omega))
      | ⟨1, _⟩ => show ((cfg4 ad).win 3).index t (1 : Fin 3) * _ + 1 * o.val = o.val; rw [e31]; omega
      | ⟨2, _⟩ => show ((cfg4 ad).win 3).index t (2 : Fin 3) * _ + 1 * i.val = i.val; rw [e32]; omega
    · funext o
      refine congrArg (V c main_v91 : BS.Idx → EReal) (Shape.idx_ext₂ ?_ ?_)
      · show cc4_transform_2 (grid4.coords t) 0 * _ + 1 * 0 = 0; rw [z2]; omega
      · show cc4_transform_2 (grid4.coords t) 1 * _ + 1 * o.val = o.val; rw [z2]; omega
    · exact Fin.ext (by show o.val = cc4_transform_4 (grid4.coords t) 1 * _ + 1 * o.val; rw [e41]; omega)
  · have hy : (((cfg4 ad).win 4).blk T).view.emb (ValueIdx.ix2 (⟨p.val % 512, by omega⟩ : Fin 512) (o : Fin nO)) = ValueIdx.ix2 p o :=
      Shape.idx_ext₂ (by show cc4_transform_4 (grid4.coords T) 0 * 512 + 1 * (p.val % 512) = p.val; rw [f0]; omega)
        (by show cc4_transform_4 (grid4.coords T) 1 * _ + 1 * o.val = o.val; rw [f1]; omega)
    rw [← hy]
    exact View.emb_mem_set _ _

end Cert.KernelIdeal.Reg4

end
-- ==== Proof.PayKalei.lean ====
/- At row r and output o the tile's term is the masked dense layer of row r with the gate slice of the tile's agent. -/
import proofs.«409439_j24232205484239_2_alg».proof.Proof.Gen.KernelIdeal.Skeleton
import proofs.«409439_j24232205484239_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.SL.Sem Idealize.ShloMosaic.ValueIdx

theorem wmask_apply {s : Shape} (w g : FVec Ideal s .f32) (j : s.Idx) :
    mulf
        (select (cmpf .ogt (absf w) (broadcast s (Scalar.ofBits .f32 0x00000000#32)))
          (select (cmpf .olt w (constant s .f32 0x00000000#32)) (constant s .f32 0xBF800000#32)
            (constant s .f32 0x3F800000#32)) w)
        (maximumf (subf (absf w) (logistic g)) (broadcast s (Scalar.ofBits .f32 0x00000000#32))) j
      = Cert.Spec.wmask (w j) (g j) := by
  show Scalar.select (FloatOps.cmpf .ogt (FloatOps.absf (w j)) (Scalar.ofBits .f32 0x00000000#32))
        (Scalar.select (FloatOps.cmpf .olt (w j) (Scalar.ofBits .f32 0x00000000#32)) (Scalar.ofBits .f32 0xBF800000#32)
          (Scalar.ofBits .f32 0x3F800000#32)) (w j)
      * max (max (w j) (-(w j)) - Ideal.logistic (g j)) (Ideal.ofBits .f32 0x00000000#32) = _
  rw [Ideal.jnp_sign_eq_sign_f32, Ideal.ofBits_zero_f32]
  rfl

theorem lhs_512_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
theorem lhs_512_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_512_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl
theorem rhs_512_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

theorem matmul_512_apply (L R : FVec Ideal S512x512 .bf16) (r o : Fin 512) :
    matmul dot_S512x512_S512x512_S512x512_1_1_0_0_n_n none L R (constant S512x512 .f32 0x00000000#32) (ValueIdx.ix2 r o)
      = ∑ k : Fin 512, L (ValueIdx.ix2 r k) * R (ValueIdx.ix2 o k) := by
  show FloatOps.matmul dot_S512x512_S512x512_S512x512_1_1_0_0_n_n none L R (constant S512x512 .f32 0x00000000#32) (ValueIdx.ix2 r o) = _
  rw [Ideal.matmul_constant_zero_apply,
    ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ValueIdx.ix2 r o)
      ((ValueIdx.contrEquiv1 dot_S512x512_S512x512_S512x512_1_1_0_0_n_n 512 rfl rfl).symm k) = ValueIdx.ix2 r k :=
    funext fun a => Fin.ext (by
      match a with
      | ⟨0, _⟩ => exact lhs_512_0 _ _
      | ⟨1, _⟩ => exact (lhs_512_1 _ _).trans hk)
  have er : dot_S512x512_S512x512_S512x512_1_1_0_0_n_n.rhsIdx (ValueIdx.ix2 r o)
      ((ValueIdx.contrEquiv1 dot_S512x512_S512x512_S512x512_1_1_0_0_n_n 512 rfl rfl).symm k) = ValueIdx.ix2 o k :=
    funext fun a => Fin.ext (by
      match a with
      | ⟨0, _⟩ => exact rhs_512_0 _ _
      | ⟨1, _⟩ => exact (rhs_512_1 _ _).trans hk)
  rw [el, er]

theorem k0_pay1_apply (x w : Vec Ideal S512x512 .f32) (t : Vec Ideal S1x512x512 .f32) (b : Vec Ideal S1x512 .f32)
    (r o : Fin 512) :
    Cert.KernelIdeal.Gen.k0_pay1 (F := Ideal) x w t b (ValueIdx.ix2 r o)
      = Cert.Spec.relu (Cert.Spec.kalei (fun i : Fin 512 => x (ValueIdx.ix2 r i)) (fun o i => w (ValueIdx.ix2 o i))
          (fun o i => t (ValueIdx.ix3 (0 : Fin 1) o i)) (fun o => b (ValueIdx.ix2 (0 : Fin 1) o)) o) := by
  unfold Cert.KernelIdeal.Gen.k0_pay1
  simp only [maximumf_apply, addf_apply, broadcast_apply]
  rw [shapeCast_self x, shapeCast_self b, broadcastTo_1b_ab_apply, matmul_512_apply]
  simp only [truncf_apply, wmask_apply, shapeCast_1ab_ab_apply]
  show max _ (Ideal.ofBits .f32 0x00000000#32) = _
  rw [Ideal.ofBits_zero_f32]
  rfl

theorem k2_pay1_apply (x w : Vec Ideal S512x512 .f32) (t : Vec Ideal S1x512x512 .f32) (b : Vec Ideal S1x512 .f32)
    (r o : Fin 512) :
    Cert.KernelIdeal.Gen.k2_pay1 (F := Ideal) x w t b (ValueIdx.ix2 r o)
      = Cert.Spec.relu (Cert.Spec.kalei (fun i : Fin 512 => x (ValueIdx.ix2 r i)) (fun o i => w (ValueIdx.ix2 o i))
          (fun o i => t (ValueIdx.ix3 (0 : Fin 1) o i)) (fun o => b (ValueIdx.ix2 (0 : Fin 1) o)) o) :=
  k0_pay1_apply x w t b r o

theorem k3_pay1_apply (x w : Vec Ideal S512x512 .f32) (t : Vec Ideal S1x512x512 .f32) (b : Vec Ideal S1x512 .f32)
    (r o : Fin 512) :
    Cert.KernelIdeal.Gen.k3_pay1 (F := Ideal) x w t b (ValueIdx.ix2 r o)
      = Cert.Spec.relu (Cert.Spec.kalei (fun i : Fin 512 => x (ValueIdx.ix2 r i)) (fun o i => w (ValueIdx.ix2 o i))
          (fun o i => t (ValueIdx.ix3 (0 : Fin 1) o i)) (fun o => b (ValueIdx.ix2 (0 : Fin 1) o)) o) :=
  k0_pay1_apply x w t b r o

theorem lhs_64_0 (i : S512x64.Idx) (q : dot_S512x512_S64x512_S512x64_1_1_0_0_n_n.contr.Idx) :
    (dot_S512x512_S64x512_S512x64_1_1_0_0_n_n.lhsIdx i q 0).val = (i 0).val := by
  unfold DotDims.lhsIdx
  rw [dif_neg (show ¬(0 : Fin S512x512.rank) ∈ dot_S512x512_S64x512_S512x64_1_1_0_0_n_n.lhsBatch by decide),
    dif_pos (show (0 : Fin S512x512.rank) ∈ dot_S512x512_S64x512_S512x64_1_1_0_0_n_n.lhsNonContracting by decide)]
  rfl
theorem lhs_64_1 (i : S512x64.Idx) (q : dot_S512x512_S64x512_S512x64_1_1_0_0_n_n.contr.Idx) :
    (dot_S512x512_S64x512_S512x64_1_1_0_0_n_n.lhsIdx i q 1).val = (q ⟨0, by decide⟩).val :=
  dot_S512x512_S64x512_S512x64_1_1_0_0_n_n.lhsIdx_val_of_single rfl i q
theorem rhs_64_0 (i : S512x64.Idx) (q : dot_S512x512_S64x512_S512x64_1_1_0_0_n_n.contr.Idx) :
    (dot_S512x512_S64x512_S512x64_1_1_0_0_n_n.rhsIdx i q 0).val = (i 1).val := by
  unfold DotDims.rhsIdx
  rw [dif_neg (show ¬(0 : Fin S64x512.rank) ∈ dot_S512x512_S64x512_S512x64_1_1_0_0_n_n.rhsBatch by decide),
    dif_pos (show (0 : Fin S64x512.rank) ∈ dot_S512x512_S64x512_S512x64_1_1_0_0_n_n.rhsNonContracting by decide)]
  rfl
theorem rhs_64_1 (i : S512x64.Idx) (q : dot_S512x512_S64x512_S512x64_1_1_0_0_n_n.contr.Idx) :
    (dot_S512x512_S64x512_S512x64_1_1_0_0_n_n.rhsIdx i q 1).val = (q ⟨0, by decide⟩).val :=
  dot_S512x512_S64x512_S512x64_1_1_0_0_n_n.rhsIdx_val_of_single rfl i q

theorem matmul_64_apply (L : FVec Ideal S512x512 .bf16) (R : FVec Ideal S64x512 .bf16) (r : Fin 512) (o : Fin 64) :
    matmul dot_S512x512_S64x512_S512x64_1_1_0_0_n_n none L R (constant S512x64 .f32 0x00000000#32) (ValueIdx.ix2 r o)
      = ∑ k : Fin 512, L (ValueIdx.ix2 r k) * R (ValueIdx.ix2 o k) := by
  show FloatOps.matmul dot_S512x512_S64x512_S512x64_1_1_0_0_n_n none L R (constant S512x64 .f32 0x00000000#32) (ValueIdx.ix2 r o) = _
  rw [Ideal.matmul_constant_zero_apply,
    ← Equiv.sum_comp (ValueIdx.contrEquiv1 dot_S512x512_S64x512_S512x64_1_1_0_0_n_n 512 rfl rfl).symm]
  refine Finset.sum_congr rfl fun k _ => ?_
  have hk := ValueIdx.contrEquiv1_symm_val dot_S512x512_S64x512_S512x64_1_1_0_0_n_n 512 rfl rfl k
  have el : dot_S512x512_S64x512_S512x64_1_1_0_0_n_n.lhsIdx (ValueIdx.ix2 r o)
      ((ValueIdx.contrEquiv1 dot_S512x512_S64x512_S512x64_1_1_0_0_n_n 512 rfl rfl).symm k) = ValueIdx.ix2 r k :=
    funext fun a => Fin.ext (by
      match a with
      | ⟨0, _⟩ => exact lhs_64_0 _ _
      | ⟨1, _⟩ => exact (lhs_64_1 _ _).trans hk)
  have er : dot_S512x512_S64x512_S512x64_1_1_0_0_n_n.rhsIdx (ValueIdx.ix2 r o)
      ((ValueIdx.contrEquiv1 dot_S512x512_S64x512_S512x64_1_1_0_0_n_n 512 rfl rfl).symm k) = ValueIdx.ix2 o k :=
    funext fun a => Fin.ext (by
      match a with
      | ⟨0, _⟩ => exact rhs_64_0 _ _
      | ⟨1, _⟩ => exact (rhs_64_1 _ _).trans hk)
  rw [el, er]

theorem k4_pay1_apply (x : Vec Ideal S512x512 .f32) (w : Vec Ideal S64x512 .f32) (t : Vec Ideal S1x64x512 .f32)
    (b : Vec Ideal S1x64 .f32) (r : Fin 512) (o : Fin 64) :
    Cert.KernelIdeal.Gen.k4_pay1 (F := Ideal) x w t b (ValueIdx.ix2 r o)
      = Cert.Spec.kalei (fun i : Fin 512 => x (ValueIdx.ix2 r i)) (fun o i => w (ValueIdx.ix2 o i))
          (fun o i => t (ValueIdx.ix3 (0 : Fin 1) o i)) (fun o => b (ValueIdx.ix2 (0 : Fin 1) o)) o := by
  unfold Cert.KernelIdeal.Gen.k4_pay1
  simp only [addf_apply]
  rw [shapeCast_self x, shapeCast_self b, broadcastTo_1b_ab_apply, matmul_64_apply]
  simp only [truncf_apply, wmask_apply, shapeCast_1ab_ab_apply]
  rfl

end Cert.KernelIdeal.Pay

end
-- ==== Proof.PayGru.lean ====
/- At row r and column o the tile's term is the one-row recurrent cell applied to row r; column o of gate k is column 512·k + o of the wide product. -/
import proofs.«409439_j24232205484239_2_alg».proof.Proof.Gen.KernelIdeal.Skeleton
import proofs.«409439_j24232205484239_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

open scoped BigOperators

noncomputable section

namespace Cert.KernelIdeal.Pay

open Idealize.ShloMosaic Idealize.SL.Sem
open Idealize.ShloMosaic.ValueIdx
open Cert.KernelIdeal Cert.KernelIdeal.Gen

theorem lhs_0 (j : S512x1536.Idx) (q : dot_S512x512_S1536x512_S512x1536_1_1_0_0_n_n.contr.Idx) :
    (dot_S512x512_S1536x512_S512x1536_1_1_0_0_n_n.lhsIdx j q 0).val = (j 0).val := by
  unfold DotDims.lhsIdx
  rw [dif_neg (show ¬(0 : Fin S512x512.rank) ∈ dot_S512x512_S1536x512_S512x1536_1_1_0_0_n_n.lhsBatch by decide),
    dif_pos (show (0 : Fin S512x512.rank) ∈ dot_S512x512_S1536x512_S512x1536_1_1_0_0_n_n.lhsNonContracting by decide)]
  rfl

theorem lhs_1 (j : S512x1536.Idx) (q : dot_S512x512_S1536x512_S512x1536_1_1_0_0_n_n.contr.Idx) :
    (dot_S512x512_S1536x512_S512x1536_1_1_0_0_n_n.lhsIdx j q 1).val = (q ⟨0, by decide⟩).val :=
  dot_S512x512_S1536x512_S512x1536_1_1_0_0_n_n.lhsIdx_val_of_single rfl j q

theorem rhs_0 (j : S512x1536.Idx) (q : dot_S512x512_S1536x512_S512x1536_1_1_0_0_n_n.contr.Idx) :
    (dot_S512x512_S1536x512_S512x1536_1_1_0_0_n_n.rhsIdx j q 0).val = (j 1).val := by
  unfold DotDims.rhsIdx
  rw [dif_neg (show ¬(0 : Fin S1536x512.rank) ∈ dot_S512x512_S1536x512_S512x1536_1_1_0_0_n_n.rhsBatch by decide),
    dif_pos (show (0 : Fin S1536x512.rank) ∈ dot_S512x512_S1536x512_S512x1536_1_1_0_0_n_n.rhsNonContracting by decide)]
  rfl

theorem rhs_1 (j : S512x1536.Idx) (q : dot_S512x512_S1536x512_S512x1536_1_1_0_0_n_n.contr.Idx) :
    (dot_S512x512_S1536x512_S512x1536_1_1_0_0_n_n.rhsIdx j q 1).val = (q ⟨0, by decide⟩).val :=
  dot_S512x512_S1536x512_S512x1536_1_1_0_0_n_n.rhsIdx_val_of_single rfl j q

theorem matmul_zero_apply {φ₁ φ₂ : FTy} (a : FVec Ideal S512x512 φ₁) (w : FVec Ideal S1536x512 φ₂) (r : Fin 512) (c : Fin 1536) :
    matmul dot_S512x512_S1536x512_S512x1536_1_1_0_0_n_n none a w (constant S512x1536 .f32 0x00000000#32) (ValueIdx.ix2 r c)
      = ∑ i : Fin 512, a (ValueIdx.ix2 r i) * w (ValueIdx.ix2 c i) := by
  simp only [matmul]
  rw [Ideal.matmul_constant_zero_apply,
    ← Equiv.sum_comp (contrEquiv1 dot_S512x512_S1536x512_S512x1536_1_1_0_0_n_n 512 rfl rfl).symm]
  refine Finset.sum_congr rfl fun k _ => ?_
  have hk := contrEquiv1_symm_val dot_S512x512_S1536x512_S512x1536_1_1_0_0_n_n 512 rfl rfl k
  have el : dot_S512x512_S1536x512_S512x1536_1_1_0_0_n_n.lhsIdx (ValueIdx.ix2 r c)
      ((contrEquiv1 dot_S512x512_S1536x512_S512x1536_1_1_0_0_n_n 512 rfl rfl).symm k) = ValueIdx.ix2 r k :=
    funext fun a => Fin.ext (by
      match a with
      | ⟨0, _⟩ => exact lhs_0 _ _
      | ⟨1, _⟩ => exact (lhs_1 _ _).trans hk)
  have er : dot_S512x512_S1536x512_S512x1536_1_1_0_0_n_n.rhsIdx (ValueIdx.ix2 r c)
      ((contrEquiv1 dot_S512x512_S1536x512_S512x1536_1_1_0_0_n_n 512 rfl rfl).symm k) = ValueIdx.ix2 c k :=
    funext fun a => Fin.ext (by
      match a with
      | ⟨0, _⟩ => exact rhs_0 _ _
      | ⟨1, _⟩ => exact (rhs_1 _ _).trans hk)
  rw [el, er]

theorem bias_apply {α : Type} (b : S1x1536.Idx → α) (r : Fin 512) (c : Fin 1536) :
    broadcastTo S512x1536 b broadcasts_S1x1536_S512x1536 (ValueIdx.ix2 r c) = b (ValueIdx.ix2 0 c) :=
  broadcastTo_apply b broadcasts_S1x1536_S512x1536 (ValueIdx.ix2 r c) (ValueIdx.ix2 0 c) fun a => by
    match a with
    | ⟨0, _⟩ => rfl
    | ⟨1, _⟩ => rfl

theorem slice0_apply {α : Type} (v : S512x1536.Idx → α) (r o : Fin 512) :
    extractStridedSlice S512x512 ![0, 0] v slices_S512x1536_o0_0_S512x512 (ValueIdx.ix2 r o) = v (ValueIdx.ix2 r (Cert.Spec.gate 0 o)) :=
  extractStridedSlice_apply ![0, 0] v slices_S512x1536_o0_0_S512x512 (ValueIdx.ix2 r o) (ValueIdx.ix2 r (Cert.Spec.gate 0 o)) fun a => by
    match a with
    | ⟨0, _⟩ => show r.val = 0 + r.val; omega
    | ⟨1, _⟩ => show 512 * 0 + o.val = 0 + o.val; omega

theorem slice1_apply {α : Type} (v : S512x1536.Idx → α) (r o : Fin 512) :
    extractStridedSlice S512x512 ![0, 512] v slices_S512x1536_o0_512_S512x512 (ValueIdx.ix2 r o) = v (ValueIdx.ix2 r (Cert.Spec.gate 1 o)) :=
  extractStridedSlice_apply ![0, 512] v slices_S512x1536_o0_512_S512x512 (ValueIdx.ix2 r o) (ValueIdx.ix2 r (Cert.Spec.gate 1 o)) fun a => by
    match a with
    | ⟨0, _⟩ => show r.val = 0 + r.val; omega
    | ⟨1, _⟩ => show 512 * 1 + o.val = 512 + o.val; omega

theorem slice2_apply {α : Type} (v : S512x1536.Idx → α) (r o : Fin 512) :
    extractStridedSlice S512x512 ![0, 1024] v slices_S512x1536_o0_1024_S512x512 (ValueIdx.ix2 r o) = v (ValueIdx.ix2 r (Cert.Spec.gate 2 o)) :=
  extractStridedSlice_apply ![0, 1024] v slices_S512x1536_o0_1024_S512x512 (ValueIdx.ix2 r o) (ValueIdx.ix2 r (Cert.Spec.gate 2 o)) fun a => by
    match a with
    | ⟨0, _⟩ => show r.val = 0 + r.val; omega
    | ⟨1, _⟩ => show 512 * 2 + o.val = 1024 + o.val; omega

theorem logistic_apply {s : Shape} {φ : FTy} (a : FVec Ideal s φ) (i : s.Idx) :
    Idealize.ShloMosaic.logistic a i = Ideal.logistic (a i) := rfl

theorem tanh_apply {s : Shape} {φ : FTy} (a : FVec Ideal s φ) (i : s.Idx) :
    Idealize.ShloMosaic.tanh a i = Ideal.tanh (a i) := rfl

theorem k1_pay1_apply (x h : Vec Ideal S512x512 .f32) (wih whh : Vec Ideal S1536x512 .f32)
    (bih bhh : Vec Ideal S1x1536 .f32) (r o : Fin 512) :
    Cert.KernelIdeal.Gen.k1_pay1 (F := Ideal) x h wih whh bih bhh (ValueIdx.ix2 r o)
      = Cert.Spec.gru (fun i : Fin 512 => x (ValueIdx.ix2 r i)) (fun i => h (ValueIdx.ix2 r i))
          (fun j i => wih (ValueIdx.ix2 j i)) (fun j i => whh (ValueIdx.ix2 j i))
          (fun j => bih (ValueIdx.ix2 0 j)) (fun j => bhh (ValueIdx.ix2 0 j)) o := by
  unfold Cert.KernelIdeal.Gen.k1_pay1
  simp only [shapeCast_self]
  simp only [addf_apply, mulf_apply, subf_apply, broadcast_apply, logistic_apply, tanh_apply,
    slice0_apply, slice1_apply, slice2_apply, matmul_zero_apply, bias_apply, truncf_apply,
    Scalar.ofBits, Ideal.ofBits_def, Ideal.ofBits_one_f32]
  unfold Cert.Spec.gru Cert.Spec.dense
  rfl

end Cert.KernelIdeal.Pay

end
-- ==== Proof.Args.lean ====
/- Row n = 8·b + a of the flattened batch is entry (b, a) of the first two axes; the argument arrays read as the network's rows and parameters. -/
import proofs.«409439_j24232205484239_2_alg».proof.Proof.Spec
import Idealize.ShloMosaic.Lib.ValueIdx

noncomputable section

namespace Cert.Spec

open Idealize.ShloMosaic Idealize.ShloMosaic.ValueIdx

def rb (n : Fin 16384) : Fin 2048 := ⟨n.val / 8, by have := n.isLt; omega⟩

def ra (n : Fin 16384) : Fin 8 := ⟨n.val % 8, by omega⟩

structure Arrays where
  a0 : (⟨3, ![2048, 8, 512]⟩ : Shape).Idx → EReal
  a1 : (⟨3, ![2048, 8, 512]⟩ : Shape).Idx → EReal
  a2 : (⟨2, ![2048, 8]⟩ : Shape).Idx → BitVec 32
  a3 : (⟨2, ![512, 512]⟩ : Shape).Idx → EReal
  a4 : (⟨1, ![512]⟩ : Shape).Idx → EReal
  a5 : (⟨3, ![8, 512, 512]⟩ : Shape).Idx → EReal
  a6 : (⟨2, ![1536, 512]⟩ : Shape).Idx → EReal
  a7 : (⟨2, ![1536, 512]⟩ : Shape).Idx → EReal
  a8 : (⟨1, ![1536]⟩ : Shape).Idx → EReal
  a9 : (⟨1, ![1536]⟩ : Shape).Idx → EReal
  a10 : (⟨2, ![512, 512]⟩ : Shape).Idx → EReal
  a11 : (⟨1, ![512]⟩ : Shape).Idx → EReal
  a12 : (⟨3, ![8, 512, 512]⟩ : Shape).Idx → EReal
  a13 : (⟨2, ![512, 512]⟩ : Shape).Idx → EReal
  a14 : (⟨1, ![512]⟩ : Shape).Idx → EReal
  a15 : (⟨3, ![8, 512, 512]⟩ : Shape).Idx → EReal
  a16 : (⟨2, ![64, 512]⟩ : Shape).Idx → EReal
  a17 : (⟨1, ![64]⟩ : Shape).Idx → EReal
  a18 : (⟨3, ![8, 64, 512]⟩ : Shape).Idx → EReal

namespace Arrays

variable (A : Arrays)

def params : Params where
  W1 o i := A.a3 (ix2 o i)
  b1 o := A.a4 (ix1 o)
  t1 a o i := A.a5 (ix3 a o i)
  wih j i := A.a6 (ix2 j i)
  whh j i := A.a7 (ix2 j i)
  bih j := A.a8 (ix1 j)
  bhh j := A.a9 (ix1 j)
  W2 o i := A.a10 (ix2 o i)
  b2 o := A.a11 (ix1 o)
  t2 a o i := A.a12 (ix3 a o i)
  W3 o i := A.a13 (ix2 o i)
  b3 o := A.a14 (ix1 o)
  t3 a o i := A.a15 (ix3 a o i)
  W4 o i := A.a16 (ix2 o i)
  b4 o := A.a17 (ix1 o)
  t4 a o i := A.a18 (ix3 a o i)

def x (b : Fin 2048) (a : Fin 8) : Fin 512 → EReal := fun i => A.a0 (ix3 b a i)

def h (b : Fin 2048) (a : Fin 8) : Fin 512 → EReal := fun i => A.a1 (ix3 b a i)

def InRange : Prop := ∀ (b : Fin 2048) (a : Fin 8), (A.a2 (ix2 b a)).toNat < 8

def ag (hr : A.InRange) (b : Fin 2048) (a : Fin 8) : Fin 8 := ⟨(A.a2 (ix2 b a)).toNat, hr b a⟩

def Q (hr : A.InRange) : (⟨3, ![2048, 8, 64]⟩ : Shape).Idx → EReal :=
  fun j => q A.params (A.ag hr (j 0) (j 1)) (A.x (j 0) (j 1)) (A.h (j 0) (j 1)) (j 2)

def Hout (hr : A.InRange) : (⟨3, ![2048, 8, 512]⟩ : Shape).Idx → EReal :=
  fun j => hid A.params (A.ag hr (j 0) (j 1)) (A.x (j 0) (j 1)) (A.h (j 0) (j 1)) (j 2)

end Arrays

end Cert.Spec

end
-- ==== Proof.LibHostRead.lean ====
/- Gathers and scatters of whole rows by a column of index words, concatenation, column sums and matrix products, each read at an index on the extended reals. -/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value

noncomputable section

namespace Cert.HostRead

open Idealize.ShloMosaic Idealize.ShloMosaic.ValueIdx
open scoped BigOperators

theorem rowGather_apply {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![M, 1]⟩ w) (p : Fin M) (q : Fin D) (hN : 0 < N) :
    Host.gather d x idx (ix2 p q) = x (ix2 ⟨min (idx (ix2 p 0)).toInt.toNat (N - 1), by omega⟩ q) := by
  obtain ⟨od, cd, ob, sb, sm, ivd, ss, wf⟩ := d
  subst hoff hcoll hob hsb hsim hivd
  set d : GatherDims ⟨2, ![N, D]⟩ ⟨2, ![M, 1]⟩ ⟨2, ![M, D]⟩ := ⟨[1], [0], [], [], [0], 1, ss, wf⟩ with hd
  have hsl : ss 0 = 1 := d.slice_collapsed 0 (List.mem_singleton.mpr rfl)
  have hb : ∀ a : Fin 2, a ∉ d.operandBatchingDims := fun a => List.not_mem_nil
  unfold Host.gather
  congr 1
  funext a
  refine Fin.ext ?_
  match a with
  | ⟨0, _⟩ =>
    show d.start (ix2 p q) idx 0 + d.batchCoord (ix2 p q) 0 + d.offCoord (ix2 p q) 0 = min (idx (ix2 p 0)).toInt.toNat (N - 1)
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 p q) ⟨List.idxOf (0 : Fin 2) d.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    show min (idx (ix2 p 0)).toInt.toNat (N - ss 0) = _
    rw [hsl]
  | ⟨1, _⟩ =>
    show d.start (ix2 p q) idx 1 + d.batchCoord (ix2 p q) 1 + d.offCoord (ix2 p q) 1 = q.val
    rw [GatherDims.batchCoord_eq_zero _ _ _ (hb 1)]
    have hst : d.start (ix2 p q) idx 1 = 0 := by
      unfold GatherDims.start
      rw [dif_neg (show (1 : Fin 2) ∉ [(0 : Fin 2)] by decide)]
    rw [hst]
    unfold GatherDims.offCoord
    have hk : (1 : Fin 2) ∈ d.sKept := (by decide : (1 : Fin 2) ∈ (List.finRange 2).filter (· ∉ [(0 : Fin 2)] ++ []))
    rw [dif_pos hk]
    simp only [Nat.zero_add]
    rfl

end Cert.HostRead

end
-- ==== Proof.LibHostTake.lean ====
/- Taking rows by index words: a word that is a small natural number below the row count reads that row. -/
import Idealize.ShloMosaic.Lib.ValueIdx
import Idealize.ShloMosaic.Lib.Pipeline.Value
import Idealize.ShloMosaic.Lib.StableHlo.Predicate
import Idealize.ShloMosaic.PureOps.Reduce
import proofs.«409439_j24232205484239_2_alg».proof.Proof.LibHostRead

noncomputable section

namespace Cert.HostRead

open Idealize.ShloMosaic Idealize.ShloMosaic.ValueIdx

theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => hx i ?_
  simpa using (List.mem_filter.1 hi).2

variable {α : Type} {N M D : Nat}

def takeWrap (b0 : (⟨0, ![]⟩ : Shape).BroadcastsInDim ⟨1, ![M]⟩ ![]) (c0 cN : BitVec 32) (I : IVec ⟨1, ![M]⟩ 32) :
    IVec ⟨1, ![M]⟩ 32 :=
  select (cmpi .slt I (broadcastInDim ⟨1, ![M]⟩ ![] b0 (constantI ⟨0, ![]⟩ 32 c0)))
    (addi I (broadcastInDim ⟨1, ![M]⟩ ![] b0 (constantI ⟨0, ![]⟩ 32 cN))) I

def takeCol (b0 : (⟨0, ![]⟩ : Shape).BroadcastsInDim ⟨1, ![M]⟩ ![])
    (bc : (⟨1, ![M]⟩ : Shape).BroadcastsInDim ⟨2, ![M, 1]⟩ ![0]) (c0 cN : BitVec 32) (I : IVec ⟨1, ![M]⟩ 32) :
    IVec ⟨2, ![M, 1]⟩ 32 :=
  broadcastInDim ⟨2, ![M, 1]⟩ ![0] bc (takeWrap b0 c0 cN I)

def takeRows (d : GatherDims ⟨2, ![N, D]⟩ ⟨2, ![M, 1]⟩ ⟨2, ![M, D]⟩)
    (b0 : (⟨0, ![]⟩ : Shape).BroadcastsInDim ⟨1, ![M]⟩ ![])
    (bc : (⟨1, ![M]⟩ : Shape).BroadcastsInDim ⟨2, ![M, 1]⟩ ![0])
    (bm : (⟨1, ![M]⟩ : Shape).BroadcastsInDim ⟨2, ![M, D]⟩ ![0])
    (bz : (⟨0, ![]⟩ : Shape).BroadcastsInDim ⟨2, ![M, 1]⟩ ![])
    (b1 : (⟨1, ![1]⟩ : Shape).BroadcastsInDim ⟨2, ![1, 1]⟩ ![1])
    (bh : (⟨2, ![1, 1]⟩ : Shape).BroadcastsInDim ⟨2, ![M, 1]⟩ ![0, 1])
    (red : (⟨2, ![M, 1]⟩ : Shape).ReducesTo [1] ⟨1, ![M]⟩) (hu : 0 < (⟨0, ![]⟩ : Shape).numel)
    (c0 cN z hi : BitVec 32) (X : (⟨2, ![N, D]⟩ : Shape).Idx → α) (I : IVec ⟨1, ![M]⟩ 32)
    (fill : (⟨2, ![M, D]⟩ : Shape).Idx → α) : (⟨2, ![M, D]⟩ : Shape).Idx → α :=
  select
    (broadcastInDim ⟨2, ![M, D]⟩ ![0] bm
      (Host.reduce IntOp.andi
        (andi
          (cmpi .sge (takeCol b0 bc c0 cN I) (broadcastInDim ⟨2, ![M, 1]⟩ ![] bz (constantI ⟨0, ![]⟩ 32 z)))
          (cmpi .sle (takeCol b0 bc c0 cN I)
            (broadcastInDim ⟨2, ![M, 1]⟩ ![0, 1] bh (broadcastInDim ⟨2, ![1, 1]⟩ ![1] b1 (constantI ⟨1, ![1]⟩ 32 hi)))))
        (constantI ⟨0, ![]⟩ 1 1#1) red hu))
    (Host.gather d X (takeCol b0 bc c0 cN I)) fill

theorem takeWrap_apply (b0 : (⟨0, ![]⟩ : Shape).BroadcastsInDim ⟨1, ![M]⟩ ![]) (cN : BitVec 32) (I : IVec ⟨1, ![M]⟩ 32)
    (p : Fin M) (n : Nat) (hn : n < 2 ^ 31) (hI : I (ix1 p) = BitVec.ofNat 32 n) :
    takeWrap b0 0#32 cN I (ix1 p) = BitVec.ofNat 32 n := by
  unfold takeWrap
  rw [select_apply]
  have hc : cmpi .slt I (broadcastInDim ⟨1, ![M]⟩ ![] b0 (constantI ⟨0, ![]⟩ 32 0#32)) (ix1 p) ≠ 1#1 := by
    show IntOp.cmpi .slt (I (ix1 p)) 0#32 ≠ 1#1
    rw [hI]
    intro h
    have := (StableHlo.Predicate.slt_iff_toNat (a := BitVec.ofNat 32 n) (b := 0#32)
      (by rw [BitVec.toNat_ofNat]; omega) (by decide)).1 h
    simp at this
  exact (if_neg hc).trans hI

theorem takeCol_apply (b0 : (⟨0, ![]⟩ : Shape).BroadcastsInDim ⟨1, ![M]⟩ ![])
    (bc : (⟨1, ![M]⟩ : Shape).BroadcastsInDim ⟨2, ![M, 1]⟩ ![0]) (cN : BitVec 32) (I : IVec ⟨1, ![M]⟩ 32)
    (p : Fin M) (n : Nat) (hn : n < 2 ^ 31) (hI : I (ix1 p) = BitVec.ofNat 32 n) :
    takeCol b0 bc 0#32 cN I (ix2 p 0) = BitVec.ofNat 32 n := by
  unfold takeCol
  rw [broadcastInDim_apply ![0] bc _ (ix2 p 0) (ix1 p) (fun a => by
    have ha : a = 0 := Subsingleton.elim _ _
    subst ha
    have hp := p.isLt
    show p.val = if M = 1 then 0 else p.val
    split <;> omega)]
  exact takeWrap_apply b0 cN I p n hn hI

theorem takeRows_apply (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (b0 : (⟨0, ![]⟩ : Shape).BroadcastsInDim ⟨1, ![M]⟩ ![])
    (bc : (⟨1, ![M]⟩ : Shape).BroadcastsInDim ⟨2, ![M, 1]⟩ ![0])
    (bm : (⟨1, ![M]⟩ : Shape).BroadcastsInDim ⟨2, ![M, D]⟩ ![0])
    (bz : (⟨0, ![]⟩ : Shape).BroadcastsInDim ⟨2, ![M, 1]⟩ ![])
    (b1 : (⟨1, ![1]⟩ : Shape).BroadcastsInDim ⟨2, ![1, 1]⟩ ![1])
    (bh : (⟨2, ![1, 1]⟩ : Shape).BroadcastsInDim ⟨2, ![M, 1]⟩ ![0, 1])
    (red : (⟨2, ![M, 1]⟩ : Shape).ReducesTo [1] ⟨1, ![M]⟩) (hu : 0 < (⟨0, ![]⟩ : Shape).numel)
    (cN hi : BitVec 32) (X : (⟨2, ![N, D]⟩ : Shape).Idx → α) (I : IVec ⟨1, ![M]⟩ 32)
    (fill : (⟨2, ![M, D]⟩ : Shape).Idx → α) (hN : N < 2 ^ 31) (hhi : hi = BitVec.ofNat 32 (N - 1))
    (p : Fin M) (n : Fin N) (hI : I (ix1 p) = BitVec.ofNat 32 n.val) (q : Fin D) :
    takeRows d b0 bc bm bz b1 bh red hu 0#32 cN 0#32 hi X I fill (ix2 p q) = X (ix2 n q) := by
  have hnN := n.isLt
  have hJ := takeCol_apply b0 bc cN I p n.val (by omega) hI
  unfold takeRows
  rw [select_apply, broadcastInDim_apply ![0] bm _ (ix2 p q) (ix1 p) (fun a => by
    have ha : a = 0 := Subsingleton.elim _ _
    subst ha
    have hp := p.isLt
    show p.val = if M = 1 then 0 else p.val
    split <;> omega)]
  refine (congrArg (Scalar.select · _ _) (reduce_andi_of_all _ _ red hu (ix1 p) rfl fun i hi' => ?_)).trans ?_
  · have hi0 : i = ix2 p 0 := by
      have h0 : (red.drop i 0 : Nat) = (i 0 : Nat) := rfl
      rw [hi'] at h0
      funext a
      match a with
      | ⟨0, _⟩ => exact Fin.ext h0.symm
      | ⟨1, _⟩ => exact Subsingleton.elim (α := Fin 1) _ _
    subst hi0
    show IntOp.andi (IntOp.cmpi .sge (takeCol b0 bc 0#32 cN I (ix2 p 0)) 0#32)
      (IntOp.cmpi .sle (takeCol b0 bc 0#32 cN I (ix2 p 0)) hi) = 1#1
    rw [hJ, hhi]
    have h1 : IntOp.cmpi .sge (BitVec.ofNat 32 n.val) 0#32 = 1#1 :=
      (StableHlo.Predicate.sge_iff_toNat (by rw [BitVec.toNat_ofNat]; omega) (by decide)).2 (by simp)
    have h2 : IntOp.cmpi .sle (BitVec.ofNat 32 n.val) (BitVec.ofNat 32 (N - 1)) = 1#1 :=
      (StableHlo.Predicate.sle_iff_toNat (by rw [BitVec.toNat_ofNat]; omega) (by rw [BitVec.toNat_ofNat]; omega)).2
        (by rw [BitVec.toNat_ofNat, BitVec.toNat_ofNat]; omega)
    rw [h1, h2]; decide
  rw [select_one, rowGather_apply d hoff hcoll hob hsb hsim hivd X _ p q (by omega)]
  refine congrArg X (congrArg (fun a => ix2 a q) (Fin.ext ?_))
  show min (takeCol b0 bc 0#32 cN I (ix2 p 0)).toInt.toNat (N - 1) = n.val
  rw [hJ, StableHlo.Predicate.toInt_ofNat_small n.val (by omega)]
  omega

end Cert.HostRead

end
-- ==== Proof.HostFloat.lean ====
import proofs.«409439_j24232205484239_2_alg».proof.Proof.Gen.KernelIdeal.Regions
import proofs.«409439_j24232205484239_2_alg».proof.Proof.Args
import proofs.«409439_j24232205484239_2_alg».proof.Proof.LibHostTake
import Idealize.ShloMosaic.Lib.ValueIdx
import Idealize.ShloMosaic.Lib.ValueLayout
import Idealize.ShloMosaic.Lib.Pipeline.Value
import Idealize.ShloMosaic.Lib.StableHlo.Run

set_option maxRecDepth 1700

noncomputable section

namespace Cert.KernelIdeal.HostF

open Idealize.ShloMosaic Idealize.ShloMosaic.TcCoe
open Cert.KernelIdeal Cert.KernelIdeal.Gen
open Cert.HostRead

variable {F : FTy → Type} [FloatOps F]
variable (m : (ℓ : Loc nD τ sig) → Buf (Elt F) ℓ) (outs : Outs (F := F))

/-- Row `n` of an array with the two batch axes merged is entry `(n / 8, n % 8)`. -/
theorem merged_apply {α : Type} (X : S2048x8x512.Idx → α) (n : Fin 16384) (i : Fin 512) :
    shapeCast S16384x512 X shapeCasts_S2048x8x512_S16384x512 (ValueIdx.ix2 n i)
      = X (ValueIdx.ix3 (Cert.Spec.rb n) (Cert.Spec.ra n) i) := by
  refine shapeCast_apply X _ _ _ ?_
  rw [Shape.rowMajor_val_three, Shape.rowMajor_val_two]
  show ((n.val / 8) * 8 + n.val % 8) * 512 + i.val = n.val * 512 + i.val
  omega

/-- Entry `(n / 8, n % 8)` of an array with the row axis split is row `n`. -/
theorem split_apply {α : Type} {k : Nat} (X : (⟨2, ![16384, k]⟩ : Shape).Idx → α)
    (h : (⟨2, ![16384, k]⟩ : Shape).ShapeCasts ⟨3, ![2048, 8, k]⟩) (n : Fin 16384) (o : Fin k) :
    shapeCast ⟨3, ![2048, 8, k]⟩ X h (ValueIdx.ix3 (Cert.Spec.rb n) (Cert.Spec.ra n) o) = X (ValueIdx.ix2 n o) := by
  refine shapeCast_apply X _ _ _ ?_
  rw [Shape.rowMajor_val_three, Shape.rowMajor_val_two]
  show n.val * k + o.val = ((n.val / 8) * 8 + n.val % 8) * k + o.val
  rw [Nat.div_add_mod' n.val 8]

/-- A vector as a one-row matrix, read at `(0, o)`. -/
theorem row_apply {α : Type} {k : Nat} (X : (⟨1, ![k]⟩ : Shape).Idx → α)
    (h : (⟨1, ![k]⟩ : Shape).ShapeCasts ⟨2, ![1, k]⟩) (o : Fin k) :
    shapeCast ⟨2, ![1, k]⟩ X h (ValueIdx.ix2 0 o) = X (ValueIdx.ix1 o) := by
  refine shapeCast_apply X _ _ _ ?_
  rw [Shape.rowMajor_val_one, Shape.rowMajor_val_two]
  show o.val = 0 * k + o.val
  omega

/-- The buffers after the first `j` items of the program. -/
noncomputable abbrev Vn (c : Dev nD) : ℕ → Valuation τ sig (Elt F)
  | 0 => V0 m c | 1 => V1 m c | 2 => V2 m c | 3 => V3 m c | 4 => V4 m c | 5 => V5 m c | 6 => V6 m c
  | 7 => V7 m c | 8 => V8 m c | 9 => V9 m c | 10 => V10 m c | 11 => V11 m c | 12 => V12 m c | 13 => V13 m c
  | 14 => V14 m outs c | 15 => V15 m outs c | 16 => V16 m outs c | 17 => V17 m outs c | 18 => V18 m outs c
  | 19 => V19 m outs c | 20 => V20 m outs c | 21 => V21 m outs c | 22 => V22 m outs c | 23 => V23 m outs c
  | 24 => V24 m outs c | _ => V25 m outs c

/-- The buffers item `j` may write. -/
noncomputable def Wn : ℕ → List (Ref sig .tc)
  | 0 => hostOps0_W | 1 => hostOps0_1_W | 2 => hostOps0_2_W | 3 => hostOps0_3_W | 4 => hostOps0_4_W
  | 5 => hostOps0_5_W | 6 => hostOps0_6_W | 7 => hostOps0_7_W | 8 => hostOps0_8_W | 9 => hostOps0_9_W
  | 10 => hostOps0_10_W | 11 => hostOps0_11_W | 12 => hostOps0_12_W | 13 => [main_v83] | 14 => hostOps1_W
  | 15 => [main_v86] | 16 => hostOps2_W | 17 => [main_v88] | 18 => hostOps3_W | 19 => [main_v90]
  | 20 => hostOps4_W | 21 => [main_v92] | 22 => hostOps5_W | 23 => hostOps5_1_W | 24 => hostOps5_2_W | _ => []

/-- An item leaves alone every buffer it does not write. -/
theorem Vn_succ (c : Dev nD) (r : Ref sig .tc) (j : ℕ) (hj : j < 25) (h : r ∉ Wn j) :
    Vn m outs c (j + 1) r = Vn m outs c j r := by
  interval_cases j
  exacts [V1_of m c r h, V2_of m c r h, V3_of m c r h, V4_of m c r h, V5_of m c r h, V6_of m c r h, V7_of m c r h,
    V8_of m c r h, V9_of m c r h, V10_of m c r h, V11_of m c r h, V12_of m c r h, V13_of m c r h,
    V14_of m outs c r h, V15_of m outs c r h, V16_of m outs c r h, V17_of m outs c r h, V18_of m outs c r h,
    V19_of m outs c r h, V20_of m outs c r h, V21_of m outs c r h, V22_of m outs c r h, V23_of m outs c r h,
    V24_of m outs c r h, V25_of m outs c r h]

/-- A buffer that none of the items `i, …, j - 1` writes holds after them what it held before them. -/
theorem stay (c : Dev nD) (i j : ℕ) (r : Ref sig .tc) (hij : i ≤ j ∧ j ≤ 25 := by decide)
    (h : ∀ k, i ≤ k → k < j → r ∉ Wn k := by decide) : Vn m outs c j r = Vn m outs c i r := by
  obtain ⟨hi, hj⟩ := hij
  induction j, hi using Nat.le_induction with
  | base => rfl
  | succ j hj' ih =>
    exact (Vn_succ m outs c r j hj (h j hj' j.lt_succ_self)).trans
      (ih (fun k a b => h k a (Nat.lt_succ_of_lt b)) (Nat.le_of_succ_le hj))

/-- Some contents for what the regions leave: nothing before the first region depends on them. -/
noncomputable def outs₀ : Outs (F := F) := fun _ _ _ => m _

set_option maxHeartbeats 1000000 in
/-- The sorted inputs: padded row `p`, where the gather table holds `n`, is row `n` of the merged inputs. -/
theorem v80_read (W : Valuation τ sig (Elt F)) (p : Fin 20480) (n : Fin 16384)
    (hg : (W main_v58 : S20480.Idx → BitVec 32) (ValueIdx.ix1 p) = BitVec.ofNat 32 n.val) (i : Fin 512) :
    (StableHlo.after hostOps0_10 W main_v80 : S20480x512.Idx → Elt F .f32) (ValueIdx.ix2 p i)
      = (W main_v0 : S16384x512.Idx → Elt F .f32) (ValueIdx.ix2 n i) := by
  dsimp only [hostOps0_10]; after_results
  simp only [StableHlo.TRef.ofBuf, StableHlo.TRef.toBuf, cast_eq]
  exact takeRows_apply gather_S16384x512_S20480x1_S20480x512_1_0_n_n_0_1_1512 rfl rfl rfl rfl rfl rfl _ _ _ _ _ _ _ _ _ _ _ _ _ (by decide) rfl p n hg i

set_option maxHeartbeats 1000000 in
/-- The same for the sorted hidden state. -/
theorem v81_read (W : Valuation τ sig (Elt F)) (p : Fin 20480) (n : Fin 16384)
    (hg : (W main_v58 : S20480.Idx → BitVec 32) (ValueIdx.ix1 p) = BitVec.ofNat 32 n.val) (i : Fin 512) :
    (StableHlo.after hostOps0_11 W main_v81 : S20480x512.Idx → Elt F .f32) (ValueIdx.ix2 p i)
      = (W main_v1 : S16384x512.Idx → Elt F .f32) (ValueIdx.ix2 n i) := by
  dsimp only [hostOps0_11]; after_results
  simp only [StableHlo.TRef.ofBuf, StableHlo.TRef.toBuf, cast_eq]
  exact takeRows_apply gather_S16384x512_S20480x1_S20480x512_1_0_n_n_0_1_1512 rfl rfl rfl rfl rfl rfl _ _ _ _ _ _ _ _ _ _ _ _ _ (by decide) rfl p n hg i

theorem x_sorted (c : Dev nD) (p : Fin 20480) (n : Fin 16384)
    (hg : (V13 m c main_v58 : S20480.Idx → BitVec 32) (ValueIdx.ix1 p) = BitVec.ofNat 32 n.val) (i : Fin 512) :
    (V13 m c main_v80 : S20480x512.Idx → Elt F .f32) (ValueIdx.ix2 p i)
      = (V0 m c main_arg0 : S2048x8x512.Idx → Elt F .f32) (ValueIdx.ix3 (Cert.Spec.rb n) (Cert.Spec.ra n) i) := by
  have e80 : V13 m c main_v80 = StableHlo.after hostOps0_10 (V10 m c) main_v80 := stay m (outs₀ m) c 11 13 _
  have e58 : V13 m c main_v58 = V10 m c main_v58 := stay m (outs₀ m) c 10 13 _
  have e0 : V10 m c main_v0 = StableHlo.after hostOps0 (V0 m c) main_v0 := stay m (outs₀ m) c 1 10 _
  rw [e58] at hg
  rw [e80, v80_read _ p n hg i, e0]
  dsimp only [hostOps0]; after_results
  exact merged_apply _ n i

theorem h_sorted (c : Dev nD) (p : Fin 20480) (n : Fin 16384)
    (hg : (V13 m c main_v58 : S20480.Idx → BitVec 32) (ValueIdx.ix1 p) = BitVec.ofNat 32 n.val) (i : Fin 512) :
    (V13 m c main_v81 : S20480x512.Idx → Elt F .f32) (ValueIdx.ix2 p i)
      = (V0 m c main_arg1 : S2048x8x512.Idx → Elt F .f32) (ValueIdx.ix3 (Cert.Spec.rb n) (Cert.Spec.ra n) i) := by
  have e81 : V13 m c main_v81 = StableHlo.after hostOps0_11 (V11 m c) main_v81 := stay m (outs₀ m) c 12 13 _
  have e58 : V13 m c main_v58 = V11 m c main_v58 := stay m (outs₀ m) c 11 13 _
  have e1 : V11 m c main_v1 = StableHlo.after hostOps0 (V0 m c) main_v1 := stay m (outs₀ m) c 1 11 _
  rw [e58] at hg
  rw [e81, v81_read _ p n hg i, e1]
  dsimp only [hostOps0]; after_results
  exact merged_apply _ n i

theorem arg3_V13 (c : Dev nD) : V13 m c main_arg3 = V0 m c main_arg3 := stay m (outs₀ m) c 0 13 _
theorem arg5_V13 (c : Dev nD) : V13 m c main_arg5 = V0 m c main_arg5 := stay m (outs₀ m) c 0 13 _
theorem arg6_V15 (c : Dev nD) : V15 m outs c main_arg6 = V0 m c main_arg6 := stay m outs c 0 15 _
theorem arg7_V15 (c : Dev nD) : V15 m outs c main_arg7 = V0 m c main_arg7 := stay m outs c 0 15 _
theorem arg10_V17 (c : Dev nD) : V17 m outs c main_arg10 = V0 m c main_arg10 := stay m outs c 0 17 _
theorem arg12_V17 (c : Dev nD) : V17 m outs c main_arg12 = V0 m c main_arg12 := stay m outs c 0 17 _
theorem arg13_V19 (c : Dev nD) : V19 m outs c main_arg13 = V0 m c main_arg13 := stay m outs c 0 19 _
theorem arg15_V19 (c : Dev nD) : V19 m outs c main_arg15 = V0 m c main_arg15 := stay m outs c 0 19 _
theorem arg16_V21 (c : Dev nD) : V21 m outs c main_arg16 = V0 m c main_arg16 := stay m outs c 0 21 _
theorem arg18_V21 (c : Dev nD) : V21 m outs c main_arg18 = V0 m c main_arg18 := stay m outs c 0 21 _

theorem b1_row (c : Dev nD) (o : Fin 512) :
    (V13 m c main_v82 : S1x512.Idx → Elt F .f32) (ValueIdx.ix2 0 o) = (V0 m c main_arg4 : S512.Idx → Elt F .f32) (ValueIdx.ix1 o) := by
  rw [← show V12 m c main_arg4 = V0 m c main_arg4 from stay m (outs₀ m) c 0 12 _]
  dsimp only [V13, hostOps0_12]; generalize V12 m c = W; after_results
  exact row_apply _ _ o

theorem bih_row (c : Dev nD) (o : Fin 1536) :
    (V15 m outs c main_v84 : S1x1536.Idx → Elt F .f32) (ValueIdx.ix2 0 o) = (V0 m c main_arg8 : S1536.Idx → Elt F .f32) (ValueIdx.ix1 o) := by
  rw [← show V14 m outs c main_arg8 = V0 m c main_arg8 from stay m outs c 0 14 _]
  dsimp only [V15, hostOps1]; generalize V14 m outs c = W; after_results
  exact row_apply _ _ o

theorem bhh_row (c : Dev nD) (o : Fin 1536) :
    (V15 m outs c main_v85 : S1x1536.Idx → Elt F .f32) (ValueIdx.ix2 0 o) = (V0 m c main_arg9 : S1536.Idx → Elt F .f32) (ValueIdx.ix1 o) := by
  rw [← show V14 m outs c main_arg9 = V0 m c main_arg9 from stay m outs c 0 14 _]
  dsimp only [V15, hostOps1]; generalize V14 m outs c = W; after_results
  exact row_apply _ _ o

theorem b2_row (c : Dev nD) (o : Fin 512) :
    (V17 m outs c main_v87 : S1x512.Idx → Elt F .f32) (ValueIdx.ix2 0 o) = (V0 m c main_arg11 : S512.Idx → Elt F .f32) (ValueIdx.ix1 o) := by
  rw [← show V16 m outs c main_arg11 = V0 m c main_arg11 from stay m outs c 0 16 _]
  dsimp only [V17, hostOps2]; generalize V16 m outs c = W; after_results
  exact row_apply _ _ o

theorem b3_row (c : Dev nD) (o : Fin 512) :
    (V19 m outs c main_v89 : S1x512.Idx → Elt F .f32) (ValueIdx.ix2 0 o) = (V0 m c main_arg14 : S512.Idx → Elt F .f32) (ValueIdx.ix1 o) := by
  rw [← show V18 m outs c main_arg14 = V0 m c main_arg14 from stay m outs c 0 18 _]
  dsimp only [V19, hostOps3]; generalize V18 m outs c = W; after_results
  exact row_apply _ _ o

theorem b4_row (c : Dev nD) (o : Fin 64) :
    (V21 m outs c main_v91 : S1x64.Idx → Elt F .f32) (ValueIdx.ix2 0 o) = (V0 m c main_arg17 : S64.Idx → Elt F .f32) (ValueIdx.ix1 o) := by
  rw [← show V20 m outs c main_arg17 = V0 m c main_arg17 from stay m outs c 0 20 _]
  dsimp only [V21, hostOps4]; generalize V20 m outs c = W; after_results
  exact row_apply _ _ o

theorem v81_V15 (c : Dev nD) : V15 m outs c main_v81 = V13 m c main_v81 := stay m outs c 13 15 _

theorem v83_V15 (c : Dev nD) : V15 m outs c main_v83 = outs 14 main_v83 c :=
  (stay m outs c 14 15 _).trans (Function.update_self _ _ _)

theorem v86_V17 (c : Dev nD) : V17 m outs c main_v86 = outs 16 main_v86 c :=
  (stay m outs c 16 17 _).trans (Function.update_self _ _ _)

theorem v88_V19 (c : Dev nD) : V19 m outs c main_v88 = outs 18 main_v88 c :=
  (stay m outs c 18 19 _).trans (Function.update_self _ _ _)

theorem v90_V21 (c : Dev nD) : V21 m outs c main_v90 = outs 20 main_v90 c :=
  (stay m outs c 20 21 _).trans (Function.update_self _ _ _)

set_option maxHeartbeats 1000000 in
/-- The new hidden rows in the callers' order: row `n`, where the scatter table holds `D`, is padded row `D`. -/
theorem v93_read (W : Valuation τ sig (Elt F)) (n : Fin 16384) (D : Fin 20480)
    (hd : (W main_v66 : S16384.Idx → BitVec 32) (ValueIdx.ix1 n) = BitVec.ofNat 32 D.val) (o : Fin 512) :
    (StableHlo.after hostOps5 W main_v93 : S16384x512.Idx → Elt F .f32) (ValueIdx.ix2 n o)
      = (W main_v86 : S20480x512.Idx → Elt F .f32) (ValueIdx.ix2 D o) := by
  dsimp only [hostOps5]; after_results
  simp only [StableHlo.TRef.ofBuf, StableHlo.TRef.toBuf, cast_eq]
  exact takeRows_apply gather_S20480x512_S16384x1_S16384x512_1_0_n_n_0_1_1512 rfl rfl rfl rfl rfl rfl _ _ _ _ _ _ _ _ _ _ _ _ _ (by decide) rfl n D hd o

set_option maxHeartbeats 1000000 in
/-- The same for the output rows. -/
theorem v94_read (W : Valuation τ sig (Elt F)) (n : Fin 16384) (D : Fin 20480)
    (hd : (W main_v66 : S16384.Idx → BitVec 32) (ValueIdx.ix1 n) = BitVec.ofNat 32 D.val) (o : Fin 64) :
    (StableHlo.after hostOps5_1 W main_v94 : S16384x64.Idx → Elt F .f32) (ValueIdx.ix2 n o)
      = (W main_v92 : S20480x64.Idx → Elt F .f32) (ValueIdx.ix2 D o) := by
  dsimp only [hostOps5_1]; after_results
  simp only [StableHlo.TRef.ofBuf, StableHlo.TRef.toBuf, cast_eq]
  exact takeRows_apply gather_S20480x64_S16384x1_S16384x64_1_0_n_n_0_1_164 rfl rfl rfl rfl rfl rfl _ _ _ _ _ _ _ _ _ _ _ _ _ (by decide) rfl n D hd o

/-- The two results are those rows with the row axis split. -/
theorem v95_read (W : Valuation τ sig (Elt F)) (n : Fin 16384) (o : Fin 64) :
    (StableHlo.after hostOps5_2 W main_v95 : S2048x8x64.Idx → Elt F .f32) (ValueIdx.ix3 (Cert.Spec.rb n) (Cert.Spec.ra n) o)
      = (W main_v94 : S16384x64.Idx → Elt F .f32) (ValueIdx.ix2 n o) := by
  dsimp only [hostOps5_2]; after_results; exact split_apply _ _ n o
theorem v96_read (W : Valuation τ sig (Elt F)) (n : Fin 16384) (o : Fin 512) :
    (StableHlo.after hostOps5_2 W main_v96 : S2048x8x512.Idx → Elt F .f32) (ValueIdx.ix3 (Cert.Spec.rb n) (Cert.Spec.ra n) o)
      = (W main_v93 : S16384x512.Idx → Elt F .f32) (ValueIdx.ix2 n o) := by
  dsimp only [hostOps5_2]; after_results; exact split_apply _ _ n o

theorem res_q (c : Dev nD) (n : Fin 16384) (D : Fin 20480)
    (hd : (V13 m c main_v66 : S16384.Idx → BitVec 32) (ValueIdx.ix1 n) = BitVec.ofNat 32 D.val) (o : Fin 64) :
    (V25 m outs c main_v95 : S2048x8x64.Idx → Elt F .f32) (ValueIdx.ix3 (Cert.Spec.rb n) (Cert.Spec.ra n) o)
      = (outs 22 main_v92 c : S20480x64.Idx → Elt F .f32) (ValueIdx.ix2 D o) := by
  have e66 : V23 m outs c main_v66 = V13 m c main_v66 := stay m outs c 13 23 _
  have e92 : V23 m outs c main_v92 = outs 22 main_v92 c := (stay m outs c 22 23 _).trans (Function.update_self _ _ _)
  rw [← e66] at hd
  refine (v95_read (V24 m outs c) n o).trans ((v94_read (V23 m outs c) n D hd o).trans ?_)
  rw [e92]

theorem res_h (c : Dev nD) (n : Fin 16384) (D : Fin 20480)
    (hd : (V13 m c main_v66 : S16384.Idx → BitVec 32) (ValueIdx.ix1 n) = BitVec.ofNat 32 D.val) (o : Fin 512) :
    (V25 m outs c main_v96 : S2048x8x512.Idx → Elt F .f32) (ValueIdx.ix3 (Cert.Spec.rb n) (Cert.Spec.ra n) o)
      = (outs 16 main_v86 c : S20480x512.Idx → Elt F .f32) (ValueIdx.ix2 D o) := by
  have e66 : V22 m outs c main_v66 = V13 m c main_v66 := stay m outs c 13 22 _
  have e86 : V22 m outs c main_v86 = outs 16 main_v86 c := (stay m outs c 16 22 _).trans (Function.update_self _ _ _)
  have e93 : V24 m outs c main_v93 = StableHlo.after hostOps5 (V22 m outs c) main_v93 := stay m outs c 23 24 _
  rw [← e66] at hd
  refine (v96_read (V24 m outs c) n o).trans ?_
  rw [e93, v93_read _ n D hd o, e86]

end Cert.KernelIdeal.HostF

end
-- ==== Proof.RouteLemmas.lean ====
/- A stable sort by small non-negative keys leaves them nondecreasing; a scatter at distinct positions leaves each update where it starts. -/
import Idealize.ShloMosaic.Lib.SortFacts
import Idealize.ShloMosaic.Lib.StableHlo.Predicate
import Idealize.ShloMosaic.Lib.ValueIdx

namespace Cert.KernelIdeal.RouteS

open Idealize.ShloMosaic Idealize.ShloMosaic.StableHlo.Predicate

def keyBefore {n : ℕ} (keys : Fin n → BitVec 32) (k k' : Fin n) : Bool :=
  IntOp.cmpi .slt (keys k) (keys k') == 1#1

theorem keyBefore_false_iff {n : ℕ} (keys : Fin n → BitVec 32) (hk : ∀ k, (keys k).toNat < 2 ^ 31) (a b : Fin n) :
    keyBefore keys a b = false ↔ (keys b).toNat ≤ (keys a).toNat := by
  unfold keyBefore
  rw [beq_eq_false_iff_ne, ne_eq, slt_iff_toNat (hk a) (hk b)]
  omega

theorem keyBefore_true_iff {n : ℕ} (keys : Fin n → BitVec 32) (hk : ∀ k, (keys k).toNat < 2 ^ 31) (a b : Fin n) :
    keyBefore keys a b = true ↔ (keys a).toNat < (keys b).toNat := by
  unfold keyBefore
  rw [beq_iff_eq, slt_iff_toNat (hk a) (hk b)]

theorem sorted_keys {n : ℕ} (keys : Fin n → BitVec 32) (hk : ∀ k, (keys k).toNat < 2 ^ 31) (i j : Fin n) (hij : i < j) :
    (keys (sortedFrom (keyBefore keys) i)).toNat ≤ (keys (sortedFrom (keyBefore keys) j)).toNat := by
  have h := sortedFrom_noInversion (keyBefore keys) (keyBefore keys) ?_ ?_ ?_ i j hij
  · exact (keyBefore_false_iff keys hk _ _).mp h
  · intro a b hab
    rw [keyBefore_true_iff keys hk] at hab
    rw [keyBefore_false_iff keys hk]
    omega
  · intro a b h; exact h
  · intro a b c hab hbc
    rw [keyBefore_false_iff keys hk] at hab hbc ⊢
    omega

section Fold
variable {ι κ α : Type} [DecidableEq κ]

def putStep (R : ι → Option κ) (upd : ι → α) (r : κ → α) (n : ι) : κ → α :=
  match R n with
  | some i => fun i' => if i' = i then upd n else r i'
  | none => r

theorem putStep_some (R : ι → Option κ) (upd : ι → α) (r : κ → α) (n : ι) (i : κ) (h : R n = some i) (i' : κ) :
    putStep R upd r n i' = if i' = i then upd n else r i' := by
  unfold putStep; rw [h]

theorem foldl_putStep_of_ne (R : ι → Option κ) (upd : ι → α) (g : ι → κ) (l : List ι) (hR : ∀ n ∈ l, R n = some (g n))
    (x : κ → α) (i' : κ) (hne : ∀ n ∈ l, g n ≠ i') : l.foldl (putStep R upd) x i' = x i' := by
  induction l generalizing x with
  | nil => rfl
  | cons n l ih =>
    rw [List.foldl_cons, ih (fun k hk => hR k (List.mem_cons_of_mem _ hk)) _ (fun k hk => hne k (List.mem_cons_of_mem _ hk)),
      putStep_some R upd x n (g n) (hR n List.mem_cons_self), if_neg (fun h => hne n List.mem_cons_self h.symm)]

theorem foldl_putStep_of_mem (R : ι → Option κ) (upd : ι → α) (g : ι → κ) (l : List ι) (hl : l.Nodup)
    (hR : ∀ n ∈ l, R n = some (g n)) (hg : ∀ a ∈ l, ∀ b ∈ l, g a = g b → a = b)
    (x : κ → α) (n : ι) (hn : n ∈ l) : l.foldl (putStep R upd) x (g n) = upd n := by
  induction l generalizing x with
  | nil => exact absurd hn List.not_mem_nil
  | cons a l ih =>
    rw [List.nodup_cons] at hl
    rw [List.foldl_cons]
    rcases List.mem_cons.mp hn with rfl | hn'
    · rw [foldl_putStep_of_ne R upd g l (fun k hk => hR k (List.mem_cons_of_mem _ hk)) _ (g n) ?_,
        putStep_some R upd x n (g n) (hR n List.mem_cons_self), if_pos rfl]
      intro k hk hkn
      exact hl.1 (hg k (List.mem_cons_of_mem _ hk) n List.mem_cons_self hkn ▸ hk)
    · exact ih hl.2 (fun k hk => hR k (List.mem_cons_of_mem _ hk))
        (fun p hp q hq => hg p (List.mem_cons_of_mem _ hp) q (List.mem_cons_of_mem _ hq)) _ hn'

end Fold

theorem scatter_eq_foldl {α : Type} {s si u : Shape} {w : ℕ} (d : ScatterDims s si u) (x : s.Idx → α) (idx : IVec si w)
    (upd : u.Idx → α) :
    Host.scatter d (fun _ b => b) x idx upd
      = (List.finRange u.numel).foldl
          (putStep (fun k => d.resultIdx? (u.rowMajor.symm k) idx) (fun k => upd (u.rowMajor.symm k))) x := by
  unfold Host.scatter
  refine congrArg (fun st => List.foldl st x (List.finRange u.numel)) ?_
  funext r k
  unfold putStep
  split <;> rename_i h
  · simp only [h]
  · simp only [h]

theorem resultIdx_take {N n w : ℕ} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (p : Fin n) (g : Fin N) (hg : (idx (ixP p)).toInt = (g.val : ℤ)) :
    d.resultIdx? (Shape.Idx.ofFin p) idx = some (Shape.Idx.ofFin g) := by
  have hw : ∀ a, d.window (Shape.Idx.ofFin p) a = 0 := by
    intro a
    unfold ScatterDims.window
    rw [dif_neg]
    intro ha
    have ha0 : a = 0 := Subsingleton.elim _ _
    subst ha0
    simp [ScatterDims.sKept, Shape.kept, List.mem_filter, hins] at ha
  have hm : (0 : Fin 1) ∈ d.scatterDimsToOperandDims := by rw [hsd]; exact List.mem_singleton.mpr rfl
  have hs : ∀ a, d.start (Shape.Idx.ofFin p) idx a = (g.val : ℤ) := by
    intro a
    have ha0 : a = 0 := Subsingleton.elim _ _
    subst ha0
    unfold ScatterDims.start
    rw [dif_pos hm, ← hg]
    refine congrArg (fun j => (idx j).toInt) ?_
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((Shape.Idx.ofFin p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have h : ∀ a, 0 ≤ d.start (Shape.Idx.ofFin p) idx a + d.window (Shape.Idx.ofFin p) a ∧
      d.start (Shape.Idx.ofFin p) idx a + d.window (Shape.Idx.ofFin p) a < (⟨1, ![N]⟩ : Shape).size a := by
    intro a
    rw [hs, hw]
    have ha0 : a = 0 := Subsingleton.elim _ _
    subst ha0
    have e : (⟨1, ![N]⟩ : Shape).size 0 = N := rfl
    rw [e]
    have := g.isLt
    omega
  unfold ScatterDims.resultIdx?
  rw [dif_pos h]
  refine congrArg some ?_
  funext a
  apply Fin.ext
  show (d.start _ idx a + d.window _ a).toNat = (Shape.Idx.ofFin g a).val
  rw [hs, hw]
  have ha0 : a = 0 := Subsingleton.elim _ _
  subst ha0
  show _ = g.val
  omega

theorem scatter_put {α : Type} {N n w : ℕ} (d : ScatterDims ⟨1, ![N]⟩ ⟨2, ![n, 1]⟩ ⟨1, ![n]⟩)
    (hins : d.insertedWindowDims = [0]) (hsd : d.scatterDimsToOperandDims = [0]) (hivd : d.indexVectorDim = 1)
    (x : (⟨1, ![N]⟩ : Shape).Idx → α) (idx : IVec ⟨2, ![n, 1]⟩ w) (upd : (⟨1, ![n]⟩ : Shape).Idx → α)
    (g : Fin n → Fin N) (hg : ∀ p, (idx (ixP p)).toInt = ((g p).val : ℤ)) (hinj : Function.Injective g) (p : Fin n) :
    Host.scatter d (fun _ b => b) x idx upd (Shape.Idx.ofFin (g p)) = upd (Shape.Idx.ofFin p) := by
  rw [scatter_eq_foldl]
  have hR : ∀ k ∈ List.finRange (⟨1, ![n]⟩ : Shape).numel,
      (fun k => d.resultIdx? ((⟨1, ![n]⟩ : Shape).rowMajor.symm k) idx) k
        = some ((fun k => Shape.Idx.ofFin (g (((⟨1, ![n]⟩ : Shape).rowMajor.symm k) 0))) k) := by
    intro k _
    show d.resultIdx? ((⟨1, ![n]⟩ : Shape).rowMajor.symm k) idx = _
    rw [Shape.Idx.eq_ofFin ((⟨1, ![n]⟩ : Shape).rowMajor.symm k)]
    exact resultIdx_take d hins hsd hivd idx _ _ (hg _)
  have hg' : ∀ a ∈ List.finRange (⟨1, ![n]⟩ : Shape).numel, ∀ b ∈ List.finRange (⟨1, ![n]⟩ : Shape).numel,
      (fun k => (Shape.Idx.ofFin (g (((⟨1, ![n]⟩ : Shape).rowMajor.symm k) 0)) : (⟨1, ![N]⟩ : Shape).Idx)) a
        = (fun k => Shape.Idx.ofFin (g (((⟨1, ![n]⟩ : Shape).rowMajor.symm k) 0))) b → a = b := by
    intro a _ b _ hab
    have h0 : (g (((⟨1, ![n]⟩ : Shape).rowMajor.symm a) 0)).val = (g (((⟨1, ![n]⟩ : Shape).rowMajor.symm b) 0)).val :=
      congrArg (fun f : (⟨1, ![N]⟩ : Shape).Idx => (f 0).val) hab
    have h1 : (⟨1, ![n]⟩ : Shape).rowMajor.symm a = (⟨1, ![n]⟩ : Shape).rowMajor.symm b := by
      rw [Shape.Idx.eq_ofFin ((⟨1, ![n]⟩ : Shape).rowMajor.symm a), Shape.Idx.eq_ofFin ((⟨1, ![n]⟩ : Shape).rowMajor.symm b),
        hinj (Fin.ext h0)]
    exact (⟨1, ![n]⟩ : Shape).rowMajor.symm.injective h1
  have key := foldl_putStep_of_mem _ (fun k => upd ((⟨1, ![n]⟩ : Shape).rowMajor.symm k)) _
    (List.finRange (⟨1, ![n]⟩ : Shape).numel) (List.nodup_finRange _) hR hg' x
    ((⟨1, ![n]⟩ : Shape).rowMajor (Shape.Idx.ofFin p)) (List.mem_finRange _)
  simp only [Equiv.symm_apply_apply, Shape.Idx.ofFin_zero] at key
  exact key

theorem ofFin_eq_ix1 {n : ℕ} (k : Fin n) : Shape.Idx.ofFin k = ValueIdx.ix1 k := by
  funext d
  match d with
  | ⟨0, _⟩ => rfl

end Cert.KernelIdeal.RouteS
-- ==== Proof.RouteDefs.lean ====
/- Rows grouped by agent, each group padded to a multiple of 512: counts, starts, padded starts, the padded place of a sorted position, and a tile's agent. -/
import Mathlib.Algebra.BigOperators.Group.Finset.Basic
import Mathlib.Data.Fintype.Card
import Mathlib.Order.Monotone.Basic

open scoped BigOperators

namespace Cert.Route

variable (ag : Fin 16384 → Fin 8)

def count (a : ℕ) : ℕ := (Finset.univ.filter fun n : Fin 16384 => (ag n).val = a).card

def start (a : ℕ) : ℕ := ∑ b ∈ Finset.range a, count ag b

def pcount (a : ℕ) : ℕ := (count ag a + 511) / 512 * 512

def pstart (a : ℕ) : ℕ := ∑ b ∈ Finset.range a, pcount ag b

structure IsSort (σ : Fin 16384 → Fin 16384) : Prop where
  bij : Function.Bijective σ
  mono : Monotone fun j => ag (σ j)

def dest (σ : Fin 16384 → Fin 16384) (j : Fin 16384) : ℕ :=
  pstart ag (ag (σ j)).val + (j.val - start ag (ag (σ j)).val)

def tileAgent (τ : ℕ) : ℕ := ((Finset.range 8).filter fun a => pstart ag a ≤ 512 * τ).card - 1

end Cert.Route
-- ==== Proof.RouteMath.lean ====
/- Padded places stay inside their agent's block, differ for different sorted positions, and lie in a tile labelled with their row's agent. -/
import proofs.«409439_j24232205484239_2_alg».proof.Proof.RouteDefs
import Mathlib.Algebra.BigOperators.Group.Finset.Basic
import Mathlib.Algebra.BigOperators.Ring.Finset
import Mathlib.Algebra.Order.BigOperators.Group.Finset
import Mathlib.Data.Fintype.Card
import Mathlib.Order.Monotone.Basic
import Mathlib.Order.Interval.Finset.Fin

open scoped BigOperators

namespace Cert.Route

variable (ag : Fin 16384 → Fin 8)

theorem start_eq_card (a : ℕ) :
    start ag a = (Finset.univ.filter fun n : Fin 16384 => (ag n).val < a).card := by
  induction a with
  | zero => simp [start]
  | succ a ih =>
    have hsplit : (Finset.univ.filter fun n : Fin 16384 => (ag n).val < a + 1)
        = (Finset.univ.filter fun n : Fin 16384 => (ag n).val < a)
          ∪ (Finset.univ.filter fun n : Fin 16384 => (ag n).val = a) := by
      ext n
      simp only [Finset.mem_filter, Finset.mem_univ, true_and, Finset.mem_union]
      omega
    have hdisj : Disjoint (Finset.univ.filter fun n : Fin 16384 => (ag n).val < a)
        (Finset.univ.filter fun n : Fin 16384 => (ag n).val = a) := by
      rw [Finset.disjoint_filter]
      intro n _ h1 h2
      omega
    rw [hsplit, Finset.card_union_of_disjoint hdisj, ← ih]
    unfold start count
    rw [Finset.sum_range_succ]

theorem start_succ (a : ℕ) : start ag (a + 1) = start ag a + count ag a := by
  unfold start
  rw [Finset.sum_range_succ]

theorem pstart_succ (a : ℕ) : pstart ag (a + 1) = pstart ag a + pcount ag a := by
  unfold pstart
  rw [Finset.sum_range_succ]

theorem sum_count : ∑ a ∈ Finset.range 8, count ag a = 16384 := by
  have h := start_eq_card ag 8
  unfold start at h
  rw [h]
  have hall : (Finset.univ.filter fun n : Fin 16384 => (ag n).val < 8) = Finset.univ := by
    ext n
    simp only [Finset.mem_filter, Finset.mem_univ, true_and, iff_true]
    exact (ag n).isLt
  rw [hall, Finset.card_univ, Fintype.card_fin]

theorem count_le (a : ℕ) : count ag a ≤ 16384 := by
  unfold count
  calc (Finset.univ.filter fun n : Fin 16384 => (ag n).val = a).card
      ≤ (Finset.univ : Finset (Fin 16384)).card := Finset.card_filter_le _ _
    _ = 16384 := by rw [Finset.card_univ, Fintype.card_fin]

theorem count_le_pcount (a : ℕ) : count ag a ≤ pcount ag a := by
  unfold pcount
  omega

theorem pcount_le (a : ℕ) : pcount ag a ≤ count ag a + 511 := by
  unfold pcount
  omega

theorem pcount_dvd (a : ℕ) : 512 ∣ pcount ag a := by
  unfold pcount
  exact Nat.dvd_mul_left _ _

theorem pstart_mono {a b : ℕ} (h : a ≤ b) : pstart ag a ≤ pstart ag b := by
  unfold pstart
  exact Finset.sum_le_sum_of_subset (Finset.range_mono h)

theorem pstart_dvd (a : ℕ) : 512 ∣ pstart ag a := by
  unfold pstart
  exact Finset.dvd_sum fun b _ => pcount_dvd ag b

theorem pstart_le (a : ℕ) (ha : a ≤ 8) : pstart ag a ≤ 20472 := by
  calc pstart ag a ≤ pstart ag 8 := pstart_mono ag ha
    _ = ∑ b ∈ Finset.range 8, pcount ag b := rfl
    _ ≤ ∑ b ∈ Finset.range 8, (count ag b + 511) :=
        Finset.sum_le_sum fun b _ => pcount_le ag b
    _ = (∑ b ∈ Finset.range 8, count ag b) + 8 * 511 := by
        simp only [Finset.sum_range_succ, Finset.sum_range_zero]
        omega
    _ = 20472 := by rw [sum_count]

variable {ag}
variable {σ : Fin 16384 → Fin 16384}

theorem card_filter_comp (hb : Function.Bijective σ) (P : Fin 16384 → Prop) [DecidablePred P] :
    (Finset.univ.filter fun j => P (σ j)).card = (Finset.univ.filter fun n => P n).card := by
  apply Finset.card_bij (fun j _ => σ j)
  · intro j hj
    simpa using hj
  · intro j _ j' _ h
    exact hb.1 h
  · intro n hn
    obtain ⟨j, rfl⟩ := hb.2 n
    exact ⟨j, by simpa using hn, rfl⟩

theorem start_le (hs : IsSort ag σ) (j : Fin 16384) : start ag (ag (σ j)).val ≤ j.val := by
  rw [start_eq_card, ← card_filter_comp hs.bij (fun n => (ag n).val < (ag (σ j)).val),
    ← Fin.card_Iio j]
  apply Finset.card_le_card
  intro j' hj'
  simp only [Finset.mem_filter, Finset.mem_univ, true_and] at hj'
  rw [Finset.mem_Iio]
  by_contra hge
  have hle : j ≤ j' := not_lt.mp hge
  have := hs.mono hle
  have h2 : (ag (σ j)).val ≤ (ag (σ j')).val := this
  omega

theorem lt_start_add_count (hs : IsSort ag σ) (j : Fin 16384) :
    j.val < start ag (ag (σ j)).val + count ag (ag (σ j)).val := by
  rw [← start_succ, start_eq_card,
    ← card_filter_comp hs.bij (fun n => (ag n).val < (ag (σ j)).val + 1)]
  have hcard : j.val + 1 = (Finset.Iic j).card := (Fin.card_Iic j).symm
  have hsub : (Finset.Iic j).card
      ≤ (Finset.univ.filter fun j' => (ag (σ j')).val < (ag (σ j)).val + 1).card := by
    apply Finset.card_le_card
    intro j' hj'
    rw [Finset.mem_Iic] at hj'
    simp only [Finset.mem_filter, Finset.mem_univ, true_and]
    have h2 : (ag (σ j')).val ≤ (ag (σ j)).val := hs.mono hj'
    omega
  omega

theorem dest_ge (hs : IsSort ag σ) (j : Fin 16384) :
    pstart ag (ag (σ j)).val ≤ dest ag σ j ∧
      dest ag σ j < pstart ag (ag (σ j)).val + pcount ag (ag (σ j)).val := by
  have h1 := start_le hs j
  have h2 := lt_start_add_count hs j
  have h3 := count_le_pcount ag (ag (σ j)).val
  unfold dest
  omega

theorem dest_lt_pstart_succ (hs : IsSort ag σ) (j : Fin 16384) :
    dest ag σ j < pstart ag ((ag (σ j)).val + 1) := by
  rw [pstart_succ]
  exact (dest_ge hs j).2

theorem dest_lt (hs : IsSort ag σ) (j : Fin 16384) : dest ag σ j < 20480 := by
  have h1 := dest_lt_pstart_succ hs j
  have h2 := pstart_le ag ((ag (σ j)).val + 1) (ag (σ j)).isLt
  omega

theorem dest_inj (hs : IsSort ag σ) : Function.Injective (dest ag σ) := by
  intro j j' h
  have hj := dest_ge hs j
  have hj' := dest_ge hs j'
  have hjs := dest_lt_pstart_succ hs j
  have hjs' := dest_lt_pstart_succ hs j'
  rcases Nat.lt_trichotomy (ag (σ j)).val (ag (σ j')).val with hlt | heq | hgt
  · have := pstart_mono ag (show (ag (σ j)).val + 1 ≤ (ag (σ j')).val from hlt)
    omega
  · have h1 := start_le hs j
    have h1' := start_le hs j'
    unfold dest at h
    rw [heq] at h h1
    apply Fin.ext
    omega
  · have := pstart_mono ag (show (ag (σ j')).val + 1 ≤ (ag (σ j)).val from hgt)
    omega

theorem tileAgent_lt (ag : Fin 16384 → Fin 8) (τ : ℕ) : tileAgent ag τ < 8 := by
  unfold tileAgent
  have h : ((Finset.range 8).filter fun a => pstart ag a ≤ 512 * τ).card ≤ 8 := by
    calc ((Finset.range 8).filter fun a => pstart ag a ≤ 512 * τ).card
        ≤ (Finset.range 8).card := Finset.card_filter_le _ _
      _ = 8 := Finset.card_range 8
  omega

theorem tileAgent_dest (hs : IsSort ag σ) (j : Fin 16384) :
    tileAgent ag (dest ag σ j / 512) = (ag (σ j)).val := by
  have hge := (dest_ge hs j).1
  have hlt := dest_lt_pstart_succ hs j
  have ha : (ag (σ j)).val < 8 := (ag (σ j)).isLt
  obtain ⟨k, hk⟩ := pstart_dvd ag (ag (σ j)).val
  have hfilter : ((Finset.range 8).filter fun a' => pstart ag a' ≤ 512 * (dest ag σ j / 512))
      = Finset.range ((ag (σ j)).val + 1) := by
    ext a'
    simp only [Finset.mem_filter, Finset.mem_range]
    constructor
    · rintro ⟨_, hle⟩
      by_contra hnot
      have := pstart_mono ag (show (ag (σ j)).val + 1 ≤ a' by omega)
      omega
    · intro ha'
      have := pstart_mono ag (show a' ≤ (ag (σ j)).val by omega)
      refine ⟨by omega, ?_⟩
      omega
  unfold tileAgent
  rw [hfilter, Finset.card_range]
  omega

end Cert.Route
-- ==== Proof.RouteSort.lean ====
/- The sorting permutation σ is a bijection along which agent numbers do not decrease; sorted position j goes to its agent's padded start plus its offset in the agent's run. -/
import proofs.«409439_j24232205484239_2_alg».proof.Proof.RouteLemmas
import proofs.«409439_j24232205484239_2_alg».proof.Proof.Gen.KernelIdeal.Regions
import proofs.«409439_j24232205484239_2_alg».proof.Proof.Args
import proofs.«409439_j24232205484239_2_alg».proof.Proof.RouteMath
import Idealize.ShloMosaic.Lib.SortFacts
import Idealize.ShloMosaic.Lib.StableHlo.Predicate
import Idealize.ShloMosaic.Lib.ValueIdx

namespace Cert.KernelIdeal.RouteS

open Idealize.ShloMosaic Idealize.ShloMosaic.TcCoe Idealize.ShloMosaic.StableHlo.Predicate
open Cert.KernelIdeal Cert.KernelIdeal.Gen

theorem wrap_apply {s : Shape} (h : (⟨0, ![]⟩ : Shape).BroadcastsInDim s ![]) (x : IVec s 32) (K : BitVec 32) (i : s.Idx)
    (v : ℕ) (hv : v < 2 ^ 31) (hx : x i = BitVec.ofNat 32 v) :
    select (cmpi .slt x (broadcastInDim s ![] h (constantI ⟨0, ![]⟩ 32 0#32)))
      (addi x (broadcastInDim s ![] h (constantI ⟨0, ![]⟩ 32 K))) x i = BitVec.ofNat 32 v := by
  show Scalar.select (IntOp.cmpi .slt (x i) 0#32) _ (x i) = _
  have h0 : IntOp.cmpi .slt (x i) 0#32 = 0#1 := by
    refine ValueIdx.eq_zero_of_ne_one fun h1 => ?_
    rw [hx, slt_iff_toNat (by rw [BitVec.toNat_ofNat]; omega) (by decide)] at h1
    simp at h1
  rw [h0, ValueIdx.select_zero, hx]

theorem sort2_snd_rank1 {n : ℕ} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

theorem reshape_row (h : (⟨1, ![16384]⟩ : Shape).numel = (⟨2, ![2048, 8]⟩ : Shape).numel) (n : Fin 16384) :
    Shape.reshapeEquiv h (Shape.Idx.ofFin n) = ValueIdx.ix2 (Cert.Spec.rb n) (Cert.Spec.ra n) := by
  refine Shape.reshapeEquiv_eq_of_rowMajor h ?_
  rw [Shape.rowMajor_val_two, Shape.rowMajor_val_one]
  show (n.val / 8) * 8 + n.val % 8 = n.val
  omega

variable {F : FTy → Type} [FloatOps F]
variable (m : (ℓ : Loc nD τ sig) → Buf (Elt F) ℓ) (c : Dev nD)

theorem v2_eq : (V1 m c main_v2 : S16384.Idx → BitVec 32)
    = fun i => shapeCast S16384 (V0 m c main_arg2 : S2048x8.Idx → BitVec 32) Facts₀.shapeCasts_S2048x8_S16384 i := by
  show StableHlo.after hostOps0 (V0 m c) (Proc.devRef .tc main_v2) = _
  after_results
  rfl

theorem v3_eq : (V2 m c main_v3 : S16384.Idx → BitVec 32)
    = (Host.sort2 S16384 0 comparator_i32_i32_d0 (V1 m c main_v2 : S16384.Idx → BitVec 32) (iotaInDim S16384 32 0)).2 := by
  show StableHlo.after hostOps0_1 (V1 m c) (Proc.devRef .tc main_v3) = _
  after_results
  rfl

theorem v10_eq : (V3 m c main_v10 : S16384.Idx → BitVec 32)
    = Host.gather gather_S16384_S16384x1_S16384_n_0_n_n_0_1_1 (V2 m c main_v2 : S16384.Idx → BitVec 32)
        (broadcastInDim S16384x1 ![0] Facts₀.bcast_S16384_S16384x1_0
          (select (cmpi .slt (V2 m c main_v3 : S16384.Idx → BitVec 32) (broadcastInDim S16384 ![] Facts₀.bcast_S_S16384 (constantI S_ 32 0#32)))
            (addi (V2 m c main_v3 : S16384.Idx → BitVec 32) (broadcastInDim S16384 ![] Facts₀.bcast_S_S16384 (constantI S_ 32 16384#32)))
            (V2 m c main_v3 : S16384.Idx → BitVec 32))) := by
  show StableHlo.after hostOps0_2 (V2 m c) (Proc.devRef .tc main_v10) = _
  after_results_simp

theorem v42_eq : (V9 m c main_v42 : S16384.Idx → BitVec 32)
    = subi (iotaInDim S16384 32 0)
        (Host.gather gather_S8_S16384x1_S16384_n_0_n_n_0_1_1 (V8 m c main_v22 : S8.Idx → BitVec 32)
          (broadcastInDim S16384x1 ![0] Facts₀.bcast_S16384_S16384x1_0
            (select (cmpi .slt (V8 m c main_v10 : S16384.Idx → BitVec 32) (broadcastInDim S16384 ![] Facts₀.bcast_S_S16384 (constantI S_ 32 0#32)))
            (addi (V8 m c main_v10 : S16384.Idx → BitVec 32) (broadcastInDim S16384 ![] Facts₀.bcast_S_S16384 (constantI S_ 32 8#32)))
            (V8 m c main_v10 : S16384.Idx → BitVec 32)))) := by
  show StableHlo.after hostOps0_8 (V8 m c) (Proc.devRef .tc main_v42) = _
  after_results_simp

theorem v50_eq : (V9 m c main_v50 : S16384.Idx → BitVec 32)
    = addi
        (Host.gather gather_S8_S16384x1_S16384_n_0_n_n_0_1_1 (V9 m c main_v33 : S8.Idx → BitVec 32)
          (broadcastInDim S16384x1 ![0] Facts₀.bcast_S16384_S16384x1_0
            (select (cmpi .slt (V8 m c main_v10 : S16384.Idx → BitVec 32) (broadcastInDim S16384 ![] Facts₀.bcast_S_S16384 (constantI S_ 32 0#32)))
            (addi (V8 m c main_v10 : S16384.Idx → BitVec 32) (broadcastInDim S16384 ![] Facts₀.bcast_S_S16384 (constantI S_ 32 8#32)))
            (V8 m c main_v10 : S16384.Idx → BitVec 32))))
        (V9 m c main_v42 : S16384.Idx → BitVec 32) := by
  show StableHlo.after hostOps0_8 (V8 m c) (Proc.devRef .tc main_v50)
    = addi (Host.gather gather_S8_S16384x1_S16384_n_0_n_n_0_1_1
        (StableHlo.after hostOps0_8 (V8 m c) (Proc.devRef .tc main_v33)) _)
      (StableHlo.after hostOps0_8 (V8 m c) (Proc.devRef .tc main_v42))
  after_results_simp

theorem V2_v2 : (V2 m c main_v2 : S16384.Idx → BitVec 32) = V1 m c main_v2 := V2_of m c main_v2 (by decide)

theorem V13_v3 : (V13 m c main_v3 : S16384.Idx → BitVec 32) = V2 m c main_v3 :=
  (V13_of m c main_v3 (by decide)).trans <| (V12_of m c main_v3 (by decide)).trans <| (V11_of m c main_v3 (by decide)).trans <|
  (V10_of m c main_v3 (by decide)).trans <| (V9_of m c main_v3 (by decide)).trans <| (V8_of m c main_v3 (by decide)).trans <|
  (V7_of m c main_v3 (by decide)).trans <| (V6_of m c main_v3 (by decide)).trans <| (V5_of m c main_v3 (by decide)).trans <|
  (V4_of m c main_v3 (by decide)).trans <| (V3_of m c main_v3 (by decide))

theorem V8_v10 : (V8 m c main_v10 : S16384.Idx → BitVec 32) = V3 m c main_v10 :=
  (V8_of m c main_v10 (by decide)).trans <| (V7_of m c main_v10 (by decide)).trans <| (V6_of m c main_v10 (by decide)).trans <|
  (V5_of m c main_v10 (by decide)).trans <| (V4_of m c main_v10 (by decide))

theorem V13_v22 : (V13 m c main_v22 : S8.Idx → BitVec 32) = V8 m c main_v22 :=
  (V13_of m c main_v22 (by decide)).trans <| (V12_of m c main_v22 (by decide)).trans <| (V11_of m c main_v22 (by decide)).trans <|
  (V10_of m c main_v22 (by decide)).trans <| (V9_of m c main_v22 (by decide))

theorem V13_v33 : (V13 m c main_v33 : S8.Idx → BitVec 32) = V9 m c main_v33 :=
  (V13_of m c main_v33 (by decide)).trans <| (V12_of m c main_v33 (by decide)).trans <| (V11_of m c main_v33 (by decide)).trans <|
  (V10_of m c main_v33 (by decide))

theorem V13_v50 : (V13 m c main_v50 : S16384.Idx → BitVec 32) = V9 m c main_v50 :=
  (V13_of m c main_v50 (by decide)).trans <| (V12_of m c main_v50 (by decide)).trans <| (V11_of m c main_v50 (by decide)).trans <|
  (V10_of m c main_v50 (by decide))

def ids (n : Fin 16384) : BitVec 32 :=
  (V0 m c main_arg2 : S2048x8.Idx → BitVec 32) (ValueIdx.ix2 (Cert.Spec.rb n) (Cert.Spec.ra n))

variable (hr : ∀ (b : Fin 2048) (a : Fin 8), ((V0 m c main_arg2 : S2048x8.Idx → BitVec 32) (ValueIdx.ix2 b a)).toNat < 8)

def ag (n : Fin 16384) : Fin 8 :=
  ⟨((V0 m c main_arg2 : S2048x8.Idx → BitVec 32) (ValueIdx.ix2 (Cert.Spec.rb n) (Cert.Spec.ra n))).toNat, hr _ _⟩

def σ : Fin 16384 → Fin 16384 := sortedFrom (keyBefore (ids m c))

theorem ids_eq (n : Fin 16384) : ids m c n = BitVec.ofNat 32 (ag m c hr n).val := by
  apply BitVec.eq_of_toNat_eq
  rw [BitVec.toNat_ofNat]
  have h : (ids m c n).toNat < 8 := hr _ _
  show (ids m c n).toNat = (ids m c n).toNat % 2 ^ 32
  omega

theorem σ_sort : Cert.Route.IsSort (ag m c hr) (σ m c) where
  bij := ⟨sortedFrom_injective _, sortedFrom_surjective _⟩
  mono := by
    intro i j hij
    rcases hij.lt_or_eq with hlt | rfl
    · exact sorted_keys (ids m c) (fun k => lt_trans (show (ids m c k).toNat < 8 from hr _ _) (by norm_num)) i j hlt
    · exact le_refl _

theorem v2_at (n : Fin 16384) : (V1 m c main_v2 : S16384.Idx → BitVec 32) (Shape.Idx.ofFin n) = ids m c n := by
  rw [v2_eq]
  show (V0 m c main_arg2 : S2048x8.Idx → BitVec 32) (Shape.reshapeEquiv _ (Shape.Idx.ofFin n)) = _
  rw [reshape_row]
  rfl

theorem v3_at (j : Fin 16384) :
    (V2 m c main_v3 : S16384.Idx → BitVec 32) (Shape.Idx.ofFin j) = BitVec.ofNat 32 (σ m c j).val := by
  rw [v3_eq, sort2_snd_rank1]
  have hB : (fun k k' : Fin 16384 => comparator_i32_i32_d0
        ((V1 m c main_v2 : S16384.Idx → BitVec 32) (Shape.Idx.ofFin k), iotaInDim S16384 32 0 (Shape.Idx.ofFin k))
        ((V1 m c main_v2 : S16384.Idx → BitVec 32) (Shape.Idx.ofFin k'), iotaInDim S16384 32 0 (Shape.Idx.ofFin k')) == 1#1)
      = keyBefore (ids m c) := by
    funext k k'
    show (IntOp.cmpi .slt ((V1 m c main_v2 : S16384.Idx → BitVec 32) (Shape.Idx.ofFin k))
      ((V1 m c main_v2 : S16384.Idx → BitVec 32) (Shape.Idx.ofFin k')) == 1#1) = _
    rw [v2_at, v2_at]
    rfl
  rw [hB, Shape.Idx.ofFin_zero]
  exact iota_apply (sortedFrom (keyBefore (ids m c)) j)

theorem take_at {α : Type} {N n : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n) (v : Fin N) (hv : v.val < 2 ^ 31)
    (hidx : idx (ixP p) = BitVec.ofNat 32 v.val) :
    Host.gather d x idx (Shape.Idx.ofFin p) = x (Shape.Idx.ofFin v) := by
  rw [gather_take d hcoll hob hsim hivd x idx p (Nat.lt_of_le_of_lt (Nat.zero_le _) v.isLt)]
  refine congrArg (fun k => x (Shape.Idx.ofFin k)) (Fin.ext ?_)
  show min (idx (ixP p)).toInt.toNat (N - 1) = v.val
  rw [hidx, toInt_ofNat_small _ hv, Int.toNat_natCast]
  have := v.isLt
  omega

theorem v10_at (j : Fin 16384) :
    (V3 m c main_v10 : S16384.Idx → BitVec 32) (Shape.Idx.ofFin j) = ids m c (σ m c j) := by
  rw [v10_eq, take_at _ rfl rfl rfl rfl _ _ j (σ m c j) (lt_trans (σ m c j).isLt (by norm_num)), V2_v2, v2_at]
  rw [bcast_col1]
  exact wrap_apply _ _ _ _ _ (lt_trans (σ m c j).isLt (by norm_num)) (v3_at m c j)

theorem v42_at
    (hstart : ∀ a : Fin 8, (V8 m c main_v22 : S8.Idx → BitVec 32) (Shape.Idx.ofFin a)
      = BitVec.ofNat 32 (Cert.Route.start (ag m c hr) a.val)) (j : Fin 16384) :
    (V9 m c main_v42 : S16384.Idx → BitVec 32) (Shape.Idx.ofFin j)
      = BitVec.ofNat 32 (j.val - Cert.Route.start (ag m c hr) (ag m c hr (σ m c j)).val) := by
  rw [v42_eq]
  show IntOp.subi (iotaInDim S16384 32 0 (Shape.Idx.ofFin j)) (Host.gather _ _ _ (Shape.Idx.ofFin j)) = _
  rw [take_at _ rfl rfl rfl rfl _ _ j (ag m c hr (σ m c j)) (lt_trans (ag m c hr (σ m c j)).isLt (by norm_num)), hstart, iota_apply]
  · have h1 := Cert.Route.start_le (σ_sort m c hr) j
    have h2 := j.isLt
    generalize Cert.Route.start (ag m c hr) (ag m c hr (σ m c j)).val = s at h1 ⊢
    apply BitVec.eq_of_toNat_eq
    simp only [IntOp.subi, BitVec.toNat_sub, BitVec.toNat_ofNat]
    omega
  · rw [bcast_col1]
    refine wrap_apply _ _ _ _ _ (lt_trans (ag m c hr (σ m c j)).isLt (by norm_num)) ?_
    rw [V8_v10, v10_at, ids_eq m c hr]

theorem v50_at
    (hstart : ∀ a : Fin 8, (V8 m c main_v22 : S8.Idx → BitVec 32) (Shape.Idx.ofFin a)
      = BitVec.ofNat 32 (Cert.Route.start (ag m c hr) a.val))
    (hpstart : ∀ a : Fin 8, (V9 m c main_v33 : S8.Idx → BitVec 32) (Shape.Idx.ofFin a)
      = BitVec.ofNat 32 (Cert.Route.pstart (ag m c hr) a.val)) (j : Fin 16384) :
    (V9 m c main_v50 : S16384.Idx → BitVec 32) (Shape.Idx.ofFin j)
      = BitVec.ofNat 32 (Cert.Route.dest (ag m c hr) (σ m c) j) := by
  rw [v50_eq]
  show IntOp.addi (Host.gather _ _ _ (Shape.Idx.ofFin j)) ((V9 m c main_v42 : S16384.Idx → BitVec 32) (Shape.Idx.ofFin j)) = _
  rw [take_at _ rfl rfl rfl rfl _ _ j (ag m c hr (σ m c j)) (lt_trans (ag m c hr (σ m c j)).isLt (by norm_num)), hpstart,
    v42_at m c hr hstart]
  · exact (BitVec.ofNat_add _ _).symm
  · rw [bcast_col1]
    refine wrap_apply _ _ _ _ _ (lt_trans (ag m c hr (σ m c j)).isLt (by norm_num)) ?_
    rw [V8_v10, v10_at, ids_eq m c hr]

theorem order_eq (j : Fin 16384) :
    (V13 m c main_v3 : S16384.Idx → BitVec 32) (ValueIdx.ix1 j) = BitVec.ofNat 32 (σ m c j).val := by
  rw [← ofFin_eq_ix1, V13_v3]
  exact v3_at m c j

theorem dest_eq
    (hstart : ∀ a : Fin 8, (V13 m c main_v22 : S8.Idx → BitVec 32) (ValueIdx.ix1 a)
      = BitVec.ofNat 32 (Cert.Route.start (ag m c hr) a.val))
    (hpstart : ∀ a : Fin 8, (V13 m c main_v33 : S8.Idx → BitVec 32) (ValueIdx.ix1 a)
      = BitVec.ofNat 32 (Cert.Route.pstart (ag m c hr) a.val)) (j : Fin 16384) :
    (V13 m c main_v50 : S16384.Idx → BitVec 32) (ValueIdx.ix1 j)
      = BitVec.ofNat 32 (Cert.Route.dest (ag m c hr) (σ m c) j) := by
  rw [← ofFin_eq_ix1, V13_v50]
  refine v50_at m c hr (fun a => ?_) (fun a => ?_) j
  · rw [ofFin_eq_ix1, ← V13_v22]; exact hstart a
  · rw [ofFin_eq_ix1, ← V13_v33]; exact hpstart a

attribute [irreducible] σ

end Cert.KernelIdeal.RouteS
-- ==== Proof.RouteScatter.lean ====
/- Two tables built by overwriting zeros at distinct positions hold exactly what was written: the source row σ j at D j, and D j at σ j. -/
import proofs.«409439_j24232205484239_2_alg».proof.Proof.Gen.KernelIdeal.Regions
import proofs.«409439_j24232205484239_2_alg».proof.Proof.Args
import proofs.«409439_j24232205484239_2_alg».proof.Proof.RouteMath
import proofs.«409439_j24232205484239_2_alg».proof.Proof.RouteLemmas
import Idealize.ShloMosaic.Lib.StableHlo.Run
import Idealize.ShloMosaic.Lib.StableHlo.Predicate
import Idealize.ShloMosaic.Lib.SortFacts
import Idealize.ShloMosaic.Lib.ValueIdx

set_option maxRecDepth 1700

noncomputable section

namespace Cert.KernelIdeal.RouteSc

open Idealize.ShloMosaic Idealize.ShloMosaic.TcCoe
open Idealize.SL.Sem
open Cert.KernelIdeal Cert.KernelIdeal.Gen

variable {F : FTy → Type} [FloatOps F]

def wrap (k : BitVec 32) (d : IVec S16384 32) : IVec S16384 32 :=
  select (cmpi .slt d (broadcastInDim S16384 ![] bcast_S_S16384 (constantI S_ 32 0#32)))
    (addi d (broadcastInDim S16384 ![] bcast_S_S16384 (constantI S_ 32 k))) d

theorem wrap_apply (k : BitVec 32) (d : IVec S16384 32) (i : S16384.Idx) (hd : (d i).toNat < 2 ^ 31) :
    wrap k d i = d i := by
  unfold wrap
  show Scalar.select (IntOp.cmpi .slt (d i) 0#32) (IntOp.addi (d i) k) (d i) = d i
  have h : ¬ IntOp.cmpi .slt (d i) 0#32 = 1#1 := fun h => by
    have := (StableHlo.Predicate.slt_iff_toNat hd (by decide)).mp h
    simp at this
  exact if_neg h

set_option maxHeartbeats 400000 in

theorem after8_v58 (W : Valuation τ sig (Elt F)) :
    (StableHlo.after hostOps0_8 W (Proc.devRef .tc main_v58) : S20480.Idx → BitVec 32) =
      Host.scatter scatter_S20480_S16384x1_S16384_n_0_0_1 (fun _ b => b)
        (broadcastInDim S20480 ![] bcast_S_S20480 (constantI S_ 32 0#32))
        (broadcastInDim S16384x1 ![0] bcast_S16384_S16384x1_0
          (wrap 20480#32 (StableHlo.after hostOps0_8 W (Proc.devRef .tc main_v50))))
        (StableHlo.after hostOps0_8 W (Proc.devRef .tc main_v3)) := by
  unfold wrap
  dsimp only [hostOps0_8]
  after_results_simp

set_option maxHeartbeats 400000 in

theorem after8_v66 (W : Valuation τ sig (Elt F)) :
    (StableHlo.after hostOps0_8 W (Proc.devRef .tc main_v66) : S16384.Idx → BitVec 32) =
      Host.scatter scatter_S16384_S16384x1_S16384_n_0_0_1 (fun _ b => b)
        (broadcastInDim S16384 ![] bcast_S_S16384 (constantI S_ 32 0#32))
        (broadcastInDim S16384x1 ![0] bcast_S16384_S16384x1_0
          (wrap 16384#32 (StableHlo.after hostOps0_8 W (Proc.devRef .tc main_v3))))
        (StableHlo.after hostOps0_8 W (Proc.devRef .tc main_v50)) := by
  unfold wrap
  dsimp only [hostOps0_8]
  after_results_simp

theorem col_wrap_toInt (k : BitVec 32) (d : IVec S16384 32) (p : Fin 16384) (v : ℕ) (hv : v < 2 ^ 31)
    (hd : d (ValueIdx.ix1 p) = BitVec.ofNat 32 v) :
    (broadcastInDim S16384x1 ![0] bcast_S16384_S16384x1_0 (wrap k d) (StableHlo.Predicate.ixP p)).toInt = (v : ℤ) := by
  have hd' : d (Shape.Idx.ofFin p) = BitVec.ofNat 32 v := by rw [RouteS.ofFin_eq_ix1]; exact hd
  have hlt : (d (Shape.Idx.ofFin p)).toNat < 2 ^ 31 := by
    rw [hd', BitVec.toNat_ofNat]; exact lt_of_le_of_lt (Nat.mod_le _ _) hv
  rw [StableHlo.Predicate.bcast_col1, wrap_apply k d _ hlt, hd']
  exact StableHlo.Predicate.toInt_ofNat_small v hv

-- Overwriting a table at distinct positions g p with the entries of src leaves src j at position g j.
theorem put_wrap {N : ℕ} (w : ScatterDims ⟨1, ![N]⟩ ⟨2, ![16384, 1]⟩ ⟨1, ![16384]⟩) (hins : w.insertedWindowDims = [0])
    (hsd : w.scatterDimsToOperandDims = [0]) (hivd : w.indexVectorDim = 1) (k : BitVec 32) (x : (⟨1, ![N]⟩ : Shape).Idx → BitVec 32)
    (dst src : IVec S16384 32) (g : Fin 16384 → Fin N) (hN : N < 2 ^ 31) (hdst : ∀ p, dst (ValueIdx.ix1 p) = BitVec.ofNat 32 (g p).val)
    (hg : Function.Injective g) (j : Fin 16384) :
    Host.scatter w (fun _ b => b) x (broadcastInDim S16384x1 ![0] bcast_S16384_S16384x1_0 (wrap k dst)) src (ValueIdx.ix1 (g j))
      = src (ValueIdx.ix1 j) := by
  rw [← RouteS.ofFin_eq_ix1, RouteS.scatter_put w hins hsd hivd _ _ _ g
    (fun p => col_wrap_toInt k _ p (g p).val (lt_trans (g p).isLt hN) (hdst p)) hg j, RouteS.ofFin_eq_ix1]

section Tables

variable (W : Valuation τ sig (Elt F)) (σ : Fin 16384 → Fin 16384) (D : Fin 16384 → Fin 20480)
  (horder : ∀ j, (StableHlo.after hostOps0_8 W (Proc.devRef .tc main_v3) : S16384.Idx → BitVec 32) (ValueIdx.ix1 j)
      = BitVec.ofNat 32 (σ j).val)
  (hdest : ∀ j, (StableHlo.after hostOps0_8 W (Proc.devRef .tc main_v50) : S16384.Idx → BitVec 32) (ValueIdx.ix1 j)
      = BitVec.ofNat 32 (D j).val)

include horder hdest in

theorem after8_gather_idx (hD : Function.Injective D) (j : Fin 16384) :
    (StableHlo.after hostOps0_8 W (Proc.devRef .tc main_v58) : S20480.Idx → BitVec 32) (ValueIdx.ix1 (D j))
      = BitVec.ofNat 32 (σ j).val := by
  rw [after8_v58 W, put_wrap _ rfl rfl rfl _ _ _ _ D (by norm_num) hdest hD j]
  exact horder j

include horder hdest in

theorem after8_dest_of_row (hσ : Function.Injective σ) (j : Fin 16384) :
    (StableHlo.after hostOps0_8 W (Proc.devRef .tc main_v66) : S16384.Idx → BitVec 32) (ValueIdx.ix1 (σ j))
      = BitVec.ofNat 32 (D j).val := by
  rw [after8_v66 W, put_wrap _ rfl rfl rfl _ _ _ _ σ (by norm_num) horder hσ j]
  exact hdest j

end Tables

section Program

variable (m : (ℓ : Loc nD τ sig) → Buf (Elt F) ℓ) (c : Dev nD)

theorem V13_eq_V9 (r : Ref sig .tc) (h9 : r ∉ hostOps0_9_W) (h10 : r ∉ hostOps0_10_W) (h11 : r ∉ hostOps0_11_W)
    (h12 : r ∉ hostOps0_12_W) : V13 m c r = V9 m c r :=
  (V13_of m c r h12).trans <| (V12_of m c r h11).trans <| (V11_of m c r h10).trans <| V10_of m c r h9

variable (σ : Fin 16384 → Fin 16384) (D : Fin 16384 → Fin 20480)
  (horder : ∀ j, (V13 m c main_v3 : S16384.Idx → BitVec 32) (ValueIdx.ix1 j) = BitVec.ofNat 32 (σ j).val)
  (hdest : ∀ j, (V13 m c main_v50 : S16384.Idx → BitVec 32) (ValueIdx.ix1 j) = BitVec.ofNat 32 (D j).val)

include horder hdest in

theorem routing (hσ : Function.Injective σ) (hD : Function.Injective D) (hsurj : Function.Surjective σ)
    (ag : Fin 16384 → Fin 8)
    (htile : ∀ j, (V13 m c main_v79 : S40.Idx → BitVec 32)
        (ValueIdx.ix1 ⟨(D j).val / 512, by have := (D j).isLt; omega⟩) = BitVec.ofNat 32 (ag (σ j)).val)
    (n : Fin 16384) :
    ∃ Dn : Fin 20480,
      (V13 m c main_v66 : S16384.Idx → BitVec 32) (ValueIdx.ix1 n) = BitVec.ofNat 32 Dn.val ∧
      (V13 m c main_v58 : S20480.Idx → BitVec 32) (ValueIdx.ix1 Dn) = BitVec.ofNat 32 n.val ∧
      (V13 m c main_v79 : S40.Idx → BitVec 32) (ValueIdx.ix1 ⟨Dn.val / 512, by have := Dn.isLt; omega⟩)
        = BitVec.ofNat 32 (ag n).val := by
  obtain ⟨j, rfl⟩ := hsurj n
  have e3 : V13 m c main_v3 = V9 m c main_v3 := V13_eq_V9 m c _ (by decide) (by decide) (by decide) (by decide)
  have e50 : V13 m c main_v50 = V9 m c main_v50 := V13_eq_V9 m c _ (by decide) (by decide) (by decide) (by decide)
  have ho := fun j : Fin 16384 => (congrFun e3 _).symm.trans (horder j)
  have hd := fun j : Fin 16384 => (congrFun e50 _).symm.trans (hdest j)
  exact ⟨D j,
    (congrFun (V13_eq_V9 m c main_v66 (by decide) (by decide) (by decide) (by decide)) _).trans (after8_dest_of_row (V8 m c) σ D ho hd hσ j),
    (congrFun (V13_eq_V9 m c main_v58 (by decide) (by decide) (by decide) (by decide)) _).trans (after8_gather_idx (V8 m c) σ D ho hd hD j),
    htile j⟩

end Program

end Cert.KernelIdeal.RouteSc
end
-- ==== Proof.RouteValues.lean ====
import proofs.«409439_j24232205484239_2_alg».proof.Proof.RouteTables
import proofs.«409439_j24232205484239_2_alg».proof.Proof.RouteMath
import proofs.«409439_j24232205484239_2_alg».proof.Proof.Args

set_option maxRecDepth 1700

noncomputable section

namespace Cert.KernelIdeal.RouteT

open Idealize.ShloMosaic Idealize.ShloMosaic.TcCoe
open Idealize.ShloMosaic.StableHlo Idealize.ShloMosaic.StableHlo.Predicate
open Cert.KernelIdeal Cert.KernelIdeal.Gen Cert.RouteArith
open scoped BigOperators

variable {F : FTy → Type} [FloatOps F]

section Stages

variable (W : Valuation τ sig (Elt F))

/-- Row n of the flattened agent vector is entry (n / 8, n % 8) of the argument. -/
theorem flat_apply (n : Fin 16384) :
    (StableHlo.after hostOps0 W (Proc.devRef .tc main_v2) : S16384.Idx → BitVec 32) (ValueIdx.ix1 n)
      = (W (Proc.devRef .tc main_arg2) : S2048x8.Idx → BitVec 32) (ValueIdx.ix2 (Cert.Spec.rb n) (Cert.Spec.ra n)) := by
  after_results
  refine shapeCast_apply (s := S2048x8) (t := S16384) _ _ _ _ ?_
  rw [Shape.rowMajor_val_two, Shape.rowMajor_val_one]
  show (n.val / 8) * 8 + n.val % 8 = n.val
  omega

theorem ofFin_eq_ix1 {n : ℕ} (p : Fin n) : (Shape.Idx.ofFin p : (⟨1, ![n]⟩ : Shape).Idx) = ValueIdx.ix1 p := by
  funext d; match d with | ⟨0, _⟩ => rfl

/-- Entry a of the count vector is the number of rows whose agent word is a. -/
theorem counts_stage (x : S16384.Idx → BitVec 32)
    (hx : (W (Proc.devRef .tc main_v2) : S16384.Idx → BitVec 32) = x) (a : Fin 8) :
    ((StableHlo.after hostOps0_2 W (Proc.devRef .tc main_v18) : S8.Idx → BitVec 32) (ValueIdx.ix1 a)).toNat
      = (Finset.univ.filter fun n : Fin 16384 => x (ValueIdx.ix1 n) = BitVec.ofNat 32 a.val).card := by
  subst hx
  after_results
  rw [toNat_reduce_count_rows (by norm_num) _ natLt_1_32 reducesTo_S16384x8_S8_d0 h_S_ (ValueIdx.ix1 a)]
  refine congrArg Finset.card (Finset.filter_congr fun p _ => ?_)
  show IntOp.cmpi .eq _ _ = 1#1 ↔ _
  rw [cmpi_eq_iff]
  rw [bcast_rows, bcast_cols, iota_apply, ofFin_eq_ix1]

theorem cum1_stage (a : Fin 8) :
    (StableHlo.after hostOps0_3 W (Proc.devRef .tc main_v20) : S8.Idx → BitVec 32) (ValueIdx.ix1 a)
      = ∑ b ∈ Finset.range (a.val + 1), ent (W (Proc.devRef .tc main_v18) : S8.Idx → BitVec 32) b := by
  after_results
  simp only [TRef.ofBuf, TRef.toBuf, cast_eq]
  exact cumsum8 _ _ _ _ rfl a

theorem v22_stage (a : Fin 8) :
    (StableHlo.after hostOps0_4 W (Proc.devRef .tc main_v22) : S8.Idx → BitVec 32) (ValueIdx.ix1 a)
      = if a.val = 0 then (W (Proc.devRef .tc main_v19) : S1.Idx → BitVec 32) (ValueIdx.ix1 0)
        else ent (W (Proc.devRef .tc main_v20) : S8.Idx → BitVec 32) (a.val - 1) := by
  after_results
  exact shift_apply _ _ _ _ a

theorem v26_stage (a : Fin 8) :
    (StableHlo.after hostOps0_4 W (Proc.devRef .tc main_v26) : S8.Idx → BitVec 32) (ValueIdx.ix1 a)
      = IntOp.subi (IntOp.addi ((W (Proc.devRef .tc main_v18) : S8.Idx → BitVec 32) (ValueIdx.ix1 a)) 512#32) 1#32 := by
  after_results
  rfl

theorem c5_stage :
    (StableHlo.after hostOps0_4 W (Proc.devRef .tc main_c_5) : S_.Idx → BitVec 32) = constantI S_ 32 512#32 := by
  after_results

theorem v27_stage
    (hk : (W (Proc.devRef .tc main_c_5) : S_.Idx → BitVec 32) = constantI S_ 32 512#32) (a : Fin 8) :
    (StableHlo.after hostOps0_5 W (Proc.devRef .tc main_v27) : S8.Idx → BitVec 32) (ValueIdx.ix1 a)
      = fdiv ((W (Proc.devRef .tc main_v26) : S8.Idx → BitVec 32) (ValueIdx.ix1 a)) := by
  after_results
  simp only [TRef.ofBuf, TRef.toBuf, cast_eq, id]
  rw [hk]
  rfl

theorem v29_stage (a : Fin 8) :
    (StableHlo.after hostOps0_6 W (Proc.devRef .tc main_v29) : S8.Idx → BitVec 32) (ValueIdx.ix1 a)
      = IntOp.muli ((W (Proc.devRef .tc main_v27) : S8.Idx → BitVec 32) (ValueIdx.ix1 a)) 512#32 := by
  after_results
  rfl

theorem cum2_stage (a : Fin 8) :
    (StableHlo.after hostOps0_7 W (Proc.devRef .tc main_v31) : S8.Idx → BitVec 32) (ValueIdx.ix1 a)
      = ∑ b ∈ Finset.range (a.val + 1), ent (W (Proc.devRef .tc main_v29) : S8.Idx → BitVec 32) b := by
  after_results
  simp only [TRef.ofBuf, TRef.toBuf, cast_eq]
  exact cumsum8 _ _ _ _ rfl a

theorem v33_stage (a : Fin 8) :
    (StableHlo.after hostOps0_8 W (Proc.devRef .tc main_v33) : S8.Idx → BitVec 32) (ValueIdx.ix1 a)
      = if a.val = 0 then (W (Proc.devRef .tc main_v30) : S1.Idx → BitVec 32) (ValueIdx.ix1 0)
        else ent (W (Proc.devRef .tc main_v31) : S8.Idx → BitVec 32) (a.val - 1) := by
  after_results_simp
  exact shift_apply _ _ _ _ a

/-- Entry t of the raw tile table: the number of padded starts not above 512·t, less one. -/
theorem v78_stage (t : Fin 40) :
    (StableHlo.after hostOps0_8 W (Proc.devRef .tc main_v78) : S40.Idx → BitVec 32) (ValueIdx.ix1 t)
      = IntOp.subi (BitVec.ofNat 32 (Finset.univ.filter fun q : Fin 8 =>
          IntOp.cmpi .sle (if q.val = 0 then (W (Proc.devRef .tc main_v30) : S1.Idx → BitVec 32) (ValueIdx.ix1 0)
              else ent (W (Proc.devRef .tc main_v31) : S8.Idx → BitVec 32) (q.val - 1))
            (IntOp.muli (BitVec.ofNat 32 t.val) 512#32) = 1#1).card) 1#32 := by
  after_results_simp
  rw [unary_result_ne]; rotate_left; decide
  rw [unary_result]
  refine congrArg₂ IntOp.subi ?_ rfl
  apply BitVec.eq_of_toNat_eq
  rw [toNat_reduce_count_cols (by norm_num) _ natLt_1_32 reducesTo_S40x8_S40_d1 h_S_ (ValueIdx.ix1 t),
    WordArith.toNat_ofNat_of_lt _ (lt_of_le_of_lt (Finset.card_le_univ _) (by simp))]
  refine congrArg Finset.card (Finset.filter_congr fun q _ => ?_)
  show IntOp.cmpi .sle _ _ = 1#1 ↔ _
  rw [bcast_cols, bcast_rows, ofFin_eq_ix1, shift_apply]
  rfl

end Stages

section Launch

variable (m : (ℓ : Loc nD τ sig) → Buf (Elt F) ℓ) (c : Dev nD)

abbrev A2 : S2048x8.Idx → BitVec 32 := V0 m c (Proc.devRef .tc main_arg2)

abbrev x2 : S16384.Idx → BitVec 32 := V2 m c (Proc.devRef .tc main_v2)

variable (hr : ∀ (b : Fin 2048) (a : Fin 8), (A2 m c (ValueIdx.ix2 b a)).toNat < 8)

/-- Row n's agent. -/
def ag (n : Fin 16384) : Fin 8 := ⟨(A2 m c (ValueIdx.ix2 (Cert.Spec.rb n) (Cert.Spec.ra n))).toNat, hr _ _⟩

theorem count_card (a : Fin 8) :
    (Finset.univ.filter fun n : Fin 16384 => x2 m c (ValueIdx.ix1 n) = BitVec.ofNat 32 a.val).card
      = Cert.Route.count (ag m c hr) a.val := by
  unfold Cert.Route.count
  refine congrArg Finset.card (Finset.filter_congr fun n _ => ?_)
  show (V2 m c (Proc.devRef .tc main_v2) : S16384.Idx → BitVec 32) (ValueIdx.ix1 n) = _ ↔ _
  rw [V2_of m c main_v2 (by decide), show (V1 m c (Proc.devRef .tc main_v2) : S16384.Idx → BitVec 32) (ValueIdx.ix1 n) = _ from flat_apply (V0 m c) n]
  exact eq_ofNat_iff _ _ (by have := a.isLt; omega)

theorem v18_read (a : Fin 8) :
    (V3 m c (Proc.devRef .tc main_v18) : S8.Idx → BitVec 32) (ValueIdx.ix1 a) = BitVec.ofNat 32 (Cert.Route.count (ag m c hr) a.val) := by
  apply BitVec.eq_of_toNat_eq
  have hc := Cert.Route.count_le (ag m c hr) a.val
  rw [WordArith.toNat_ofNat_of_lt _ (by omega)]
  exact (counts_stage (V2 m c) (x2 m c) rfl a).trans (count_card m c hr a)

theorem v19_read : (V4 m c (Proc.devRef .tc main_v19) : S1.Idx → BitVec 32) (ValueIdx.ix1 0) = 0#32 := by
  rw [V4_of m c main_v19 (by decide)]
  show (StableHlo.after hostOps0_2 (V2 m c) (Proc.devRef .tc main_v19) : S1.Idx → BitVec 32) _ = _
  after_results
  rfl

theorem v22_read (a : Fin 8) :
    (V5 m c (Proc.devRef .tc main_v22) : S8.Idx → BitVec 32) (ValueIdx.ix1 a) = BitVec.ofNat 32 (Cert.Route.start (ag m c hr) a.val) :=
  (v22_stage (V4 m c) a).trans
    (prefix_ofNat _ (Cert.Route.count (ag m c hr)) (v18_read m c hr) _ (cum1_stage (V3 m c)) _ (v19_read m c) a)

theorem v29_read (a : Fin 8) :
    (V7 m c (Proc.devRef .tc main_v29) : S8.Idx → BitVec 32) (ValueIdx.ix1 a)
      = BitVec.ofNat 32 (Cert.Route.pcount (ag m c hr) a.val) := by
  have e := v26_stage (V4 m c) a
  rw [V4_of m c main_v18 (by decide), v18_read m c hr] at e
  have hc := Cert.Route.count_le (ag m c hr) a.val
  exact (v29_stage (V6 m c) a).trans ((congrArg (IntOp.muli · 512#32)
    ((v27_stage (V5 m c) (c5_stage (V4 m c)) a).trans (congrArg fdiv e))).trans (pad_word _ (by omega)))

theorem v30_read : (V8 m c (Proc.devRef .tc main_v30) : S1.Idx → BitVec 32) (ValueIdx.ix1 0) = 0#32 := by
  rw [V8_of m c main_v30 (by decide)]
  show (StableHlo.after hostOps0_6 (V6 m c) (Proc.devRef .tc main_v30) : S1.Idx → BitVec 32) _ = _
  after_results
  rfl

/-- A zero, then the running sums of the padded counts: the padded starts. -/
theorem pst (q : Fin 8) :
    (if q.val = 0 then (V8 m c (Proc.devRef .tc main_v30) : S1.Idx → BitVec 32) (ValueIdx.ix1 0)
      else ent (V8 m c (Proc.devRef .tc main_v31) : S8.Idx → BitVec 32) (q.val - 1))
      = BitVec.ofNat 32 (Cert.Route.pstart (ag m c hr) q.val) :=
  prefix_ofNat _ (Cert.Route.pcount (ag m c hr)) (v29_read m c hr) _ (cum2_stage (V7 m c)) _ (v30_read m c) q

theorem v78_read (t : Fin 40) :
    (V9 m c (Proc.devRef .tc main_v78) : S40.Idx → BitVec 32) (ValueIdx.ix1 t)
      = BitVec.ofNat 32 (Cert.Route.tileAgent (ag m c hr) t.val) :=
  (v78_stage (V8 m c) t).trans (tile_word _ (Cert.Route.pstart (ag m c hr)) (pst m c hr)
    (fun q hq => Cert.Route.pstart_le _ _ (by omega)) (Finset.sum_range_zero _) t.val t.isLt)

theorem starts_eq (a : Fin 8) :
    (V13 m c (Proc.devRef .tc main_v22) : S8.Idx → BitVec 32) (ValueIdx.ix1 a) = BitVec.ofNat 32 (Cert.Route.start (ag m c hr) a.val) := by
  rw [(V13_of m c main_v22 (by decide)).trans ((V12_of m c main_v22 (by decide)).trans ((V11_of m c main_v22 (by decide)).trans ((V10_of m c main_v22 (by decide)).trans ((V9_of m c main_v22 (by decide)).trans ((V8_of m c main_v22 (by decide)).trans ((V7_of m c main_v22 (by decide)).trans ((V6_of m c main_v22 (by decide)))))))))]
  exact v22_read m c hr a

theorem pstarts_eq (a : Fin 8) :
    (V13 m c (Proc.devRef .tc main_v33) : S8.Idx → BitVec 32) (ValueIdx.ix1 a) = BitVec.ofNat 32 (Cert.Route.pstart (ag m c hr) a.val) := by
  rw [(V13_of m c main_v33 (by decide)).trans ((V12_of m c main_v33 (by decide)).trans ((V11_of m c main_v33 (by decide)).trans ((V10_of m c main_v33 (by decide)))))]
  exact (v33_stage (V8 m c) a).trans (pst m c hr a)

theorem tile_eq (t : Fin 40) :
    (V13 m c (Proc.devRef .tc main_v79) : S40.Idx → BitVec 32) (ValueIdx.ix1 t)
      = BitVec.ofNat 32 (Cert.Route.tileAgent (ag m c hr) t.val) := by
  rw [v79_at m c, v78_read m c hr]
  exact clip_ofNat _ (by have := Cert.Route.tileAgent_lt (ag m c hr) t.val; omega)

end Launch

end Cert.KernelIdeal.RouteT

end
-- ==== Proof.PreRange.lean ====
/- A signed word w with 0 ≤ w < 8 reads as the same natural number unsigned. -/
import proofs.«409439_j24232205484239_2_alg».proof.Pre_finite_inputs
import Idealize.ShloMosaic.Lib.ReduceAll
import Idealize.ShloMosaic.Lib.ValueIdx

namespace Cert.PreRange

open Idealize.ShloMosaic Cert.Pre_finite_inputs

instance : Subsingleton S_.Idx := ⟨fun a b => funext fun d => d.elim0⟩

theorem toNat_lt_eight (w : BitVec 32) (h0 : (0#32 : BitVec 32).toInt ≤ w.toInt)
    (h8 : w.toInt < (8#32 : BitVec 32).toInt) : w.toNat < 8 := by
  have e0 : (0#32 : BitVec 32).toInt = 0 := by decide
  have e8 : (8#32 : BitVec 32).toInt = 8 := by decide
  rw [e0] at h0
  rw [e8] at h8
  rw [BitVec.toInt_eq_toNat_cond] at h0 h8
  split at h0 <;> omega

theorem ids_lt {F : FTy → Type} [FloatOps F] [Facts]
    (a0 : FVec F S2048x8x512 .f32) (a1 : FVec F S2048x8x512 .f32) (a2 : IVec S2048x8 32)
    (a3 : FVec F S512x512 .f32) (a4 : FVec F S512 .f32) (a5 : FVec F S8x512x512 .f32)
    (a6 : FVec F S1536x512 .f32) (a7 : FVec F S1536x512 .f32) (a8 : FVec F S1536 .f32)
    (a9 : FVec F S1536 .f32) (a10 : FVec F S512x512 .f32) (a11 : FVec F S512 .f32)
    (a12 : FVec F S8x512x512 .f32) (a13 : FVec F S512x512 .f32) (a14 : FVec F S512 .f32)
    (a15 : FVec F S8x512x512 .f32) (a16 : FVec F S64x512 .f32) (a17 : FVec F S64 .f32)
    (a18 : FVec F S8x64x512 .f32)
    (h : fn (F := F) a0 a1 a2 a3 a4 a5 a6 a7 a8 a9 a10 a11 a12 a13 a14 a15 a16 a17 a18 = fun _ => 1#1)
    (j : S2048x8.Idx) : (a2 j).toNat < 8 := by

  have h0 : fn_part5 (F := F) a2 _ _ _ ValueIdx.ix0 = 1#1 := congrFun h ValueIdx.ix0
  dsimp only [fn_part5] at h0
  obtain ⟨h1, hlt⟩ := IntOp.andi_eq_one.1 h0
  obtain ⟨-, hge⟩ := IntOp.andi_eq_one.1 h1
  have hge' := IntOp.cmpi_sge.1 (Host.reduce_andi_all _ _ _ _ _ hge j)
  have hlt' := IntOp.cmpi_slt.1 (Host.reduce_andi_all _ _ _ _ _ hlt j)
  exact toNat_lt_eight (a2 j) hge' hlt'

end Cert.PreRange
-- ==== Proof.KValue.lean ====
import proofs.«409439_j24232205484239_2_alg».proof.Proof.OkAll
import proofs.«409439_j24232205484239_2_alg».proof.Proof.Region0Value
import proofs.«409439_j24232205484239_2_alg».proof.Proof.Region1Value
import proofs.«409439_j24232205484239_2_alg».proof.Proof.Region2Value
import proofs.«409439_j24232205484239_2_alg».proof.Proof.Region3Value
import proofs.«409439_j24232205484239_2_alg».proof.Proof.Region4Value
import proofs.«409439_j24232205484239_2_alg».proof.Proof.PayKalei
import proofs.«409439_j24232205484239_2_alg».proof.Proof.PayGru
import proofs.«409439_j24232205484239_2_alg».proof.Proof.HostFloat
import proofs.«409439_j24232205484239_2_alg».proof.Proof.RouteSort
import proofs.«409439_j24232205484239_2_alg».proof.Proof.RouteScatter
import proofs.«409439_j24232205484239_2_alg».proof.Proof.RouteTables
import proofs.«409439_j24232205484239_2_alg».proof.Proof.RouteValues
import proofs.«409439_j24232205484239_2_alg».proof.Proof.PreRange
import proofs.«409439_j24232205484239_2_alg».proof.Proof.Args

noncomputable section

namespace Cert.KernelIdeal.KV

open Cert.KernelIdeal Cert.KernelIdeal.Gen Idealize.ShloMosaic Idealize.ShloMosaic.TcCoe Idealize.SL.Sem

-- A masked layer depends on its row and bias entry by entry, on its weights, and on the gates only through the agent's slice.
theorem masked {O : ℕ} {x x' : Fin 512 → EReal} {W W' : (⟨2, ![O, 512]⟩ : Shape).Idx → EReal} {T T' : (⟨3, ![8, O, 512]⟩ : Shape).Idx → EReal}
    {b b' : Fin O → EReal} {t : ℕ} {ht : t < 8} {a : Fin 8} (e : t = a.val) (hx : ∀ i, x i = x' i) (hW : W = W') (hT : T = T')
    (hb : ∀ j, b j = b' j) (o : Fin O) :
    Spec.kalei x (fun j i => W (ValueIdx.ix2 j i)) (fun j i => T (ValueIdx.ix3 ⟨t, ht⟩ j i)) b o
      = Spec.kalei x' (fun j i => W' (ValueIdx.ix2 j i)) (fun j i => T' (ValueIdx.ix3 a j i)) b' o := by
  subst e hW hT
  rw [funext hx, funext hb]

theorem gru_congr {x x' h h' : Fin 512 → EReal} {wih wih' whh whh' : Fin 1536 → Fin 512 → EReal} {bih bih' bhh bhh' : Fin 1536 → EReal}
    (hx : ∀ i, x i = x' i) (hh : ∀ i, h i = h' i) (h1 : ∀ j i, wih j i = wih' j i) (h2 : ∀ j i, whh j i = whh' j i)
    (h3 : ∀ j, bih j = bih' j) (h4 : ∀ j, bhh j = bhh' j) (o : Fin 512) :
    Spec.gru x h wih whh bih bhh o = Spec.gru x' h' wih' whh' bih' bhh' o := by
  rw [funext hx, funext hh, funext₂ h1, funext₂ h2, funext h3, funext h4]

variable (m : (ℓ : Loc nD τ sig) → Buf (Elt Ideal) ℓ)

def arrs (c : Dev nD) : Cert.Spec.Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15), m ((c.tc : Thread nD τ).loc main_arg16), m ((c.tc : Thread nD τ).loc main_arg17),
    m ((c.tc : Thread nD τ).loc main_arg18)⟩

-- Padded row `D` is where the sort puts row `n`, and `D`'s tile belongs to `n`'s agent.
def Place (c : Dev nD) (hrA : (arrs m c).InRange) (n : Fin 16384) (D : Fin 20480) : Prop :=
  V13 m c main_v66 (ValueIdx.ix1 n) = BitVec.ofNat 32 D.val
    ∧ V13 m c main_v58 (ValueIdx.ix1 D) = BitVec.ofNat 32 n.val
    ∧ V13 m c main_v79 (ValueIdx.ix1 ⟨D.val / 512, by have := D.isLt; omega⟩)
        = BitVec.ofNat 32 (RouteT.ag m c hrA n).val

theorem route (c : Dev nD) (hrA : (arrs m c).InRange) (n : Fin 16384) : ∃ D, Place m c hrA n D := by
  have hs := RouteS.σ_sort m c hrA
  refine RouteSc.routing m c _ (fun j => ⟨_, Cert.Route.dest_lt hs j⟩) (RouteS.order_eq m c)
    (RouteS.dest_eq m c hrA (RouteT.starts_eq m c hrA) (RouteT.pstarts_eq m c hrA))
    hs.bij.injective (fun _ _ h => Cert.Route.dest_inj hs (congrArg Fin.val h)) hs.bij.surjective _ (fun j => ?_) n
  rw [RouteT.tile_eq m c hrA]
  exact congrArg (BitVec.ofNat 32) (Cert.Route.tileAgent_dest hs j)

section Row

variable (ok : RunAll.Ok m) (c : Dev nD) (hrA : (arrs m c).InRange) (n : Fin 16384) (D : Fin 20480) (hD : Place m c hrA n D)

include hD

-- Any table equal to the tile table holds row `n`'s agent at padded row `D`'s tile.
theorem tg {w : S40.Idx → BitVec 32} (e : w = RunAll.atTc (V13 m) c main_v79) :
    (w (ValueIdx.ix1 ⟨D.val / 512, by have := D.isLt; omega⟩)).toNat = ((arrs m c).ag hrA (Spec.rb n) (Spec.ra n)).val := by
  subst e
  exact (congrArg BitVec.toNat hD.2.2).trans (WordArith.toNat_ofNat_of_lt _ (by have := (RouteT.ag m c hrA n).isLt; omega))

theorem row0 (o : Fin 512) :
    RunAll.outs m ok 14 main_v83 c (ValueIdx.ix2 D o)
      = Spec.l1 (arrs m c).params ((arrs m c).ag hrA (Spec.rb n) (Spec.ra n)) ((arrs m c).x (Spec.rb n) (Spec.ra n)) o :=
  ((congrFun (RunAll.outs_14 m ok c) _).trans (Reg0.value (RunAll.atTc (V13 m)) (RunAll.adm m ok 0) c Pay.k0_pay1_apply D o)).trans
    (congrArg Spec.relu (masked (tg m c hrA n D hD (congrFun (RunAll.tbl0_at m ok c) 0).symm)
      (HostF.x_sorted m c D n hD.2.1) (HostF.arg3_V13 m c) (HostF.arg5_V13 m c) (HostF.b1_row m c) o))

theorem row1 (o : Fin 512) :
    RunAll.outs m ok 16 main_v86 c (ValueIdx.ix2 D o)
      = Spec.hid (arrs m c).params ((arrs m c).ag hrA (Spec.rb n) (Spec.ra n)) ((arrs m c).x (Spec.rb n) (Spec.ra n)) ((arrs m c).h (Spec.rb n) (Spec.ra n)) o :=
  ((congrFun (RunAll.outs_16 m ok c) _).trans (Reg1.value (RunAll.atTc (V15 m (RunAll.outs m ok))) c Pay.k1_pay1_apply D o)).trans
    (gru_congr (fun i => (congrFun (HostF.v83_V15 m _ c) _).trans (row0 m ok c hrA n D hD i))
      (fun i => (congrFun (HostF.v81_V15 m _ c) _).trans (HostF.h_sorted m c D n hD.2.1 i))
      (fun _ _ => congrFun (HostF.arg6_V15 m _ c) _) (fun _ _ => congrFun (HostF.arg7_V15 m _ c) _)
      (HostF.bih_row m _ c) (HostF.bhh_row m _ c) o)

theorem row2 (o : Fin 512) :
    RunAll.outs m ok 18 main_v88 c (ValueIdx.ix2 D o)
      = Spec.l2 (arrs m c).params ((arrs m c).ag hrA (Spec.rb n) (Spec.ra n)) ((arrs m c).x (Spec.rb n) (Spec.ra n)) ((arrs m c).h (Spec.rb n) (Spec.ra n)) o :=
  ((congrFun (RunAll.outs_18 m ok c) _).trans (Reg2.value (RunAll.atTc (V17 m (RunAll.outs m ok))) (RunAll.adm m ok 2) c Pay.k2_pay1_apply D o)).trans
    (congrArg Spec.relu (masked (tg m c hrA n D hD ((congrFun (RunAll.tbl2_at m ok c) 0).symm.trans (RunAll.v79_17 m ok c)))
      (fun i => (congrFun (HostF.v86_V17 m _ c) _).trans (row1 m ok c hrA n D hD i))
      (HostF.arg10_V17 m _ c) (HostF.arg12_V17 m _ c) (HostF.b2_row m _ c) o))

theorem row3 (o : Fin 512) :
    RunAll.outs m ok 20 main_v90 c (ValueIdx.ix2 D o)
      = Spec.l3 (arrs m c).params ((arrs m c).ag hrA (Spec.rb n) (Spec.ra n)) ((arrs m c).x (Spec.rb n) (Spec.ra n)) ((arrs m c).h (Spec.rb n) (Spec.ra n)) o :=
  ((congrFun (RunAll.outs_20 m ok c) _).trans (Reg3.value (RunAll.atTc (V19 m (RunAll.outs m ok))) (RunAll.adm m ok 3) c Pay.k3_pay1_apply D o)).trans
    (congrArg Spec.relu (masked (tg m c hrA n D hD ((congrFun (RunAll.tbl3_at m ok c) 0).symm.trans (RunAll.v79_19 m ok c)))
      (fun i => (congrFun (HostF.v88_V19 m _ c) _).trans (row2 m ok c hrA n D hD i))
      (HostF.arg13_V19 m _ c) (HostF.arg15_V19 m _ c) (HostF.b3_row m _ c) o))

theorem row4 (o : Fin 64) :
    RunAll.outs m ok 22 main_v92 c (ValueIdx.ix2 D o)
      = Spec.q (arrs m c).params ((arrs m c).ag hrA (Spec.rb n) (Spec.ra n)) ((arrs m c).x (Spec.rb n) (Spec.ra n)) ((arrs m c).h (Spec.rb n) (Spec.ra n)) o :=
  ((congrFun (RunAll.outs_22 m ok c) _).trans (Reg4.value (RunAll.atTc (V21 m (RunAll.outs m ok))) (RunAll.adm m ok 4) c Pay.k4_pay1_apply D o)).trans
    (masked (tg m c hrA n D hD ((congrFun (RunAll.tbl4_at m ok c) 0).symm.trans (RunAll.v79_21 m ok c)))
      (fun i => (congrFun (HostF.v90_V21 m _ c) _).trans (row3 m ok c hrA n D hD i))
      (HostF.arg16_V21 m _ c) (HostF.arg18_V21 m _ c) (HostF.b4_row m _ c) o)

end Row

theorem row_of (b : Fin 2048) (a : Fin 8) : ∃ n : Fin 16384, Spec.rb n = b ∧ Spec.ra n = a :=
  ⟨⟨8 * b.val + a.val, by have := b.isLt; have := a.isLt; omega⟩,
    Fin.ext (by show (8 * b.val + a.val) / 8 = b.val; have := a.isLt; omega),
    Fin.ext (by show (8 * b.val + a.val) % 8 = a.val; have := a.isLt; omega)⟩

-- Two arrays over the split batch axes that agree at every row of the flattened batch are equal.
theorem by_rows {k : ℕ} {f g : (⟨3, ![2048, 8, k]⟩ : Shape).Idx → EReal}
    (h : ∀ (n : Fin 16384) (o : Fin k), f (ValueIdx.ix3 (Spec.rb n) (Spec.ra n) o) = g (ValueIdx.ix3 (Spec.rb n) (Spec.ra n) o)) :
    f = g := by
  funext j
  obtain ⟨n, h0, h1⟩ := row_of (j 0) (j 1)
  rw [ValueIdx.eq_ix3 j, ← h0, ← h1]
  exact h n (j 2)

theorem resQ (ok : RunAll.Ok m) (c : Dev nD) (hrA : (arrs m c).InRange) :
    (V25 m (RunAll.outs m ok) c main_v95 : S2048x8x64.Idx → EReal) = (arrs m c).Q hrA :=
  by_rows fun n o => by
    obtain ⟨D, hD⟩ := route m c hrA n
    exact (HostF.res_q m _ c n D hD.1 o).trans (row4 m ok c hrA n D hD o)

theorem resH (ok : RunAll.Ok m) (c : Dev nD) (hrA : (arrs m c).InRange) :
    (V25 m (RunAll.outs m ok) c main_v96 : S2048x8x512.Idx → EReal) = (arrs m c).Hout hrA :=
  by_rows fun n o => by
    obtain ⟨D, hD⟩ := route m c hrA n
    exact (HostF.res_h m _ c n D hD.1 o).trans (row1 m ok c hrA n D hD o)

theorem run (ρ : Dev nD → PrngReg) (hrA : ∀ c, (arrs m c).InRange) :
    θ_run (defs (F := Ideal)) (onTc (τ := τ) (main (F := Ideal))) ⟨m, fun _ => 0, ρ⟩ fun r => ∀ c : Dev nD,
      r.2.mem ((c.tc : Thread nD τ).loc main_v95) = (arrs m c).Q (hrA c)
      ∧ r.2.mem ((c.tc : Thread nD τ).loc main_v96) = (arrs m c).Hout (hrA c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run (defs (F := Ideal)) _ _).mono
    (fun _ h c => ⟨(h c).1.trans (resQ m _ c (hrA c)), (h c).2.1.trans (resH m _ c (hrA c)), (h c).2.2⟩)
    (RunAll.run_results m ρ (RunAll.ok_all m))

end Cert.KernelIdeal.KV

end
-- ==== Proof.RefStages.lean ====
import proofs.«409439_j24232205484239_2_alg».proof.Proof.Gen.ReferenceIdeal
import Idealize.ShloMosaic.Lib.Pipeline.Value
import Idealize.ShloMosaic.Lib.ValueIdx
import Idealize.ShloMosaic.PureOps.Ideal.Laws

/-! The reference program one operation at a time: each operation's value as a function of the argument arrays. -/

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S2048x8x512, .f32⟩ : BufTy).Contents (Elt F))
  (x1 : (⟨S2048x8x512, .f32⟩ : BufTy).Contents (Elt F))
  (x2 : (⟨S2048x8, .i32⟩ : BufTy).Contents (Elt F))
  (x3 : (⟨S512x512, .f32⟩ : BufTy).Contents (Elt F))
  (x4 : (⟨S512, .f32⟩ : BufTy).Contents (Elt F))
  (x5 : (⟨S8x512x512, .f32⟩ : BufTy).Contents (Elt F))
  (x6 : (⟨S1536x512, .f32⟩ : BufTy).Contents (Elt F))
  (x7 : (⟨S1536x512, .f32⟩ : BufTy).Contents (Elt F))
  (x8 : (⟨S1536, .f32⟩ : BufTy).Contents (Elt F))
  (x9 : (⟨S1536, .f32⟩ : BufTy).Contents (Elt F))
  (x10 : (⟨S512x512, .f32⟩ : BufTy).Contents (Elt F))
  (x11 : (⟨S512, .f32⟩ : BufTy).Contents (Elt F))
  (x12 : (⟨S8x512x512, .f32⟩ : BufTy).Contents (Elt F))
  (x13 : (⟨S512x512, .f32⟩ : BufTy).Contents (Elt F))
  (x14 : (⟨S512, .f32⟩ : BufTy).Contents (Elt F))
  (x15 : (⟨S8x512x512, .f32⟩ : BufTy).Contents (Elt F))
  (x16 : (⟨S64x512, .f32⟩ : BufTy).Contents (Elt F))
  (x17 : (⟨S64, .f32⟩ : BufTy).Contents (Elt F))
  (x18 : (⟨S8x64x512, .f32⟩ : BufTy).Contents (Elt F))

def val_main_v0 : (⟨S16384x512, .f32⟩ : BufTy).Contents (Elt F) :=
  shapeCast _ (x0) shapeCasts_S2048x8x512_S16384x512

def val_main_v1 : (⟨S16384, .i32⟩ : BufTy).Contents (Elt F) :=
  shapeCast _ (x2) shapeCasts_S2048x8_S16384

def val_main_v2 : (⟨S16384x512, .f32⟩ : BufTy).Contents (Elt F) :=
  shapeCast _ (x1) shapeCasts_S2048x8x512_S16384x512

def val_main_v3 : (⟨S512x512, .f32⟩ : BufTy).Contents (Elt F) :=
  Host.sign (x3)

def val_main_v4 : (⟨S1x512x512, .f32⟩ : BufTy).Contents (Elt F) :=
  broadcastInDim S1x512x512 ![1, 2] bcast_S512x512_S1x512x512_1_2 (val_main_v3 (F := F) x3)

def val_main_v5 : (⟨S512x512, .f32⟩ : BufTy).Contents (Elt F) :=
  Host.absf (x3)

def val_main_v6 : (⟨S1x512x512, .f32⟩ : BufTy).Contents (Elt F) :=
  broadcastInDim S1x512x512 ![1, 2] bcast_S512x512_S1x512x512_1_2 (val_main_v5 (F := F) x3)

def val_main_v7 : (⟨S8x512x512, .f32⟩ : BufTy).Contents (Elt F) :=
  Host.negf (x5)

def val_main_v8 : (⟨S8x512x512, .f32⟩ : BufTy).Contents (Elt F) :=
  Host.exp (val_main_v7 (F := F) x5)

def val_main_cst : (⟨S_, .f32⟩ : BufTy).Contents (Elt F) :=
  constant S_ .f32 0x3F800000#32

def val_main_v9 : (⟨S8x512x512, .f32⟩ : BufTy).Contents (Elt F) :=
  broadcastInDim S8x512x512 ![] bcast_S_S8x512x512 (val_main_cst (F := F))

def val_main_v10 : (⟨S8x512x512, .f32⟩ : BufTy).Contents (Elt F) :=
  addf (val_main_v9 (F := F)) (val_main_v8 (F := F) x5)

def val_main_cst_0 : (⟨S_, .f32⟩ : BufTy).Contents (Elt F) :=
  constant S_ .f32 0x3F800000#32

def val_main_v11 : (⟨S8x512x512, .f32⟩ : BufTy).Contents (Elt F) :=
  broadcastInDim S8x512x512 ![] bcast_S_S8x512x512 (val_main_cst_0 (F := F))

def val_main_v12 : (⟨S8x512x512, .f32⟩ : BufTy).Contents (Elt F) :=
  Host.divf (val_main_v11 (F := F)) (val_main_v10 (F := F) x5)

def val_main_v13 : (⟨S8x512x512, .f32⟩ : BufTy).Contents (Elt F) :=
  broadcastInDim S8x512x512 ![0, 1, 2] bcast_S1x512x512_S8x512x512_0_1_2 (val_main_v6 (F := F) x3)

def val_main_v14 : (⟨S8x512x512, .f32⟩ : BufTy).Contents (Elt F) :=
  subf (val_main_v13 (F := F) x3) (val_main_v12 (F := F) x5)

def val_main_call0_cst : (⟨S_, .f32⟩ : BufTy).Contents (Elt F) :=
  constant S_ .f32 0x00000000#32

def val_main_call0_v0 : (⟨S8x512x512, .f32⟩ : BufTy).Contents (Elt F) :=
  broadcastInDim S8x512x512 ![] bcast_S_S8x512x512 (val_main_call0_cst (F := F))

def val_main_v15 : (⟨S8x512x512, .f32⟩ : BufTy).Contents (Elt F) :=
  maximumf (val_main_v14 (F := F) x3 x5) (val_main_call0_v0 (F := F))

def val_main_v16 : (⟨S8x512x512, .f32⟩ : BufTy).Contents (Elt F) :=
  broadcastInDim S8x512x512 ![0, 1, 2] bcast_S1x512x512_S8x512x512_0_1_2 (val_main_v4 (F := F) x3)

def val_main_v17 : (⟨S8x512x512, .f32⟩ : BufTy).Contents (Elt F) :=
  mulf (val_main_v16 (F := F) x3) (val_main_v15 (F := F) x3 x5)

def val_main_v18 : (⟨S16384x8x512, .f32⟩ : BufTy).Contents (Elt F) :=
  Host.dotGeneral dot_S16384x512_S8x512x512_S16384x8x512_1_2_0_01_n_n none (val_main_v0 (F := F) x0) (val_main_v17 (F := F) x3 x5)

def val_main_v19 : (⟨S16384x1x1, .i32⟩ : BufTy).Contents (Elt F) :=
  broadcastInDim S16384x1x1 ![0] bcast_S16384_S16384x1x1_0 (val_main_v1 (F := F) x2)

def val_main_call1_c : (⟨S_, .i32⟩ : BufTy).Contents (Elt F) :=
  constantI S_ 32 0#32

def val_main_call1_v0 : (⟨S16384x1x1, .i32⟩ : BufTy).Contents (Elt F) :=
  broadcastInDim S16384x1x1 ![] bcast_S_S16384x1x1 (val_main_call1_c (F := F))

def val_main_call1_v1 : (⟨S16384x1x1, .i1⟩ : BufTy).Contents (Elt F) :=
  cmpi .slt (val_main_v19 (F := F) x2) (val_main_call1_v0 (F := F))

def val_main_call1_c_0 : (⟨S_, .i32⟩ : BufTy).Contents (Elt F) :=
  constantI S_ 32 8#32

def val_main_call1_v2 : (⟨S16384x1x1, .i32⟩ : BufTy).Contents (Elt F) :=
  broadcastInDim S16384x1x1 ![] bcast_S_S16384x1x1 (val_main_call1_c_0 (F := F))

def val_main_call1_v3 : (⟨S16384x1x1, .i32⟩ : BufTy).Contents (Elt F) :=
  addi (val_main_v19 (F := F) x2) (val_main_call1_v2 (F := F))

def val_main_call1_v4 : (⟨S16384x1x1, .i32⟩ : BufTy).Contents (Elt F) :=
  select (val_main_call1_v1 (F := F) x2) (val_main_call1_v3 (F := F) x2) (val_main_v19 (F := F) x2)

def val_main_call1_c_1 : (⟨S1, .i32⟩ : BufTy).Contents (Elt F) :=
  constantI S1 32 7#32

def val_main_call1_c_2 : (⟨S_, .i32⟩ : BufTy).Contents (Elt F) :=
  constantI S_ 32 0#32

def val_main_call1_v5 : (⟨S16384x1x1, .i32⟩ : BufTy).Contents (Elt F) :=
  broadcastInDim S16384x1x1 ![] bcast_S_S16384x1x1 (val_main_call1_c_2 (F := F))

def val_main_call1_v6 : (⟨S16384x1x1, .i1⟩ : BufTy).Contents (Elt F) :=
  cmpi .sge (val_main_call1_v4 (F := F) x2) (val_main_call1_v5 (F := F))

def val_main_call1_v7 : (⟨S1x1x1, .i32⟩ : BufTy).Contents (Elt F) :=
  broadcastInDim S1x1x1 ![2] bcast_S1_S1x1x1_2 (val_main_call1_c_1 (F := F))

def val_main_call1_v8 : (⟨S16384x1x1, .i32⟩ : BufTy).Contents (Elt F) :=
  broadcastInDim S16384x1x1 ![0, 1, 2] bcast_S1x1x1_S16384x1x1_0_1_2 (val_main_call1_v7 (F := F))

def val_main_call1_v9 : (⟨S16384x1x1, .i1⟩ : BufTy).Contents (Elt F) :=
  cmpi .sle (val_main_call1_v4 (F := F) x2) (val_main_call1_v8 (F := F))

def val_main_call1_v10 : (⟨S16384x1x1, .i1⟩ : BufTy).Contents (Elt F) :=
  andi (val_main_call1_v6 (F := F) x2) (val_main_call1_v9 (F := F) x2)

def val_main_call1_c_3 : (⟨S_, .i1⟩ : BufTy).Contents (Elt F) :=
  constantI S_ 1 1#1

def val_main_call1_v11 : (⟨S16384x1, .i1⟩ : BufTy).Contents (Elt F) :=
  Host.reduce IntOp.andi (val_main_call1_v10 (F := F) x2) (val_main_call1_c_3 (F := F)) reducesTo_S16384x1x1_S16384x1_d2 h_S_

def val_main_call1_v12 : (⟨S16384x1x512, .f32⟩ : BufTy).Contents (Elt F) :=
  Host.gather gather_S16384x8x512_S16384x1x1_S16384x1x512_2_1_0_0_1_2_11512 (val_main_v18 (F := F) x0 x3 x5) (val_main_call1_v4 (F := F) x2)

def val_main_call1_v13 : (⟨S16384x1x512, .i1⟩ : BufTy).Contents (Elt F) :=
  broadcastInDim S16384x1x512 ![0, 1] bcast_S16384x1_S16384x1x512_0_1 (val_main_call1_v11 (F := F) x2)

def val_main_call1_cst : (⟨S_, .f32⟩ : BufTy).Contents (Elt F) :=
  constant S_ .f32 0x7FC00000#32

def val_main_call1_v14 : (⟨S16384x1x512, .f32⟩ : BufTy).Contents (Elt F) :=
  broadcastInDim S16384x1x512 ![] bcast_S_S16384x1x512 (val_main_call1_cst (F := F))

def val_main_v20 : (⟨S16384x1x512, .f32⟩ : BufTy).Contents (Elt F) :=
  select (val_main_call1_v13 (F := F) x2) (val_main_call1_v12 (F := F) x0 x2 x3 x5) (val_main_call1_v14 (F := F))

def val_main_v21 : (⟨S16384x512, .f32⟩ : BufTy).Contents (Elt F) :=
  shapeCast _ (val_main_v20 (F := F) x0 x2 x3 x5) shapeCasts_S16384x1x512_S16384x512

def val_main_v22 : (⟨S1x512, .f32⟩ : BufTy).Contents (Elt F) :=
  broadcastInDim S1x512 ![1] bcast_S512_S1x512_1 (x4)

def val_main_v23 : (⟨S16384x512, .f32⟩ : BufTy).Contents (Elt F) :=
  broadcastInDim S16384x512 ![0, 1] bcast_S1x512_S16384x512_0_1 (val_main_v22 (F := F) x4)

def val_main_v24 : (⟨S16384x512, .f32⟩ : BufTy).Contents (Elt F) :=
  addf (val_main_v21 (F := F) x0 x2 x3 x5) (val_main_v23 (F := F) x4)

def val_main_call2_cst : (⟨S_, .f32⟩ : BufTy).Contents (Elt F) :=
  constant S_ .f32 0x00000000#32

def val_main_call2_v0 : (⟨S16384x512, .f32⟩ : BufTy).Contents (Elt F) :=
  broadcastInDim S16384x512 ![] bcast_S_S16384x512 (val_main_call2_cst (F := F))

def val_main_v25 : (⟨S16384x512, .f32⟩ : BufTy).Contents (Elt F) :=
  maximumf (val_main_v24 (F := F) x0 x2 x3 x4 x5) (val_main_call2_v0 (F := F))

def val_main_v26 : (⟨S512x1536, .f32⟩ : BufTy).Contents (Elt F) :=
  transpose S512x1536 [1, 0] (x6) transposes_S1536x512_S512x1536_1_0

def val_main_v27 : (⟨S16384x1536, .f32⟩ : BufTy).Contents (Elt F) :=
  Host.dotGeneral dot_S16384x512_S512x1536_S16384x1536_1_0_0_1_n_n none (val_main_v25 (F := F) x0 x2 x3 x4 x5) (val_main_v26 (F := F) x6)

def val_main_v28 : (⟨S1x1536, .f32⟩ : BufTy).Contents (Elt F) :=
  broadcastInDim S1x1536 ![1] bcast_S1536_S1x1536_1 (x8)

def val_main_v29 : (⟨S16384x1536, .f32⟩ : BufTy).Contents (Elt F) :=
  broadcastInDim S16384x1536 ![0, 1] bcast_S1x1536_S16384x1536_0_1 (val_main_v28 (F := F) x8)

def val_main_v30 : (⟨S16384x1536, .f32⟩ : BufTy).Contents (Elt F) :=
  addf (val_main_v27 (F := F) x0 x2 x3 x4 x5 x6) (val_main_v29 (F := F) x8)

def val_main_v31 : (⟨S512x1536, .f32⟩ : BufTy).Contents (Elt F) :=
  transpose S512x1536 [1, 0] (x7) transposes_S1536x512_S512x1536_1_0

def val_main_v32 : (⟨S16384x1536, .f32⟩ : BufTy).Contents (Elt F) :=
  Host.dotGeneral dot_S16384x512_S512x1536_S16384x1536_1_0_0_1_n_n none (val_main_v2 (F := F) x1) (val_main_v31 (F := F) x7)

def val_main_v33 : (⟨S1x1536, .f32⟩ : BufTy).Contents (Elt F) :=
  broadcastInDim S1x1536 ![1] bcast_S1536_S1x1536_1 (x9)

def val_main_v34 : (⟨S16384x1536, .f32⟩ : BufTy).Contents (Elt F) :=
  broadcastInDim S16384x1536 ![0, 1] bcast_S1x1536_S16384x1536_0_1 (val_main_v33 (F := F) x9)

def val_main_v35 : (⟨S16384x1536, .f32⟩ : BufTy).Contents (Elt F) :=
  addf (val_main_v32 (F := F) x1 x7) (val_main_v34 (F := F) x9)

def val_main_v36 : (⟨S16384x512, .f32⟩ : BufTy).Contents (Elt F) :=
  extractStridedSlice S16384x512 ![0, 0] (val_main_v30 (F := F) x0 x2 x3 x4 x5 x6 x8) slices_S16384x1536_S16384x512_0_0

def val_main_v37 : (⟨S16384x512, .f32⟩ : BufTy).Contents (Elt F) :=
  extractStridedSlice S16384x512 ![0, 512] (val_main_v30 (F := F) x0 x2 x3 x4 x5 x6 x8) slices_S16384x1536_S16384x512_0_512

def val_main_v38 : (⟨S16384x512, .f32⟩ : BufTy).Contents (Elt F) :=
  extractStridedSlice S16384x512 ![0, 1024] (val_main_v30 (F := F) x0 x2 x3 x4 x5 x6 x8) slices_S16384x1536_S16384x512_0_1024

def val_main_v39 : (⟨S16384x512, .f32⟩ : BufTy).Contents (Elt F) :=
  extractStridedSlice S16384x512 ![0, 0] (val_main_v35 (F := F) x1 x7 x9) slices_S16384x1536_S16384x512_0_0

def val_main_v40 : (⟨S16384x512, .f32⟩ : BufTy).Contents (Elt F) :=
  extractStridedSlice S16384x512 ![0, 512] (val_main_v35 (F := F) x1 x7 x9) slices_S16384x1536_S16384x512_0_512

def val_main_v41 : (⟨S16384x512, .f32⟩ : BufTy).Contents (Elt F) :=
  extractStridedSlice S16384x512 ![0, 1024] (val_main_v35 (F := F) x1 x7 x9) slices_S16384x1536_S16384x512_0_1024

def val_main_v42 : (⟨S16384x512, .f32⟩ : BufTy).Contents (Elt F) :=
  addf (val_main_v36 (F := F) x0 x2 x3 x4 x5 x6 x8) (val_main_v39 (F := F) x1 x7 x9)

def val_main_v43 : (⟨S16384x512, .f32⟩ : BufTy).Contents (Elt F) :=
  Host.negf (val_main_v42 (F := F) x0 x1 x2 x3 x4 x5 x6 x7 x8 x9)

def val_main_v44 : (⟨S16384x512, .f32⟩ : BufTy).Contents (Elt F) :=
  Host.exp (val_main_v43 (F := F) x0 x1 x2 x3 x4 x5 x6 x7 x8 x9)

def val_main_cst_1 : (⟨S_, .f32⟩ : BufTy).Contents (Elt F) :=
  constant S_ .f32 0x3F800000#32

def val_main_v45 : (⟨S16384x512, .f32⟩ : BufTy).Contents (Elt F) :=
  broadcastInDim S16384x512 ![] bcast_S_S16384x512 (val_main_cst_1 (F := F))

def val_main_v46 : (⟨S16384x512, .f32⟩ : BufTy).Contents (Elt F) :=
  addf (val_main_v45 (F := F)) (val_main_v44 (F := F) x0 x1 x2 x3 x4 x5 x6 x7 x8 x9)

def val_main_cst_2 : (⟨S_, .f32⟩ : BufTy).Contents (Elt F) :=
  constant S_ .f32 0x3F800000#32

def val_main_v47 : (⟨S16384x512, .f32⟩ : BufTy).Contents (Elt F) :=
  broadcastInDim S16384x512 ![] bcast_S_S16384x512 (val_main_cst_2 (F := F))

def val_main_v48 : (⟨S16384x512, .f32⟩ : BufTy).Contents (Elt F) :=
  Host.divf (val_main_v47 (F := F)) (val_main_v46 (F := F) x0 x1 x2 x3 x4 x5 x6 x7 x8 x9)

def val_main_v49 : (⟨S16384x512, .f32⟩ : BufTy).Contents (Elt F) :=
  addf (val_main_v37 (F := F) x0 x2 x3 x4 x5 x6 x8) (val_main_v40 (F := F) x1 x7 x9)

def val_main_v50 : (⟨S16384x512, .f32⟩ : BufTy).Contents (Elt F) :=
  Host.negf (val_main_v49 (F := F) x0 x1 x2 x3 x4 x5 x6 x7 x8 x9)

def val_main_v51 : (⟨S16384x512, .f32⟩ : BufTy).Contents (Elt F) :=
  Host.exp (val_main_v50 (F := F) x0 x1 x2 x3 x4 x5 x6 x7 x8 x9)

def val_main_cst_3 : (⟨S_, .f32⟩ : BufTy).Contents (Elt F) :=
  constant S_ .f32 0x3F800000#32

def val_main_v52 : (⟨S16384x512, .f32⟩ : BufTy).Contents (Elt F) :=
  broadcastInDim S16384x512 ![] bcast_S_S16384x512 (val_main_cst_3 (F := F))

def val_main_v53 : (⟨S16384x512, .f32⟩ : BufTy).Contents (Elt F) :=
  addf (val_main_v52 (F := F)) (val_main_v51 (F := F) x0 x1 x2 x3 x4 x5 x6 x7 x8 x9)

def val_main_cst_4 : (⟨S_, .f32⟩ : BufTy).Contents (Elt F) :=
  constant S_ .f32 0x3F800000#32

def val_main_v54 : (⟨S16384x512, .f32⟩ : BufTy).Contents (Elt F) :=
  broadcastInDim S16384x512 ![] bcast_S_S16384x512 (val_main_cst_4 (F := F))

def val_main_v55 : (⟨S16384x512, .f32⟩ : BufTy).Contents (Elt F) :=
  Host.divf (val_main_v54 (F := F)) (val_main_v53 (F := F) x0 x1 x2 x3 x4 x5 x6 x7 x8 x9)

def val_main_v56 : (⟨S16384x512, .f32⟩ : BufTy).Contents (Elt F) :=
  mulf (val_main_v48 (F := F) x0 x1 x2 x3 x4 x5 x6 x7 x8 x9) (val_main_v41 (F := F) x1 x7 x9)

def val_main_v57 : (⟨S16384x512, .f32⟩ : BufTy).Contents (Elt F) :=
  addf (val_main_v38 (F := F) x0 x2 x3 x4 x5 x6 x8) (val_main_v56 (F := F) x0 x1 x2 x3 x4 x5 x6 x7 x8 x9)

def val_main_v58 : (⟨S16384x512, .f32⟩ : BufTy).Contents (Elt F) :=
  Host.tanh (val_main_v57 (F := F) x0 x1 x2 x3 x4 x5 x6 x7 x8 x9)

def val_main_cst_5 : (⟨S_, .f32⟩ : BufTy).Contents (Elt F) :=
  constant S_ .f32 0x3F800000#32

def val_main_v59 : (⟨S16384x512, .f32⟩ : BufTy).Contents (Elt F) :=
  broadcastInDim S16384x512 ![] bcast_S_S16384x512 (val_main_cst_5 (F := F))

def val_main_v60 : (⟨S16384x512, .f32⟩ : BufTy).Contents (Elt F) :=
  subf (val_main_v59 (F := F)) (val_main_v55 (F := F) x0 x1 x2 x3 x4 x5 x6 x7 x8 x9)

def val_main_v61 : (⟨S16384x512, .f32⟩ : BufTy).Contents (Elt F) :=
  mulf (val_main_v60 (F := F) x0 x1 x2 x3 x4 x5 x6 x7 x8 x9) (val_main_v58 (F := F) x0 x1 x2 x3 x4 x5 x6 x7 x8 x9)

def val_main_v62 : (⟨S16384x512, .f32⟩ : BufTy).Contents (Elt F) :=
  mulf (val_main_v55 (F := F) x0 x1 x2 x3 x4 x5 x6 x7 x8 x9) (val_main_v2 (F := F) x1)

def val_main_v63 : (⟨S16384x512, .f32⟩ : BufTy).Contents (Elt F) :=
  addf (val_main_v61 (F := F) x0 x1 x2 x3 x4 x5 x6 x7 x8 x9) (val_main_v62 (F := F) x0 x1 x2 x3 x4 x5 x6 x7 x8 x9)

def val_main_v64 : (⟨S512x512, .f32⟩ : BufTy).Contents (Elt F) :=
  Host.sign (x10)

def val_main_v65 : (⟨S1x512x512, .f32⟩ : BufTy).Contents (Elt F) :=
  broadcastInDim S1x512x512 ![1, 2] bcast_S512x512_S1x512x512_1_2 (val_main_v64 (F := F) x10)

def val_main_v66 : (⟨S512x512, .f32⟩ : BufTy).Contents (Elt F) :=
  Host.absf (x10)

def val_main_v67 : (⟨S1x512x512, .f32⟩ : BufTy).Contents (Elt F) :=
  broadcastInDim S1x512x512 ![1, 2] bcast_S512x512_S1x512x512_1_2 (val_main_v66 (F := F) x10)

def val_main_v68 : (⟨S8x512x512, .f32⟩ : BufTy).Contents (Elt F) :=
  Host.negf (x12)

def val_main_v69 : (⟨S8x512x512, .f32⟩ : BufTy).Contents (Elt F) :=
  Host.exp (val_main_v68 (F := F) x12)

def val_main_cst_6 : (⟨S_, .f32⟩ : BufTy).Contents (Elt F) :=
  constant S_ .f32 0x3F800000#32

def val_main_v70 : (⟨S8x512x512, .f32⟩ : BufTy).Contents (Elt F) :=
  broadcastInDim S8x512x512 ![] bcast_S_S8x512x512 (val_main_cst_6 (F := F))

def val_main_v71 : (⟨S8x512x512, .f32⟩ : BufTy).Contents (Elt F) :=
  addf (val_main_v70 (F := F)) (val_main_v69 (F := F) x12)

def val_main_cst_7 : (⟨S_, .f32⟩ : BufTy).Contents (Elt F) :=
  constant S_ .f32 0x3F800000#32

def val_main_v72 : (⟨S8x512x512, .f32⟩ : BufTy).Contents (Elt F) :=
  broadcastInDim S8x512x512 ![] bcast_S_S8x512x512 (val_main_cst_7 (F := F))

def val_main_v73 : (⟨S8x512x512, .f32⟩ : BufTy).Contents (Elt F) :=
  Host.divf (val_main_v72 (F := F)) (val_main_v71 (F := F) x12)

def val_main_v74 : (⟨S8x512x512, .f32⟩ : BufTy).Contents (Elt F) :=
  broadcastInDim S8x512x512 ![0, 1, 2] bcast_S1x512x512_S8x512x512_0_1_2 (val_main_v67 (F := F) x10)

def val_main_v75 : (⟨S8x512x512, .f32⟩ : BufTy).Contents (Elt F) :=
  subf (val_main_v74 (F := F) x10) (val_main_v73 (F := F) x12)

def val_main_call3_cst : (⟨S_, .f32⟩ : BufTy).Contents (Elt F) :=
  constant S_ .f32 0x00000000#32

def val_main_call3_v0 : (⟨S8x512x512, .f32⟩ : BufTy).Contents (Elt F) :=
  broadcastInDim S8x512x512 ![] bcast_S_S8x512x512 (val_main_call3_cst (F := F))

def val_main_v76 : (⟨S8x512x512, .f32⟩ : BufTy).Contents (Elt F) :=
  maximumf (val_main_v75 (F := F) x10 x12) (val_main_call3_v0 (F := F))

def val_main_v77 : (⟨S8x512x512, .f32⟩ : BufTy).Contents (Elt F) :=
  broadcastInDim S8x512x512 ![0, 1, 2] bcast_S1x512x512_S8x512x512_0_1_2 (val_main_v65 (F := F) x10)

def val_main_v78 : (⟨S8x512x512, .f32⟩ : BufTy).Contents (Elt F) :=
  mulf (val_main_v77 (F := F) x10) (val_main_v76 (F := F) x10 x12)

def val_main_v79 : (⟨S16384x8x512, .f32⟩ : BufTy).Contents (Elt F) :=
  Host.dotGeneral dot_S16384x512_S8x512x512_S16384x8x512_1_2_0_01_n_n none (val_main_v63 (F := F) x0 x1 x2 x3 x4 x5 x6 x7 x8 x9) (val_main_v78 (F := F) x10 x12)

def val_main_v80 : (⟨S16384x1x1, .i32⟩ : BufTy).Contents (Elt F) :=
  broadcastInDim S16384x1x1 ![0] bcast_S16384_S16384x1x1_0 (val_main_v1 (F := F) x2)

def val_main_call4_c : (⟨S_, .i32⟩ : BufTy).Contents (Elt F) :=
  constantI S_ 32 0#32

def val_main_call4_v0 : (⟨S16384x1x1, .i32⟩ : BufTy).Contents (Elt F) :=
  broadcastInDim S16384x1x1 ![] bcast_S_S16384x1x1 (val_main_call4_c (F := F))

def val_main_call4_v1 : (⟨S16384x1x1, .i1⟩ : BufTy).Contents (Elt F) :=
  cmpi .slt (val_main_v80 (F := F) x2) (val_main_call4_v0 (F := F))

def val_main_call4_c_0 : (⟨S_, .i32⟩ : BufTy).Contents (Elt F) :=
  constantI S_ 32 8#32

def val_main_call4_v2 : (⟨S16384x1x1, .i32⟩ : BufTy).Contents (Elt F) :=
  broadcastInDim S16384x1x1 ![] bcast_S_S16384x1x1 (val_main_call4_c_0 (F := F))

def val_main_call4_v3 : (⟨S16384x1x1, .i32⟩ : BufTy).Contents (Elt F) :=
  addi (val_main_v80 (F := F) x2) (val_main_call4_v2 (F := F))

def val_main_call4_v4 : (⟨S16384x1x1, .i32⟩ : BufTy).Contents (Elt F) :=
  select (val_main_call4_v1 (F := F) x2) (val_main_call4_v3 (F := F) x2) (val_main_v80 (F := F) x2)

def val_main_call4_c_1 : (⟨S1, .i32⟩ : BufTy).Contents (Elt F) :=
  constantI S1 32 7#32

def val_main_call4_c_2 : (⟨S_, .i32⟩ : BufTy).Contents (Elt F) :=
  constantI S_ 32 0#32

def val_main_call4_v5 : (⟨S16384x1x1, .i32⟩ : BufTy).Contents (Elt F) :=
  broadcastInDim S16384x1x1 ![] bcast_S_S16384x1x1 (val_main_call4_c_2 (F := F))

def val_main_call4_v6 : (⟨S16384x1x1, .i1⟩ : BufTy).Contents (Elt F) :=
  cmpi .sge (val_main_call4_v4 (F := F) x2) (val_main_call4_v5 (F := F))

def val_main_call4_v7 : (⟨S1x1x1, .i32⟩ : BufTy).Contents (Elt F) :=
  broadcastInDim S1x1x1 ![2] bcast_S1_S1x1x1_2 (val_main_call4_c_1 (F := F))

def val_main_call4_v8 : (⟨S16384x1x1, .i32⟩ : BufTy).Contents (Elt F) :=
  broadcastInDim S16384x1x1 ![0, 1, 2] bcast_S1x1x1_S16384x1x1_0_1_2 (val_main_call4_v7 (F := F))

def val_main_call4_v9 : (⟨S16384x1x1, .i1⟩ : BufTy).Contents (Elt F) :=
  cmpi .sle (val_main_call4_v4 (F := F) x2) (val_main_call4_v8 (F := F))

def val_main_call4_v10 : (⟨S16384x1x1, .i1⟩ : BufTy).Contents (Elt F) :=
  andi (val_main_call4_v6 (F := F) x2) (val_main_call4_v9 (F := F) x2)

def val_main_call4_c_3 : (⟨S_, .i1⟩ : BufTy).Contents (Elt F) :=
  constantI S_ 1 1#1

def val_main_call4_v11 : (⟨S16384x1, .i1⟩ : BufTy).Contents (Elt F) :=
  Host.reduce IntOp.andi (val_main_call4_v10 (F := F) x2) (val_main_call4_c_3 (F := F)) reducesTo_S16384x1x1_S16384x1_d2 h_S_

def val_main_call4_v12 : (⟨S16384x1x512, .f32⟩ : BufTy).Contents (Elt F) :=
  Host.gather gather_S16384x8x512_S16384x1x1_S16384x1x512_2_1_0_0_1_2_11512 (val_main_v79 (F := F) x0 x1 x2 x3 x4 x5 x6 x7 x8 x9 x10 x12) (val_main_call4_v4 (F := F) x2)

def val_main_call4_v13 : (⟨S16384x1x512, .i1⟩ : BufTy).Contents (Elt F) :=
  broadcastInDim S16384x1x512 ![0, 1] bcast_S16384x1_S16384x1x512_0_1 (val_main_call4_v11 (F := F) x2)

def val_main_call4_cst : (⟨S_, .f32⟩ : BufTy).Contents (Elt F) :=
  constant S_ .f32 0x7FC00000#32

def val_main_call4_v14 : (⟨S16384x1x512, .f32⟩ : BufTy).Contents (Elt F) :=
  broadcastInDim S16384x1x512 ![] bcast_S_S16384x1x512 (val_main_call4_cst (F := F))

def val_main_v81 : (⟨S16384x1x512, .f32⟩ : BufTy).Contents (Elt F) :=
  select (val_main_call4_v13 (F := F) x2) (val_main_call4_v12 (F := F) x0 x1 x2 x3 x4 x5 x6 x7 x8 x9 x10 x12) (val_main_call4_v14 (F := F))

def val_main_v82 : (⟨S16384x512, .f32⟩ : BufTy).Contents (Elt F) :=
  shapeCast _ (val_main_v81 (F := F) x0 x1 x2 x3 x4 x5 x6 x7 x8 x9 x10 x12) shapeCasts_S16384x1x512_S16384x512

def val_main_v83 : (⟨S1x512, .f32⟩ : BufTy).Contents (Elt F) :=
  broadcastInDim S1x512 ![1] bcast_S512_S1x512_1 (x11)

def val_main_v84 : (⟨S16384x512, .f32⟩ : BufTy).Contents (Elt F) :=
  broadcastInDim S16384x512 ![0, 1] bcast_S1x512_S16384x512_0_1 (val_main_v83 (F := F) x11)

def val_main_v85 : (⟨S16384x512, .f32⟩ : BufTy).Contents (Elt F) :=
  addf (val_main_v82 (F := F) x0 x1 x2 x3 x4 x5 x6 x7 x8 x9 x10 x12) (val_main_v84 (F := F) x11)

def val_main_call5_cst : (⟨S_, .f32⟩ : BufTy).Contents (Elt F) :=
  constant S_ .f32 0x00000000#32

def val_main_call5_v0 : (⟨S16384x512, .f32⟩ : BufTy).Contents (Elt F) :=
  broadcastInDim S16384x512 ![] bcast_S_S16384x512 (val_main_call5_cst (F := F))

def val_main_v86 : (⟨S16384x512, .f32⟩ : BufTy).Contents (Elt F) :=
  maximumf (val_main_v85 (F := F) x0 x1 x2 x3 x4 x5 x6 x7 x8 x9 x10 x11 x12) (val_main_call5_v0 (F := F))

def val_main_v87 : (⟨S512x512, .f32⟩ : BufTy).Contents (Elt F) :=
  Host.sign (x13)

def val_main_v88 : (⟨S1x512x512, .f32⟩ : BufTy).Contents (Elt F) :=
  broadcastInDim S1x512x512 ![1, 2] bcast_S512x512_S1x512x512_1_2 (val_main_v87 (F := F) x13)

def val_main_v89 : (⟨S512x512, .f32⟩ : BufTy).Contents (Elt F) :=
  Host.absf (x13)

def val_main_v90 : (⟨S1x512x512, .f32⟩ : BufTy).Contents (Elt F) :=
  broadcastInDim S1x512x512 ![1, 2] bcast_S512x512_S1x512x512_1_2 (val_main_v89 (F := F) x13)

def val_main_v91 : (⟨S8x512x512, .f32⟩ : BufTy).Contents (Elt F) :=
  Host.negf (x15)

def val_main_v92 : (⟨S8x512x512, .f32⟩ : BufTy).Contents (Elt F) :=
  Host.exp (val_main_v91 (F := F) x15)

def val_main_cst_8 : (⟨S_, .f32⟩ : BufTy).Contents (Elt F) :=
  constant S_ .f32 0x3F800000#32

def val_main_v93 : (⟨S8x512x512, .f32⟩ : BufTy).Contents (Elt F) :=
  broadcastInDim S8x512x512 ![] bcast_S_S8x512x512 (val_main_cst_8 (F := F))

def val_main_v94 : (⟨S8x512x512, .f32⟩ : BufTy).Contents (Elt F) :=
  addf (val_main_v93 (F := F)) (val_main_v92 (F := F) x15)

def val_main_cst_9 : (⟨S_, .f32⟩ : BufTy).Contents (Elt F) :=
  constant S_ .f32 0x3F800000#32

def val_main_v95 : (⟨S8x512x512, .f32⟩ : BufTy).Contents (Elt F) :=
  broadcastInDim S8x512x512 ![] bcast_S_S8x512x512 (val_main_cst_9 (F := F))

def val_main_v96 : (⟨S8x512x512, .f32⟩ : BufTy).Contents (Elt F) :=
  Host.divf (val_main_v95 (F := F)) (val_main_v94 (F := F) x15)

def val_main_v97 : (⟨S8x512x512, .f32⟩ : BufTy).Contents (Elt F) :=
  broadcastInDim S8x512x512 ![0, 1, 2] bcast_S1x512x512_S8x512x512_0_1_2 (val_main_v90 (F := F) x13)

def val_main_v98 : (⟨S8x512x512, .f32⟩ : BufTy).Contents (Elt F) :=
  subf (val_main_v97 (F := F) x13) (val_main_v96 (F := F) x15)

def val_main_call6_cst : (⟨S_, .f32⟩ : BufTy).Contents (Elt F) :=
  constant S_ .f32 0x00000000#32

def val_main_call6_v0 : (⟨S8x512x512, .f32⟩ : BufTy).Contents (Elt F) :=
  broadcastInDim S8x512x512 ![] bcast_S_S8x512x512 (val_main_call6_cst (F := F))

def val_main_v99 : (⟨S8x512x512, .f32⟩ : BufTy).Contents (Elt F) :=
  maximumf (val_main_v98 (F := F) x13 x15) (val_main_call6_v0 (F := F))

def val_main_v100 : (⟨S8x512x512, .f32⟩ : BufTy).Contents (Elt F) :=
  broadcastInDim S8x512x512 ![0, 1, 2] bcast_S1x512x512_S8x512x512_0_1_2 (val_main_v88 (F := F) x13)

def val_main_v101 : (⟨S8x512x512, .f32⟩ : BufTy).Contents (Elt F) :=
  mulf (val_main_v100 (F := F) x13) (val_main_v99 (F := F) x13 x15)

def val_main_v102 : (⟨S16384x8x512, .f32⟩ : BufTy).Contents (Elt F) :=
  Host.dotGeneral dot_S16384x512_S8x512x512_S16384x8x512_1_2_0_01_n_n none (val_main_v86 (F := F) x0 x1 x2 x3 x4 x5 x6 x7 x8 x9 x10 x11 x12) (val_main_v101 (F := F) x13 x15)

def val_main_v103 : (⟨S16384x1x1, .i32⟩ : BufTy).Contents (Elt F) :=
  broadcastInDim S16384x1x1 ![0] bcast_S16384_S16384x1x1_0 (val_main_v1 (F := F) x2)

def val_main_call7_c : (⟨S_, .i32⟩ : BufTy).Contents (Elt F) :=
  constantI S_ 32 0#32

def val_main_call7_v0 : (⟨S16384x1x1, .i32⟩ : BufTy).Contents (Elt F) :=
  broadcastInDim S16384x1x1 ![] bcast_S_S16384x1x1 (val_main_call7_c (F := F))

def val_main_call7_v1 : (⟨S16384x1x1, .i1⟩ : BufTy).Contents (Elt F) :=
  cmpi .slt (val_main_v103 (F := F) x2) (val_main_call7_v0 (F := F))

def val_main_call7_c_0 : (⟨S_, .i32⟩ : BufTy).Contents (Elt F) :=
  constantI S_ 32 8#32

def val_main_call7_v2 : (⟨S16384x1x1, .i32⟩ : BufTy).Contents (Elt F) :=
  broadcastInDim S16384x1x1 ![] bcast_S_S16384x1x1 (val_main_call7_c_0 (F := F))

def val_main_call7_v3 : (⟨S16384x1x1, .i32⟩ : BufTy).Contents (Elt F) :=
  addi (val_main_v103 (F := F) x2) (val_main_call7_v2 (F := F))

def val_main_call7_v4 : (⟨S16384x1x1, .i32⟩ : BufTy).Contents (Elt F) :=
  select (val_main_call7_v1 (F := F) x2) (val_main_call7_v3 (F := F) x2) (val_main_v103 (F := F) x2)

def val_main_call7_c_1 : (⟨S1, .i32⟩ : BufTy).Contents (Elt F) :=
  constantI S1 32 7#32

def val_main_call7_c_2 : (⟨S_, .i32⟩ : BufTy).Contents (Elt F) :=
  constantI S_ 32 0#32

def val_main_call7_v5 : (⟨S16384x1x1, .i32⟩ : BufTy).Contents (Elt F) :=
  broadcastInDim S16384x1x1 ![] bcast_S_S16384x1x1 (val_main_call7_c_2 (F := F))

def val_main_call7_v6 : (⟨S16384x1x1, .i1⟩ : BufTy).Contents (Elt F) :=
  cmpi .sge (val_main_call7_v4 (F := F) x2) (val_main_call7_v5 (F := F))

def val_main_call7_v7 : (⟨S1x1x1, .i32⟩ : BufTy).Contents (Elt F) :=
  broadcastInDim S1x1x1 ![2] bcast_S1_S1x1x1_2 (val_main_call7_c_1 (F := F))

def val_main_call7_v8 : (⟨S16384x1x1, .i32⟩ : BufTy).Contents (Elt F) :=
  broadcastInDim S16384x1x1 ![0, 1, 2] bcast_S1x1x1_S16384x1x1_0_1_2 (val_main_call7_v7 (F := F))

def val_main_call7_v9 : (⟨S16384x1x1, .i1⟩ : BufTy).Contents (Elt F) :=
  cmpi .sle (val_main_call7_v4 (F := F) x2) (val_main_call7_v8 (F := F))

def val_main_call7_v10 : (⟨S16384x1x1, .i1⟩ : BufTy).Contents (Elt F) :=
  andi (val_main_call7_v6 (F := F) x2) (val_main_call7_v9 (F := F) x2)

def val_main_call7_c_3 : (⟨S_, .i1⟩ : BufTy).Contents (Elt F) :=
  constantI S_ 1 1#1

def val_main_call7_v11 : (⟨S16384x1, .i1⟩ : BufTy).Contents (Elt F) :=
  Host.reduce IntOp.andi (val_main_call7_v10 (F := F) x2) (val_main_call7_c_3 (F := F)) reducesTo_S16384x1x1_S16384x1_d2 h_S_

def val_main_call7_v12 : (⟨S16384x1x512, .f32⟩ : BufTy).Contents (Elt F) :=
  Host.gather gather_S16384x8x512_S16384x1x1_S16384x1x512_2_1_0_0_1_2_11512 (val_main_v102 (F := F) x0 x1 x2 x3 x4 x5 x6 x7 x8 x9 x10 x11 x12 x13 x15) (val_main_call7_v4 (F := F) x2)

def val_main_call7_v13 : (⟨S16384x1x512, .i1⟩ : BufTy).Contents (Elt F) :=
  broadcastInDim S16384x1x512 ![0, 1] bcast_S16384x1_S16384x1x512_0_1 (val_main_call7_v11 (F := F) x2)

def val_main_call7_cst : (⟨S_, .f32⟩ : BufTy).Contents (Elt F) :=
  constant S_ .f32 0x7FC00000#32

def val_main_call7_v14 : (⟨S16384x1x512, .f32⟩ : BufTy).Contents (Elt F) :=
  broadcastInDim S16384x1x512 ![] bcast_S_S16384x1x512 (val_main_call7_cst (F := F))

def val_main_v104 : (⟨S16384x1x512, .f32⟩ : BufTy).Contents (Elt F) :=
  select (val_main_call7_v13 (F := F) x2) (val_main_call7_v12 (F := F) x0 x1 x2 x3 x4 x5 x6 x7 x8 x9 x10 x11 x12 x13 x15) (val_main_call7_v14 (F := F))

def val_main_v105 : (⟨S16384x512, .f32⟩ : BufTy).Contents (Elt F) :=
  shapeCast _ (val_main_v104 (F := F) x0 x1 x2 x3 x4 x5 x6 x7 x8 x9 x10 x11 x12 x13 x15) shapeCasts_S16384x1x512_S16384x512

def val_main_v106 : (⟨S1x512, .f32⟩ : BufTy).Contents (Elt F) :=
  broadcastInDim S1x512 ![1] bcast_S512_S1x512_1 (x14)

def val_main_v107 : (⟨S16384x512, .f32⟩ : BufTy).Contents (Elt F) :=
  broadcastInDim S16384x512 ![0, 1] bcast_S1x512_S16384x512_0_1 (val_main_v106 (F := F) x14)

def val_main_v108 : (⟨S16384x512, .f32⟩ : BufTy).Contents (Elt F) :=
  addf (val_main_v105 (F := F) x0 x1 x2 x3 x4 x5 x6 x7 x8 x9 x10 x11 x12 x13 x15) (val_main_v107 (F := F) x14)

def val_main_call8_cst : (⟨S_, .f32⟩ : BufTy).Contents (Elt F) :=
  constant S_ .f32 0x00000000#32

def val_main_call8_v0 : (⟨S16384x512, .f32⟩ : BufTy).Contents (Elt F) :=
  broadcastInDim S16384x512 ![] bcast_S_S16384x512 (val_main_call8_cst (F := F))

def val_main_v109 : (⟨S16384x512, .f32⟩ : BufTy).Contents (Elt F) :=
  maximumf (val_main_v108 (F := F) x0 x1 x2 x3 x4 x5 x6 x7 x8 x9 x10 x11 x12 x13 x14 x15) (val_main_call8_v0 (F := F))

def val_main_v110 : (⟨S64x512, .f32⟩ : BufTy).Contents (Elt F) :=
  Host.sign (x16)

def val_main_v111 : (⟨S1x64x512, .f32⟩ : BufTy).Contents (Elt F) :=
  broadcastInDim S1x64x512 ![1, 2] bcast_S64x512_S1x64x512_1_2 (val_main_v110 (F := F) x16)

def val_main_v112 : (⟨S64x512, .f32⟩ : BufTy).Contents (Elt F) :=
  Host.absf (x16)

def val_main_v113 : (⟨S1x64x512, .f32⟩ : BufTy).Contents (Elt F) :=
  broadcastInDim S1x64x512 ![1, 2] bcast_S64x512_S1x64x512_1_2 (val_main_v112 (F := F) x16)

def val_main_v114 : (⟨S8x64x512, .f32⟩ : BufTy).Contents (Elt F) :=
  Host.negf (x18)

def val_main_v115 : (⟨S8x64x512, .f32⟩ : BufTy).Contents (Elt F) :=
  Host.exp (val_main_v114 (F := F) x18)

def val_main_cst_10 : (⟨S_, .f32⟩ : BufTy).Contents (Elt F) :=
  constant S_ .f32 0x3F800000#32

def val_main_v116 : (⟨S8x64x512, .f32⟩ : BufTy).Contents (Elt F) :=
  broadcastInDim S8x64x512 ![] bcast_S_S8x64x512 (val_main_cst_10 (F := F))

def val_main_v117 : (⟨S8x64x512, .f32⟩ : BufTy).Contents (Elt F) :=
  addf (val_main_v116 (F := F)) (val_main_v115 (F := F) x18)

def val_main_cst_11 : (⟨S_, .f32⟩ : BufTy).Contents (Elt F) :=
  constant S_ .f32 0x3F800000#32

def val_main_v118 : (⟨S8x64x512, .f32⟩ : BufTy).Contents (Elt F) :=
  broadcastInDim S8x64x512 ![] bcast_S_S8x64x512 (val_main_cst_11 (F := F))

def val_main_v119 : (⟨S8x64x512, .f32⟩ : BufTy).Contents (Elt F) :=
  Host.divf (val_main_v118 (F := F)) (val_main_v117 (F := F) x18)

def val_main_v120 : (⟨S8x64x512, .f32⟩ : BufTy).Contents (Elt F) :=
  broadcastInDim S8x64x512 ![0, 1, 2] bcast_S1x64x512_S8x64x512_0_1_2 (val_main_v113 (F := F) x16)

def val_main_v121 : (⟨S8x64x512, .f32⟩ : BufTy).Contents (Elt F) :=
  subf (val_main_v120 (F := F) x16) (val_main_v119 (F := F) x18)

def val_main_call9_cst : (⟨S_, .f32⟩ : BufTy).Contents (Elt F) :=
  constant S_ .f32 0x00000000#32

def val_main_call9_v0 : (⟨S8x64x512, .f32⟩ : BufTy).Contents (Elt F) :=
  broadcastInDim S8x64x512 ![] bcast_S_S8x64x512 (val_main_call9_cst (F := F))

def val_main_v122 : (⟨S8x64x512, .f32⟩ : BufTy).Contents (Elt F) :=
  maximumf (val_main_v121 (F := F) x16 x18) (val_main_call9_v0 (F := F))

def val_main_v123 : (⟨S8x64x512, .f32⟩ : BufTy).Contents (Elt F) :=
  broadcastInDim S8x64x512 ![0, 1, 2] bcast_S1x64x512_S8x64x512_0_1_2 (val_main_v111 (F := F) x16)

def val_main_v124 : (⟨S8x64x512, .f32⟩ : BufTy).Contents (Elt F) :=
  mulf (val_main_v123 (F := F) x16) (val_main_v122 (F := F) x16 x18)

def val_main_v125 : (⟨S16384x8x64, .f32⟩ : BufTy).Contents (Elt F) :=
  Host.dotGeneral dot_S16384x512_S8x64x512_S16384x8x64_1_2_0_01_n_n none (val_main_v109 (F := F) x0 x1 x2 x3 x4 x5 x6 x7 x8 x9 x10 x11 x12 x13 x14 x15) (val_main_v124 (F := F) x16 x18)

def val_main_v126 : (⟨S16384x1x1, .i32⟩ : BufTy).Contents (Elt F) :=
  broadcastInDim S16384x1x1 ![0] bcast_S16384_S16384x1x1_0 (val_main_v1 (F := F) x2)

def val_main_call10_c : (⟨S_, .i32⟩ : BufTy).Contents (Elt F) :=
  constantI S_ 32 0#32

def val_main_call10_v0 : (⟨S16384x1x1, .i32⟩ : BufTy).Contents (Elt F) :=
  broadcastInDim S16384x1x1 ![] bcast_S_S16384x1x1 (val_main_call10_c (F := F))

def val_main_call10_v1 : (⟨S16384x1x1, .i1⟩ : BufTy).Contents (Elt F) :=
  cmpi .slt (val_main_v126 (F := F) x2) (val_main_call10_v0 (F := F))

def val_main_call10_c_0 : (⟨S_, .i32⟩ : BufTy).Contents (Elt F) :=
  constantI S_ 32 8#32

def val_main_call10_v2 : (⟨S16384x1x1, .i32⟩ : BufTy).Contents (Elt F) :=
  broadcastInDim S16384x1x1 ![] bcast_S_S16384x1x1 (val_main_call10_c_0 (F := F))

def val_main_call10_v3 : (⟨S16384x1x1, .i32⟩ : BufTy).Contents (Elt F) :=
  addi (val_main_v126 (F := F) x2) (val_main_call10_v2 (F := F))

def val_main_call10_v4 : (⟨S16384x1x1, .i32⟩ : BufTy).Contents (Elt F) :=
  select (val_main_call10_v1 (F := F) x2) (val_main_call10_v3 (F := F) x2) (val_main_v126 (F := F) x2)

def val_main_call10_c_1 : (⟨S1, .i32⟩ : BufTy).Contents (Elt F) :=
  constantI S1 32 7#32

def val_main_call10_c_2 : (⟨S_, .i32⟩ : BufTy).Contents (Elt F) :=
  constantI S_ 32 0#32

def val_main_call10_v5 : (⟨S16384x1x1, .i32⟩ : BufTy).Contents (Elt F) :=
  broadcastInDim S16384x1x1 ![] bcast_S_S16384x1x1 (val_main_call10_c_2 (F := F))

def val_main_call10_v6 : (⟨S16384x1x1, .i1⟩ : BufTy).Contents (Elt F) :=
  cmpi .sge (val_main_call10_v4 (F := F) x2) (val_main_call10_v5 (F := F))

def val_main_call10_v7 : (⟨S1x1x1, .i32⟩ : BufTy).Contents (Elt F) :=
  broadcastInDim S1x1x1 ![2] bcast_S1_S1x1x1_2 (val_main_call10_c_1 (F := F))

def val_main_call10_v8 : (⟨S16384x1x1, .i32⟩ : BufTy).Contents (Elt F) :=
  broadcastInDim S16384x1x1 ![0, 1, 2] bcast_S1x1x1_S16384x1x1_0_1_2 (val_main_call10_v7 (F := F))

def val_main_call10_v9 : (⟨S16384x1x1, .i1⟩ : BufTy).Contents (Elt F) :=
  cmpi .sle (val_main_call10_v4 (F := F) x2) (val_main_call10_v8 (F := F))

def val_main_call10_v10 : (⟨S16384x1x1, .i1⟩ : BufTy).Contents (Elt F) :=
  andi (val_main_call10_v6 (F := F) x2) (val_main_call10_v9 (F := F) x2)

def val_main_call10_c_3 : (⟨S_, .i1⟩ : BufTy).Contents (Elt F) :=
  constantI S_ 1 1#1

def val_main_call10_v11 : (⟨S16384x1, .i1⟩ : BufTy).Contents (Elt F) :=
  Host.reduce IntOp.andi (val_main_call10_v10 (F := F) x2) (val_main_call10_c_3 (F := F)) reducesTo_S16384x1x1_S16384x1_d2 h_S_

def val_main_call10_v12 : (⟨S16384x1x64, .f32⟩ : BufTy).Contents (Elt F) :=
  Host.gather gather_S16384x8x64_S16384x1x1_S16384x1x64_2_1_0_0_1_2_1164 (val_main_v125 (F := F) x0 x1 x2 x3 x4 x5 x6 x7 x8 x9 x10 x11 x12 x13 x14 x15 x16 x18) (val_main_call10_v4 (F := F) x2)

def val_main_call10_v13 : (⟨S16384x1x64, .i1⟩ : BufTy).Contents (Elt F) :=
  broadcastInDim S16384x1x64 ![0, 1] bcast_S16384x1_S16384x1x64_0_1 (val_main_call10_v11 (F := F) x2)

def val_main_call10_cst : (⟨S_, .f32⟩ : BufTy).Contents (Elt F) :=
  constant S_ .f32 0x7FC00000#32

def val_main_call10_v14 : (⟨S16384x1x64, .f32⟩ : BufTy).Contents (Elt F) :=
  broadcastInDim S16384x1x64 ![] bcast_S_S16384x1x64 (val_main_call10_cst (F := F))

def val_main_v127 : (⟨S16384x1x64, .f32⟩ : BufTy).Contents (Elt F) :=
  select (val_main_call10_v13 (F := F) x2) (val_main_call10_v12 (F := F) x0 x1 x2 x3 x4 x5 x6 x7 x8 x9 x10 x11 x12 x13 x14 x15 x16 x18) (val_main_call10_v14 (F := F))

def val_main_v128 : (⟨S16384x64, .f32⟩ : BufTy).Contents (Elt F) :=
  shapeCast _ (val_main_v127 (F := F) x0 x1 x2 x3 x4 x5 x6 x7 x8 x9 x10 x11 x12 x13 x14 x15 x16 x18) shapeCasts_S16384x1x64_S16384x64

def val_main_v129 : (⟨S1x64, .f32⟩ : BufTy).Contents (Elt F) :=
  broadcastInDim S1x64 ![1] bcast_S64_S1x64_1 (x17)

def val_main_v130 : (⟨S16384x64, .f32⟩ : BufTy).Contents (Elt F) :=
  broadcastInDim S16384x64 ![0, 1] bcast_S1x64_S16384x64_0_1 (val_main_v129 (F := F) x17)

def val_main_v131 : (⟨S16384x64, .f32⟩ : BufTy).Contents (Elt F) :=
  addf (val_main_v128 (F := F) x0 x1 x2 x3 x4 x5 x6 x7 x8 x9 x10 x11 x12 x13 x14 x15 x16 x18) (val_main_v130 (F := F) x17)

def val_main_v132 : (⟨S2048x8x64, .f32⟩ : BufTy).Contents (Elt F) :=
  shapeCast _ (val_main_v131 (F := F) x0 x1 x2 x3 x4 x5 x6 x7 x8 x9 x10 x11 x12 x13 x14 x15 x16 x17 x18) shapeCasts_S16384x64_S2048x8x64

def val_main_v133 : (⟨S2048x8x512, .f32⟩ : BufTy).Contents (Elt F) :=
  shapeCast _ (val_main_v63 (F := F) x0 x1 x2 x3 x4 x5 x6 x7 x8 x9) shapeCasts_S16384x512_S2048x8x512

end Cert.ReferenceIdeal.ReadP

end
-- ==== Proof.RefRun.lean ====
import proofs.«409439_j24232205484239_2_alg».proof.Proof.RefStages
import Idealize.ShloMosaic.Lib.StableHlo.Run
noncomputable section
namespace Cert.ReferenceIdeal.ValueP
open Cert.ReferenceIdeal Cert.ReferenceIdeal.Gen Cert.ReferenceIdeal.ReadP Idealize.ShloMosaic Idealize.ShloMosaic.TcCoe Idealize.SL.Sem Idealize.ShloMosaic.StableHlo
variable {F : FTy → Type} [FloatOps F]
abbrev ops : List (HloOp τ sig (Elt F)) :=
  [ reshape main_arg0 main_v0 rfl shapeCasts_S2048x8x512_S16384x512,
    reshape main_arg2 main_v1 rfl shapeCasts_S2048x8_S16384,
    reshape main_arg1 main_v2 rfl shapeCasts_S2048x8x512_S16384x512,
    unary main_arg3 main_v3 (Host.sign : (⟨S512x512, .f32⟩ : BufTy).Contents (Elt F) → (⟨S512x512, .f32⟩ : BufTy).Contents (Elt F)),
    unary main_v3 main_v4 (broadcastInDim S1x512x512 ![1, 2] bcast_S512x512_S1x512x512_1_2 : (⟨S512x512, .f32⟩ : BufTy).Contents (Elt F) → (⟨S1x512x512, .f32⟩ : BufTy).Contents (Elt F)),
    unary main_arg3 main_v5 (Host.absf : (⟨S512x512, .f32⟩ : BufTy).Contents (Elt F) → (⟨S512x512, .f32⟩ : BufTy).Contents (Elt F)),
    unary main_v5 main_v6 (broadcastInDim S1x512x512 ![1, 2] bcast_S512x512_S1x512x512_1_2 : (⟨S512x512, .f32⟩ : BufTy).Contents (Elt F) → (⟨S1x512x512, .f32⟩ : BufTy).Contents (Elt F)),
    unary main_arg5 main_v7 (Host.negf : (⟨S8x512x512, .f32⟩ : BufTy).Contents (Elt F) → (⟨S8x512x512, .f32⟩ : BufTy).Contents (Elt F)),
    unary main_v7 main_v8 (Host.exp : (⟨S8x512x512, .f32⟩ : BufTy).Contents (Elt F) → (⟨S8x512x512, .f32⟩ : BufTy).Contents (Elt F)),
    nullary main_cst (constant S_ .f32 0x3F800000#32),
    unary main_cst main_v9 (broadcastInDim S8x512x512 ![] bcast_S_S8x512x512 : (⟨S_, .f32⟩ : BufTy).Contents (Elt F) → (⟨S8x512x512, .f32⟩ : BufTy).Contents (Elt F)),
    binary main_v9 main_v8 main_v10 (addf : (⟨S8x512x512, .f32⟩ : BufTy).Contents (Elt F) → (⟨S8x512x512, .f32⟩ : BufTy).Contents (Elt F) → (⟨S8x512x512, .f32⟩ : BufTy).Contents (Elt F)),
    nullary main_cst_0 (constant S_ .f32 0x3F800000#32),
    unary main_cst_0 main_v11 (broadcastInDim S8x512x512 ![] bcast_S_S8x512x512 : (⟨S_, .f32⟩ : BufTy).Contents (Elt F) → (⟨S8x512x512, .f32⟩ : BufTy).Contents (Elt F)),
    binary main_v11 main_v10 main_v12 (Host.divf : (⟨S8x512x512, .f32⟩ : BufTy).Contents (Elt F) → (⟨S8x512x512, .f32⟩ : BufTy).Contents (Elt F) → (⟨S8x512x512, .f32⟩ : BufTy).Contents (Elt F)),
    unary main_v6 main_v13 (broadcastInDim S8x512x512 ![0, 1, 2] bcast_S1x512x512_S8x512x512_0_1_2 : (⟨S1x512x512, .f32⟩ : BufTy).Contents (Elt F) → (⟨S8x512x512, .f32⟩ : BufTy).Contents (Elt F)),
    binary main_v13 main_v12 main_v14 (subf : (⟨S8x512x512, .f32⟩ : BufTy).Contents (Elt F) → (⟨S8x512x512, .f32⟩ : BufTy).Contents (Elt F) → (⟨S8x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x512x512, .f32⟩) main_call0_v0) (broadcastInDim S8x512x512 ![] bcast_S_S8x512x512),
    TRef.binary (TRef.of (T := ⟨S8x512x512, .f32⟩) main_v14) (TRef.of (T := ⟨S8x512x512, .f32⟩) main_call0_v0) (TRef.of (T := ⟨S8x512x512, .f32⟩) main_v15) maximumf,
    unary main_v4 main_v16 (broadcastInDim S8x512x512 ![0, 1, 2] bcast_S1x512x512_S8x512x512_0_1_2 : (⟨S1x512x512, .f32⟩ : BufTy).Contents (Elt F) → (⟨S8x512x512, .f32⟩ : BufTy).Contents (Elt F)),
    binary main_v16 main_v15 main_v17 (mulf : (⟨S8x512x512, .f32⟩ : BufTy).Contents (Elt F) → (⟨S8x512x512, .f32⟩ : BufTy).Contents (Elt F) → (⟨S8x512x512, .f32⟩ : BufTy).Contents (Elt F)),
    binary main_v0 main_v17 main_v18 ((fun l r => Host.dotGeneral dot_S16384x512_S8x512x512_S16384x8x512_1_2_0_01_n_n none l r) : (⟨S16384x512, .f32⟩ : BufTy).Contents (Elt F) → (⟨S8x512x512, .f32⟩ : BufTy).Contents (Elt F) → (⟨S16384x8x512, .f32⟩ : BufTy).Contents (Elt F)),
    unary main_v1 main_v19 (broadcastInDim S16384x1x1 ![0] bcast_S16384_S16384x1x1_0 : (⟨S16384, .i32⟩ : BufTy).Contents (Elt F) → (⟨S16384x1x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1x1, .i32⟩) main_call1_v0) (broadcastInDim S16384x1x1 ![] bcast_S_S16384x1x1),
    TRef.binary (TRef.of (T := ⟨S16384x1x1, .i32⟩) main_v19) (TRef.of (T := ⟨S16384x1x1, .i32⟩) main_call1_v0) (TRef.of (T := ⟨S16384x1x1, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S16384x1x1, .i32⟩) main_call1_v2) (broadcastInDim S16384x1x1 ![] bcast_S_S16384x1x1),
    TRef.binary (TRef.of (T := ⟨S16384x1x1, .i32⟩) main_v19) (TRef.of (T := ⟨S16384x1x1, .i32⟩) main_call1_v2) (TRef.of (T := ⟨S16384x1x1, .i32⟩) main_call1_v3) addi,
    TRef.ternary (TRef.of (T := ⟨S16384x1x1, .i1⟩) main_call1_v1) (TRef.of (T := ⟨S16384x1x1, .i32⟩) main_call1_v3) (TRef.of (T := ⟨S16384x1x1, .i32⟩) main_v19) (TRef.of (T := ⟨S16384x1x1, .i32⟩) main_call1_v4) select,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v5) (broadcastInDim S16384x1x1 ![] bcast_S_S16384x1x1),
    TRef.binary (TRef.of (T := ⟨S16384x1x1, .i32⟩) main_call1_v4) (TRef.of (T := ⟨S16384x1x1, .i32⟩) main_call1_v5) (TRef.of (T := ⟨S16384x1x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S16384x1x1, .i32⟩) main_call1_v8) (broadcastInDim S16384x1x1 ![0, 1, 2] bcast_S1x1x1_S16384x1x1_0_1_2),
    TRef.binary (TRef.of (T := ⟨S16384x1x1, .i32⟩) main_call1_v4) (TRef.of (T := ⟨S16384x1x1, .i32⟩) main_call1_v8) (TRef.of (T := ⟨S16384x1x1, .i1⟩) main_call1_v9) (cmpi .sle),
    TRef.binary (TRef.of (T := ⟨S16384x1x1, .i1⟩) main_call1_v6) (TRef.of (T := ⟨S16384x1x1, .i1⟩) main_call1_v9) (TRef.of (T := ⟨S16384x1x1, .i1⟩) main_call1_v10) andi,
    TRef.nullary (TRef.of (T := ⟨S_, .i1⟩) main_call1_c_3) (constantI S_ 1 1#1),
    TRef.binary (TRef.of (T := ⟨S16384x1x1, .i1⟩) main_call1_v10) (TRef.of (T := ⟨S_, .i1⟩) main_call1_c_3) (TRef.of (T := ⟨S16384x1, .i1⟩) main_call1_v11) (fun x v => Host.reduce IntOp.andi x v reducesTo_S16384x1x1_S16384x1_d2 h_S_),
    TRef.binary (TRef.of (T := ⟨S16384x8x512, .f32⟩) main_v18) (TRef.of (T := ⟨S16384x1x1, .i32⟩) main_call1_v4) (TRef.of (T := ⟨S16384x1x512, .f32⟩) main_call1_v12) (fun x i => Host.gather gather_S16384x8x512_S16384x1x1_S16384x1x512_2_1_0_0_1_2_11512 x i),
    TRef.unary (TRef.of (T := ⟨S16384x1, .i1⟩) main_call1_v11) (TRef.of (T := ⟨S16384x1x512, .i1⟩) main_call1_v13) (broadcastInDim S16384x1x512 ![0, 1] bcast_S16384x1_S16384x1x512_0_1),
    TRef.nullary (TRef.of (T := ⟨S_, .f32⟩) main_call1_cst) (constant S_ .f32 0x7FC00000#32),
    TRef.unary (TRef.of (T := ⟨S_, .f32⟩) main_call1_cst) (TRef.of (T := ⟨S16384x1x512, .f32⟩) main_call1_v14) (broadcastInDim S16384x1x512 ![] bcast_S_S16384x1x512),
    TRef.ternary (TRef.of (T := ⟨S16384x1x512, .i1⟩) main_call1_v13) (TRef.of (T := ⟨S16384x1x512, .f32⟩) main_call1_v12) (TRef.of (T := ⟨S16384x1x512, .f32⟩) main_call1_v14) (TRef.of (T := ⟨S16384x1x512, .f32⟩) main_v20) select,
    reshape main_v20 main_v21 rfl shapeCasts_S16384x1x512_S16384x512,
    unary main_arg4 main_v22 (broadcastInDim S1x512 ![1] bcast_S512_S1x512_1 : (⟨S512, .f32⟩ : BufTy).Contents (Elt F) → (⟨S1x512, .f32⟩ : BufTy).Contents (Elt F)),
    unary main_v22 main_v23 (broadcastInDim S16384x512 ![0, 1] bcast_S1x512_S16384x512_0_1 : (⟨S1x512, .f32⟩ : BufTy).Contents (Elt F) → (⟨S16384x512, .f32⟩ : BufTy).Contents (Elt F)),
    binary main_v21 main_v23 main_v24 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x512, .f32⟩) main_call2_v0) (broadcastInDim S16384x512 ![] bcast_S_S16384x512),
    TRef.binary (TRef.of (T := ⟨S16384x512, .f32⟩) main_v24) (TRef.of (T := ⟨S16384x512, .f32⟩) main_call2_v0) (TRef.of (T := ⟨S16384x512, .f32⟩) main_v25) maximumf,
    unary main_arg6 main_v26 ((transpose S512x1536 [1, 0] · transposes_S1536x512_S512x1536_1_0) : (⟨S1536x512, .f32⟩ : BufTy).Contents (Elt F) → (⟨S512x1536, .f32⟩ : BufTy).Contents (Elt F)),
    binary main_v25 main_v26 main_v27 ((fun l r => Host.dotGeneral dot_S16384x512_S512x1536_S16384x1536_1_0_0_1_n_n none l r) : (⟨S16384x512, .f32⟩ : BufTy).Contents (Elt F) → (⟨S512x1536, .f32⟩ : BufTy).Contents (Elt F) → (⟨S16384x1536, .f32⟩ : BufTy).Contents (Elt F)),
    unary main_arg8 main_v28 (broadcastInDim S1x1536 ![1] bcast_S1536_S1x1536_1 : (⟨S1536, .f32⟩ : BufTy).Contents (Elt F) → (⟨S1x1536, .f32⟩ : BufTy).Contents (Elt F)),
    unary main_v28 main_v29 (broadcastInDim S16384x1536 ![0, 1] bcast_S1x1536_S16384x1536_0_1 : (⟨S1x1536, .f32⟩ : BufTy).Contents (Elt F) → (⟨S16384x1536, .f32⟩ : BufTy).Contents (Elt F)),
    binary main_v27 main_v29 main_v30 (addf : (⟨S16384x1536, .f32⟩ : BufTy).Contents (Elt F) → (⟨S16384x1536, .f32⟩ : BufTy).Contents (Elt F) → (⟨S16384x1536, .f32⟩ : BufTy).Contents (Elt F)),
    unary main_arg7 main_v31 ((transpose S512x1536 [1, 0] · transposes_S1536x512_S512x1536_1_0) : (⟨S1536x512, .f32⟩ : BufTy).Contents (Elt F) → (⟨S512x1536, .f32⟩ : BufTy).Contents (Elt F)),
    binary main_v2 main_v31 main_v32 ((fun l r => Host.dotGeneral dot_S16384x512_S512x1536_S16384x1536_1_0_0_1_n_n none l r) : (⟨S16384x512, .f32⟩ : BufTy).Contents (Elt F) → (⟨S512x1536, .f32⟩ : BufTy).Contents (Elt F) → (⟨S16384x1536, .f32⟩ : BufTy).Contents (Elt F)),
    unary main_arg9 main_v33 (broadcastInDim S1x1536 ![1] bcast_S1536_S1x1536_1 : (⟨S1536, .f32⟩ : BufTy).Contents (Elt F) → (⟨S1x1536, .f32⟩ : BufTy).Contents (Elt F)),
    unary main_v33 main_v34 (broadcastInDim S16384x1536 ![0, 1] bcast_S1x1536_S16384x1536_0_1 : (⟨S1x1536, .f32⟩ : BufTy).Contents (Elt F) → (⟨S16384x1536, .f32⟩ : BufTy).Contents (Elt F)),
    binary main_v32 main_v34 main_v35 (addf : (⟨S16384x1536, .f32⟩ : BufTy).Contents (Elt F) → (⟨S16384x1536, .f32⟩ : BufTy).Contents (Elt F) → (⟨S16384x1536, .f32⟩ : BufTy).Contents (Elt F)),
    unary main_v30 main_v36 ((extractStridedSlice S16384x512 ![0, 0] · slices_S16384x1536_S16384x512_0_0) : (⟨S16384x1536, .f32⟩ : BufTy).Contents (Elt F) → (⟨S16384x512, .f32⟩ : BufTy).Contents (Elt F)),
    unary main_v30 main_v37 ((extractStridedSlice S16384x512 ![0, 512] · slices_S16384x1536_S16384x512_0_512) : (⟨S16384x1536, .f32⟩ : BufTy).Contents (Elt F) → (⟨S16384x512, .f32⟩ : BufTy).Contents (Elt F)),
    unary main_v30 main_v38 ((extractStridedSlice S16384x512 ![0, 1024] · slices_S16384x1536_S16384x512_0_1024) : (⟨S16384x1536, .f32⟩ : BufTy).Contents (Elt F) → (⟨S16384x512, .f32⟩ : BufTy).Contents (Elt F)),
    unary main_v35 main_v39 ((extractStridedSlice S16384x512 ![0, 0] · slices_S16384x1536_S16384x512_0_0) : (⟨S16384x1536, .f32⟩ : BufTy).Contents (Elt F) → (⟨S16384x512, .f32⟩ : BufTy).Contents (Elt F)),
    unary main_v35 main_v40 ((extractStridedSlice S16384x512 ![0, 512] · slices_S16384x1536_S16384x512_0_512) : (⟨S16384x1536, .f32⟩ : BufTy).Contents (Elt F) → (⟨S16384x512, .f32⟩ : BufTy).Contents (Elt F)),
    unary main_v35 main_v41 ((extractStridedSlice S16384x512 ![0, 1024] · slices_S16384x1536_S16384x512_0_1024) : (⟨S16384x1536, .f32⟩ : BufTy).Contents (Elt F) → (⟨S16384x512, .f32⟩ : BufTy).Contents (Elt F)),
    binary main_v36 main_v39 main_v42 (addf : (⟨S16384x512, .f32⟩ : BufTy).Contents (Elt F) → (⟨S16384x512, .f32⟩ : BufTy).Contents (Elt F) → (⟨S16384x512, .f32⟩ : BufTy).Contents (Elt F)),
    unary main_v42 main_v43 (Host.negf : (⟨S16384x512, .f32⟩ : BufTy).Contents (Elt F) → (⟨S16384x512, .f32⟩ : BufTy).Contents (Elt F)),
    unary main_v43 main_v44 (Host.exp : (⟨S16384x512, .f32⟩ : BufTy).Contents (Elt F) → (⟨S16384x512, .f32⟩ : BufTy).Contents (Elt F)),
    nullary main_cst_1 (constant S_ .f32 0x3F800000#32),
    unary main_cst_1 main_v45 (broadcastInDim S16384x512 ![] bcast_S_S16384x512 : (⟨S_, .f32⟩ : BufTy).Contents (Elt F) → (⟨S16384x512, .f32⟩ : BufTy).Contents (Elt F)),
    binary main_v45 main_v44 main_v46 (addf : (⟨S16384x512, .f32⟩ : BufTy).Contents (Elt F) → (⟨S16384x512, .f32⟩ : BufTy).Contents (Elt F) → (⟨S16384x512, .f32⟩ : BufTy).Contents (Elt F)),
    nullary main_cst_2 (constant S_ .f32 0x3F800000#32),
    unary main_cst_2 main_v47 (broadcastInDim S16384x512 ![] bcast_S_S16384x512 : (⟨S_, .f32⟩ : BufTy).Contents (Elt F) → (⟨S16384x512, .f32⟩ : BufTy).Contents (Elt F)),
    binary main_v47 main_v46 main_v48 (Host.divf : (⟨S16384x512, .f32⟩ : BufTy).Contents (Elt F) → (⟨S16384x512, .f32⟩ : BufTy).Contents (Elt F) → (⟨S16384x512, .f32⟩ : BufTy).Contents (Elt F)),
    binary main_v37 main_v40 main_v49 (addf : (⟨S16384x512, .f32⟩ : BufTy).Contents (Elt F) → (⟨S16384x512, .f32⟩ : BufTy).Contents (Elt F) → (⟨S16384x512, .f32⟩ : BufTy).Contents (Elt F)),
    unary main_v49 main_v50 (Host.negf : (⟨S16384x512, .f32⟩ : BufTy).Contents (Elt F) → (⟨S16384x512, .f32⟩ : BufTy).Contents (Elt F)),
    unary main_v50 main_v51 (Host.exp : (⟨S16384x512, .f32⟩ : BufTy).Contents (Elt F) → (⟨S16384x512, .f32⟩ : BufTy).Contents (Elt F)),
    nullary main_cst_3 (constant S_ .f32 0x3F800000#32),
    unary main_cst_3 main_v52 (broadcastInDim S16384x512 ![] bcast_S_S16384x512 : (⟨S_, .f32⟩ : BufTy).Contents (Elt F) → (⟨S16384x512, .f32⟩ : BufTy).Contents (Elt F)),
    binary main_v52 main_v51 main_v53 (addf : (⟨S16384x512, .f32⟩ : BufTy).Contents (Elt F) → (⟨S16384x512, .f32⟩ : BufTy).Contents (Elt F) → (⟨S16384x512, .f32⟩ : BufTy).Contents (Elt F)),
    nullary main_cst_4 (constant S_ .f32 0x3F800000#32),
    unary main_cst_4 main_v54 (broadcastInDim S16384x512 ![] bcast_S_S16384x512 : (⟨S_, .f32⟩ : BufTy).Contents (Elt F) → (⟨S16384x512, .f32⟩ : BufTy).Contents (Elt F)),
    binary main_v54 main_v53 main_v55 (Host.divf : (⟨S16384x512, .f32⟩ : BufTy).Contents (Elt F) → (⟨S16384x512, .f32⟩ : BufTy).Contents (Elt F) → (⟨S16384x512, .f32⟩ : BufTy).Contents (Elt F)),
    binary main_v48 main_v41 main_v56 (mulf : (⟨S16384x512, .f32⟩ : BufTy).Contents (Elt F) → (⟨S16384x512, .f32⟩ : BufTy).Contents (Elt F) → (⟨S16384x512, .f32⟩ : BufTy).Contents (Elt F)),
    binary main_v38 main_v56 main_v57 (addf : (⟨S16384x512, .f32⟩ : BufTy).Contents (Elt F) → (⟨S16384x512, .f32⟩ : BufTy).Contents (Elt F) → (⟨S16384x512, .f32⟩ : BufTy).Contents (Elt F)),
    unary main_v57 main_v58 (Host.tanh : (⟨S16384x512, .f32⟩ : BufTy).Contents (Elt F) → (⟨S16384x512, .f32⟩ : BufTy).Contents (Elt F)),
    nullary main_cst_5 (constant S_ .f32 0x3F800000#32),
    unary main_cst_5 main_v59 (broadcastInDim S16384x512 ![] bcast_S_S16384x512 : (⟨S_, .f32⟩ : BufTy).Contents (Elt F) → (⟨S16384x512, .f32⟩ : BufTy).Contents (Elt F)),
    binary main_v59 main_v55 main_v60 (subf : (⟨S16384x512, .f32⟩ : BufTy).Contents (Elt F) → (⟨S16384x512, .f32⟩ : BufTy).Contents (Elt F) → (⟨S16384x512, .f32⟩ : BufTy).Contents (Elt F)),
    binary main_v60 main_v58 main_v61 (mulf : (⟨S16384x512, .f32⟩ : BufTy).Contents (Elt F) → (⟨S16384x512, .f32⟩ : BufTy).Contents (Elt F) → (⟨S16384x512, .f32⟩ : BufTy).Contents (Elt F)),
    binary main_v55 main_v2 main_v62 (mulf : (⟨S16384x512, .f32⟩ : BufTy).Contents (Elt F) → (⟨S16384x512, .f32⟩ : BufTy).Contents (Elt F) → (⟨S16384x512, .f32⟩ : BufTy).Contents (Elt F)),
    binary main_v61 main_v62 main_v63 (addf : (⟨S16384x512, .f32⟩ : BufTy).Contents (Elt F) → (⟨S16384x512, .f32⟩ : BufTy).Contents (Elt F) → (⟨S16384x512, .f32⟩ : BufTy).Contents (Elt F)),
    unary main_arg10 main_v64 (Host.sign : (⟨S512x512, .f32⟩ : BufTy).Contents (Elt F) → (⟨S512x512, .f32⟩ : BufTy).Contents (Elt F)),
    unary main_v64 main_v65 (broadcastInDim S1x512x512 ![1, 2] bcast_S512x512_S1x512x512_1_2 : (⟨S512x512, .f32⟩ : BufTy).Contents (Elt F) → (⟨S1x512x512, .f32⟩ : BufTy).Contents (Elt F)),
    unary main_arg10 main_v66 (Host.absf : (⟨S512x512, .f32⟩ : BufTy).Contents (Elt F) → (⟨S512x512, .f32⟩ : BufTy).Contents (Elt F)),
    unary main_v66 main_v67 (broadcastInDim S1x512x512 ![1, 2] bcast_S512x512_S1x512x512_1_2 : (⟨S512x512, .f32⟩ : BufTy).Contents (Elt F) → (⟨S1x512x512, .f32⟩ : BufTy).Contents (Elt F)),
    unary main_arg12 main_v68 (Host.negf : (⟨S8x512x512, .f32⟩ : BufTy).Contents (Elt F) → (⟨S8x512x512, .f32⟩ : BufTy).Contents (Elt F)),
    unary main_v68 main_v69 (Host.exp : (⟨S8x512x512, .f32⟩ : BufTy).Contents (Elt F) → (⟨S8x512x512, .f32⟩ : BufTy).Contents (Elt F)),
    nullary main_cst_6 (constant S_ .f32 0x3F800000#32),
    unary main_cst_6 main_v70 (broadcastInDim S8x512x512 ![] bcast_S_S8x512x512 : (⟨S_, .f32⟩ : BufTy).Contents (Elt F) → (⟨S8x512x512, .f32⟩ : BufTy).Contents (Elt F)),
    binary main_v70 main_v69 main_v71 (addf : (⟨S8x512x512, .f32⟩ : BufTy).Contents (Elt F) → (⟨S8x512x512, .f32⟩ : BufTy).Contents (Elt F) → (⟨S8x512x512, .f32⟩ : BufTy).Contents (Elt F)),
    nullary main_cst_7 (constant S_ .f32 0x3F800000#32),
    unary main_cst_7 main_v72 (broadcastInDim S8x512x512 ![] bcast_S_S8x512x512 : (⟨S_, .f32⟩ : BufTy).Contents (Elt F) → (⟨S8x512x512, .f32⟩ : BufTy).Contents (Elt F)),
    binary main_v72 main_v71 main_v73 (Host.divf : (⟨S8x512x512, .f32⟩ : BufTy).Contents (Elt F) → (⟨S8x512x512, .f32⟩ : BufTy).Contents (Elt F) → (⟨S8x512x512, .f32⟩ : BufTy).Contents (Elt F)),
    unary main_v67 main_v74 (broadcastInDim S8x512x512 ![0, 1, 2] bcast_S1x512x512_S8x512x512_0_1_2 : (⟨S1x512x512, .f32⟩ : BufTy).Contents (Elt F) → (⟨S8x512x512, .f32⟩ : BufTy).Contents (Elt F)),
    binary main_v74 main_v73 main_v75 (subf : (⟨S8x512x512, .f32⟩ : BufTy).Contents (Elt F) → (⟨S8x512x512, .f32⟩ : BufTy).Contents (Elt F) → (⟨S8x512x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x512x512, .f32⟩) main_call3_v0) (broadcastInDim S8x512x512 ![] bcast_S_S8x512x512),
    TRef.binary (TRef.of (T := ⟨S8x512x512, .f32⟩) main_v75) (TRef.of (T := ⟨S8x512x512, .f32⟩) main_call3_v0) (TRef.of (T := ⟨S8x512x512, .f32⟩) main_v76) maximumf,
    unary main_v65 main_v77 (broadcastInDim S8x512x512 ![0, 1, 2] bcast_S1x512x512_S8x512x512_0_1_2 : (⟨S1x512x512, .f32⟩ : BufTy).Contents (Elt F) → (⟨S8x512x512, .f32⟩ : BufTy).Contents (Elt F)),
    binary main_v77 main_v76 main_v78 (mulf : (⟨S8x512x512, .f32⟩ : BufTy).Contents (Elt F) → (⟨S8x512x512, .f32⟩ : BufTy).Contents (Elt F) → (⟨S8x512x512, .f32⟩ : BufTy).Contents (Elt F)),
    binary main_v63 main_v78 main_v79 ((fun l r => Host.dotGeneral dot_S16384x512_S8x512x512_S16384x8x512_1_2_0_01_n_n none l r) : (⟨S16384x512, .f32⟩ : BufTy).Contents (Elt F) → (⟨S8x512x512, .f32⟩ : BufTy).Contents (Elt F) → (⟨S16384x8x512, .f32⟩ : BufTy).Contents (Elt F)),
    unary main_v1 main_v80 (broadcastInDim S16384x1x1 ![0] bcast_S16384_S16384x1x1_0 : (⟨S16384, .i32⟩ : BufTy).Contents (Elt F) → (⟨S16384x1x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S16384x1x1, .i32⟩) main_call4_v0) (broadcastInDim S16384x1x1 ![] bcast_S_S16384x1x1),
    TRef.binary (TRef.of (T := ⟨S16384x1x1, .i32⟩) main_v80) (TRef.of (T := ⟨S16384x1x1, .i32⟩) main_call4_v0) (TRef.of (T := ⟨S16384x1x1, .i1⟩) main_call4_v1) (cmpi .slt),
    TRef.nullary (TRef.of (T := ⟨S_, .i32⟩) main_call4_c_0) (constantI S_ 32 8#32),
    TRef.unary (TRef.of (T := ⟨S_, .i32⟩) main_call4_c_0) (TRef.of (T := ⟨S16384x1x1, .i32⟩) main_call4_v2) (broadcastInDim S16384x1x1 ![] bcast_S_S16384x1x1),
    TRef.binary (TRef.of (T := ⟨S16384x1x1, .i32⟩) main_v80) (TRef.of (T := ⟨S16384x1x1, .i32⟩) main_call4_v2) (TRef.of (T := ⟨S16384x1x1, .i32⟩) main_call4_v3) addi,
    TRef.ternary (TRef.of (T := ⟨S16384x1x1, .i1⟩) main_call4_v1) (TRef.of (T := ⟨S16384x1x1, .i32⟩) main_call4_v3) (TRef.of (T := ⟨S16384x1x1, .i32⟩) main_v80) (TRef.of (T := ⟨S16384x1x1, .i32⟩) main_call4_v4) select,
    TRef.nullary (TRef.of (T := ⟨S1, .i32⟩) main_call4_c_1) (constantI S1 32 7#32),
    TRef.nullary (TRef.of (T := ⟨S_, .i32⟩) main_call4_c_2) (constantI S_ 32 0#32),
    TRef.unary (TRef.of (T := ⟨S_, .i32⟩) main_call4_c_2) (TRef.of (T := ⟨S16384x1x1, .i32⟩) main_call4_v5) (broadcastInDim S16384x1x1 ![] bcast_S_S16384x1x1),
    TRef.binary (TRef.of (T := ⟨S16384x1x1, .i32⟩) main_call4_v4) (TRef.of (T := ⟨S16384x1x1, .i32⟩) main_call4_v5) (TRef.of (T := ⟨S16384x1x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S16384x1x1, .i32⟩) main_call4_v8) (broadcastInDim S16384x1x1 ![0, 1, 2] bcast_S1x1x1_S16384x1x1_0_1_2),
    TRef.binary (TRef.of (T := ⟨S16384x1x1, .i32⟩) main_call4_v4) (TRef.of (T := ⟨S16384x1x1, .i32⟩) main_call4_v8) (TRef.of (T := ⟨S16384x1x1, .i1⟩) main_call4_v9) (cmpi .sle),
    TRef.binary (TRef.of (T := ⟨S16384x1x1, .i1⟩) main_call4_v6) (TRef.of (T := ⟨S16384x1x1, .i1⟩) main_call4_v9) (TRef.of (T := ⟨S16384x1x1, .i1⟩) main_call4_v10) andi,
    TRef.nullary (TRef.of (T := ⟨S_, .i1⟩) main_call4_c_3) (constantI S_ 1 1#1),
    TRef.binary (TRef.of (T := ⟨S16384x1x1, .i1⟩) main_call4_v10) (TRef.of (T := ⟨S_, .i1⟩) main_call4_c_3) (TRef.of (T := ⟨S16384x1, .i1⟩) main_call4_v11) (fun x v => Host.reduce IntOp.andi x v reducesTo_S16384x1x1_S16384x1_d2 h_S_),
    TRef.binary (TRef.of (T := ⟨S16384x8x512, .f32⟩) main_v79) (TRef.of (T := ⟨S16384x1x1, .i32⟩) main_call4_v4) (TRef.of (T := ⟨S16384x1x512, .f32⟩) main_call4_v12) (fun x i => Host.gather gather_S16384x8x512_S16384x1x1_S16384x1x512_2_1_0_0_1_2_11512 x i),
    TRef.unary (TRef.of (T := ⟨S16384x1, .i1⟩) main_call4_v11) (TRef.of (T := ⟨S16384x1x512, .i1⟩) main_call4_v13) (broadcastInDim S16384x1x512 ![0, 1] bcast_S16384x1_S16384x1x512_0_1),
    TRef.nullary (TRef.of (T := ⟨S_, .f32⟩) main_call4_cst) (constant S_ .f32 0x7FC00000#32),
    TRef.unary (TRef.of (T := ⟨S_, .f32⟩) main_call4_cst) (TRef.of (T := ⟨S16384x1x512, .f32⟩) main_call4_v14) (broadcastInDim S16384x1x512 ![] bcast_S_S16384x1x512),
    TRef.ternary (TRef.of (T := ⟨S16384x1x512, .i1⟩) main_call4_v13) (TRef.of (T := ⟨S16384x1x512, .f32⟩) main_call4_v12) (TRef.of (T := ⟨S16384x1x512, .f32⟩) main_call4_v14) (TRef.of (T := ⟨S16384x1x512, .f32⟩) main_v81) select,
    reshape main_v81 main_v82 rfl shapeCasts_S16384x1x512_S16384x512,
    unary main_arg11 main_v83 (broadcastInDim S1x512 ![1] bcast_S512_S1x512_1 : (⟨S512, .f32⟩ : BufTy).Contents (Elt F) → (⟨S1x512, .f32⟩ : BufTy).Contents (Elt F)),
    unary main_v83 main_v84 (broadcastInDim S16384x512 ![0, 1] bcast_S1x512_S16384x512_0_1 : (⟨S1x512, .f32⟩ : BufTy).Contents (Elt F) → (⟨S16384x512, .f32⟩ : BufTy).Contents (Elt F)),
    binary main_v82 main_v84 main_v85 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16384x512, .f32⟩) main_call5_v0) (broadcastInDim S16384x512 ![] bcast_S_S16384x512),
    TRef.binary (TRef.of (T := ⟨S16384x512, .f32⟩) main_v85) (TRef.of (T := ⟨S16384x512, .f32⟩) main_call5_v0) (TRef.of (T := ⟨S16384x512, .f32⟩) main_v86) maximumf,
    unary main_arg13 main_v87 (Host.sign : (⟨S512x512, .f32⟩ : BufTy).Contents (Elt F) → (⟨S512x512, .f32⟩ : BufTy).Contents (Elt F)),
    unary main_v87 main_v88 (broadcastInDim S1x512x512 ![1, 2] bcast_S512x512_S1x512x512_1_2 : (⟨S512x512, .f32⟩ : BufTy).Contents (Elt F) → (⟨S1x512x512, .f32⟩ : BufTy).Contents (Elt F)),
    unary main_arg13 main_v89 (Host.absf : (⟨S512x512, .f32⟩ : BufTy).Contents (Elt F) → (⟨S512x512, .f32⟩ : BufTy).Contents (Elt F)),
    unary main_v89 main_v90 (broadcastInDim S1x512x512 ![1, 2] bcast_S512x512_S1x512x512_1_2 : (⟨S512x512, .f32⟩ : BufTy).Contents (Elt F) → (⟨S1x512x512, .f32⟩ : BufTy).Contents (Elt F)),
    unary main_arg15 main_v91 (Host.negf : (⟨S8x512x512, .f32⟩ : BufTy).Contents (Elt F) → (⟨S8x512x512, .f32⟩ : BufTy).Contents (Elt F)),
    unary main_v91 main_v92 (Host.exp : (⟨S8x512x512, .f32⟩ : BufTy).Contents (Elt F) → (⟨S8x512x512, .f32⟩ : BufTy).Contents (Elt F)),
    nullary main_cst_8 (constant S_ .f32 0x3F800000#32),
    unary main_cst_8 main_v93 (broadcastInDim S8x512x512 ![] bcast_S_S8x512x512 : (⟨S_, .f32⟩ : BufTy).Contents (Elt F) → (⟨S8x512x512, .f32⟩ : BufTy).Contents (Elt F)),
    binary main_v93 main_v92 main_v94 (addf : (⟨S8x512x512, .f32⟩ : BufTy).Contents (Elt F) → (⟨S8x512x512, .f32⟩ : BufTy).Contents (Elt F) → (⟨S8x512x512, .f32⟩ : BufTy).Contents (Elt F)),
    nullary main_cst_9 (constant S_ .f32 0x3F800000#32),
    unary main_cst_9 main_v95 (broadcastInDim S8x512x512 ![] bcast_S_S8x512x512 : (⟨S_, .f32⟩ : BufTy).Contents (Elt F) → (⟨S8x512x512, .f32⟩ : BufTy).Contents (Elt F)),
    binary main_v95 main_v94 main_v96 (Host.divf : (⟨S8x512x512, .f32⟩ : BufTy).Contents (Elt F) → (⟨S8x512x512, .f32⟩ : BufTy).Contents (Elt F) → (⟨S8x512x512, .f32⟩ : BufTy).Contents (Elt F)),
    unary main_v90 main_v97 (broadcastInDim S8x512x512 ![0, 1, 2] bcast_S1x512x512_S8x512x512_0_1_2 : (⟨S1x512x512, .f32⟩ : BufTy).Contents (Elt F) → (⟨S8x512x512, .f32⟩ : BufTy).Contents (Elt F)),
    binary main_v97 main_v96 main_v98 (subf : (⟨S8x512x512, .f32⟩ : BufTy).Contents (Elt F) → (⟨S8x512x512, .f32⟩ : BufTy).Contents (Elt F) → (⟨S8x512x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x512x512, .f32⟩) main_call6_v0) (broadcastInDim S8x512x512 ![] bcast_S_S8x512x512),
    TRef.binary (TRef.of (T := ⟨S8x512x512, .f32⟩) main_v98) (TRef.of (T := ⟨S8x512x512, .f32⟩) main_call6_v0) (TRef.of (T := ⟨S8x512x512, .f32⟩) main_v99) maximumf,
    unary main_v88 main_v100 (broadcastInDim S8x512x512 ![0, 1, 2] bcast_S1x512x512_S8x512x512_0_1_2 : (⟨S1x512x512, .f32⟩ : BufTy).Contents (Elt F) → (⟨S8x512x512, .f32⟩ : BufTy).Contents (Elt F)),
    binary main_v100 main_v99 main_v101 (mulf : (⟨S8x512x512, .f32⟩ : BufTy).Contents (Elt F) → (⟨S8x512x512, .f32⟩ : BufTy).Contents (Elt F) → (⟨S8x512x512, .f32⟩ : BufTy).Contents (Elt F)),
    binary main_v86 main_v101 main_v102 ((fun l r => Host.dotGeneral dot_S16384x512_S8x512x512_S16384x8x512_1_2_0_01_n_n none l r) : (⟨S16384x512, .f32⟩ : BufTy).Contents (Elt F) → (⟨S8x512x512, .f32⟩ : BufTy).Contents (Elt F) → (⟨S16384x8x512, .f32⟩ : BufTy).Contents (Elt F)),
    unary main_v1 main_v103 (broadcastInDim S16384x1x1 ![0] bcast_S16384_S16384x1x1_0 : (⟨S16384, .i32⟩ : BufTy).Contents (Elt F) → (⟨S16384x1x1, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S16384x1x1, .i32⟩) main_call7_v0) (broadcastInDim S16384x1x1 ![] bcast_S_S16384x1x1),
    TRef.binary (TRef.of (T := ⟨S16384x1x1, .i32⟩) main_v103) (TRef.of (T := ⟨S16384x1x1, .i32⟩) main_call7_v0) (TRef.of (T := ⟨S16384x1x1, .i1⟩) main_call7_v1) (cmpi .slt),
    TRef.nullary (TRef.of (T := ⟨S_, .i32⟩) main_call7_c_0) (constantI S_ 32 8#32),
    TRef.unary (TRef.of (T := ⟨S_, .i32⟩) main_call7_c_0) (TRef.of (T := ⟨S16384x1x1, .i32⟩) main_call7_v2) (broadcastInDim S16384x1x1 ![] bcast_S_S16384x1x1),
    TRef.binary (TRef.of (T := ⟨S16384x1x1, .i32⟩) main_v103) (TRef.of (T := ⟨S16384x1x1, .i32⟩) main_call7_v2) (TRef.of (T := ⟨S16384x1x1, .i32⟩) main_call7_v3) addi,
    TRef.ternary (TRef.of (T := ⟨S16384x1x1, .i1⟩) main_call7_v1) (TRef.of (T := ⟨S16384x1x1, .i32⟩) main_call7_v3) (TRef.of (T := ⟨S16384x1x1, .i32⟩) main_v103) (TRef.of (T := ⟨S16384x1x1, .i32⟩) main_call7_v4) select,
    TRef.nullary (TRef.of (T := ⟨S1, .i32⟩) main_call7_c_1) (constantI S1 32 7#32),
    TRef.nullary (TRef.of (T := ⟨S_, .i32⟩) main_call7_c_2) (constantI S_ 32 0#32),
    TRef.unary (TRef.of (T := ⟨S_, .i32⟩) main_call7_c_2) (TRef.of (T := ⟨S16384x1x1, .i32⟩) main_call7_v5) (broadcastInDim S16384x1x1 ![] bcast_S_S16384x1x1),
    TRef.binary (TRef.of (T := ⟨S16384x1x1, .i32⟩) main_call7_v4) (TRef.of (T := ⟨S16384x1x1, .i32⟩) main_call7_v5) (TRef.of (T := ⟨S16384x1x1, .i1⟩) main_call7_v6) (cmpi .sge),
    TRef.unary (TRef.of (T := ⟨S1, .i32⟩) main_call7_c_1) (TRef.of (T := ⟨S1x1x1, .i32⟩) main_call7_v7) (broadcastInDim S1x1x1 ![2] bcast_S1_S1x1x1_2),
    TRef.unary (TRef.of (T := ⟨S1x1x1, .i32⟩) main_call7_v7) (TRef.of (T := ⟨S16384x1x1, .i32⟩) main_call7_v8) (broadcastInDim S16384x1x1 ![0, 1, 2] bcast_S1x1x1_S16384x1x1_0_1_2),
    TRef.binary (TRef.of (T := ⟨S16384x1x1, .i32⟩) main_call7_v4) (TRef.of (T := ⟨S16384x1x1, .i32⟩) main_call7_v8) (TRef.of (T := ⟨S16384x1x1, .i1⟩) main_call7_v9) (cmpi .sle),
    TRef.binary (TRef.of (T := ⟨S16384x1x1, .i1⟩) main_call7_v6) (TRef.of (T := ⟨S16384x1x1, .i1⟩) main_call7_v9) (TRef.of (T := ⟨S16384x1x1, .i1⟩) main_call7_v10) andi,
    TRef.nullary (TRef.of (T := ⟨S_, .i1⟩) main_call7_c_3) (constantI S_ 1 1#1),
    TRef.binary (TRef.of (T := ⟨S16384x1x1, .i1⟩) main_call7_v10) (TRef.of (T := ⟨S_, .i1⟩) main_call7_c_3) (TRef.of (T := ⟨S16384x1, .i1⟩) main_call7_v11) (fun x v => Host.reduce IntOp.andi x v reducesTo_S16384x1x1_S16384x1_d2 h_S_),
    TRef.binary (TRef.of (T := ⟨S16384x8x512, .f32⟩) main_v102) (TRef.of (T := ⟨S16384x1x1, .i32⟩) main_call7_v4) (TRef.of (T := ⟨S16384x1x512, .f32⟩) main_call7_v12) (fun x i => Host.gather gather_S16384x8x512_S16384x1x1_S16384x1x512_2_1_0_0_1_2_11512 x i),
    TRef.unary (TRef.of (T := ⟨S16384x1, .i1⟩) main_call7_v11) (TRef.of (T := ⟨S16384x1x512, .i1⟩) main_call7_v13) (broadcastInDim S16384x1x512 ![0, 1] bcast_S16384x1_S16384x1x512_0_1),
    TRef.nullary (TRef.of (T := ⟨S_, .f32⟩) main_call7_cst) (constant S_ .f32 0x7FC00000#32),
    TRef.unary (TRef.of (T := ⟨S_, .f32⟩) main_call7_cst) (TRef.of (T := ⟨S16384x1x512, .f32⟩) main_call7_v14) (broadcastInDim S16384x1x512 ![] bcast_S_S16384x1x512),
    TRef.ternary (TRef.of (T := ⟨S16384x1x512, .i1⟩) main_call7_v13) (TRef.of (T := ⟨S16384x1x512, .f32⟩) main_call7_v12) (TRef.of (T := ⟨S16384x1x512, .f32⟩) main_call7_v14) (TRef.of (T := ⟨S16384x1x512, .f32⟩) main_v104) select,
    reshape main_v104 main_v105 rfl shapeCasts_S16384x1x512_S16384x512,
    unary main_arg14 main_v106 (broadcastInDim S1x512 ![1] bcast_S512_S1x512_1 : (⟨S512, .f32⟩ : BufTy).Contents (Elt F) → (⟨S1x512, .f32⟩ : BufTy).Contents (Elt F)),
    unary main_v106 main_v107 (broadcastInDim S16384x512 ![0, 1] bcast_S1x512_S16384x512_0_1 : (⟨S1x512, .f32⟩ : BufTy).Contents (Elt F) → (⟨S16384x512, .f32⟩ : BufTy).Contents (Elt F)),
    binary main_v105 main_v107 main_v108 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16384x512, .f32⟩) main_call8_v0) (broadcastInDim S16384x512 ![] bcast_S_S16384x512),
    TRef.binary (TRef.of (T := ⟨S16384x512, .f32⟩) main_v108) (TRef.of (T := ⟨S16384x512, .f32⟩) main_call8_v0) (TRef.of (T := ⟨S16384x512, .f32⟩) main_v109) maximumf,
    unary main_arg16 main_v110 (Host.sign : (⟨S64x512, .f32⟩ : BufTy).Contents (Elt F) → (⟨S64x512, .f32⟩ : BufTy).Contents (Elt F)),
    unary main_v110 main_v111 (broadcastInDim S1x64x512 ![1, 2] bcast_S64x512_S1x64x512_1_2 : (⟨S64x512, .f32⟩ : BufTy).Contents (Elt F) → (⟨S1x64x512, .f32⟩ : BufTy).Contents (Elt F)),
    unary main_arg16 main_v112 (Host.absf : (⟨S64x512, .f32⟩ : BufTy).Contents (Elt F) → (⟨S64x512, .f32⟩ : BufTy).Contents (Elt F)),
    unary main_v112 main_v113 (broadcastInDim S1x64x512 ![1, 2] bcast_S64x512_S1x64x512_1_2 : (⟨S64x512, .f32⟩ : BufTy).Contents (Elt F) → (⟨S1x64x512, .f32⟩ : BufTy).Contents (Elt F)),
    unary main_arg18 main_v114 (Host.negf : (⟨S8x64x512, .f32⟩ : BufTy).Contents (Elt F) → (⟨S8x64x512, .f32⟩ : BufTy).Contents (Elt F)),
    unary main_v114 main_v115 (Host.exp : (⟨S8x64x512, .f32⟩ : BufTy).Contents (Elt F) → (⟨S8x64x512, .f32⟩ : BufTy).Contents (Elt F)),
    nullary main_cst_10 (constant S_ .f32 0x3F800000#32),
    unary main_cst_10 main_v116 (broadcastInDim S8x64x512 ![] bcast_S_S8x64x512 : (⟨S_, .f32⟩ : BufTy).Contents (Elt F) → (⟨S8x64x512, .f32⟩ : BufTy).Contents (Elt F)),
    binary main_v116 main_v115 main_v117 (addf : (⟨S8x64x512, .f32⟩ : BufTy).Contents (Elt F) → (⟨S8x64x512, .f32⟩ : BufTy).Contents (Elt F) → (⟨S8x64x512, .f32⟩ : BufTy).Contents (Elt F)),
    nullary main_cst_11 (constant S_ .f32 0x3F800000#32),
    unary main_cst_11 main_v118 (broadcastInDim S8x64x512 ![] bcast_S_S8x64x512 : (⟨S_, .f32⟩ : BufTy).Contents (Elt F) → (⟨S8x64x512, .f32⟩ : BufTy).Contents (Elt F)),
    binary main_v118 main_v117 main_v119 (Host.divf : (⟨S8x64x512, .f32⟩ : BufTy).Contents (Elt F) → (⟨S8x64x512, .f32⟩ : BufTy).Contents (Elt F) → (⟨S8x64x512, .f32⟩ : BufTy).Contents (Elt F)),
    unary main_v113 main_v120 (broadcastInDim S8x64x512 ![0, 1, 2] bcast_S1x64x512_S8x64x512_0_1_2 : (⟨S1x64x512, .f32⟩ : BufTy).Contents (Elt F) → (⟨S8x64x512, .f32⟩ : BufTy).Contents (Elt F)),
    binary main_v120 main_v119 main_v121 (subf : (⟨S8x64x512, .f32⟩ : BufTy).Contents (Elt F) → (⟨S8x64x512, .f32⟩ : BufTy).Contents (Elt F) → (⟨S8x64x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8x64x512, .f32⟩) main_call9_v0) (broadcastInDim S8x64x512 ![] bcast_S_S8x64x512),
    TRef.binary (TRef.of (T := ⟨S8x64x512, .f32⟩) main_v121) (TRef.of (T := ⟨S8x64x512, .f32⟩) main_call9_v0) (TRef.of (T := ⟨S8x64x512, .f32⟩) main_v122) maximumf,
    unary main_v111 main_v123 (broadcastInDim S8x64x512 ![0, 1, 2] bcast_S1x64x512_S8x64x512_0_1_2 : (⟨S1x64x512, .f32⟩ : BufTy).Contents (Elt F) → (⟨S8x64x512, .f32⟩ : BufTy).Contents (Elt F)),
    binary main_v123 main_v122 main_v124 (mulf : (⟨S8x64x512, .f32⟩ : BufTy).Contents (Elt F) → (⟨S8x64x512, .f32⟩ : BufTy).Contents (Elt F) → (⟨S8x64x512, .f32⟩ : BufTy).Contents (Elt F)),
    binary main_v109 main_v124 main_v125 ((fun l r => Host.dotGeneral dot_S16384x512_S8x64x512_S16384x8x64_1_2_0_01_n_n none l r) : (⟨S16384x512, .f32⟩ : BufTy).Contents (Elt F) → (⟨S8x64x512, .f32⟩ : BufTy).Contents (Elt F) → (⟨S16384x8x64, .f32⟩ : BufTy).Contents (Elt F)),
    unary main_v1 main_v126 (broadcastInDim S16384x1x1 ![0] bcast_S16384_S16384x1x1_0 : (⟨S16384, .i32⟩ : BufTy).Contents (Elt F) → (⟨S16384x1x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S16384x1x1, .i32⟩) main_call10_v0) (broadcastInDim S16384x1x1 ![] bcast_S_S16384x1x1),
    TRef.binary (TRef.of (T := ⟨S16384x1x1, .i32⟩) main_v126) (TRef.of (T := ⟨S16384x1x1, .i32⟩) main_call10_v0) (TRef.of (T := ⟨S16384x1x1, .i1⟩) main_call10_v1) (cmpi .slt),
    TRef.nullary (TRef.of (T := ⟨S_, .i32⟩) main_call10_c_0) (constantI S_ 32 8#32),
    TRef.unary (TRef.of (T := ⟨S_, .i32⟩) main_call10_c_0) (TRef.of (T := ⟨S16384x1x1, .i32⟩) main_call10_v2) (broadcastInDim S16384x1x1 ![] bcast_S_S16384x1x1),
    TRef.binary (TRef.of (T := ⟨S16384x1x1, .i32⟩) main_v126) (TRef.of (T := ⟨S16384x1x1, .i32⟩) main_call10_v2) (TRef.of (T := ⟨S16384x1x1, .i32⟩) main_call10_v3) addi,
    TRef.ternary (TRef.of (T := ⟨S16384x1x1, .i1⟩) main_call10_v1) (TRef.of (T := ⟨S16384x1x1, .i32⟩) main_call10_v3) (TRef.of (T := ⟨S16384x1x1, .i32⟩) main_v126) (TRef.of (T := ⟨S16384x1x1, .i32⟩) main_call10_v4) select,
    TRef.nullary (TRef.of (T := ⟨S1, .i32⟩) main_call10_c_1) (constantI S1 32 7#32),
    TRef.nullary (TRef.of (T := ⟨S_, .i32⟩) main_call10_c_2) (constantI S_ 32 0#32),
    TRef.unary (TRef.of (T := ⟨S_, .i32⟩) main_call10_c_2) (TRef.of (T := ⟨S16384x1x1, .i32⟩) main_call10_v5) (broadcastInDim S16384x1x1 ![] bcast_S_S16384x1x1),
    TRef.binary (TRef.of (T := ⟨S16384x1x1, .i32⟩) main_call10_v4) (TRef.of (T := ⟨S16384x1x1, .i32⟩) main_call10_v5) (TRef.of (T := ⟨S16384x1x1, .i1⟩) main_call10_v6) (cmpi .sge),
    TRef.unary (TRef.of (T := ⟨S1, .i32⟩) main_call10_c_1) (TRef.of (T := ⟨S1x1x1, .i32⟩) main_call10_v7) (broadcastInDim S1x1x1 ![2] bcast_S1_S1x1x1_2),
    TRef.unary (TRef.of (T := ⟨S1x1x1, .i32⟩) main_call10_v7) (TRef.of (T := ⟨S16384x1x1, .i32⟩) main_call10_v8) (broadcastInDim S16384x1x1 ![0, 1, 2] bcast_S1x1x1_S16384x1x1_0_1_2),
    TRef.binary (TRef.of (T := ⟨S16384x1x1, .i32⟩) main_call10_v4) (TRef.of (T := ⟨S16384x1x1, .i32⟩) main_call10_v8) (TRef.of (T := ⟨S16384x1x1, .i1⟩) main_call10_v9) (cmpi .sle),
    TRef.binary (TRef.of (T := ⟨S16384x1x1, .i1⟩) main_call10_v6) (TRef.of (T := ⟨S16384x1x1, .i1⟩) main_call10_v9) (TRef.of (T := ⟨S16384x1x1, .i1⟩) main_call10_v10) andi,
    TRef.nullary (TRef.of (T := ⟨S_, .i1⟩) main_call10_c_3) (constantI S_ 1 1#1),
    TRef.binary (TRef.of (T := ⟨S16384x1x1, .i1⟩) main_call10_v10) (TRef.of (T := ⟨S_, .i1⟩) main_call10_c_3) (TRef.of (T := ⟨S16384x1, .i1⟩) main_call10_v11) (fun x v => Host.reduce IntOp.andi x v reducesTo_S16384x1x1_S16384x1_d2 h_S_),
    TRef.binary (TRef.of (T := ⟨S16384x8x64, .f32⟩) main_v125) (TRef.of (T := ⟨S16384x1x1, .i32⟩) main_call10_v4) (TRef.of (T := ⟨S16384x1x64, .f32⟩) main_call10_v12) (fun x i => Host.gather gather_S16384x8x64_S16384x1x1_S16384x1x64_2_1_0_0_1_2_1164 x i),
    TRef.unary (TRef.of (T := ⟨S16384x1, .i1⟩) main_call10_v11) (TRef.of (T := ⟨S16384x1x64, .i1⟩) main_call10_v13) (broadcastInDim S16384x1x64 ![0, 1] bcast_S16384x1_S16384x1x64_0_1),
    TRef.nullary (TRef.of (T := ⟨S_, .f32⟩) main_call10_cst) (constant S_ .f32 0x7FC00000#32),
    TRef.unary (TRef.of (T := ⟨S_, .f32⟩) main_call10_cst) (TRef.of (T := ⟨S16384x1x64, .f32⟩) main_call10_v14) (broadcastInDim S16384x1x64 ![] bcast_S_S16384x1x64),
    TRef.ternary (TRef.of (T := ⟨S16384x1x64, .i1⟩) main_call10_v13) (TRef.of (T := ⟨S16384x1x64, .f32⟩) main_call10_v12) (TRef.of (T := ⟨S16384x1x64, .f32⟩) main_call10_v14) (TRef.of (T := ⟨S16384x1x64, .f32⟩) main_v127) select,
    reshape main_v127 main_v128 rfl shapeCasts_S16384x1x64_S16384x64,
    unary main_arg17 main_v129 (broadcastInDim S1x64 ![1] bcast_S64_S1x64_1 : (⟨S64, .f32⟩ : BufTy).Contents (Elt F) → (⟨S1x64, .f32⟩ : BufTy).Contents (Elt F)),
    unary main_v129 main_v130 (broadcastInDim S16384x64 ![0, 1] bcast_S1x64_S16384x64_0_1 : (⟨S1x64, .f32⟩ : BufTy).Contents (Elt F) → (⟨S16384x64, .f32⟩ : BufTy).Contents (Elt F)),
    binary main_v128 main_v130 main_v131 (addf : (⟨S16384x64, .f32⟩ : BufTy).Contents (Elt F) → (⟨S16384x64, .f32⟩ : BufTy).Contents (Elt F) → (⟨S16384x64, .f32⟩ : BufTy).Contents (Elt F)),
    reshape main_v131 main_v132 rfl shapeCasts_S16384x64_S2048x8x64,
    reshape main_v63 main_v133 rfl shapeCasts_S16384x512_S2048x8x512 ]
set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., reshape_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., binary_bufs_sub .., reshape_bufs_sub .., reshape_bufs_sub ..⟩
set_option maxRecDepth 400000 in
set_option maxHeartbeats 98000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132) = val_main_v132 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v133) = val_main_v133 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v132).trans (by after_results_simp <;> rfl),
      (h c main_v133).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl)⟩)
    (run_seq scopedRefs_eq scopedSems_eq defs main (fun _ => ops) main_eq (fun _ => ops_sub) m ρ)
end Cert.ReferenceIdeal.ValueP
end
-- ==== Proof.RefRead.lean ====
import proofs.«409439_j24232205484239_2_alg».proof.Proof.RefStages
import Idealize.ShloMosaic.Lib.Pipeline.Value
import Idealize.ShloMosaic.Lib.ValueIdx
import Idealize.ShloMosaic.PureOps.Ideal.Laws

/-! Each operation's value read at an index. -/

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S2048x8x512, .f32⟩ : BufTy).Contents (Elt F))
  (x1 : (⟨S2048x8x512, .f32⟩ : BufTy).Contents (Elt F))
  (x2 : (⟨S2048x8, .i32⟩ : BufTy).Contents (Elt F))
  (x3 : (⟨S512x512, .f32⟩ : BufTy).Contents (Elt F))
  (x4 : (⟨S512, .f32⟩ : BufTy).Contents (Elt F))
  (x5 : (⟨S8x512x512, .f32⟩ : BufTy).Contents (Elt F))
  (x6 : (⟨S1536x512, .f32⟩ : BufTy).Contents (Elt F))
  (x7 : (⟨S1536x512, .f32⟩ : BufTy).Contents (Elt F))
  (x8 : (⟨S1536, .f32⟩ : BufTy).Contents (Elt F))
  (x9 : (⟨S1536, .f32⟩ : BufTy).Contents (Elt F))
  (x10 : (⟨S512x512, .f32⟩ : BufTy).Contents (Elt F))
  (x11 : (⟨S512, .f32⟩ : BufTy).Contents (Elt F))
  (x12 : (⟨S8x512x512, .f32⟩ : BufTy).Contents (Elt F))
  (x13 : (⟨S512x512, .f32⟩ : BufTy).Contents (Elt F))
  (x14 : (⟨S512, .f32⟩ : BufTy).Contents (Elt F))
  (x15 : (⟨S8x512x512, .f32⟩ : BufTy).Contents (Elt F))
  (x16 : (⟨S64x512, .f32⟩ : BufTy).Contents (Elt F))
  (x17 : (⟨S64, .f32⟩ : BufTy).Contents (Elt F))
  (x18 : (⟨S8x64x512, .f32⟩ : BufTy).Contents (Elt F))

abbrev idx_main_v0 (i : S16384x512.Idx) : S2048x8x512.Idx := fun a => match a with
  | ⟨0, _⟩ => ⟨((i 0).val * 512 + (i 1).val) / 4096, by have h0 : (i 0).val < 16384 := (i 0).isLt; have h1 : (i 1).val < 512 := (i 1).isLt; show ((i 0).val * 512 + (i 1).val) / 4096 < 2048; omega⟩
  | ⟨1, _⟩ => ⟨((i 0).val * 512 + (i 1).val) / 512 % 8, by have h0 : (i 0).val < 16384 := (i 0).isLt; have h1 : (i 1).val < 512 := (i 1).isLt; show ((i 0).val * 512 + (i 1).val) / 512 % 8 < 8; omega⟩
  | ⟨2, _⟩ => ⟨((i 0).val * 512 + (i 1).val) % 512, by have h0 : (i 0).val < 16384 := (i 0).isLt; have h1 : (i 1).val < 512 := (i 1).isLt; show ((i 0).val * 512 + (i 1).val) % 512 < 512; omega⟩

theorem val_main_v0_apply (i : S16384x512.Idx) :
    val_main_v0 (F := F) x0 i = x0 (idx_main_v0 i) := by
  unfold val_main_v0
  exact shapeCast_apply x0 shapeCasts_S2048x8x512_S16384x512 i (idx_main_v0 i)
    (by rewrite [Shape.rowMajor_val_three, Shape.rowMajor_val_two]; have h0 : (i 0).val < 16384 := (i 0).isLt; have h1 : (i 1).val < 512 := (i 1).isLt; show (((i 0).val * 512 + (i 1).val) / 4096 * 8 + ((i 0).val * 512 + (i 1).val) / 512 % 8) * 512 + ((i 0).val * 512 + (i 1).val) % 512 = (i 0).val * 512 + (i 1).val; omega)

abbrev idx_main_v1 (i : S16384.Idx) : S2048x8.Idx := fun a => match a with
  | ⟨0, _⟩ => ⟨((i 0).val) / 8, by have h0 : (i 0).val < 16384 := (i 0).isLt; show ((i 0).val) / 8 < 2048; omega⟩
  | ⟨1, _⟩ => ⟨((i 0).val) % 8, by have h0 : (i 0).val < 16384 := (i 0).isLt; show ((i 0).val) % 8 < 8; omega⟩

theorem val_main_v1_apply (i : S16384.Idx) :
    val_main_v1 (F := F) x2 i = x2 (idx_main_v1 i) := by
  unfold val_main_v1
  exact shapeCast_apply x2 shapeCasts_S2048x8_S16384 i (idx_main_v1 i)
    (by rewrite [Shape.rowMajor_val_two, Shape.rowMajor_val_one]; have h0 : (i 0).val < 16384 := (i 0).isLt; show ((i 0).val) / 8 * 8 + ((i 0).val) % 8 = (i 0).val; omega)

abbrev idx_main_v2 (i : S16384x512.Idx) : S2048x8x512.Idx := fun a => match a with
  | ⟨0, _⟩ => ⟨((i 0).val * 512 + (i 1).val) / 4096, by have h0 : (i 0).val < 16384 := (i 0).isLt; have h1 : (i 1).val < 512 := (i 1).isLt; show ((i 0).val * 512 + (i 1).val) / 4096 < 2048; omega⟩
  | ⟨1, _⟩ => ⟨((i 0).val * 512 + (i 1).val) / 512 % 8, by have h0 : (i 0).val < 16384 := (i 0).isLt; have h1 : (i 1).val < 512 := (i 1).isLt; show ((i 0).val * 512 + (i 1).val) / 512 % 8 < 8; omega⟩
  | ⟨2, _⟩ => ⟨((i 0).val * 512 + (i 1).val) % 512, by have h0 : (i 0).val < 16384 := (i 0).isLt; have h1 : (i 1).val < 512 := (i 1).isLt; show ((i 0).val * 512 + (i 1).val) % 512 < 512; omega⟩

theorem val_main_v2_apply (i : S16384x512.Idx) :
    val_main_v2 (F := F) x1 i = x1 (idx_main_v2 i) := by
  unfold val_main_v2
  exact shapeCast_apply x1 shapeCasts_S2048x8x512_S16384x512 i (idx_main_v2 i)
    (by rewrite [Shape.rowMajor_val_three, Shape.rowMajor_val_two]; have h0 : (i 0).val < 16384 := (i 0).isLt; have h1 : (i 1).val < 512 := (i 1).isLt; show (((i 0).val * 512 + (i 1).val) / 4096 * 8 + ((i 0).val * 512 + (i 1).val) / 512 % 8) * 512 + ((i 0).val * 512 + (i 1).val) % 512 = (i 0).val * 512 + (i 1).val; omega)

theorem val_main_v3_apply (i : S512x512.Idx) :
    val_main_v3 (F := F) x3 i = FloatOps.hostUnary .sign (x3 i) := rfl

abbrev idx_main_v4 (i : S1x512x512.Idx) : S512x512.Idx := fun a => match a with
  | ⟨0, _⟩ => ⟨(i 1).val, (i 1).isLt⟩
  | ⟨1, _⟩ => ⟨(i 2).val, (i 2).isLt⟩

theorem val_main_v4_apply (i : S1x512x512.Idx) :
    val_main_v4 (F := F) x3 i = val_main_v3 (F := F) x3 (idx_main_v4 i) := by
  unfold val_main_v4
  generalize val_main_v3 (F := F) x3 = y
  exact broadcastInDim_apply _ bcast_S512x512_S1x512x512_1_2 y i (idx_main_v4 i) (fun a => match a with
    | ⟨0, _⟩ => by show (i 1).val = if (512 : Nat) = 1 then 0 else (i 1).val; rw [if_neg (by decide)]
    | ⟨1, _⟩ => by show (i 2).val = if (512 : Nat) = 1 then 0 else (i 2).val; rw [if_neg (by decide)])

theorem val_main_v5_apply (i : S512x512.Idx) :
    val_main_v5 (F := F) x3 i = FloatOps.hostAbsf (x3 i) := rfl

abbrev idx_main_v6 (i : S1x512x512.Idx) : S512x512.Idx := fun a => match a with
  | ⟨0, _⟩ => ⟨(i 1).val, (i 1).isLt⟩
  | ⟨1, _⟩ => ⟨(i 2).val, (i 2).isLt⟩

theorem val_main_v6_apply (i : S1x512x512.Idx) :
    val_main_v6 (F := F) x3 i = val_main_v5 (F := F) x3 (idx_main_v6 i) := by
  unfold val_main_v6
  generalize val_main_v5 (F := F) x3 = y
  exact broadcastInDim_apply _ bcast_S512x512_S1x512x512_1_2 y i (idx_main_v6 i) (fun a => match a with
    | ⟨0, _⟩ => by show (i 1).val = if (512 : Nat) = 1 then 0 else (i 1).val; rw [if_neg (by decide)]
    | ⟨1, _⟩ => by show (i 2).val = if (512 : Nat) = 1 then 0 else (i 2).val; rw [if_neg (by decide)])

theorem val_main_v7_apply (i : S8x512x512.Idx) :
    val_main_v7 (F := F) x5 i = FloatOps.hostNegf (x5 i) := rfl

theorem val_main_v8_apply (i : S8x512x512.Idx) :
    val_main_v8 (F := F) x5 i = FloatOps.hostUnary .exp (val_main_v7 (F := F) x5 i) := rfl

theorem val_main_cst_apply (i : S_.Idx) :
    val_main_cst (F := F) i = FloatOps.ofBits .f32 0x3F800000#32 := rfl

abbrev idx_main_v9 (i : S8x512x512.Idx) : S_.Idx := fun a => a.elim0

theorem val_main_v9_apply (i : S8x512x512.Idx) :
    val_main_v9 (F := F) i = val_main_cst (F := F) (idx_main_v9 i) := by
  unfold val_main_v9
  generalize val_main_cst (F := F) = y
  exact broadcastInDim_apply _ bcast_S_S8x512x512 y i (idx_main_v9 i) (fun a => a.elim0)

theorem val_main_v10_apply (i : S8x512x512.Idx) :
    val_main_v10 (F := F) x5 i = FloatOps.addf (val_main_v9 (F := F) i) (val_main_v8 (F := F) x5 i) := rfl

theorem val_main_cst_0_apply (i : S_.Idx) :
    val_main_cst_0 (F := F) i = FloatOps.ofBits .f32 0x3F800000#32 := rfl

abbrev idx_main_v11 (i : S8x512x512.Idx) : S_.Idx := fun a => a.elim0

theorem val_main_v11_apply (i : S8x512x512.Idx) :
    val_main_v11 (F := F) i = val_main_cst_0 (F := F) (idx_main_v11 i) := by
  unfold val_main_v11
  generalize val_main_cst_0 (F := F) = y
  exact broadcastInDim_apply _ bcast_S_S8x512x512 y i (idx_main_v11 i) (fun a => a.elim0)

theorem val_main_v12_apply (i : S8x512x512.Idx) :
    val_main_v12 (F := F) x5 i = FloatOps.hostDivf (val_main_v11 (F := F) i) (val_main_v10 (F := F) x5 i) := rfl

abbrev idx_main_v13 (i : S8x512x512.Idx) : S1x512x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v13_apply (i : S8x512x512.Idx) :
    val_main_v13 (F := F) x3 i = val_main_v6 (F := F) x3 (idx_main_v13 i) := by
  unfold val_main_v13
  generalize val_main_v6 (F := F) x3 = y
  exact broadcastInDim_apply _ bcast_S1x512x512_S8x512x512_0_1_2 y i (idx_main_v13 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

theorem val_main_v14_apply (i : S8x512x512.Idx) :
    val_main_v14 (F := F) x3 x5 i = FloatOps.subf (val_main_v13 (F := F) x3 i) (val_main_v12 (F := F) x5 i) := rfl

theorem val_main_call0_cst_apply (i : S_.Idx) :
    val_main_call0_cst (F := F) i = FloatOps.ofBits .f32 0x00000000#32 := rfl

abbrev idx_main_call0_v0 (i : S8x512x512.Idx) : S_.Idx := fun a => a.elim0

theorem val_main_call0_v0_apply (i : S8x512x512.Idx) :
    val_main_call0_v0 (F := F) i = val_main_call0_cst (F := F) (idx_main_call0_v0 i) := by
  unfold val_main_call0_v0
  generalize val_main_call0_cst (F := F) = y
  exact broadcastInDim_apply _ bcast_S_S8x512x512 y i (idx_main_call0_v0 i) (fun a => a.elim0)

theorem val_main_v15_apply (i : S8x512x512.Idx) :
    val_main_v15 (F := F) x3 x5 i = FloatOps.maximumf (val_main_v14 (F := F) x3 x5 i) (val_main_call0_v0 (F := F) i) := rfl

abbrev idx_main_v16 (i : S8x512x512.Idx) : S1x512x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v16_apply (i : S8x512x512.Idx) :
    val_main_v16 (F := F) x3 i = val_main_v4 (F := F) x3 (idx_main_v16 i) := by
  unfold val_main_v16
  generalize val_main_v4 (F := F) x3 = y
  exact broadcastInDim_apply _ bcast_S1x512x512_S8x512x512_0_1_2 y i (idx_main_v16 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

theorem val_main_v17_apply (i : S8x512x512.Idx) :
    val_main_v17 (F := F) x3 x5 i = FloatOps.mulf (val_main_v16 (F := F) x3 i) (val_main_v15 (F := F) x3 x5 i) := rfl

theorem lhs_main_v18_0 (i : S16384x8x512.Idx) (q : dot_S16384x512_S8x512x512_S16384x8x512_1_2_0_01_n_n.contr.Idx) :
    (dot_S16384x512_S8x512x512_S16384x8x512_1_2_0_01_n_n.lhsIdx i q 0).val = (i 0).val := by
  unfold DotDims.lhsIdx
  rw [dif_neg (show ¬(0 : Fin S16384x512.rank) ∈ dot_S16384x512_S8x512x512_S16384x8x512_1_2_0_01_n_n.lhsBatch by decide), dif_pos (show (0 : Fin S16384x512.rank) ∈ dot_S16384x512_S8x512x512_S16384x8x512_1_2_0_01_n_n.lhsNonContracting by decide)]
  rfl

theorem lhs_main_v18_1 (i : S16384x8x512.Idx) (q : dot_S16384x512_S8x512x512_S16384x8x512_1_2_0_01_n_n.contr.Idx) :
    (dot_S16384x512_S8x512x512_S16384x8x512_1_2_0_01_n_n.lhsIdx i q 1).val = (q ⟨0, by decide⟩).val :=
  dot_S16384x512_S8x512x512_S16384x8x512_1_2_0_01_n_n.lhsIdx_val_of_single rfl i q

theorem rhs_main_v18_0 (i : S16384x8x512.Idx) (q : dot_S16384x512_S8x512x512_S16384x8x512_1_2_0_01_n_n.contr.Idx) :
    (dot_S16384x512_S8x512x512_S16384x8x512_1_2_0_01_n_n.rhsIdx i q 0).val = (i 1).val := by
  unfold DotDims.rhsIdx
  rw [dif_neg (show ¬(0 : Fin S8x512x512.rank) ∈ dot_S16384x512_S8x512x512_S16384x8x512_1_2_0_01_n_n.rhsBatch by decide), dif_pos (show (0 : Fin S8x512x512.rank) ∈ dot_S16384x512_S8x512x512_S16384x8x512_1_2_0_01_n_n.rhsNonContracting by decide)]
  rfl

theorem rhs_main_v18_1 (i : S16384x8x512.Idx) (q : dot_S16384x512_S8x512x512_S16384x8x512_1_2_0_01_n_n.contr.Idx) :
    (dot_S16384x512_S8x512x512_S16384x8x512_1_2_0_01_n_n.rhsIdx i q 1).val = (i 2).val := by
  unfold DotDims.rhsIdx
  rw [dif_neg (show ¬(1 : Fin S8x512x512.rank) ∈ dot_S16384x512_S8x512x512_S16384x8x512_1_2_0_01_n_n.rhsBatch by decide), dif_pos (show (1 : Fin S8x512x512.rank) ∈ dot_S16384x512_S8x512x512_S16384x8x512_1_2_0_01_n_n.rhsNonContracting by decide)]
  rfl

theorem rhs_main_v18_2 (i : S16384x8x512.Idx) (q : dot_S16384x512_S8x512x512_S16384x8x512_1_2_0_01_n_n.contr.Idx) :
    (dot_S16384x512_S8x512x512_S16384x8x512_1_2_0_01_n_n.rhsIdx i q 2).val = (q ⟨0, by decide⟩).val :=
  dot_S16384x512_S8x512x512_S16384x8x512_1_2_0_01_n_n.rhsIdx_val_of_single rfl i q

abbrev lidx_main_v18 (i : S16384x8x512.Idx) (k : Fin 512) : S16384x512.Idx := fun a => match a with
  | ⟨0, _⟩ => ⟨(i 0).val, (i 0).isLt⟩
  | ⟨1, _⟩ => ⟨k.val, k.isLt⟩

abbrev ridx_main_v18 (i : S16384x8x512.Idx) (k : Fin 512) : S8x512x512.Idx := fun a => match a with
  | ⟨0, _⟩ => ⟨(i 1).val, (i 1).isLt⟩
  | ⟨1, _⟩ => ⟨(i 2).val, (i 2).isLt⟩
  | ⟨2, _⟩ => ⟨k.val, k.isLt⟩

theorem val_main_v18_apply (x0 : (⟨S2048x8x512, .f32⟩ : BufTy).Contents (Elt Ideal)) (x3 : (⟨S512x512, .f32⟩ : BufTy).Contents (Elt Ideal)) (x5 : (⟨S8x512x512, .f32⟩ : BufTy).Contents (Elt Ideal)) (i : S16384x8x512.Idx) :
    val_main_v18 (F := Ideal) x0 x3 x5 i = ∑ k : Fin 512, (val_main_v0 (F := Ideal) x0) (lidx_main_v18 i k) * (val_main_v17 (F := Ideal) x3 x5) (ridx_main_v18 i k) := by
  unfold val_main_v18
  generalize val_main_v0 (F := Ideal) x0 = y0
  generalize val_main_v17 (F := Ideal) x3 x5 = y1
  simp only [Host.dotGeneral]
  rw [Ideal.dotGeneral_apply, ← Equiv.sum_comp (ValueIdx.contrEquiv1 dot_S16384x512_S8x512x512_S16384x8x512_1_2_0_01_n_n 512 rfl rfl).symm]
  refine Finset.sum_congr rfl fun k _ => ?_
  have hk := ValueIdx.contrEquiv1_symm_val dot_S16384x512_S8x512x512_S16384x8x512_1_2_0_01_n_n 512 rfl rfl k
  have el : dot_S16384x512_S8x512x512_S16384x8x512_1_2_0_01_n_n.lhsIdx i ((ValueIdx.contrEquiv1 dot_S16384x512_S8x512x512_S16384x8x512_1_2_0_01_n_n 512 rfl rfl).symm k) = lidx_main_v18 i k := funext fun a => Fin.ext (by
    match a with
    | ⟨0, _⟩ => exact lhs_main_v18_0 _ _
    | ⟨1, _⟩ => exact (lhs_main_v18_1 _ _).trans hk)
  have er : dot_S16384x512_S8x512x512_S16384x8x512_1_2_0_01_n_n.rhsIdx i ((ValueIdx.contrEquiv1 dot_S16384x512_S8x512x512_S16384x8x512_1_2_0_01_n_n 512 rfl rfl).symm k) = ridx_main_v18 i k := funext fun a => Fin.ext (by
    match a with
    | ⟨0, _⟩ => exact rhs_main_v18_0 _ _
    | ⟨1, _⟩ => exact rhs_main_v18_1 _ _
    | ⟨2, _⟩ => exact (rhs_main_v18_2 _ _).trans hk)
  rw [el, er]

abbrev idx_main_v19 (i : S16384x1x1.Idx) : S16384.Idx := fun a => match a with
  | ⟨0, _⟩ => ⟨(i 0).val, (i 0).isLt⟩

theorem val_main_v19_apply (i : S16384x1x1.Idx) :
    val_main_v19 (F := F) x2 i = val_main_v1 (F := F) x2 (idx_main_v19 i) := by
  unfold val_main_v19
  generalize val_main_v1 (F := F) x2 = y
  exact broadcastInDim_apply _ bcast_S16384_S16384x1x1_0 y i (idx_main_v19 i) (fun a => match a with
    | ⟨0, _⟩ => by show (i 0).val = if (16384 : Nat) = 1 then 0 else (i 0).val; rw [if_neg (by decide)])

theorem val_main_call1_c_apply (i : S_.Idx) :
    val_main_call1_c (F := F) i = 0#32 := rfl

abbrev idx_main_call1_v0 (i : S16384x1x1.Idx) : S_.Idx := fun a => a.elim0

theorem val_main_call1_v0_apply (i : S16384x1x1.Idx) :
    val_main_call1_v0 (F := F) i = val_main_call1_c (F := F) (idx_main_call1_v0 i) := by
  unfold val_main_call1_v0
  generalize val_main_call1_c (F := F) = y
  exact broadcastInDim_apply _ bcast_S_S16384x1x1 y i (idx_main_call1_v0 i) (fun a => a.elim0)

theorem val_main_call1_v1_apply (i : S16384x1x1.Idx) :
    val_main_call1_v1 (F := F) x2 i = IntOp.cmpi .slt (val_main_v19 (F := F) x2 i) (val_main_call1_v0 (F := F) i) := rfl

theorem val_main_call1_c_0_apply (i : S_.Idx) :
    val_main_call1_c_0 (F := F) i = 8#32 := rfl

abbrev idx_main_call1_v2 (i : S16384x1x1.Idx) : S_.Idx := fun a => a.elim0

theorem val_main_call1_v2_apply (i : S16384x1x1.Idx) :
    val_main_call1_v2 (F := F) i = val_main_call1_c_0 (F := F) (idx_main_call1_v2 i) := by
  unfold val_main_call1_v2
  generalize val_main_call1_c_0 (F := F) = y
  exact broadcastInDim_apply _ bcast_S_S16384x1x1 y i (idx_main_call1_v2 i) (fun a => a.elim0)

theorem val_main_call1_v3_apply (i : S16384x1x1.Idx) :
    val_main_call1_v3 (F := F) x2 i = IntOp.addi (val_main_v19 (F := F) x2 i) (val_main_call1_v2 (F := F) i) := rfl

theorem val_main_call1_v4_apply (i : S16384x1x1.Idx) :
    val_main_call1_v4 (F := F) x2 i = Scalar.select (val_main_call1_v1 (F := F) x2 i) (val_main_call1_v3 (F := F) x2 i) (val_main_v19 (F := F) x2 i) := rfl

theorem val_main_call1_c_1_apply (i : S1.Idx) :
    val_main_call1_c_1 (F := F) i = 7#32 := rfl

theorem val_main_call1_c_2_apply (i : S_.Idx) :
    val_main_call1_c_2 (F := F) i = 0#32 := rfl

abbrev idx_main_call1_v5 (i : S16384x1x1.Idx) : S_.Idx := fun a => a.elim0

theorem val_main_call1_v5_apply (i : S16384x1x1.Idx) :
    val_main_call1_v5 (F := F) i = val_main_call1_c_2 (F := F) (idx_main_call1_v5 i) := by
  unfold val_main_call1_v5
  generalize val_main_call1_c_2 (F := F) = y
  exact broadcastInDim_apply _ bcast_S_S16384x1x1 y i (idx_main_call1_v5 i) (fun a => a.elim0)

theorem val_main_call1_v6_apply (i : S16384x1x1.Idx) :
    val_main_call1_v6 (F := F) x2 i = IntOp.cmpi .sge (val_main_call1_v4 (F := F) x2 i) (val_main_call1_v5 (F := F) i) := rfl

abbrev idx_main_call1_v7 (i : S1x1x1.Idx) : S1.Idx := fun a => match a with
  | ⟨0, _⟩ => ⟨0, Nat.one_pos⟩

theorem val_main_call1_v7_apply (i : S1x1x1.Idx) :
    val_main_call1_v7 (F := F) i = val_main_call1_c_1 (F := F) (idx_main_call1_v7 i) := by
  unfold val_main_call1_v7
  generalize val_main_call1_c_1 (F := F) = y
  exact broadcastInDim_apply _ bcast_S1_S1x1x1_2 y i (idx_main_call1_v7 i) (fun a => match a with
    | ⟨0, _⟩ => by show 0 = if (1 : Nat) = 1 then 0 else (i 2).val; rw [if_pos rfl])

abbrev idx_main_call1_v8 (i : S16384x1x1.Idx) : S1x1x1.Idx := fun a => match a with
  | ⟨0, _⟩ => ⟨0, Nat.one_pos⟩
  | ⟨1, _⟩ => ⟨0, Nat.one_pos⟩
  | ⟨2, _⟩ => ⟨0, Nat.one_pos⟩

theorem val_main_call1_v8_apply (i : S16384x1x1.Idx) :
    val_main_call1_v8 (F := F) i = val_main_call1_v7 (F := F) (idx_main_call1_v8 i) := by
  unfold val_main_call1_v8
  generalize val_main_call1_v7 (F := F) = y
  exact broadcastInDim_apply _ bcast_S1x1x1_S16384x1x1_0_1_2 y i (idx_main_call1_v8 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

theorem val_main_call1_v9_apply (i : S16384x1x1.Idx) :
    val_main_call1_v9 (F := F) x2 i = IntOp.cmpi .sle (val_main_call1_v4 (F := F) x2 i) (val_main_call1_v8 (F := F) i) := rfl

theorem val_main_call1_v10_apply (i : S16384x1x1.Idx) :
    val_main_call1_v10 (F := F) x2 i = IntOp.andi (val_main_call1_v6 (F := F) x2 i) (val_main_call1_v9 (F := F) x2 i) := rfl

abbrev idx_main_call1_v13 (i : S16384x1x512.Idx) : S16384x1.Idx := fun a => match a with
  | ⟨0, _⟩ => ⟨(i 0).val, (i 0).isLt⟩
  | ⟨1, _⟩ => ⟨0, Nat.one_pos⟩

theorem val_main_call1_v13_apply (i : S16384x1x512.Idx) :
    val_main_call1_v13 (F := F) x2 i = val_main_call1_v11 (F := F) x2 (idx_main_call1_v13 i) := by
  unfold val_main_call1_v13
  generalize val_main_call1_v11 (F := F) x2 = y
  exact broadcastInDim_apply _ bcast_S16384x1_S16384x1x512_0_1 y i (idx_main_call1_v13 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

theorem val_main_v20_apply (i : S16384x1x512.Idx) :
    val_main_v20 (F := F) x0 x2 x3 x5 i = Scalar.select (val_main_call1_v13 (F := F) x2 i) (val_main_call1_v12 (F := F) x0 x2 x3 x5 i) (val_main_call1_v14 (F := F) i) := rfl

abbrev idx_main_v21 (i : S16384x512.Idx) : S16384x1x512.Idx := fun a => match a with
  | ⟨0, _⟩ => ⟨((i 0).val * 512 + (i 1).val) / 512, by have h0 : (i 0).val < 16384 := (i 0).isLt; have h1 : (i 1).val < 512 := (i 1).isLt; show ((i 0).val * 512 + (i 1).val) / 512 < 16384; omega⟩
  | ⟨1, _⟩ => ⟨0, Nat.one_pos⟩
  | ⟨2, _⟩ => ⟨((i 0).val * 512 + (i 1).val) % 512, by have h0 : (i 0).val < 16384 := (i 0).isLt; have h1 : (i 1).val < 512 := (i 1).isLt; show ((i 0).val * 512 + (i 1).val) % 512 < 512; omega⟩

theorem val_main_v21_apply (i : S16384x512.Idx) :
    val_main_v21 (F := F) x0 x2 x3 x5 i = val_main_v20 (F := F) x0 x2 x3 x5 (idx_main_v21 i) := by
  unfold val_main_v21
  generalize val_main_v20 (F := F) x0 x2 x3 x5 = y
  exact shapeCast_apply y shapeCasts_S16384x1x512_S16384x512 i (idx_main_v21 i)
    (by rewrite [Shape.rowMajor_val_three, Shape.rowMajor_val_two]; have h0 : (i 0).val < 16384 := (i 0).isLt; have h1 : (i 1).val < 512 := (i 1).isLt; show (((i 0).val * 512 + (i 1).val) / 512 * 1 + 0) * 512 + ((i 0).val * 512 + (i 1).val) % 512 = (i 0).val * 512 + (i 1).val; omega)

abbrev idx_main_v22 (i : S1x512.Idx) : S512.Idx := fun a => match a with
  | ⟨0, _⟩ => ⟨(i 1).val, (i 1).isLt⟩

theorem val_main_v22_apply (i : S1x512.Idx) :
    val_main_v22 (F := F) x4 i = x4 (idx_main_v22 i) := by
  unfold val_main_v22
  exact broadcastInDim_apply _ bcast_S512_S1x512_1 x4 i (idx_main_v22 i) (fun a => match a with
    | ⟨0, _⟩ => by show (i 1).val = if (512 : Nat) = 1 then 0 else (i 1).val; rw [if_neg (by decide)])

abbrev idx_main_v23 (i : S16384x512.Idx) : S1x512.Idx := fun a => match a with
  | ⟨0, _⟩ => ⟨0, Nat.one_pos⟩
  | ⟨1, _⟩ => ⟨(i 1).val, (i 1).isLt⟩

theorem val_main_v23_apply (i : S16384x512.Idx) :
    val_main_v23 (F := F) x4 i = val_main_v22 (F := F) x4 (idx_main_v23 i) := by
  unfold val_main_v23
  generalize val_main_v22 (F := F) x4 = y
  exact broadcastInDim_apply _ bcast_S1x512_S16384x512_0_1 y i (idx_main_v23 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

theorem val_main_v24_apply (i : S16384x512.Idx) :
    val_main_v24 (F := F) x0 x2 x3 x4 x5 i = FloatOps.addf (val_main_v21 (F := F) x0 x2 x3 x5 i) (val_main_v23 (F := F) x4 i) := rfl

theorem val_main_call2_cst_apply (i : S_.Idx) :
    val_main_call2_cst (F := F) i = FloatOps.ofBits .f32 0x00000000#32 := rfl

abbrev idx_main_call2_v0 (i : S16384x512.Idx) : S_.Idx := fun a => a.elim0

theorem val_main_call2_v0_apply (i : S16384x512.Idx) :
    val_main_call2_v0 (F := F) i = val_main_call2_cst (F := F) (idx_main_call2_v0 i) := by
  unfold val_main_call2_v0
  generalize val_main_call2_cst (F := F) = y
  exact broadcastInDim_apply _ bcast_S_S16384x512 y i (idx_main_call2_v0 i) (fun a => a.elim0)

theorem val_main_v25_apply (i : S16384x512.Idx) :
    val_main_v25 (F := F) x0 x2 x3 x4 x5 i = FloatOps.maximumf (val_main_v24 (F := F) x0 x2 x3 x4 x5 i) (val_main_call2_v0 (F := F) i) := rfl

abbrev idx_main_v26 (i : S512x1536.Idx) : S1536x512.Idx := fun a => match a with
  | ⟨0, _⟩ => ⟨(i 1).val, (i 1).isLt⟩
  | ⟨1, _⟩ => ⟨(i 0).val, (i 0).isLt⟩

theorem val_main_v26_apply (i : S512x1536.Idx) :
    val_main_v26 (F := F) x6 i = x6 (idx_main_v26 i) := by
  unfold val_main_v26
  exact transpose_apply [1, 0] x6 transposes_S1536x512_S512x1536_1_0 i (idx_main_v26 i) (fun b => match b with
    | ⟨0, _⟩ => rfl
    | ⟨1, _⟩ => rfl)

theorem lhs_main_v27_0 (i : S16384x1536.Idx) (q : dot_S16384x512_S512x1536_S16384x1536_1_0_0_1_n_n.contr.Idx) :
    (dot_S16384x512_S512x1536_S16384x1536_1_0_0_1_n_n.lhsIdx i q 0).val = (i 0).val := by
  unfold DotDims.lhsIdx
  rw [dif_neg (show ¬(0 : Fin S16384x512.rank) ∈ dot_S16384x512_S512x1536_S16384x1536_1_0_0_1_n_n.lhsBatch by decide), dif_pos (show (0 : Fin S16384x512.rank) ∈ dot_S16384x512_S512x1536_S16384x1536_1_0_0_1_n_n.lhsNonContracting by decide)]
  rfl

theorem lhs_main_v27_1 (i : S16384x1536.Idx) (q : dot_S16384x512_S512x1536_S16384x1536_1_0_0_1_n_n.contr.Idx) :
    (dot_S16384x512_S512x1536_S16384x1536_1_0_0_1_n_n.lhsIdx i q 1).val = (q ⟨0, by decide⟩).val :=
  dot_S16384x512_S512x1536_S16384x1536_1_0_0_1_n_n.lhsIdx_val_of_single rfl i q

theorem rhs_main_v27_0 (i : S16384x1536.Idx) (q : dot_S16384x512_S512x1536_S16384x1536_1_0_0_1_n_n.contr.Idx) :
    (dot_S16384x512_S512x1536_S16384x1536_1_0_0_1_n_n.rhsIdx i q 0).val = (q ⟨0, by decide⟩).val :=
  dot_S16384x512_S512x1536_S16384x1536_1_0_0_1_n_n.rhsIdx_val_of_single rfl i q

theorem rhs_main_v27_1 (i : S16384x1536.Idx) (q : dot_S16384x512_S512x1536_S16384x1536_1_0_0_1_n_n.contr.Idx) :
    (dot_S16384x512_S512x1536_S16384x1536_1_0_0_1_n_n.rhsIdx i q 1).val = (i 1).val := by
  unfold DotDims.rhsIdx
  rw [dif_neg (show ¬(1 : Fin S512x1536.rank) ∈ dot_S16384x512_S512x1536_S16384x1536_1_0_0_1_n_n.rhsBatch by decide), dif_pos (show (1 : Fin S512x1536.rank) ∈ dot_S16384x512_S512x1536_S16384x1536_1_0_0_1_n_n.rhsNonContracting by decide)]
  rfl

abbrev lidx_main_v27 (i : S16384x1536.Idx) (k : Fin 512) : S16384x512.Idx := fun a => match a with
  | ⟨0, _⟩ => ⟨(i 0).val, (i 0).isLt⟩
  | ⟨1, _⟩ => ⟨k.val, k.isLt⟩

abbrev ridx_main_v27 (i : S16384x1536.Idx) (k : Fin 512) : S512x1536.Idx := fun a => match a with
  | ⟨0, _⟩ => ⟨k.val, k.isLt⟩
  | ⟨1, _⟩ => ⟨(i 1).val, (i 1).isLt⟩

theorem val_main_v27_apply (x0 : (⟨S2048x8x512, .f32⟩ : BufTy).Contents (Elt Ideal)) (x2 : (⟨S2048x8, .i32⟩ : BufTy).Contents (Elt Ideal)) (x3 : (⟨S512x512, .f32⟩ : BufTy).Contents (Elt Ideal)) (x4 : (⟨S512, .f32⟩ : BufTy).Contents (Elt Ideal)) (x5 : (⟨S8x512x512, .f32⟩ : BufTy).Contents (Elt Ideal)) (x6 : (⟨S1536x512, .f32⟩ : BufTy).Contents (Elt Ideal)) (i : S16384x1536.Idx) :
    val_main_v27 (F := Ideal) x0 x2 x3 x4 x5 x6 i = ∑ k : Fin 512, (val_main_v25 (F := Ideal) x0 x2 x3 x4 x5) (lidx_main_v27 i k) * (val_main_v26 (F := Ideal) x6) (ridx_main_v27 i k) := by
  unfold val_main_v27
  generalize val_main_v25 (F := Ideal) x0 x2 x3 x4 x5 = y0
  generalize val_main_v26 (F := Ideal) x6 = y1
  simp only [Host.dotGeneral]
  rw [Ideal.dotGeneral_apply, ← Equiv.sum_comp (ValueIdx.contrEquiv1 dot_S16384x512_S512x1536_S16384x1536_1_0_0_1_n_n 512 rfl rfl).symm]
  refine Finset.sum_congr rfl fun k _ => ?_
  have hk := ValueIdx.contrEquiv1_symm_val dot_S16384x512_S512x1536_S16384x1536_1_0_0_1_n_n 512 rfl rfl k
  have el : dot_S16384x512_S512x1536_S16384x1536_1_0_0_1_n_n.lhsIdx i ((ValueIdx.contrEquiv1 dot_S16384x512_S512x1536_S16384x1536_1_0_0_1_n_n 512 rfl rfl).symm k) = lidx_main_v27 i k := funext fun a => Fin.ext (by
    match a with
    | ⟨0, _⟩ => exact lhs_main_v27_0 _ _
    | ⟨1, _⟩ => exact (lhs_main_v27_1 _ _).trans hk)
  have er : dot_S16384x512_S512x1536_S16384x1536_1_0_0_1_n_n.rhsIdx i ((ValueIdx.contrEquiv1 dot_S16384x512_S512x1536_S16384x1536_1_0_0_1_n_n 512 rfl rfl).symm k) = ridx_main_v27 i k := funext fun a => Fin.ext (by
    match a with
    | ⟨0, _⟩ => exact (rhs_main_v27_0 _ _).trans hk
    | ⟨1, _⟩ => exact rhs_main_v27_1 _ _)
  rw [el, er]

abbrev idx_main_v28 (i : S1x1536.Idx) : S1536.Idx := fun a => match a with
  | ⟨0, _⟩ => ⟨(i 1).val, (i 1).isLt⟩

theorem val_main_v28_apply (i : S1x1536.Idx) :
    val_main_v28 (F := F) x8 i = x8 (idx_main_v28 i) := by
  unfold val_main_v28
  exact broadcastInDim_apply _ bcast_S1536_S1x1536_1 x8 i (idx_main_v28 i) (fun a => match a with
    | ⟨0, _⟩ => by show (i 1).val = if (1536 : Nat) = 1 then 0 else (i 1).val; rw [if_neg (by decide)])

abbrev idx_main_v29 (i : S16384x1536.Idx) : S1x1536.Idx := fun a => match a with
  | ⟨0, _⟩ => ⟨0, Nat.one_pos⟩
  | ⟨1, _⟩ => ⟨(i 1).val, (i 1).isLt⟩

theorem val_main_v29_apply (i : S16384x1536.Idx) :
    val_main_v29 (F := F) x8 i = val_main_v28 (F := F) x8 (idx_main_v29 i) := by
  unfold val_main_v29
  generalize val_main_v28 (F := F) x8 = y
  exact broadcastInDim_apply _ bcast_S1x1536_S16384x1536_0_1 y i (idx_main_v29 i) (fun a => match a with
    | ⟨0, _⟩ => by show 0 = if (1 : Nat) = 1 then 0 else (i 0).val; rw [if_pos rfl]
    | ⟨1, _⟩ => by show (i 1).val = if (1536 : Nat) = 1 then 0 else (i 1).val; rw [if_neg (by decide)])

theorem val_main_v30_apply (i : S16384x1536.Idx) :
    val_main_v30 (F := F) x0 x2 x3 x4 x5 x6 x8 i = FloatOps.addf (val_main_v27 (F := F) x0 x2 x3 x4 x5 x6 i) (val_main_v29 (F := F) x8 i) := rfl

abbrev idx_main_v31 (i : S512x1536.Idx) : S1536x512.Idx := fun a => match a with
  | ⟨0, _⟩ => ⟨(i 1).val, (i 1).isLt⟩
  | ⟨1, _⟩ => ⟨(i 0).val, (i 0).isLt⟩

theorem val_main_v31_apply (i : S512x1536.Idx) :
    val_main_v31 (F := F) x7 i = x7 (idx_main_v31 i) := by
  unfold val_main_v31
  exact transpose_apply [1, 0] x7 transposes_S1536x512_S512x1536_1_0 i (idx_main_v31 i) (fun b => match b with
    | ⟨0, _⟩ => rfl
    | ⟨1, _⟩ => rfl)

theorem lhs_main_v32_0 (i : S16384x1536.Idx) (q : dot_S16384x512_S512x1536_S16384x1536_1_0_0_1_n_n.contr.Idx) :
    (dot_S16384x512_S512x1536_S16384x1536_1_0_0_1_n_n.lhsIdx i q 0).val = (i 0).val := by
  unfold DotDims.lhsIdx
  rw [dif_neg (show ¬(0 : Fin S16384x512.rank) ∈ dot_S16384x512_S512x1536_S16384x1536_1_0_0_1_n_n.lhsBatch by decide), dif_pos (show (0 : Fin S16384x512.rank) ∈ dot_S16384x512_S512x1536_S16384x1536_1_0_0_1_n_n.lhsNonContracting by decide)]
  rfl

theorem lhs_main_v32_1 (i : S16384x1536.Idx) (q : dot_S16384x512_S512x1536_S16384x1536_1_0_0_1_n_n.contr.Idx) :
    (dot_S16384x512_S512x1536_S16384x1536_1_0_0_1_n_n.lhsIdx i q 1).val = (q ⟨0, by decide⟩).val :=
  dot_S16384x512_S512x1536_S16384x1536_1_0_0_1_n_n.lhsIdx_val_of_single rfl i q

theorem rhs_main_v32_0 (i : S16384x1536.Idx) (q : dot_S16384x512_S512x1536_S16384x1536_1_0_0_1_n_n.contr.Idx) :
    (dot_S16384x512_S512x1536_S16384x1536_1_0_0_1_n_n.rhsIdx i q 0).val = (q ⟨0, by decide⟩).val :=
  dot_S16384x512_S512x1536_S16384x1536_1_0_0_1_n_n.rhsIdx_val_of_single rfl i q

theorem rhs_main_v32_1 (i : S16384x1536.Idx) (q : dot_S16384x512_S512x1536_S16384x1536_1_0_0_1_n_n.contr.Idx) :
    (dot_S16384x512_S512x1536_S16384x1536_1_0_0_1_n_n.rhsIdx i q 1).val = (i 1).val := by
  unfold DotDims.rhsIdx
  rw [dif_neg (show ¬(1 : Fin S512x1536.rank) ∈ dot_S16384x512_S512x1536_S16384x1536_1_0_0_1_n_n.rhsBatch by decide), dif_pos (show (1 : Fin S512x1536.rank) ∈ dot_S16384x512_S512x1536_S16384x1536_1_0_0_1_n_n.rhsNonContracting by decide)]
  rfl

abbrev lidx_main_v32 (i : S16384x1536.Idx) (k : Fin 512) : S16384x512.Idx := fun a => match a with
  | ⟨0, _⟩ => ⟨(i 0).val, (i 0).isLt⟩
  | ⟨1, _⟩ => ⟨k.val, k.isLt⟩

abbrev ridx_main_v32 (i : S16384x1536.Idx) (k : Fin 512) : S512x1536.Idx := fun a => match a with
  | ⟨0, _⟩ => ⟨k.val, k.isLt⟩
  | ⟨1, _⟩ => ⟨(i 1).val, (i 1).isLt⟩

theorem val_main_v32_apply (x1 : (⟨S2048x8x512, .f32⟩ : BufTy).Contents (Elt Ideal)) (x7 : (⟨S1536x512, .f32⟩ : BufTy).Contents (Elt Ideal)) (i : S16384x1536.Idx) :
    val_main_v32 (F := Ideal) x1 x7 i = ∑ k : Fin 512, (val_main_v2 (F := Ideal) x1) (lidx_main_v32 i k) * (val_main_v31 (F := Ideal) x7) (ridx_main_v32 i k) := by
  unfold val_main_v32
  generalize val_main_v2 (F := Ideal) x1 = y0
  generalize val_main_v31 (F := Ideal) x7 = y1
  simp only [Host.dotGeneral]
  rw [Ideal.dotGeneral_apply, ← Equiv.sum_comp (ValueIdx.contrEquiv1 dot_S16384x512_S512x1536_S16384x1536_1_0_0_1_n_n 512 rfl rfl).symm]
  refine Finset.sum_congr rfl fun k _ => ?_
  have hk := ValueIdx.contrEquiv1_symm_val dot_S16384x512_S512x1536_S16384x1536_1_0_0_1_n_n 512 rfl rfl k
  have el : dot_S16384x512_S512x1536_S16384x1536_1_0_0_1_n_n.lhsIdx i ((ValueIdx.contrEquiv1 dot_S16384x512_S512x1536_S16384x1536_1_0_0_1_n_n 512 rfl rfl).symm k) = lidx_main_v32 i k := funext fun a => Fin.ext (by
    match a with
    | ⟨0, _⟩ => exact lhs_main_v32_0 _ _
    | ⟨1, _⟩ => exact (lhs_main_v32_1 _ _).trans hk)
  have er : dot_S16384x512_S512x1536_S16384x1536_1_0_0_1_n_n.rhsIdx i ((ValueIdx.contrEquiv1 dot_S16384x512_S512x1536_S16384x1536_1_0_0_1_n_n 512 rfl rfl).symm k) = ridx_main_v32 i k := funext fun a => Fin.ext (by
    match a with
    | ⟨0, _⟩ => exact (rhs_main_v32_0 _ _).trans hk
    | ⟨1, _⟩ => exact rhs_main_v32_1 _ _)
  rw [el, er]

abbrev idx_main_v33 (i : S1x1536.Idx) : S1536.Idx := fun a => match a with
  | ⟨0, _⟩ => ⟨(i 1).val, (i 1).isLt⟩

theorem val_main_v33_apply (i : S1x1536.Idx) :
    val_main_v33 (F := F) x9 i = x9 (idx_main_v33 i) := by
  unfold val_main_v33
  exact broadcastInDim_apply _ bcast_S1536_S1x1536_1 x9 i (idx_main_v33 i) (fun a => match a with
    | ⟨0, _⟩ => by show (i 1).val = if (1536 : Nat) = 1 then 0 else (i 1).val; rw [if_neg (by decide)])

abbrev idx_main_v34 (i : S16384x1536.Idx) : S1x1536.Idx := fun a => match a with
  | ⟨0, _⟩ => ⟨0, Nat.one_pos⟩
  | ⟨1, _⟩ => ⟨(i 1).val, (i 1).isLt⟩

theorem val_main_v34_apply (i : S16384x1536.Idx) :
    val_main_v34 (F := F) x9 i = val_main_v33 (F := F) x9 (idx_main_v34 i) := by
  unfold val_main_v34
  generalize val_main_v33 (F := F) x9 = y
  exact broadcastInDim_apply _ bcast_S1x1536_S16384x1536_0_1 y i (idx_main_v34 i) (fun a => match a with
    | ⟨0, _⟩ => by show 0 = if (1 : Nat) = 1 then 0 else (i 0).val; rw [if_pos rfl]
    | ⟨1, _⟩ => by show (i 1).val = if (1536 : Nat) = 1 then 0 else (i 1).val; rw [if_neg (by decide)])

theorem val_main_v35_apply (i : S16384x1536.Idx) :
    val_main_v35 (F := F) x1 x7 x9 i = FloatOps.addf (val_main_v32 (F := F) x1 x7 i) (val_main_v34 (F := F) x9 i) := rfl

abbrev idx_main_v36 (i : S16384x512.Idx) : S16384x1536.Idx := fun a => match a with
  | ⟨0, _⟩ => ⟨(i 0).val, (i 0).isLt⟩
  | ⟨1, _⟩ => ⟨(i 1).val, by have h1 : (i 1).val < 512 := (i 1).isLt; show (i 1).val < 1536; omega⟩

theorem val_main_v36_apply (i : S16384x512.Idx) :
    val_main_v36 (F := F) x0 x2 x3 x4 x5 x6 x8 i = val_main_v30 (F := F) x0 x2 x3 x4 x5 x6 x8 (idx_main_v36 i) := by
  unfold val_main_v36
  generalize val_main_v30 (F := F) x0 x2 x3 x4 x5 x6 x8 = y
  exact extractStridedSlice_apply ![0, 0] y slices_S16384x1536_S16384x512_0_0 i (idx_main_v36 i) (fun a => match a with
    | ⟨0, _⟩ => by show (i 0).val = 0 + (i 0).val; omega
    | ⟨1, _⟩ => by show (i 1).val = 0 + (i 1).val; omega)

abbrev idx_main_v37 (i : S16384x512.Idx) : S16384x1536.Idx := fun a => match a with
  | ⟨0, _⟩ => ⟨(i 0).val, (i 0).isLt⟩
  | ⟨1, _⟩ => ⟨512 + (i 1).val, by have h1 : (i 1).val < 512 := (i 1).isLt; show 512 + (i 1).val < 1536; omega⟩

theorem val_main_v37_apply (i : S16384x512.Idx) :
    val_main_v37 (F := F) x0 x2 x3 x4 x5 x6 x8 i = val_main_v30 (F := F) x0 x2 x3 x4 x5 x6 x8 (idx_main_v37 i) := by
  unfold val_main_v37
  generalize val_main_v30 (F := F) x0 x2 x3 x4 x5 x6 x8 = y
  exact extractStridedSlice_apply ![0, 512] y slices_S16384x1536_S16384x512_0_512 i (idx_main_v37 i) (fun a => match a with
    | ⟨0, _⟩ => by show (i 0).val = 0 + (i 0).val; omega
    | ⟨1, _⟩ => by show 512 + (i 1).val = 512 + (i 1).val; omega)

abbrev idx_main_v38 (i : S16384x512.Idx) : S16384x1536.Idx := fun a => match a with
  | ⟨0, _⟩ => ⟨(i 0).val, (i 0).isLt⟩
  | ⟨1, _⟩ => ⟨1024 + (i 1).val, by have h1 : (i 1).val < 512 := (i 1).isLt; show 1024 + (i 1).val < 1536; omega⟩

theorem val_main_v38_apply (i : S16384x512.Idx) :
    val_main_v38 (F := F) x0 x2 x3 x4 x5 x6 x8 i = val_main_v30 (F := F) x0 x2 x3 x4 x5 x6 x8 (idx_main_v38 i) := by
  unfold val_main_v38
  generalize val_main_v30 (F := F) x0 x2 x3 x4 x5 x6 x8 = y
  exact extractStridedSlice_apply ![0, 1024] y slices_S16384x1536_S16384x512_0_1024 i (idx_main_v38 i) (fun a => match a with
    | ⟨0, _⟩ => by show (i 0).val = 0 + (i 0).val; omega
    | ⟨1, _⟩ => by show 1024 + (i 1).val = 1024 + (i 1).val; omega)

abbrev idx_main_v39 (i : S16384x512.Idx) : S16384x1536.Idx := fun a => match a with
  | ⟨0, _⟩ => ⟨(i 0).val, (i 0).isLt⟩
  | ⟨1, _⟩ => ⟨(i 1).val, by have h1 : (i 1).val < 512 := (i 1).isLt; show (i 1).val < 1536; omega⟩

theorem val_main_v39_apply (i : S16384x512.Idx) :
    val_main_v39 (F := F) x1 x7 x9 i = val_main_v35 (F := F) x1 x7 x9 (idx_main_v39 i) := by
  unfold val_main_v39
  generalize val_main_v35 (F := F) x1 x7 x9 = y
  exact extractStridedSlice_apply ![0, 0] y slices_S16384x1536_S16384x512_0_0 i (idx_main_v39 i) (fun a => match a with
    | ⟨0, _⟩ => by show (i 0).val = 0 + (i 0).val; omega
    | ⟨1, _⟩ => by show (i 1).val = 0 + (i 1).val; omega)

abbrev idx_main_v40 (i : S16384x512.Idx) : S16384x1536.Idx := fun a => match a with
  | ⟨0, _⟩ => ⟨(i 0).val, (i 0).isLt⟩
  | ⟨1, _⟩ => ⟨512 + (i 1).val, by have h1 : (i 1).val < 512 := (i 1).isLt; show 512 + (i 1).val < 1536; omega⟩

theorem val_main_v40_apply (i : S16384x512.Idx) :
    val_main_v40 (F := F) x1 x7 x9 i = val_main_v35 (F := F) x1 x7 x9 (idx_main_v40 i) := by
  unfold val_main_v40
  generalize val_main_v35 (F := F) x1 x7 x9 = y
  exact extractStridedSlice_apply ![0, 512] y slices_S16384x1536_S16384x512_0_512 i (idx_main_v40 i) (fun a => match a with
    | ⟨0, _⟩ => by show (i 0).val = 0 + (i 0).val; omega
    | ⟨1, _⟩ => by show 512 + (i 1).val = 512 + (i 1).val; omega)

abbrev idx_main_v41 (i : S16384x512.Idx) : S16384x1536.Idx := fun a => match a with
  | ⟨0, _⟩ => ⟨(i 0).val, (i 0).isLt⟩
  | ⟨1, _⟩ => ⟨1024 + (i 1).val, by have h1 : (i 1).val < 512 := (i 1).isLt; show 1024 + (i 1).val < 1536; omega⟩

theorem val_main_v41_apply (i : S16384x512.Idx) :
    val_main_v41 (F := F) x1 x7 x9 i = val_main_v35 (F := F) x1 x7 x9 (idx_main_v41 i) := by
  unfold val_main_v41
  generalize val_main_v35 (F := F) x1 x7 x9 = y
  exact extractStridedSlice_apply ![0, 1024] y slices_S16384x1536_S16384x512_0_1024 i (idx_main_v41 i) (fun a => match a with
    | ⟨0, _⟩ => by show (i 0).val = 0 + (i 0).val; omega
    | ⟨1, _⟩ => by show 1024 + (i 1).val = 1024 + (i 1).val; omega)

theorem val_main_v42_apply (i : S16384x512.Idx) :
    val_main_v42 (F := F) x0 x1 x2 x3 x4 x5 x6 x7 x8 x9 i = FloatOps.addf (val_main_v36 (F := F) x0 x2 x3 x4 x5 x6 x8 i) (val_main_v39 (F := F) x1 x7 x9 i) := rfl

theorem val_main_v43_apply (i : S16384x512.Idx) :
    val_main_v43 (F := F) x0 x1 x2 x3 x4 x5 x6 x7 x8 x9 i = FloatOps.hostNegf (val_main_v42 (F := F) x0 x1 x2 x3 x4 x5 x6 x7 x8 x9 i) := rfl

theorem val_main_v44_apply (i : S16384x512.Idx) :
    val_main_v44 (F := F) x0 x1 x2 x3 x4 x5 x6 x7 x8 x9 i = FloatOps.hostUnary .exp (val_main_v43 (F := F) x0 x1 x2 x3 x4 x5 x6 x7 x8 x9 i) := rfl

theorem val_main_cst_1_apply (i : S_.Idx) :
    val_main_cst_1 (F := F) i = FloatOps.ofBits .f32 0x3F800000#32 := rfl

abbrev idx_main_v45 (i : S16384x512.Idx) : S_.Idx := fun a => a.elim0

theorem val_main_v45_apply (i : S16384x512.Idx) :
    val_main_v45 (F := F) i = val_main_cst_1 (F := F) (idx_main_v45 i) := by
  unfold val_main_v45
  generalize val_main_cst_1 (F := F) = y
  exact broadcastInDim_apply _ bcast_S_S16384x512 y i (idx_main_v45 i) (fun a => a.elim0)

theorem val_main_v46_apply (i : S16384x512.Idx) :
    val_main_v46 (F := F) x0 x1 x2 x3 x4 x5 x6 x7 x8 x9 i = FloatOps.addf (val_main_v45 (F := F) i) (val_main_v44 (F := F) x0 x1 x2 x3 x4 x5 x6 x7 x8 x9 i) := rfl

theorem val_main_cst_2_apply (i : S_.Idx) :
    val_main_cst_2 (F := F) i = FloatOps.ofBits .f32 0x3F800000#32 := rfl

abbrev idx_main_v47 (i : S16384x512.Idx) : S_.Idx := fun a => a.elim0

theorem val_main_v47_apply (i : S16384x512.Idx) :
    val_main_v47 (F := F) i = val_main_cst_2 (F := F) (idx_main_v47 i) := by
  unfold val_main_v47
  generalize val_main_cst_2 (F := F) = y
  exact broadcastInDim_apply _ bcast_S_S16384x512 y i (idx_main_v47 i) (fun a => a.elim0)

theorem val_main_v48_apply (i : S16384x512.Idx) :
    val_main_v48 (F := F) x0 x1 x2 x3 x4 x5 x6 x7 x8 x9 i = FloatOps.hostDivf (val_main_v47 (F := F) i) (val_main_v46 (F := F) x0 x1 x2 x3 x4 x5 x6 x7 x8 x9 i) := rfl

theorem val_main_v49_apply (i : S16384x512.Idx) :
    val_main_v49 (F := F) x0 x1 x2 x3 x4 x5 x6 x7 x8 x9 i = FloatOps.addf (val_main_v37 (F := F) x0 x2 x3 x4 x5 x6 x8 i) (val_main_v40 (F := F) x1 x7 x9 i) := rfl

theorem val_main_v50_apply (i : S16384x512.Idx) :
    val_main_v50 (F := F) x0 x1 x2 x3 x4 x5 x6 x7 x8 x9 i = FloatOps.hostNegf (val_main_v49 (F := F) x0 x1 x2 x3 x4 x5 x6 x7 x8 x9 i) := rfl

theorem val_main_v51_apply (i : S16384x512.Idx) :
    val_main_v51 (F := F) x0 x1 x2 x3 x4 x5 x6 x7 x8 x9 i = FloatOps.hostUnary .exp (val_main_v50 (F := F) x0 x1 x2 x3 x4 x5 x6 x7 x8 x9 i) := rfl

theorem val_main_cst_3_apply (i : S_.Idx) :
    val_main_cst_3 (F := F) i = FloatOps.ofBits .f32 0x3F800000#32 := rfl

abbrev idx_main_v52 (i : S16384x512.Idx) : S_.Idx := fun a => a.elim0

theorem val_main_v52_apply (i : S16384x512.Idx) :
    val_main_v52 (F := F) i = val_main_cst_3 (F := F) (idx_main_v52 i) := by
  unfold val_main_v52
  generalize val_main_cst_3 (F := F) = y
  exact broadcastInDim_apply _ bcast_S_S16384x512 y i (idx_main_v52 i) (fun a => a.elim0)

theorem val_main_v53_apply (i : S16384x512.Idx) :
    val_main_v53 (F := F) x0 x1 x2 x3 x4 x5 x6 x7 x8 x9 i = FloatOps.addf (val_main_v52 (F := F) i) (val_main_v51 (F := F) x0 x1 x2 x3 x4 x5 x6 x7 x8 x9 i) := rfl

theorem val_main_cst_4_apply (i : S_.Idx) :
    val_main_cst_4 (F := F) i = FloatOps.ofBits .f32 0x3F800000#32 := rfl

abbrev idx_main_v54 (i : S16384x512.Idx) : S_.Idx := fun a => a.elim0

theorem val_main_v54_apply (i : S16384x512.Idx) :
    val_main_v54 (F := F) i = val_main_cst_4 (F := F) (idx_main_v54 i) := by
  unfold val_main_v54
  generalize val_main_cst_4 (F := F) = y
  exact broadcastInDim_apply _ bcast_S_S16384x512 y i (idx_main_v54 i) (fun a => a.elim0)

theorem val_main_v55_apply (i : S16384x512.Idx) :
    val_main_v55 (F := F) x0 x1 x2 x3 x4 x5 x6 x7 x8 x9 i = FloatOps.hostDivf (val_main_v54 (F := F) i) (val_main_v53 (F := F) x0 x1 x2 x3 x4 x5 x6 x7 x8 x9 i) := rfl

theorem val_main_v56_apply (i : S16384x512.Idx) :
    val_main_v56 (F := F) x0 x1 x2 x3 x4 x5 x6 x7 x8 x9 i = FloatOps.mulf (val_main_v48 (F := F) x0 x1 x2 x3 x4 x5 x6 x7 x8 x9 i) (val_main_v41 (F := F) x1 x7 x9 i) := rfl

theorem val_main_v57_apply (i : S16384x512.Idx) :
    val_main_v57 (F := F) x0 x1 x2 x3 x4 x5 x6 x7 x8 x9 i = FloatOps.addf (val_main_v38 (F := F) x0 x2 x3 x4 x5 x6 x8 i) (val_main_v56 (F := F) x0 x1 x2 x3 x4 x5 x6 x7 x8 x9 i) := rfl

theorem val_main_v58_apply (i : S16384x512.Idx) :
    val_main_v58 (F := F) x0 x1 x2 x3 x4 x5 x6 x7 x8 x9 i = FloatOps.hostUnary .tanh (val_main_v57 (F := F) x0 x1 x2 x3 x4 x5 x6 x7 x8 x9 i) := rfl

theorem val_main_cst_5_apply (i : S_.Idx) :
    val_main_cst_5 (F := F) i = FloatOps.ofBits .f32 0x3F800000#32 := rfl

abbrev idx_main_v59 (i : S16384x512.Idx) : S_.Idx := fun a => a.elim0

theorem val_main_v59_apply (i : S16384x512.Idx) :
    val_main_v59 (F := F) i = val_main_cst_5 (F := F) (idx_main_v59 i) := by
  unfold val_main_v59
  generalize val_main_cst_5 (F := F) = y
  exact broadcastInDim_apply _ bcast_S_S16384x512 y i (idx_main_v59 i) (fun a => a.elim0)

theorem val_main_v60_apply (i : S16384x512.Idx) :
    val_main_v60 (F := F) x0 x1 x2 x3 x4 x5 x6 x7 x8 x9 i = FloatOps.subf (val_main_v59 (F := F) i) (val_main_v55 (F := F) x0 x1 x2 x3 x4 x5 x6 x7 x8 x9 i) := rfl

theorem val_main_v61_apply (i : S16384x512.Idx) :
    val_main_v61 (F := F) x0 x1 x2 x3 x4 x5 x6 x7 x8 x9 i = FloatOps.mulf (val_main_v60 (F := F) x0 x1 x2 x3 x4 x5 x6 x7 x8 x9 i) (val_main_v58 (F := F) x0 x1 x2 x3 x4 x5 x6 x7 x8 x9 i) := rfl

theorem val_main_v62_apply (i : S16384x512.Idx) :
    val_main_v62 (F := F) x0 x1 x2 x3 x4 x5 x6 x7 x8 x9 i = FloatOps.mulf (val_main_v55 (F := F) x0 x1 x2 x3 x4 x5 x6 x7 x8 x9 i) (val_main_v2 (F := F) x1 i) := rfl

theorem val_main_v63_apply (i : S16384x512.Idx) :
    val_main_v63 (F := F) x0 x1 x2 x3 x4 x5 x6 x7 x8 x9 i = FloatOps.addf (val_main_v61 (F := F) x0 x1 x2 x3 x4 x5 x6 x7 x8 x9 i) (val_main_v62 (F := F) x0 x1 x2 x3 x4 x5 x6 x7 x8 x9 i) := rfl

theorem val_main_v64_apply (i : S512x512.Idx) :
    val_main_v64 (F := F) x10 i = FloatOps.hostUnary .sign (x10 i) := rfl

abbrev idx_main_v65 (i : S1x512x512.Idx) : S512x512.Idx := fun a => match a with
  | ⟨0, _⟩ => ⟨(i 1).val, (i 1).isLt⟩
  | ⟨1, _⟩ => ⟨(i 2).val, (i 2).isLt⟩

theorem val_main_v65_apply (i : S1x512x512.Idx) :
    val_main_v65 (F := F) x10 i = val_main_v64 (F := F) x10 (idx_main_v65 i) := by
  unfold val_main_v65
  generalize val_main_v64 (F := F) x10 = y
  exact broadcastInDim_apply _ bcast_S512x512_S1x512x512_1_2 y i (idx_main_v65 i) (fun a => match a with
    | ⟨0, _⟩ => by show (i 1).val = if (512 : Nat) = 1 then 0 else (i 1).val; rw [if_neg (by decide)]
    | ⟨1, _⟩ => by show (i 2).val = if (512 : Nat) = 1 then 0 else (i 2).val; rw [if_neg (by decide)])

theorem val_main_v66_apply (i : S512x512.Idx) :
    val_main_v66 (F := F) x10 i = FloatOps.hostAbsf (x10 i) := rfl

abbrev idx_main_v67 (i : S1x512x512.Idx) : S512x512.Idx := fun a => match a with
  | ⟨0, _⟩ => ⟨(i 1).val, (i 1).isLt⟩
  | ⟨1, _⟩ => ⟨(i 2).val, (i 2).isLt⟩

theorem val_main_v67_apply (i : S1x512x512.Idx) :
    val_main_v67 (F := F) x10 i = val_main_v66 (F := F) x10 (idx_main_v67 i) := by
  unfold val_main_v67
  generalize val_main_v66 (F := F) x10 = y
  exact broadcastInDim_apply _ bcast_S512x512_S1x512x512_1_2 y i (idx_main_v67 i) (fun a => match a with
    | ⟨0, _⟩ => by show (i 1).val = if (512 : Nat) = 1 then 0 else (i 1).val; rw [if_neg (by decide)]
    | ⟨1, _⟩ => by show (i 2).val = if (512 : Nat) = 1 then 0 else (i 2).val; rw [if_neg (by decide)])

theorem val_main_v68_apply (i : S8x512x512.Idx) :
    val_main_v68 (F := F) x12 i = FloatOps.hostNegf (x12 i) := rfl

theorem val_main_v69_apply (i : S8x512x512.Idx) :
    val_main_v69 (F := F) x12 i = FloatOps.hostUnary .exp (val_main_v68 (F := F) x12 i) := rfl

theorem val_main_cst_6_apply (i : S_.Idx) :
    val_main_cst_6 (F := F) i = FloatOps.ofBits .f32 0x3F800000#32 := rfl

abbrev idx_main_v70 (i : S8x512x512.Idx) : S_.Idx := fun a => a.elim0

theorem val_main_v70_apply (i : S8x512x512.Idx) :
    val_main_v70 (F := F) i = val_main_cst_6 (F := F) (idx_main_v70 i) := by
  unfold val_main_v70
  generalize val_main_cst_6 (F := F) = y
  exact broadcastInDim_apply _ bcast_S_S8x512x512 y i (idx_main_v70 i) (fun a => a.elim0)

theorem val_main_v71_apply (i : S8x512x512.Idx) :
    val_main_v71 (F := F) x12 i = FloatOps.addf (val_main_v70 (F := F) i) (val_main_v69 (F := F) x12 i) := rfl

theorem val_main_cst_7_apply (i : S_.Idx) :
    val_main_cst_7 (F := F) i = FloatOps.ofBits .f32 0x3F800000#32 := rfl

abbrev idx_main_v72 (i : S8x512x512.Idx) : S_.Idx := fun a => a.elim0

theorem val_main_v72_apply (i : S8x512x512.Idx) :
    val_main_v72 (F := F) i = val_main_cst_7 (F := F) (idx_main_v72 i) := by
  unfold val_main_v72
  generalize val_main_cst_7 (F := F) = y
  exact broadcastInDim_apply _ bcast_S_S8x512x512 y i (idx_main_v72 i) (fun a => a.elim0)

theorem val_main_v73_apply (i : S8x512x512.Idx) :
    val_main_v73 (F := F) x12 i = FloatOps.hostDivf (val_main_v72 (F := F) i) (val_main_v71 (F := F) x12 i) := rfl

abbrev idx_main_v74 (i : S8x512x512.Idx) : S1x512x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v74_apply (i : S8x512x512.Idx) :
    val_main_v74 (F := F) x10 i = val_main_v67 (F := F) x10 (idx_main_v74 i) := by
  unfold val_main_v74
  generalize val_main_v67 (F := F) x10 = y
  exact broadcastInDim_apply _ bcast_S1x512x512_S8x512x512_0_1_2 y i (idx_main_v74 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

theorem val_main_v75_apply (i : S8x512x512.Idx) :
    val_main_v75 (F := F) x10 x12 i = FloatOps.subf (val_main_v74 (F := F) x10 i) (val_main_v73 (F := F) x12 i) := rfl

theorem val_main_call3_cst_apply (i : S_.Idx) :
    val_main_call3_cst (F := F) i = FloatOps.ofBits .f32 0x00000000#32 := rfl

abbrev idx_main_call3_v0 (i : S8x512x512.Idx) : S_.Idx := fun a => a.elim0

theorem val_main_call3_v0_apply (i : S8x512x512.Idx) :
    val_main_call3_v0 (F := F) i = val_main_call3_cst (F := F) (idx_main_call3_v0 i) := by
  unfold val_main_call3_v0
  generalize val_main_call3_cst (F := F) = y
  exact broadcastInDim_apply _ bcast_S_S8x512x512 y i (idx_main_call3_v0 i) (fun a => a.elim0)

theorem val_main_v76_apply (i : S8x512x512.Idx) :
    val_main_v76 (F := F) x10 x12 i = FloatOps.maximumf (val_main_v75 (F := F) x10 x12 i) (val_main_call3_v0 (F := F) i) := rfl

abbrev idx_main_v77 (i : S8x512x512.Idx) : S1x512x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v77_apply (i : S8x512x512.Idx) :
    val_main_v77 (F := F) x10 i = val_main_v65 (F := F) x10 (idx_main_v77 i) := by
  unfold val_main_v77
  generalize val_main_v65 (F := F) x10 = y
  exact broadcastInDim_apply _ bcast_S1x512x512_S8x512x512_0_1_2 y i (idx_main_v77 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

theorem val_main_v78_apply (i : S8x512x512.Idx) :
    val_main_v78 (F := F) x10 x12 i = FloatOps.mulf (val_main_v77 (F := F) x10 i) (val_main_v76 (F := F) x10 x12 i) := rfl

theorem lhs_main_v79_0 (i : S16384x8x512.Idx) (q : dot_S16384x512_S8x512x512_S16384x8x512_1_2_0_01_n_n.contr.Idx) :
    (dot_S16384x512_S8x512x512_S16384x8x512_1_2_0_01_n_n.lhsIdx i q 0).val = (i 0).val := by
  unfold DotDims.lhsIdx
  rw [dif_neg (show ¬(0 : Fin S16384x512.rank) ∈ dot_S16384x512_S8x512x512_S16384x8x512_1_2_0_01_n_n.lhsBatch by decide), dif_pos (show (0 : Fin S16384x512.rank) ∈ dot_S16384x512_S8x512x512_S16384x8x512_1_2_0_01_n_n.lhsNonContracting by decide)]
  rfl

theorem lhs_main_v79_1 (i : S16384x8x512.Idx) (q : dot_S16384x512_S8x512x512_S16384x8x512_1_2_0_01_n_n.contr.Idx) :
    (dot_S16384x512_S8x512x512_S16384x8x512_1_2_0_01_n_n.lhsIdx i q 1).val = (q ⟨0, by decide⟩).val :=
  dot_S16384x512_S8x512x512_S16384x8x512_1_2_0_01_n_n.lhsIdx_val_of_single rfl i q

theorem rhs_main_v79_0 (i : S16384x8x512.Idx) (q : dot_S16384x512_S8x512x512_S16384x8x512_1_2_0_01_n_n.contr.Idx) :
    (dot_S16384x512_S8x512x512_S16384x8x512_1_2_0_01_n_n.rhsIdx i q 0).val = (i 1).val := by
  unfold DotDims.rhsIdx
  rw [dif_neg (show ¬(0 : Fin S8x512x512.rank) ∈ dot_S16384x512_S8x512x512_S16384x8x512_1_2_0_01_n_n.rhsBatch by decide), dif_pos (show (0 : Fin S8x512x512.rank) ∈ dot_S16384x512_S8x512x512_S16384x8x512_1_2_0_01_n_n.rhsNonContracting by decide)]
  rfl

theorem rhs_main_v79_1 (i : S16384x8x512.Idx) (q : dot_S16384x512_S8x512x512_S16384x8x512_1_2_0_01_n_n.contr.Idx) :
    (dot_S16384x512_S8x512x512_S16384x8x512_1_2_0_01_n_n.rhsIdx i q 1).val = (i 2).val := by
  unfold DotDims.rhsIdx
  rw [dif_neg (show ¬(1 : Fin S8x512x512.rank) ∈ dot_S16384x512_S8x512x512_S16384x8x512_1_2_0_01_n_n.rhsBatch by decide), dif_pos (show (1 : Fin S8x512x512.rank) ∈ dot_S16384x512_S8x512x512_S16384x8x512_1_2_0_01_n_n.rhsNonContracting by decide)]
  rfl

theorem rhs_main_v79_2 (i : S16384x8x512.Idx) (q : dot_S16384x512_S8x512x512_S16384x8x512_1_2_0_01_n_n.contr.Idx) :
    (dot_S16384x512_S8x512x512_S16384x8x512_1_2_0_01_n_n.rhsIdx i q 2).val = (q ⟨0, by decide⟩).val :=
  dot_S16384x512_S8x512x512_S16384x8x512_1_2_0_01_n_n.rhsIdx_val_of_single rfl i q

abbrev lidx_main_v79 (i : S16384x8x512.Idx) (k : Fin 512) : S16384x512.Idx := fun a => match a with
  | ⟨0, _⟩ => ⟨(i 0).val, (i 0).isLt⟩
  | ⟨1, _⟩ => ⟨k.val, k.isLt⟩

abbrev ridx_main_v79 (i : S16384x8x512.Idx) (k : Fin 512) : S8x512x512.Idx := fun a => match a with
  | ⟨0, _⟩ => ⟨(i 1).val, (i 1).isLt⟩
  | ⟨1, _⟩ => ⟨(i 2).val, (i 2).isLt⟩
  | ⟨2, _⟩ => ⟨k.val, k.isLt⟩

theorem val_main_v79_apply (x0 x1 : (⟨S2048x8x512, .f32⟩ : BufTy).Contents (Elt Ideal)) (x2 : (⟨S2048x8, .i32⟩ : BufTy).Contents (Elt Ideal)) (x3 : (⟨S512x512, .f32⟩ : BufTy).Contents (Elt Ideal)) (x4 : (⟨S512, .f32⟩ : BufTy).Contents (Elt Ideal)) (x5 : (⟨S8x512x512, .f32⟩ : BufTy).Contents (Elt Ideal)) (x6 x7 : (⟨S1536x512, .f32⟩ : BufTy).Contents (Elt Ideal)) (x8 x9 : (⟨S1536, .f32⟩ : BufTy).Contents (Elt Ideal)) (x10 : (⟨S512x512, .f32⟩ : BufTy).Contents (Elt Ideal)) (x12 : (⟨S8x512x512, .f32⟩ : BufTy).Contents (Elt Ideal)) (i : S16384x8x512.Idx) :
    val_main_v79 (F := Ideal) x0 x1 x2 x3 x4 x5 x6 x7 x8 x9 x10 x12 i = ∑ k : Fin 512, (val_main_v63 (F := Ideal) x0 x1 x2 x3 x4 x5 x6 x7 x8 x9) (lidx_main_v79 i k) * (val_main_v78 (F := Ideal) x10 x12) (ridx_main_v79 i k) := by
  unfold val_main_v79
  generalize val_main_v63 (F := Ideal) x0 x1 x2 x3 x4 x5 x6 x7 x8 x9 = y0
  generalize val_main_v78 (F := Ideal) x10 x12 = y1
  simp only [Host.dotGeneral]
  rw [Ideal.dotGeneral_apply, ← Equiv.sum_comp (ValueIdx.contrEquiv1 dot_S16384x512_S8x512x512_S16384x8x512_1_2_0_01_n_n 512 rfl rfl).symm]
  refine Finset.sum_congr rfl fun k _ => ?_
  have hk := ValueIdx.contrEquiv1_symm_val dot_S16384x512_S8x512x512_S16384x8x512_1_2_0_01_n_n 512 rfl rfl k
  have el : dot_S16384x512_S8x512x512_S16384x8x512_1_2_0_01_n_n.lhsIdx i ((ValueIdx.contrEquiv1 dot_S16384x512_S8x512x512_S16384x8x512_1_2_0_01_n_n 512 rfl rfl).symm k) = lidx_main_v79 i k := funext fun a => Fin.ext (by
    match a with
    | ⟨0, _⟩ => exact lhs_main_v79_0 _ _
    | ⟨1, _⟩ => exact (lhs_main_v79_1 _ _).trans hk)
  have er : dot_S16384x512_S8x512x512_S16384x8x512_1_2_0_01_n_n.rhsIdx i ((ValueIdx.contrEquiv1 dot_S16384x512_S8x512x512_S16384x8x512_1_2_0_01_n_n 512 rfl rfl).symm k) = ridx_main_v79 i k := funext fun a => Fin.ext (by
    match a with
    | ⟨0, _⟩ => exact rhs_main_v79_0 _ _
    | ⟨1, _⟩ => exact rhs_main_v79_1 _ _
    | ⟨2, _⟩ => exact (rhs_main_v79_2 _ _).trans hk)
  rw [el, er]

abbrev idx_main_v80 (i : S16384x1x1.Idx) : S16384.Idx := fun a => match a with
  | ⟨0, _⟩ => ⟨(i 0).val, (i 0).isLt⟩

theorem val_main_v80_apply (i : S16384x1x1.Idx) :
    val_main_v80 (F := F) x2 i = val_main_v1 (F := F) x2 (idx_main_v80 i) := by
  unfold val_main_v80
  generalize val_main_v1 (F := F) x2 = y
  exact broadcastInDim_apply _ bcast_S16384_S16384x1x1_0 y i (idx_main_v80 i) (fun a => match a with
    | ⟨0, _⟩ => by show (i 0).val = if (16384 : Nat) = 1 then 0 else (i 0).val; rw [if_neg (by decide)])

theorem val_main_call4_c_apply (i : S_.Idx) :
    val_main_call4_c (F := F) i = 0#32 := rfl

abbrev idx_main_call4_v0 (i : S16384x1x1.Idx) : S_.Idx := fun a => a.elim0

theorem val_main_call4_v0_apply (i : S16384x1x1.Idx) :
    val_main_call4_v0 (F := F) i = val_main_call4_c (F := F) (idx_main_call4_v0 i) := by
  unfold val_main_call4_v0
  generalize val_main_call4_c (F := F) = y
  exact broadcastInDim_apply _ bcast_S_S16384x1x1 y i (idx_main_call4_v0 i) (fun a => a.elim0)

theorem val_main_call4_v1_apply (i : S16384x1x1.Idx) :
    val_main_call4_v1 (F := F) x2 i = IntOp.cmpi .slt (val_main_v80 (F := F) x2 i) (val_main_call4_v0 (F := F) i) := rfl

theorem val_main_call4_c_0_apply (i : S_.Idx) :
    val_main_call4_c_0 (F := F) i = 8#32 := rfl

abbrev idx_main_call4_v2 (i : S16384x1x1.Idx) : S_.Idx := fun a => a.elim0

theorem val_main_call4_v2_apply (i : S16384x1x1.Idx) :
    val_main_call4_v2 (F := F) i = val_main_call4_c_0 (F := F) (idx_main_call4_v2 i) := by
  unfold val_main_call4_v2
  generalize val_main_call4_c_0 (F := F) = y
  exact broadcastInDim_apply _ bcast_S_S16384x1x1 y i (idx_main_call4_v2 i) (fun a => a.elim0)

theorem val_main_call4_v3_apply (i : S16384x1x1.Idx) :
    val_main_call4_v3 (F := F) x2 i = IntOp.addi (val_main_v80 (F := F) x2 i) (val_main_call4_v2 (F := F) i) := rfl

theorem val_main_call4_v4_apply (i : S16384x1x1.Idx) :
    val_main_call4_v4 (F := F) x2 i = Scalar.select (val_main_call4_v1 (F := F) x2 i) (val_main_call4_v3 (F := F) x2 i) (val_main_v80 (F := F) x2 i) := rfl

theorem val_main_call4_c_1_apply (i : S1.Idx) :
    val_main_call4_c_1 (F := F) i = 7#32 := rfl

theorem val_main_call4_c_2_apply (i : S_.Idx) :
    val_main_call4_c_2 (F := F) i = 0#32 := rfl

abbrev idx_main_call4_v5 (i : S16384x1x1.Idx) : S_.Idx := fun a => a.elim0

theorem val_main_call4_v5_apply (i : S16384x1x1.Idx) :
    val_main_call4_v5 (F := F) i = val_main_call4_c_2 (F := F) (idx_main_call4_v5 i) := by
  unfold val_main_call4_v5
  generalize val_main_call4_c_2 (F := F) = y
  exact broadcastInDim_apply _ bcast_S_S16384x1x1 y i (idx_main_call4_v5 i) (fun a => a.elim0)

theorem val_main_call4_v6_apply (i : S16384x1x1.Idx) :
    val_main_call4_v6 (F := F) x2 i = IntOp.cmpi .sge (val_main_call4_v4 (F := F) x2 i) (val_main_call4_v5 (F := F) i) := rfl

abbrev idx_main_call4_v7 (i : S1x1x1.Idx) : S1.Idx := fun a => match a with
  | ⟨0, _⟩ => ⟨0, Nat.one_pos⟩

theorem val_main_call4_v7_apply (i : S1x1x1.Idx) :
    val_main_call4_v7 (F := F) i = val_main_call4_c_1 (F := F) (idx_main_call4_v7 i) := by
  unfold val_main_call4_v7
  generalize val_main_call4_c_1 (F := F) = y
  exact broadcastInDim_apply _ bcast_S1_S1x1x1_2 y i (idx_main_call4_v7 i) (fun a => match a with
    | ⟨0, _⟩ => by show 0 = if (1 : Nat) = 1 then 0 else (i 2).val; rw [if_pos rfl])

abbrev idx_main_call4_v8 (i : S16384x1x1.Idx) : S1x1x1.Idx := fun a => match a with
  | ⟨0, _⟩ => ⟨0, Nat.one_pos⟩
  | ⟨1, _⟩ => ⟨0, Nat.one_pos⟩
  | ⟨2, _⟩ => ⟨0, Nat.one_pos⟩

theorem val_main_call4_v8_apply (i : S16384x1x1.Idx) :
    val_main_call4_v8 (F := F) i = val_main_call4_v7 (F := F) (idx_main_call4_v8 i) := by
  unfold val_main_call4_v8
  generalize val_main_call4_v7 (F := F) = y
  exact broadcastInDim_apply _ bcast_S1x1x1_S16384x1x1_0_1_2 y i (idx_main_call4_v8 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

theorem val_main_call4_v9_apply (i : S16384x1x1.Idx) :
    val_main_call4_v9 (F := F) x2 i = IntOp.cmpi .sle (val_main_call4_v4 (F := F) x2 i) (val_main_call4_v8 (F := F) i) := rfl

theorem val_main_call4_v10_apply (i : S16384x1x1.Idx) :
    val_main_call4_v10 (F := F) x2 i = IntOp.andi (val_main_call4_v6 (F := F) x2 i) (val_main_call4_v9 (F := F) x2 i) := rfl

abbrev idx_main_call4_v13 (i : S16384x1x512.Idx) : S16384x1.Idx := fun a => match a with
  | ⟨0, _⟩ => ⟨(i 0).val, (i 0).isLt⟩
  | ⟨1, _⟩ => ⟨0, Nat.one_pos⟩

theorem val_main_call4_v13_apply (i : S16384x1x512.Idx) :
    val_main_call4_v13 (F := F) x2 i = val_main_call4_v11 (F := F) x2 (idx_main_call4_v13 i) := by
  unfold val_main_call4_v13
  generalize val_main_call4_v11 (F := F) x2 = y
  exact broadcastInDim_apply _ bcast_S16384x1_S16384x1x512_0_1 y i (idx_main_call4_v13 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

theorem val_main_v81_apply (i : S16384x1x512.Idx) :
    val_main_v81 (F := F) x0 x1 x2 x3 x4 x5 x6 x7 x8 x9 x10 x12 i = Scalar.select (val_main_call4_v13 (F := F) x2 i) (val_main_call4_v12 (F := F) x0 x1 x2 x3 x4 x5 x6 x7 x8 x9 x10 x12 i) (val_main_call4_v14 (F := F) i) := rfl

abbrev idx_main_v82 (i : S16384x512.Idx) : S16384x1x512.Idx := fun a => match a with
  | ⟨0, _⟩ => ⟨((i 0).val * 512 + (i 1).val) / 512, by have h0 : (i 0).val < 16384 := (i 0).isLt; have h1 : (i 1).val < 512 := (i 1).isLt; show ((i 0).val * 512 + (i 1).val) / 512 < 16384; omega⟩
  | ⟨1, _⟩ => ⟨0, Nat.one_pos⟩
  | ⟨2, _⟩ => ⟨((i 0).val * 512 + (i 1).val) % 512, by have h0 : (i 0).val < 16384 := (i 0).isLt; have h1 : (i 1).val < 512 := (i 1).isLt; show ((i 0).val * 512 + (i 1).val) % 512 < 512; omega⟩

theorem val_main_v82_apply (i : S16384x512.Idx) :
    val_main_v82 (F := F) x0 x1 x2 x3 x4 x5 x6 x7 x8 x9 x10 x12 i = val_main_v81 (F := F) x0 x1 x2 x3 x4 x5 x6 x7 x8 x9 x10 x12 (idx_main_v82 i) := by
  unfold val_main_v82
  generalize val_main_v81 (F := F) x0 x1 x2 x3 x4 x5 x6 x7 x8 x9 x10 x12 = y
  exact shapeCast_apply y shapeCasts_S16384x1x512_S16384x512 i (idx_main_v82 i)
    (by rewrite [Shape.rowMajor_val_three, Shape.rowMajor_val_two]; have h0 : (i 0).val < 16384 := (i 0).isLt; have h1 : (i 1).val < 512 := (i 1).isLt; show (((i 0).val * 512 + (i 1).val) / 512 * 1 + 0) * 512 + ((i 0).val * 512 + (i 1).val) % 512 = (i 0).val * 512 + (i 1).val; omega)

abbrev idx_main_v83 (i : S1x512.Idx) : S512.Idx := fun a => match a with
  | ⟨0, _⟩ => ⟨(i 1).val, (i 1).isLt⟩

theorem val_main_v83_apply (i : S1x512.Idx) :
    val_main_v83 (F := F) x11 i = x11 (idx_main_v83 i) := by
  unfold val_main_v83
  exact broadcastInDim_apply _ bcast_S512_S1x512_1 x11 i (idx_main_v83 i) (fun a => match a with
    | ⟨0, _⟩ => by show (i 1).val = if (512 : Nat) = 1 then 0 else (i 1).val; rw [if_neg (by decide)])

abbrev idx_main_v84 (i : S16384x512.Idx) : S1x512.Idx := fun a => match a with
  | ⟨0, _⟩ => ⟨0, Nat.one_pos⟩
  | ⟨1, _⟩ => ⟨(i 1).val, (i 1).isLt⟩

theorem val_main_v84_apply (i : S16384x512.Idx) :
    val_main_v84 (F := F) x11 i = val_main_v83 (F := F) x11 (idx_main_v84 i) := by
  unfold val_main_v84
  generalize val_main_v83 (F := F) x11 = y
  exact broadcastInDim_apply _ bcast_S1x512_S16384x512_0_1 y i (idx_main_v84 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

theorem val_main_v85_apply (i : S16384x512.Idx) :
    val_main_v85 (F := F) x0 x1 x2 x3 x4 x5 x6 x7 x8 x9 x10 x11 x12 i = FloatOps.addf (val_main_v82 (F := F) x0 x1 x2 x3 x4 x5 x6 x7 x8 x9 x10 x12 i) (val_main_v84 (F := F) x11 i) := rfl

theorem val_main_call5_cst_apply (i : S_.Idx) :
    val_main_call5_cst (F := F) i = FloatOps.ofBits .f32 0x00000000#32 := rfl

abbrev idx_main_call5_v0 (i : S16384x512.Idx) : S_.Idx := fun a => a.elim0

theorem val_main_call5_v0_apply (i : S16384x512.Idx) :
    val_main_call5_v0 (F := F) i = val_main_call5_cst (F := F) (idx_main_call5_v0 i) := by
  unfold val_main_call5_v0
  generalize val_main_call5_cst (F := F) = y
  exact broadcastInDim_apply _ bcast_S_S16384x512 y i (idx_main_call5_v0 i) (fun a => a.elim0)

theorem val_main_v86_apply (i : S16384x512.Idx) :
    val_main_v86 (F := F) x0 x1 x2 x3 x4 x5 x6 x7 x8 x9 x10 x11 x12 i = FloatOps.maximumf (val_main_v85 (F := F) x0 x1 x2 x3 x4 x5 x6 x7 x8 x9 x10 x11 x12 i) (val_main_call5_v0 (F := F) i) := rfl

theorem val_main_v87_apply (i : S512x512.Idx) :
    val_main_v87 (F := F) x13 i = FloatOps.hostUnary .sign (x13 i) := rfl

abbrev idx_main_v88 (i : S1x512x512.Idx) : S512x512.Idx := fun a => match a with
  | ⟨0, _⟩ => ⟨(i 1).val, (i 1).isLt⟩
  | ⟨1, _⟩ => ⟨(i 2).val, (i 2).isLt⟩

theorem val_main_v88_apply (i : S1x512x512.Idx) :
    val_main_v88 (F := F) x13 i = val_main_v87 (F := F) x13 (idx_main_v88 i) := by
  unfold val_main_v88
  generalize val_main_v87 (F := F) x13 = y
  exact broadcastInDim_apply _ bcast_S512x512_S1x512x512_1_2 y i (idx_main_v88 i) (fun a => match a with
    | ⟨0, _⟩ => by show (i 1).val = if (512 : Nat) = 1 then 0 else (i 1).val; rw [if_neg (by decide)]
    | ⟨1, _⟩ => by show (i 2).val = if (512 : Nat) = 1 then 0 else (i 2).val; rw [if_neg (by decide)])

theorem val_main_v89_apply (i : S512x512.Idx) :
    val_main_v89 (F := F) x13 i = FloatOps.hostAbsf (x13 i) := rfl

abbrev idx_main_v90 (i : S1x512x512.Idx) : S512x512.Idx := fun a => match a with
  | ⟨0, _⟩ => ⟨(i 1).val, (i 1).isLt⟩
  | ⟨1, _⟩ => ⟨(i 2).val, (i 2).isLt⟩

theorem val_main_v90_apply (i : S1x512x512.Idx) :
    val_main_v90 (F := F) x13 i = val_main_v89 (F := F) x13 (idx_main_v90 i) := by
  unfold val_main_v90
  generalize val_main_v89 (F := F) x13 = y
  exact broadcastInDim_apply _ bcast_S512x512_S1x512x512_1_2 y i (idx_main_v90 i) (fun a => match a with
    | ⟨0, _⟩ => by show (i 1).val = if (512 : Nat) = 1 then 0 else (i 1).val; rw [if_neg (by decide)]
    | ⟨1, _⟩ => by show (i 2).val = if (512 : Nat) = 1 then 0 else (i 2).val; rw [if_neg (by decide)])

theorem val_main_v91_apply (i : S8x512x512.Idx) :
    val_main_v91 (F := F) x15 i = FloatOps.hostNegf (x15 i) := rfl

theorem val_main_v92_apply (i : S8x512x512.Idx) :
    val_main_v92 (F := F) x15 i = FloatOps.hostUnary .exp (val_main_v91 (F := F) x15 i) := rfl

theorem val_main_cst_8_apply (i : S_.Idx) :
    val_main_cst_8 (F := F) i = FloatOps.ofBits .f32 0x3F800000#32 := rfl

abbrev idx_main_v93 (i : S8x512x512.Idx) : S_.Idx := fun a => a.elim0

theorem val_main_v93_apply (i : S8x512x512.Idx) :
    val_main_v93 (F := F) i = val_main_cst_8 (F := F) (idx_main_v93 i) := by
  unfold val_main_v93
  generalize val_main_cst_8 (F := F) = y
  exact broadcastInDim_apply _ bcast_S_S8x512x512 y i (idx_main_v93 i) (fun a => a.elim0)

theorem val_main_v94_apply (i : S8x512x512.Idx) :
    val_main_v94 (F := F) x15 i = FloatOps.addf (val_main_v93 (F := F) i) (val_main_v92 (F := F) x15 i) := rfl

theorem val_main_cst_9_apply (i : S_.Idx) :
    val_main_cst_9 (F := F) i = FloatOps.ofBits .f32 0x3F800000#32 := rfl

abbrev idx_main_v95 (i : S8x512x512.Idx) : S_.Idx := fun a => a.elim0

theorem val_main_v95_apply (i : S8x512x512.Idx) :
    val_main_v95 (F := F) i = val_main_cst_9 (F := F) (idx_main_v95 i) := by
  unfold val_main_v95
  generalize val_main_cst_9 (F := F) = y
  exact broadcastInDim_apply _ bcast_S_S8x512x512 y i (idx_main_v95 i) (fun a => a.elim0)

theorem val_main_v96_apply (i : S8x512x512.Idx) :
    val_main_v96 (F := F) x15 i = FloatOps.hostDivf (val_main_v95 (F := F) i) (val_main_v94 (F := F) x15 i) := rfl

abbrev idx_main_v97 (i : S8x512x512.Idx) : S1x512x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v97_apply (i : S8x512x512.Idx) :
    val_main_v97 (F := F) x13 i = val_main_v90 (F := F) x13 (idx_main_v97 i) := by
  unfold val_main_v97
  generalize val_main_v90 (F := F) x13 = y
  exact broadcastInDim_apply _ bcast_S1x512x512_S8x512x512_0_1_2 y i (idx_main_v97 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

theorem val_main_v98_apply (i : S8x512x512.Idx) :
    val_main_v98 (F := F) x13 x15 i = FloatOps.subf (val_main_v97 (F := F) x13 i) (val_main_v96 (F := F) x15 i) := rfl

theorem val_main_call6_cst_apply (i : S_.Idx) :
    val_main_call6_cst (F := F) i = FloatOps.ofBits .f32 0x00000000#32 := rfl

abbrev idx_main_call6_v0 (i : S8x512x512.Idx) : S_.Idx := fun a => a.elim0

theorem val_main_call6_v0_apply (i : S8x512x512.Idx) :
    val_main_call6_v0 (F := F) i = val_main_call6_cst (F := F) (idx_main_call6_v0 i) := by
  unfold val_main_call6_v0
  generalize val_main_call6_cst (F := F) = y
  exact broadcastInDim_apply _ bcast_S_S8x512x512 y i (idx_main_call6_v0 i) (fun a => a.elim0)

theorem val_main_v99_apply (i : S8x512x512.Idx) :
    val_main_v99 (F := F) x13 x15 i = FloatOps.maximumf (val_main_v98 (F := F) x13 x15 i) (val_main_call6_v0 (F := F) i) := rfl

abbrev idx_main_v100 (i : S8x512x512.Idx) : S1x512x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v100_apply (i : S8x512x512.Idx) :
    val_main_v100 (F := F) x13 i = val_main_v88 (F := F) x13 (idx_main_v100 i) := by
  unfold val_main_v100
  generalize val_main_v88 (F := F) x13 = y
  exact broadcastInDim_apply _ bcast_S1x512x512_S8x512x512_0_1_2 y i (idx_main_v100 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

theorem val_main_v101_apply (i : S8x512x512.Idx) :
    val_main_v101 (F := F) x13 x15 i = FloatOps.mulf (val_main_v100 (F := F) x13 i) (val_main_v99 (F := F) x13 x15 i) := rfl

theorem lhs_main_v102_0 (i : S16384x8x512.Idx) (q : dot_S16384x512_S8x512x512_S16384x8x512_1_2_0_01_n_n.contr.Idx) :
    (dot_S16384x512_S8x512x512_S16384x8x512_1_2_0_01_n_n.lhsIdx i q 0).val = (i 0).val := by
  unfold DotDims.lhsIdx
  rw [dif_neg (show ¬(0 : Fin S16384x512.rank) ∈ dot_S16384x512_S8x512x512_S16384x8x512_1_2_0_01_n_n.lhsBatch by decide), dif_pos (show (0 : Fin S16384x512.rank) ∈ dot_S16384x512_S8x512x512_S16384x8x512_1_2_0_01_n_n.lhsNonContracting by decide)]
  rfl

theorem lhs_main_v102_1 (i : S16384x8x512.Idx) (q : dot_S16384x512_S8x512x512_S16384x8x512_1_2_0_01_n_n.contr.Idx) :
    (dot_S16384x512_S8x512x512_S16384x8x512_1_2_0_01_n_n.lhsIdx i q 1).val = (q ⟨0, by decide⟩).val :=
  dot_S16384x512_S8x512x512_S16384x8x512_1_2_0_01_n_n.lhsIdx_val_of_single rfl i q

theorem rhs_main_v102_0 (i : S16384x8x512.Idx) (q : dot_S16384x512_S8x512x512_S16384x8x512_1_2_0_01_n_n.contr.Idx) :
    (dot_S16384x512_S8x512x512_S16384x8x512_1_2_0_01_n_n.rhsIdx i q 0).val = (i 1).val := by
  unfold DotDims.rhsIdx
  rw [dif_neg (show ¬(0 : Fin S8x512x512.rank) ∈ dot_S16384x512_S8x512x512_S16384x8x512_1_2_0_01_n_n.rhsBatch by decide), dif_pos (show (0 : Fin S8x512x512.rank) ∈ dot_S16384x512_S8x512x512_S16384x8x512_1_2_0_01_n_n.rhsNonContracting by decide)]
  rfl

theorem rhs_main_v102_1 (i : S16384x8x512.Idx) (q : dot_S16384x512_S8x512x512_S16384x8x512_1_2_0_01_n_n.contr.Idx) :
    (dot_S16384x512_S8x512x512_S16384x8x512_1_2_0_01_n_n.rhsIdx i q 1).val = (i 2).val := by
  unfold DotDims.rhsIdx
  rw [dif_neg (show ¬(1 : Fin S8x512x512.rank) ∈ dot_S16384x512_S8x512x512_S16384x8x512_1_2_0_01_n_n.rhsBatch by decide), dif_pos (show (1 : Fin S8x512x512.rank) ∈ dot_S16384x512_S8x512x512_S16384x8x512_1_2_0_01_n_n.rhsNonContracting by decide)]
  rfl

theorem rhs_main_v102_2 (i : S16384x8x512.Idx) (q : dot_S16384x512_S8x512x512_S16384x8x512_1_2_0_01_n_n.contr.Idx) :
    (dot_S16384x512_S8x512x512_S16384x8x512_1_2_0_01_n_n.rhsIdx i q 2).val = (q ⟨0, by decide⟩).val :=
  dot_S16384x512_S8x512x512_S16384x8x512_1_2_0_01_n_n.rhsIdx_val_of_single rfl i q

abbrev lidx_main_v102 (i : S16384x8x512.Idx) (k : Fin 512) : S16384x512.Idx := fun a => match a with
  | ⟨0, _⟩ => ⟨(i 0).val, (i 0).isLt⟩
  | ⟨1, _⟩ => ⟨k.val, k.isLt⟩

abbrev ridx_main_v102 (i : S16384x8x512.Idx) (k : Fin 512) : S8x512x512.Idx := fun a => match a with
  | ⟨0, _⟩ => ⟨(i 1).val, (i 1).isLt⟩
  | ⟨1, _⟩ => ⟨(i 2).val, (i 2).isLt⟩
  | ⟨2, _⟩ => ⟨k.val, k.isLt⟩

theorem val_main_v102_apply (x0 x1 : (⟨S2048x8x512, .f32⟩ : BufTy).Contents (Elt Ideal)) (x2 : (⟨S2048x8, .i32⟩ : BufTy).Contents (Elt Ideal)) (x3 : (⟨S512x512, .f32⟩ : BufTy).Contents (Elt Ideal)) (x4 : (⟨S512, .f32⟩ : BufTy).Contents (Elt Ideal)) (x5 : (⟨S8x512x512, .f32⟩ : BufTy).Contents (Elt Ideal)) (x6 x7 : (⟨S1536x512, .f32⟩ : BufTy).Contents (Elt Ideal)) (x8 x9 : (⟨S1536, .f32⟩ : BufTy).Contents (Elt Ideal)) (x10 : (⟨S512x512, .f32⟩ : BufTy).Contents (Elt Ideal)) (x11 : (⟨S512, .f32⟩ : BufTy).Contents (Elt Ideal)) (x12 : (⟨S8x512x512, .f32⟩ : BufTy).Contents (Elt Ideal)) (x13 : (⟨S512x512, .f32⟩ : BufTy).Contents (Elt Ideal)) (x15 : (⟨S8x512x512, .f32⟩ : BufTy).Contents (Elt Ideal)) (i : S16384x8x512.Idx) :
    val_main_v102 (F := Ideal) x0 x1 x2 x3 x4 x5 x6 x7 x8 x9 x10 x11 x12 x13 x15 i = ∑ k : Fin 512, (val_main_v86 (F := Ideal) x0 x1 x2 x3 x4 x5 x6 x7 x8 x9 x10 x11 x12) (lidx_main_v102 i k) * (val_main_v101 (F := Ideal) x13 x15) (ridx_main_v102 i k) := by
  unfold val_main_v102
  generalize val_main_v86 (F := Ideal) x0 x1 x2 x3 x4 x5 x6 x7 x8 x9 x10 x11 x12 = y0
  generalize val_main_v101 (F := Ideal) x13 x15 = y1
  simp only [Host.dotGeneral]
  rw [Ideal.dotGeneral_apply, ← Equiv.sum_comp (ValueIdx.contrEquiv1 dot_S16384x512_S8x512x512_S16384x8x512_1_2_0_01_n_n 512 rfl rfl).symm]
  refine Finset.sum_congr rfl fun k _ => ?_
  have hk := ValueIdx.contrEquiv1_symm_val dot_S16384x512_S8x512x512_S16384x8x512_1_2_0_01_n_n 512 rfl rfl k
  have el : dot_S16384x512_S8x512x512_S16384x8x512_1_2_0_01_n_n.lhsIdx i ((ValueIdx.contrEquiv1 dot_S16384x512_S8x512x512_S16384x8x512_1_2_0_01_n_n 512 rfl rfl).symm k) = lidx_main_v102 i k := funext fun a => Fin.ext (by
    match a with
    | ⟨0, _⟩ => exact lhs_main_v102_0 _ _
    | ⟨1, _⟩ => exact (lhs_main_v102_1 _ _).trans hk)
  have er : dot_S16384x512_S8x512x512_S16384x8x512_1_2_0_01_n_n.rhsIdx i ((ValueIdx.contrEquiv1 dot_S16384x512_S8x512x512_S16384x8x512_1_2_0_01_n_n 512 rfl rfl).symm k) = ridx_main_v102 i k := funext fun a => Fin.ext (by
    match a with
    | ⟨0, _⟩ => exact rhs_main_v102_0 _ _
    | ⟨1, _⟩ => exact rhs_main_v102_1 _ _
    | ⟨2, _⟩ => exact (rhs_main_v102_2 _ _).trans hk)
  rw [el, er]

abbrev idx_main_call7_v13 (i : S16384x1x512.Idx) : S16384x1.Idx := fun a => match a with
  | ⟨0, _⟩ => ⟨(i 0).val, (i 0).isLt⟩
  | ⟨1, _⟩ => ⟨0, Nat.one_pos⟩

theorem val_main_call7_v13_apply (i : S16384x1x512.Idx) :
    val_main_call7_v13 (F := F) x2 i = val_main_call7_v11 (F := F) x2 (idx_main_call7_v13 i) := by
  unfold val_main_call7_v13
  generalize val_main_call7_v11 (F := F) x2 = y
  exact broadcastInDim_apply _ bcast_S16384x1_S16384x1x512_0_1 y i (idx_main_call7_v13 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

theorem val_main_v104_apply (i : S16384x1x512.Idx) :
    val_main_v104 (F := F) x0 x1 x2 x3 x4 x5 x6 x7 x8 x9 x10 x11 x12 x13 x15 i = Scalar.select (val_main_call7_v13 (F := F) x2 i) (val_main_call7_v12 (F := F) x0 x1 x2 x3 x4 x5 x6 x7 x8 x9 x10 x11 x12 x13 x15 i) (val_main_call7_v14 (F := F) i) := rfl

abbrev idx_main_v105 (i : S16384x512.Idx) : S16384x1x512.Idx := fun a => match a with
  | ⟨0, _⟩ => ⟨((i 0).val * 512 + (i 1).val) / 512, by have h0 : (i 0).val < 16384 := (i 0).isLt; have h1 : (i 1).val < 512 := (i 1).isLt; show ((i 0).val * 512 + (i 1).val) / 512 < 16384; omega⟩
  | ⟨1, _⟩ => ⟨0, Nat.one_pos⟩
  | ⟨2, _⟩ => ⟨((i 0).val * 512 + (i 1).val) % 512, by have h0 : (i 0).val < 16384 := (i 0).isLt; have h1 : (i 1).val < 512 := (i 1).isLt; show ((i 0).val * 512 + (i 1).val) % 512 < 512; omega⟩

theorem val_main_v105_apply (i : S16384x512.Idx) :
    val_main_v105 (F := F) x0 x1 x2 x3 x4 x5 x6 x7 x8 x9 x10 x11 x12 x13 x15 i = val_main_v104 (F := F) x0 x1 x2 x3 x4 x5 x6 x7 x8 x9 x10 x11 x12 x13 x15 (idx_main_v105 i) := by
  unfold val_main_v105
  generalize val_main_v104 (F := F) x0 x1 x2 x3 x4 x5 x6 x7 x8 x9 x10 x11 x12 x13 x15 = y
  exact shapeCast_apply y shapeCasts_S16384x1x512_S16384x512 i (idx_main_v105 i)
    (by rewrite [Shape.rowMajor_val_three, Shape.rowMajor_val_two]; have h0 : (i 0).val < 16384 := (i 0).isLt; have h1 : (i 1).val < 512 := (i 1).isLt; show (((i 0).val * 512 + (i 1).val) / 512 * 1 + 0) * 512 + ((i 0).val * 512 + (i 1).val) % 512 = (i 0).val * 512 + (i 1).val; omega)

abbrev idx_main_v106 (i : S1x512.Idx) : S512.Idx := fun a => match a with
  | ⟨0, _⟩ => ⟨(i 1).val, (i 1).isLt⟩

theorem val_main_v106_apply (i : S1x512.Idx) :
    val_main_v106 (F := F) x14 i = x14 (idx_main_v106 i) := by
  unfold val_main_v106
  exact broadcastInDim_apply _ bcast_S512_S1x512_1 x14 i (idx_main_v106 i) (fun a => match a with
    | ⟨0, _⟩ => by show (i 1).val = if (512 : Nat) = 1 then 0 else (i 1).val; rw [if_neg (by decide)])

abbrev idx_main_v107 (i : S16384x512.Idx) : S1x512.Idx := fun a => match a with
  | ⟨0, _⟩ => ⟨0, Nat.one_pos⟩
  | ⟨1, _⟩ => ⟨(i 1).val, (i 1).isLt⟩

theorem val_main_v107_apply (i : S16384x512.Idx) :
    val_main_v107 (F := F) x14 i = val_main_v106 (F := F) x14 (idx_main_v107 i) := by
  unfold val_main_v107
  generalize val_main_v106 (F := F) x14 = y
  exact broadcastInDim_apply _ bcast_S1x512_S16384x512_0_1 y i (idx_main_v107 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

theorem val_main_v108_apply (i : S16384x512.Idx) :
    val_main_v108 (F := F) x0 x1 x2 x3 x4 x5 x6 x7 x8 x9 x10 x11 x12 x13 x14 x15 i = FloatOps.addf (val_main_v105 (F := F) x0 x1 x2 x3 x4 x5 x6 x7 x8 x9 x10 x11 x12 x13 x15 i) (val_main_v107 (F := F) x14 i) := rfl

theorem val_main_call8_cst_apply (i : S_.Idx) :
    val_main_call8_cst (F := F) i = FloatOps.ofBits .f32 0x00000000#32 := rfl

abbrev idx_main_call8_v0 (i : S16384x512.Idx) : S_.Idx := fun a => a.elim0

theorem val_main_call8_v0_apply (i : S16384x512.Idx) :
    val_main_call8_v0 (F := F) i = val_main_call8_cst (F := F) (idx_main_call8_v0 i) := by
  unfold val_main_call8_v0
  generalize val_main_call8_cst (F := F) = y
  exact broadcastInDim_apply _ bcast_S_S16384x512 y i (idx_main_call8_v0 i) (fun a => a.elim0)

theorem val_main_v109_apply (i : S16384x512.Idx) :
    val_main_v109 (F := F) x0 x1 x2 x3 x4 x5 x6 x7 x8 x9 x10 x11 x12 x13 x14 x15 i = FloatOps.maximumf (val_main_v108 (F := F) x0 x1 x2 x3 x4 x5 x6 x7 x8 x9 x10 x11 x12 x13 x14 x15 i) (val_main_call8_v0 (F := F) i) := rfl

theorem val_main_v110_apply (i : S64x512.Idx) :
    val_main_v110 (F := F) x16 i = FloatOps.hostUnary .sign (x16 i) := rfl

abbrev idx_main_v111 (i : S1x64x512.Idx) : S64x512.Idx := fun a => match a with
  | ⟨0, _⟩ => ⟨(i 1).val, (i 1).isLt⟩
  | ⟨1, _⟩ => ⟨(i 2).val, (i 2).isLt⟩

theorem val_main_v111_apply (i : S1x64x512.Idx) :
    val_main_v111 (F := F) x16 i = val_main_v110 (F := F) x16 (idx_main_v111 i) := by
  unfold val_main_v111
  generalize val_main_v110 (F := F) x16 = y
  exact broadcastInDim_apply _ bcast_S64x512_S1x64x512_1_2 y i (idx_main_v111 i) (fun a => match a with
    | ⟨0, _⟩ => by show (i 1).val = if (64 : Nat) = 1 then 0 else (i 1).val; rw [if_neg (by decide)]
    | ⟨1, _⟩ => by show (i 2).val = if (512 : Nat) = 1 then 0 else (i 2).val; rw [if_neg (by decide)])

theorem val_main_v112_apply (i : S64x512.Idx) :
    val_main_v112 (F := F) x16 i = FloatOps.hostAbsf (x16 i) := rfl

abbrev idx_main_v113 (i : S1x64x512.Idx) : S64x512.Idx := fun a => match a with
  | ⟨0, _⟩ => ⟨(i 1).val, (i 1).isLt⟩
  | ⟨1, _⟩ => ⟨(i 2).val, (i 2).isLt⟩

theorem val_main_v113_apply (i : S1x64x512.Idx) :
    val_main_v113 (F := F) x16 i = val_main_v112 (F := F) x16 (idx_main_v113 i) := by
  unfold val_main_v113
  generalize val_main_v112 (F := F) x16 = y
  exact broadcastInDim_apply _ bcast_S64x512_S1x64x512_1_2 y i (idx_main_v113 i) (fun a => match a with
    | ⟨0, _⟩ => by show (i 1).val = if (64 : Nat) = 1 then 0 else (i 1).val; rw [if_neg (by decide)]
    | ⟨1, _⟩ => by show (i 2).val = if (512 : Nat) = 1 then 0 else (i 2).val; rw [if_neg (by decide)])

theorem val_main_v114_apply (i : S8x64x512.Idx) :
    val_main_v114 (F := F) x18 i = FloatOps.hostNegf (x18 i) := rfl

theorem val_main_v115_apply (i : S8x64x512.Idx) :
    val_main_v115 (F := F) x18 i = FloatOps.hostUnary .exp (val_main_v114 (F := F) x18 i) := rfl

theorem val_main_cst_10_apply (i : S_.Idx) :
    val_main_cst_10 (F := F) i = FloatOps.ofBits .f32 0x3F800000#32 := rfl

abbrev idx_main_v116 (i : S8x64x512.Idx) : S_.Idx := fun a => a.elim0

theorem val_main_v116_apply (i : S8x64x512.Idx) :
    val_main_v116 (F := F) i = val_main_cst_10 (F := F) (idx_main_v116 i) := by
  unfold val_main_v116
  generalize val_main_cst_10 (F := F) = y
  exact broadcastInDim_apply _ bcast_S_S8x64x512 y i (idx_main_v116 i) (fun a => a.elim0)

theorem val_main_v117_apply (i : S8x64x512.Idx) :
    val_main_v117 (F := F) x18 i = FloatOps.addf (val_main_v116 (F := F) i) (val_main_v115 (F := F) x18 i) := rfl

theorem val_main_cst_11_apply (i : S_.Idx) :
    val_main_cst_11 (F := F) i = FloatOps.ofBits .f32 0x3F800000#32 := rfl

abbrev idx_main_v118 (i : S8x64x512.Idx) : S_.Idx := fun a => a.elim0

theorem val_main_v118_apply (i : S8x64x512.Idx) :
    val_main_v118 (F := F) i = val_main_cst_11 (F := F) (idx_main_v118 i) := by
  unfold val_main_v118
  generalize val_main_cst_11 (F := F) = y
  exact broadcastInDim_apply _ bcast_S_S8x64x512 y i (idx_main_v118 i) (fun a => a.elim0)

theorem val_main_v119_apply (i : S8x64x512.Idx) :
    val_main_v119 (F := F) x18 i = FloatOps.hostDivf (val_main_v118 (F := F) i) (val_main_v117 (F := F) x18 i) := rfl

abbrev idx_main_v120 (i : S8x64x512.Idx) : S1x64x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v120_apply (i : S8x64x512.Idx) :
    val_main_v120 (F := F) x16 i = val_main_v113 (F := F) x16 (idx_main_v120 i) := by
  unfold val_main_v120
  generalize val_main_v113 (F := F) x16 = y
  exact broadcastInDim_apply _ bcast_S1x64x512_S8x64x512_0_1_2 y i (idx_main_v120 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)]
    | ⟨2, _⟩ => by show (i 2).val = if (512 : Nat) = 1 then 0 else (i 2).val; rw [if_neg (by decide)])

theorem val_main_v121_apply (i : S8x64x512.Idx) :
    val_main_v121 (F := F) x16 x18 i = FloatOps.subf (val_main_v120 (F := F) x16 i) (val_main_v119 (F := F) x18 i) := rfl

theorem val_main_call9_cst_apply (i : S_.Idx) :
    val_main_call9_cst (F := F) i = FloatOps.ofBits .f32 0x00000000#32 := rfl

abbrev idx_main_call9_v0 (i : S8x64x512.Idx) : S_.Idx := fun a => a.elim0

theorem val_main_call9_v0_apply (i : S8x64x512.Idx) :
    val_main_call9_v0 (F := F) i = val_main_call9_cst (F := F) (idx_main_call9_v0 i) := by
  unfold val_main_call9_v0
  generalize val_main_call9_cst (F := F) = y
  exact broadcastInDim_apply _ bcast_S_S8x64x512 y i (idx_main_call9_v0 i) (fun a => a.elim0)

theorem val_main_v122_apply (i : S8x64x512.Idx) :
    val_main_v122 (F := F) x16 x18 i = FloatOps.maximumf (val_main_v121 (F := F) x16 x18 i) (val_main_call9_v0 (F := F) i) := rfl

abbrev idx_main_v123 (i : S8x64x512.Idx) : S1x64x512.Idx := fun a => match a with
  | ⟨0, _⟩ => ⟨0, Nat.one_pos⟩
  | ⟨1, _⟩ => ⟨(i 1).val, (i 1).isLt⟩
  | ⟨2, _⟩ => ⟨(i 2).val, (i 2).isLt⟩

theorem val_main_v123_apply (i : S8x64x512.Idx) :
    val_main_v123 (F := F) x16 i = val_main_v111 (F := F) x16 (idx_main_v123 i) := by
  unfold val_main_v123
  generalize val_main_v111 (F := F) x16 = y
  exact broadcastInDim_apply _ bcast_S1x64x512_S8x64x512_0_1_2 y i (idx_main_v123 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)]
    | ⟨2, _⟩ => by show (i 2).val = if (512 : Nat) = 1 then 0 else (i 2).val; rw [if_neg (by decide)])

theorem val_main_v124_apply (i : S8x64x512.Idx) :
    val_main_v124 (F := F) x16 x18 i = FloatOps.mulf (val_main_v123 (F := F) x16 i) (val_main_v122 (F := F) x16 x18 i) := rfl

theorem lhs_main_v125_0 (i : S16384x8x64.Idx) (q : dot_S16384x512_S8x64x512_S16384x8x64_1_2_0_01_n_n.contr.Idx) :
    (dot_S16384x512_S8x64x512_S16384x8x64_1_2_0_01_n_n.lhsIdx i q 0).val = (i 0).val := by
  unfold DotDims.lhsIdx
  rw [dif_neg (show ¬(0 : Fin S16384x512.rank) ∈ dot_S16384x512_S8x64x512_S16384x8x64_1_2_0_01_n_n.lhsBatch by decide), dif_pos (show (0 : Fin S16384x512.rank) ∈ dot_S16384x512_S8x64x512_S16384x8x64_1_2_0_01_n_n.lhsNonContracting by decide)]
  rfl

theorem lhs_main_v125_1 (i : S16384x8x64.Idx) (q : dot_S16384x512_S8x64x512_S16384x8x64_1_2_0_01_n_n.contr.Idx) :
    (dot_S16384x512_S8x64x512_S16384x8x64_1_2_0_01_n_n.lhsIdx i q 1).val = (q ⟨0, by decide⟩).val :=
  dot_S16384x512_S8x64x512_S16384x8x64_1_2_0_01_n_n.lhsIdx_val_of_single rfl i q

theorem rhs_main_v125_0 (i : S16384x8x64.Idx) (q : dot_S16384x512_S8x64x512_S16384x8x64_1_2_0_01_n_n.contr.Idx) :
    (dot_S16384x512_S8x64x512_S16384x8x64_1_2_0_01_n_n.rhsIdx i q 0).val = (i 1).val := by
  unfold DotDims.rhsIdx
  rw [dif_neg (show ¬(0 : Fin S8x64x512.rank) ∈ dot_S16384x512_S8x64x512_S16384x8x64_1_2_0_01_n_n.rhsBatch by decide), dif_pos (show (0 : Fin S8x64x512.rank) ∈ dot_S16384x512_S8x64x512_S16384x8x64_1_2_0_01_n_n.rhsNonContracting by decide)]
  rfl

theorem rhs_main_v125_1 (i : S16384x8x64.Idx) (q : dot_S16384x512_S8x64x512_S16384x8x64_1_2_0_01_n_n.contr.Idx) :
    (dot_S16384x512_S8x64x512_S16384x8x64_1_2_0_01_n_n.rhsIdx i q 1).val = (i 2).val := by
  unfold DotDims.rhsIdx
  rw [dif_neg (show ¬(1 : Fin S8x64x512.rank) ∈ dot_S16384x512_S8x64x512_S16384x8x64_1_2_0_01_n_n.rhsBatch by decide), dif_pos (show (1 : Fin S8x64x512.rank) ∈ dot_S16384x512_S8x64x512_S16384x8x64_1_2_0_01_n_n.rhsNonContracting by decide)]
  rfl

theorem rhs_main_v125_2 (i : S16384x8x64.Idx) (q : dot_S16384x512_S8x64x512_S16384x8x64_1_2_0_01_n_n.contr.Idx) :
    (dot_S16384x512_S8x64x512_S16384x8x64_1_2_0_01_n_n.rhsIdx i q 2).val = (q ⟨0, by decide⟩).val :=
  dot_S16384x512_S8x64x512_S16384x8x64_1_2_0_01_n_n.rhsIdx_val_of_single rfl i q

abbrev lidx_main_v125 (i : S16384x8x64.Idx) (k : Fin 512) : S16384x512.Idx := fun a => match a with
  | ⟨0, _⟩ => ⟨(i 0).val, (i 0).isLt⟩
  | ⟨1, _⟩ => ⟨k.val, k.isLt⟩

abbrev ridx_main_v125 (i : S16384x8x64.Idx) (k : Fin 512) : S8x64x512.Idx := fun a => match a with
  | ⟨0, _⟩ => ⟨(i 1).val, (i 1).isLt⟩
  | ⟨1, _⟩ => ⟨(i 2).val, (i 2).isLt⟩
  | ⟨2, _⟩ => ⟨k.val, k.isLt⟩

theorem val_main_v125_apply (x0 x1 : (⟨S2048x8x512, .f32⟩ : BufTy).Contents (Elt Ideal)) (x2 : (⟨S2048x8, .i32⟩ : BufTy).Contents (Elt Ideal)) (x3 : (⟨S512x512, .f32⟩ : BufTy).Contents (Elt Ideal)) (x4 : (⟨S512, .f32⟩ : BufTy).Contents (Elt Ideal)) (x5 : (⟨S8x512x512, .f32⟩ : BufTy).Contents (Elt Ideal)) (x6 x7 : (⟨S1536x512, .f32⟩ : BufTy).Contents (Elt Ideal)) (x8 x9 : (⟨S1536, .f32⟩ : BufTy).Contents (Elt Ideal)) (x10 : (⟨S512x512, .f32⟩ : BufTy).Contents (Elt Ideal)) (x11 : (⟨S512, .f32⟩ : BufTy).Contents (Elt Ideal)) (x12 : (⟨S8x512x512, .f32⟩ : BufTy).Contents (Elt Ideal)) (x13 : (⟨S512x512, .f32⟩ : BufTy).Contents (Elt Ideal)) (x14 : (⟨S512, .f32⟩ : BufTy).Contents (Elt Ideal)) (x15 : (⟨S8x512x512, .f32⟩ : BufTy).Contents (Elt Ideal)) (x16 : (⟨S64x512, .f32⟩ : BufTy).Contents (Elt Ideal)) (x18 : (⟨S8x64x512, .f32⟩ : BufTy).Contents (Elt Ideal)) (i : S16384x8x64.Idx) :
    val_main_v125 (F := Ideal) x0 x1 x2 x3 x4 x5 x6 x7 x8 x9 x10 x11 x12 x13 x14 x15 x16 x18 i = ∑ k : Fin 512, (val_main_v109 (F := Ideal) x0 x1 x2 x3 x4 x5 x6 x7 x8 x9 x10 x11 x12 x13 x14 x15) (lidx_main_v125 i k) * (val_main_v124 (F := Ideal) x16 x18) (ridx_main_v125 i k) := by
  unfold val_main_v125
  generalize val_main_v109 (F := Ideal) x0 x1 x2 x3 x4 x5 x6 x7 x8 x9 x10 x11 x12 x13 x14 x15 = y0
  generalize val_main_v124 (F := Ideal) x16 x18 = y1
  simp only [Host.dotGeneral]
  rw [Ideal.dotGeneral_apply, ← Equiv.sum_comp (ValueIdx.contrEquiv1 dot_S16384x512_S8x64x512_S16384x8x64_1_2_0_01_n_n 512 rfl rfl).symm]
  refine Finset.sum_congr rfl fun k _ => ?_
  have hk := ValueIdx.contrEquiv1_symm_val dot_S16384x512_S8x64x512_S16384x8x64_1_2_0_01_n_n 512 rfl rfl k
  have el : dot_S16384x512_S8x64x512_S16384x8x64_1_2_0_01_n_n.lhsIdx i ((ValueIdx.contrEquiv1 dot_S16384x512_S8x64x512_S16384x8x64_1_2_0_01_n_n 512 rfl rfl).symm k) = lidx_main_v125 i k := funext fun a => Fin.ext (by
    match a with
    | ⟨0, _⟩ => exact lhs_main_v125_0 _ _
    | ⟨1, _⟩ => exact (lhs_main_v125_1 _ _).trans hk)
  have er : dot_S16384x512_S8x64x512_S16384x8x64_1_2_0_01_n_n.rhsIdx i ((ValueIdx.contrEquiv1 dot_S16384x512_S8x64x512_S16384x8x64_1_2_0_01_n_n 512 rfl rfl).symm k) = ridx_main_v125 i k := funext fun a => Fin.ext (by
    match a with
    | ⟨0, _⟩ => exact rhs_main_v125_0 _ _
    | ⟨1, _⟩ => exact rhs_main_v125_1 _ _
    | ⟨2, _⟩ => exact (rhs_main_v125_2 _ _).trans hk)
  rw [el, er]

abbrev idx_main_call10_v13 (i : S16384x1x64.Idx) : S16384x1.Idx := fun a => match a with
  | ⟨0, _⟩ => ⟨(i 0).val, (i 0).isLt⟩
  | ⟨1, _⟩ => ⟨0, Nat.one_pos⟩

theorem val_main_call10_v13_apply (i : S16384x1x64.Idx) :
    val_main_call10_v13 (F := F) x2 i = val_main_call10_v11 (F := F) x2 (idx_main_call10_v13 i) := by
  unfold val_main_call10_v13
  generalize val_main_call10_v11 (F := F) x2 = y
  exact broadcastInDim_apply _ bcast_S16384x1_S16384x1x64_0_1 y i (idx_main_call10_v13 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

theorem val_main_v127_apply (i : S16384x1x64.Idx) :
    val_main_v127 (F := F) x0 x1 x2 x3 x4 x5 x6 x7 x8 x9 x10 x11 x12 x13 x14 x15 x16 x18 i = Scalar.select (val_main_call10_v13 (F := F) x2 i) (val_main_call10_v12 (F := F) x0 x1 x2 x3 x4 x5 x6 x7 x8 x9 x10 x11 x12 x13 x14 x15 x16 x18 i) (val_main_call10_v14 (F := F) i) := rfl

abbrev idx_main_v128 (i : S16384x64.Idx) : S16384x1x64.Idx := fun a => match a with
  | ⟨0, _⟩ => ⟨((i 0).val * 64 + (i 1).val) / 64, by have h0 : (i 0).val < 16384 := (i 0).isLt; have h1 : (i 1).val < 64 := (i 1).isLt; show ((i 0).val * 64 + (i 1).val) / 64 < 16384; omega⟩
  | ⟨1, _⟩ => ⟨0, Nat.one_pos⟩
  | ⟨2, _⟩ => ⟨((i 0).val * 64 + (i 1).val) % 64, by have h0 : (i 0).val < 16384 := (i 0).isLt; have h1 : (i 1).val < 64 := (i 1).isLt; show ((i 0).val * 64 + (i 1).val) % 64 < 64; omega⟩

theorem val_main_v128_apply (i : S16384x64.Idx) :
    val_main_v128 (F := F) x0 x1 x2 x3 x4 x5 x6 x7 x8 x9 x10 x11 x12 x13 x14 x15 x16 x18 i = val_main_v127 (F := F) x0 x1 x2 x3 x4 x5 x6 x7 x8 x9 x10 x11 x12 x13 x14 x15 x16 x18 (idx_main_v128 i) := by
  unfold val_main_v128
  generalize val_main_v127 (F := F) x0 x1 x2 x3 x4 x5 x6 x7 x8 x9 x10 x11 x12 x13 x14 x15 x16 x18 = y
  exact shapeCast_apply y shapeCasts_S16384x1x64_S16384x64 i (idx_main_v128 i)
    (by rewrite [Shape.rowMajor_val_three, Shape.rowMajor_val_two]; have h0 : (i 0).val < 16384 := (i 0).isLt; have h1 : (i 1).val < 64 := (i 1).isLt; show (((i 0).val * 64 + (i 1).val) / 64 * 1 + 0) * 64 + ((i 0).val * 64 + (i 1).val) % 64 = (i 0).val * 64 + (i 1).val; omega)

abbrev idx_main_v129 (i : S1x64.Idx) : S64.Idx := fun a => match a with
  | ⟨0, _⟩ => ⟨(i 1).val, (i 1).isLt⟩

theorem val_main_v129_apply (i : S1x64.Idx) :
    val_main_v129 (F := F) x17 i = x17 (idx_main_v129 i) := by
  unfold val_main_v129
  exact broadcastInDim_apply _ bcast_S64_S1x64_1 x17 i (idx_main_v129 i) (fun a => match a with
    | ⟨0, _⟩ => by show (i 1).val = if (64 : Nat) = 1 then 0 else (i 1).val; rw [if_neg (by decide)])

abbrev idx_main_v130 (i : S16384x64.Idx) : S1x64.Idx := fun a => match a with
  | ⟨0, _⟩ => ⟨0, Nat.one_pos⟩
  | ⟨1, _⟩ => ⟨(i 1).val, (i 1).isLt⟩

theorem val_main_v130_apply (i : S16384x64.Idx) :
    val_main_v130 (F := F) x17 i = val_main_v129 (F := F) x17 (idx_main_v130 i) := by
  unfold val_main_v130
  generalize val_main_v129 (F := F) x17 = y
  exact broadcastInDim_apply _ bcast_S1x64_S16384x64_0_1 y i (idx_main_v130 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

theorem val_main_v131_apply (i : S16384x64.Idx) :
    val_main_v131 (F := F) x0 x1 x2 x3 x4 x5 x6 x7 x8 x9 x10 x11 x12 x13 x14 x15 x16 x17 x18 i = FloatOps.addf (val_main_v128 (F := F) x0 x1 x2 x3 x4 x5 x6 x7 x8 x9 x10 x11 x12 x13 x14 x15 x16 x18 i) (val_main_v130 (F := F) x17 i) := rfl

abbrev idx_main_v132 (i : S2048x8x64.Idx) : S16384x64.Idx := fun a => match a with
  | ⟨0, _⟩ => ⟨(((i 0).val * 8 + (i 1).val) * 64 + (i 2).val) / 64, by have h0 : (i 0).val < 2048 := (i 0).isLt; have h1 : (i 1).val < 8 := (i 1).isLt; have h2 : (i 2).val < 64 := (i 2).isLt; show (((i 0).val * 8 + (i 1).val) * 64 + (i 2).val) / 64 < 16384; omega⟩
  | ⟨1, _⟩ => ⟨(((i 0).val * 8 + (i 1).val) * 64 + (i 2).val) % 64, by have h0 : (i 0).val < 2048 := (i 0).isLt; have h1 : (i 1).val < 8 := (i 1).isLt; have h2 : (i 2).val < 64 := (i 2).isLt; show (((i 0).val * 8 + (i 1).val) * 64 + (i 2).val) % 64 < 64; omega⟩

theorem val_main_v132_apply (i : S2048x8x64.Idx) :
    val_main_v132 (F := F) x0 x1 x2 x3 x4 x5 x6 x7 x8 x9 x10 x11 x12 x13 x14 x15 x16 x17 x18 i = val_main_v131 (F := F) x0 x1 x2 x3 x4 x5 x6 x7 x8 x9 x10 x11 x12 x13 x14 x15 x16 x17 x18 (idx_main_v132 i) := by
  unfold val_main_v132
  generalize val_main_v131 (F := F) x0 x1 x2 x3 x4 x5 x6 x7 x8 x9 x10 x11 x12 x13 x14 x15 x16 x17 x18 = y
  exact shapeCast_apply y shapeCasts_S16384x64_S2048x8x64 i (idx_main_v132 i)
    (by rewrite [Shape.rowMajor_val_two, Shape.rowMajor_val_three]; have h0 : (i 0).val < 2048 := (i 0).isLt; have h1 : (i 1).val < 8 := (i 1).isLt; have h2 : (i 2).val < 64 := (i 2).isLt; show (((i 0).val * 8 + (i 1).val) * 64 + (i 2).val) / 64 * 64 + (((i 0).val * 8 + (i 1).val) * 64 + (i 2).val) % 64 = ((i 0).val * 8 + (i 1).val) * 64 + (i 2).val; omega)

abbrev idx_main_v133 (i : S2048x8x512.Idx) : S16384x512.Idx := fun a => match a with
  | ⟨0, _⟩ => ⟨(((i 0).val * 8 + (i 1).val) * 512 + (i 2).val) / 512, by have h0 : (i 0).val < 2048 := (i 0).isLt; have h1 : (i 1).val < 8 := (i 1).isLt; have h2 : (i 2).val < 512 := (i 2).isLt; show (((i 0).val * 8 + (i 1).val) * 512 + (i 2).val) / 512 < 16384; omega⟩
  | ⟨1, _⟩ => ⟨(((i 0).val * 8 + (i 1).val) * 512 + (i 2).val) % 512, by have h0 : (i 0).val < 2048 := (i 0).isLt; have h1 : (i 1).val < 8 := (i 1).isLt; have h2 : (i 2).val < 512 := (i 2).isLt; show (((i 0).val * 8 + (i 1).val) * 512 + (i 2).val) % 512 < 512; omega⟩

theorem val_main_v133_apply (i : S2048x8x512.Idx) :
    val_main_v133 (F := F) x0 x1 x2 x3 x4 x5 x6 x7 x8 x9 i = val_main_v63 (F := F) x0 x1 x2 x3 x4 x5 x6 x7 x8 x9 (idx_main_v133 i) := by
  unfold val_main_v133
  generalize val_main_v63 (F := F) x0 x1 x2 x3 x4 x5 x6 x7 x8 x9 = y
  exact shapeCast_apply y shapeCasts_S16384x512_S2048x8x512 i (idx_main_v133 i)
    (by rewrite [Shape.rowMajor_val_two, Shape.rowMajor_val_three]; have h0 : (i 0).val < 2048 := (i 0).isLt; have h1 : (i 1).val < 8 := (i 1).isLt; have h2 : (i 2).val < 512 := (i 2).isLt; show (((i 0).val * 8 + (i 1).val) * 512 + (i 2).val) / 512 * 512 + (((i 0).val * 8 + (i 1).val) * 512 + (i 2).val) % 512 = ((i 0).val * 8 + (i 1).val) * 512 + (i 2).val; omega)

end Cert.ReferenceIdeal.ReadP

end
-- ==== Proof.RefHid.lean ====
import proofs.«409439_j24232205484239_2_alg».proof.Proof.Args
import proofs.«409439_j24232205484239_2_alg».proof.Proof.RefRead
import Idealize.ShloMosaic.PureOps.Reduce
import Idealize.ShloMosaic.Lib.StableHlo.Predicate
import Idealize.ShloMosaic.Lib.IdealHost

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.StableHlo Idealize.ShloMosaic.StableHlo.Predicate Cert.Spec

abbrev takeDims (O : Nat)
    (wf : GatherDims.WF ⟨3, ![16384, 8, O]⟩ ⟨3, ![16384, 1, 1]⟩ ⟨3, ![16384, 1, O]⟩ [2] [1] [0] [1] [0] 2 ![1, 1, O]) :
    GatherDims ⟨3, ![16384, 8, O]⟩ ⟨3, ![16384, 1, 1]⟩ ⟨3, ![16384, 1, O]⟩ where
  offsetDims := [2]
  collapsedSliceDims := [1]
  operandBatchingDims := [0]
  startIndicesBatchingDims := [0]
  startIndexMap := [1]
  indexVectorDim := 2
  sliceSizes := ![1, 1, O]
  wf := wf

-- Taking one entry per row along axis 1: row `n`, whose start word is `a < 8`, reads the operand at `(n, a, o)`.
theorem gather_row {α : Type} {O : Nat} {wf}
    (gd : GatherDims ⟨3, ![16384, 8, O]⟩ ⟨3, ![16384, 1, 1]⟩ ⟨3, ![16384, 1, O]⟩) (e : gd = takeDims O wf)
    (y : (⟨3, ![16384, 8, O]⟩ : Shape).Idx → α) (idx : IVec ⟨3, ![16384, 1, 1]⟩ 32) (n : Fin 16384) (o : Fin O) (a : Fin 8)
    (ha : (idx (ix3 n 0 0)).toNat = a.val) :
    Host.gather gd y idx (ix3 n 0 o) = y (ix3 n a o) := by
  subst e
  unfold Host.gather
  congr 1
  funext c
  refine Fin.ext ?_
  match c with
  | ⟨0, _⟩ => show 0 + n.val + 0 = n.val; omega
  | ⟨1, _⟩ =>
    show (takeDims O wf).start (ix3 n 0 o) idx 1 + (takeDims O wf).batchCoord (ix3 n 0 o) 1
        + (takeDims O wf).offCoord (ix3 n 0 o) 1 = a.val
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeDims O wf).startIndexMap from List.mem_singleton.mpr rfl)]
    have hsi : (takeDims O wf).siIdx (ix3 n 0 o) ⟨List.idxOf (1 : Fin 3) (takeDims O wf).startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi]
    have := a.isLt
    show min (idx (ix3 n 0 0)).toInt.toNat 7 = a.val
    rw [toInt_eq_toNat_of_lt (by omega), Int.toNat_natCast, ha]
    omega
  | ⟨2, _⟩ => show 0 + 0 + o.val = o.val; omega

theorem foldl_and_ones {β : Type} (l : List β) :
    l.foldl (fun r _ => IntOp.andi r (1#1 : BitVec 1)) 1#1 = 1#1 := by
  induction l with
  | nil => rfl
  | cons b l ih => exact ih

-- A conjunction of true bits, started from true, is true, whatever the reduced axes.
theorem reduce_and_ones {s t u : Shape} {axes : List (Fin s.rank)} (x : s.Idx → BitVec 1) (init : u.Idx → BitVec 1)
    (hx : ∀ i, x i = 1#1) (hi : ∀ k, init k = 1#1) (h : s.ReducesTo axes t) (hu : 0 < u.numel) (j : t.Idx) :
    Host.reduce IntOp.andi x init h hu j = 1#1 := by
  unfold Host.reduce
  simp only [hx, hi]
  exact foldl_and_ones _

-- A word below 8 is not negative, so wrapping a negative index leaves it alone.
theorem wrap_id (w : BitVec 32) (h : w.toNat < 8) :
    Scalar.select (IntOp.cmpi .slt w 0#32) (IntOp.addi w 8#32) w = w := by
  rw [eq_zero_of_ne_one fun h1 => Nat.not_lt_zero _ ((slt_iff_toNat (a := w) (b := 0#32) (by omega) (by decide)).1 h1),
    select_zero]

theorem in_range_one (w : BitVec 32) (h : w.toNat < 8) :
    IntOp.andi (IntOp.cmpi .sge w 0#32) (IntOp.cmpi .sle w 7#32) = 1#1 := by
  rw [(sge_iff_toNat (a := w) (b := 0#32) (by omega) (by decide)).2 (Nat.zero_le _),
    (sle_iff_toNat (a := w) (b := 7#32) (by omega) (by decide)).2 (Nat.le_of_lt_succ h)]
  rfl

-- A sum of products whose factors are known term by term.
theorem dot_congr {f g f' g' : Fin 512 → EReal} (hf : ∀ k, f k = f' k) (hg : ∀ k, g k = g' k) :
    ∑ k, f k * g k = ∑ k, f' k * g' k :=
  Finset.sum_congr rfl fun k _ => by rw [hf, hg]

section Stages

variable (x0 x1 : (⟨S2048x8x512, .f32⟩ : BufTy).Contents (Elt Ideal)) (x2 : (⟨S2048x8, .i32⟩ : BufTy).Contents (Elt Ideal))
  (x3 : (⟨S512x512, .f32⟩ : BufTy).Contents (Elt Ideal)) (x4 : (⟨S512, .f32⟩ : BufTy).Contents (Elt Ideal))
  (x5 : (⟨S8x512x512, .f32⟩ : BufTy).Contents (Elt Ideal)) (x6 x7 : (⟨S1536x512, .f32⟩ : BufTy).Contents (Elt Ideal))
  (x8 x9 : (⟨S1536, .f32⟩ : BufTy).Contents (Elt Ideal))

def Small : Prop := ∀ (b : Fin 2048) (a : Fin 8), (x2 (ix2 b a)).toNat < 8

variable {x2}

theorem ids_lt (hr : Small x2) (i : S16384x1x1.Idx) : (val_main_v19 (F := Ideal) x2 i).toNat < 8 := by
  rw [val_main_v19_apply, val_main_v1_apply, eq_ix2 (idx_main_v1 _)]
  exact hr _ _

theorem wrapped (hr : Small x2) (i : S16384x1x1.Idx) :
    val_main_call1_v4 (F := Ideal) x2 i = val_main_v19 (F := Ideal) x2 i := by
  rw [val_main_call1_v4_apply, val_main_call1_v1_apply, val_main_call1_v0_apply, val_main_call1_c_apply,
    val_main_call1_v3_apply, val_main_call1_v2_apply, val_main_call1_c_0_apply]
  exact wrap_id _ (ids_lt hr i)

theorem mask_one (hr : Small x2) (i : S16384x1x1.Idx) : val_main_call1_v10 (F := Ideal) x2 i = 1#1 := by
  rw [val_main_call1_v10_apply, val_main_call1_v6_apply, val_main_call1_v9_apply, wrapped hr,
    val_main_call1_v5_apply, val_main_call1_c_2_apply, val_main_call1_v8_apply, val_main_call1_v7_apply,
    val_main_call1_c_1_apply]
  exact in_range_one _ (ids_lt hr i)

theorem mask11 (hr : Small x2) (j : S16384x1.Idx) : val_main_call1_v11 (F := Ideal) x2 j = 1#1 := by
  unfold val_main_call1_v11
  exact reduce_and_ones _ _ (mask_one hr) (fun _ => rfl) _ _ _

-- Row `n`'s start index is the agent word stored at `(n / 8, n % 8)`.
theorem start_row (hr : Small x2) (n : Fin 16384) :
    (val_main_call1_v4 (F := Ideal) x2 (ix3 n 0 0)).toNat = (x2 (ix2 (rb n) (ra n))).toNat := by
  rw [wrapped hr, val_main_v19_apply, val_main_v1_apply]
  exact congrArg (fun j => (x2 j).toNat) (eq_ix2 _)

variable (x2)

-- The masked weight: the sign of `w` times the excess of `|w|` over `1 / (1 + exp (-t))`, cut off at zero.
theorem wmask_stage (a : Fin 8) (o i : Fin 512) :
    val_main_v17 (F := Ideal) x3 x5 (ix3 a o i) = Spec.wmask (x3 (ix2 o i)) (x5 (ix3 a o i)) := by
  rw [val_main_v17_apply, val_main_v16_apply, val_main_v4_apply, val_main_v3_apply, val_main_v15_apply,
    val_main_v14_apply, val_main_v13_apply, val_main_v6_apply, val_main_v5_apply, val_main_v12_apply,
    val_main_v11_apply, val_main_cst_0_apply, val_main_v10_apply, val_main_v9_apply, val_main_cst_apply,
    val_main_v8_apply, val_main_v7_apply, val_main_call0_v0_apply, val_main_call0_cst_apply,
    show idx_main_v4 (idx_main_v16 (ix3 a o i)) = ix2 o i from eq_ix2 _,
    show idx_main_v6 (idx_main_v13 (ix3 a o i)) = ix2 o i from eq_ix2 _]
  simp only [Ideal.ofBits_def, Ideal.ofBits_one_f32, Ideal.ofBits_zero_f32]
  rfl

-- Row `n` of the flattened batch is entry `(n / 8, n % 8)` of the first two axes.
theorem resh_row (n : Fin 16384) (k : Fin 512) : idx_main_v0 (ix2 n k) = ix3 (rb n) (ra n) k := by
  funext d
  refine Fin.ext ?_
  have hn := n.isLt
  have hk := k.isLt
  match d with
  | ⟨0, _⟩ => show (n.val * 512 + k.val) / 4096 = n.val / 8; omega
  | ⟨1, _⟩ => show (n.val * 512 + k.val) / 512 % 8 = n.val % 8; omega
  | ⟨2, _⟩ => show (n.val * 512 + k.val) % 512 = k.val; omega

theorem in_row (n : Fin 16384) (k : Fin 512) : val_main_v0 (F := Ideal) x0 (ix2 n k) = x0 (ix3 (rb n) (ra n) k) := by
  rw [val_main_v0_apply, resh_row]

theorem hid_in_row (n : Fin 16384) (k : Fin 512) : val_main_v2 (F := Ideal) x1 (ix2 n k) = x1 (ix3 (rb n) (ra n) k) := by
  rw [val_main_v2_apply]
  exact congrArg x1 (resh_row n k)

theorem prod_row (n : Fin 16384) (a : Fin 8) (o : Fin 512) :
    val_main_v18 (F := Ideal) x0 x3 x5 (ix3 n a o)
      = ∑ k : Fin 512, x0 (ix3 (rb n) (ra n) k) * Spec.wmask (x3 (ix2 o k)) (x5 (ix3 a o k)) := by
  rw [val_main_v18_apply]
  refine Finset.sum_congr rfl fun k _ => ?_
  rw [show lidx_main_v18 (ix3 n a o) k = ix2 n k from eq_ix2 _,
    show ridx_main_v18 (ix3 n a o) k = ix3 a o k from eq_ix3 _, in_row, wmask_stage]

theorem row3 (n : Fin 16384) (o : Fin 512) : idx_main_v21 (ix2 n o) = ix3 n 0 o := by
  funext d
  refine Fin.ext ?_
  have ho := o.isLt
  match d with
  | ⟨0, _⟩ => show (n.val * 512 + o.val) / 512 = n.val; omega
  | ⟨1, _⟩ => rfl
  | ⟨2, _⟩ => show (n.val * 512 + o.val) % 512 = o.val; omega

-- The first layer's row: the take reads the eight-fold product at the row's own agent, and its mask is true.
theorem l1_stage (hr : Small x2) (n : Fin 16384) (o : Fin 512) (a : Fin 8) (ha : (x2 (ix2 (rb n) (ra n))).toNat = a.val) :
    val_main_v25 (F := Ideal) x0 x2 x3 x4 x5 (ix2 n o)
      = Spec.relu (Spec.kalei (fun i => x0 (ix3 (rb n) (ra n) i)) (fun o i => x3 (ix2 o i)) (fun o i => x5 (ix3 a o i))
          (fun o => x4 (ix1 o)) o) := by
  rw [val_main_v25_apply, val_main_v24_apply, val_main_v21_apply, val_main_v20_apply, val_main_v23_apply,
    val_main_v22_apply, val_main_call2_v0_apply, val_main_call2_cst_apply, row3,
    show idx_main_v22 (idx_main_v23 (ix2 n o)) = ix1 o from eq_ix1 _, val_main_call1_v13_apply, mask11 hr, select_one]
  unfold val_main_call1_v12
  rw [gather_row gather_S16384x8x512_S16384x1x1_S16384x1x512_2_1_0_0_1_2_11512 rfl _ (val_main_call1_v4 (F := Ideal) x2) n o a
    ((start_row hr n).trans ha), prod_row]
  simp only [Ideal.ofBits_def, Ideal.ofBits_zero_f32]
  rfl

theorem gi_row (hr : Small x2) (n : Fin 16384) (j : Fin 1536) (a : Fin 8) (ha : (x2 (ix2 (rb n) (ra n))).toNat = a.val) :
    val_main_v30 (F := Ideal) x0 x2 x3 x4 x5 x6 x8 (ix2 n j)
      = Spec.dense (fun i => Spec.relu (Spec.kalei (fun i => x0 (ix3 (rb n) (ra n) i)) (fun o i => x3 (ix2 o i))
          (fun o i => x5 (ix3 a o i)) (fun o => x4 (ix1 o)) i)) (fun j i => x6 (ix2 j i)) (fun j => x8 (ix1 j)) j := by
  rw [val_main_v30_apply, val_main_v27_apply, val_main_v29_apply, val_main_v28_apply,
    show idx_main_v28 (idx_main_v29 (ix2 n j)) = ix1 j from eq_ix1 _, Ideal.addf_def]
  unfold Spec.dense
  refine congrArg (fun s => s + x8 (ix1 j)) ?_
  refine Finset.sum_congr rfl fun k _ => ?_
  rw [val_main_v26_apply, show lidx_main_v27 (ix2 n j) k = ix2 n k from eq_ix2 _,
    show idx_main_v26 (ridx_main_v27 (ix2 n j) k) = ix2 j k from eq_ix2 _, l1_stage x0 x2 x3 x4 x5 hr n k a ha]

theorem gh_row (n : Fin 16384) (j : Fin 1536) :
    val_main_v35 (F := Ideal) x1 x7 x9 (ix2 n j)
      = Spec.dense (fun i => x1 (ix3 (rb n) (ra n) i)) (fun j i => x7 (ix2 j i)) (fun j => x9 (ix1 j)) j := by
  rw [val_main_v35_apply, val_main_v32_apply, val_main_v34_apply, val_main_v33_apply,
    show idx_main_v33 (idx_main_v34 (ix2 n j)) = ix1 j from eq_ix1 _, Ideal.addf_def]
  unfold Spec.dense
  refine congrArg (fun s => s + x9 (ix1 j)) ?_
  refine Finset.sum_congr rfl fun k _ => ?_
  rw [val_main_v31_apply, show lidx_main_v32 (ix2 n j) k = ix2 n k from eq_ix2 _,
    show idx_main_v31 (ridx_main_v32 (ix2 n j) k) = ix2 j k from eq_ix2 _, hid_in_row]

-- The three column ranges of a 1536-wide row are the three gates.
theorem gate_idx (n : Fin 16384) (o : Fin 512) :
    idx_main_v36 (ix2 n o) = ix2 n (Spec.gate 0 o) ∧ idx_main_v37 (ix2 n o) = ix2 n (Spec.gate 1 o)
      ∧ idx_main_v38 (ix2 n o) = ix2 n (Spec.gate 2 o) ∧ idx_main_v39 (ix2 n o) = ix2 n (Spec.gate 0 o)
      ∧ idx_main_v40 (ix2 n o) = ix2 n (Spec.gate 1 o) ∧ idx_main_v41 (ix2 n o) = ix2 n (Spec.gate 2 o) := by
  refine ⟨?_, ?_, ?_, ?_, ?_, ?_⟩ <;> refine (eq_ix2 _).trans (congrArg (ix2 n) (Fin.ext ?_))
  · show o.val = 512 * 0 + o.val; omega
  · show 512 + o.val = 512 * 1 + o.val; omega
  · show 1024 + o.val = 512 * 2 + o.val; omega
  · show o.val = 512 * 0 + o.val; omega
  · show 512 + o.val = 512 * 1 + o.val; omega
  · show 1024 + o.val = 512 * 2 + o.val; omega

theorem hid_stage (hr : Small x2) (n : Fin 16384) (o : Fin 512) (a : Fin 8) (ha : (x2 (ix2 (rb n) (ra n))).toNat = a.val) :
    val_main_v63 (F := Ideal) x0 x1 x2 x3 x4 x5 x6 x7 x8 x9 (ix2 n o)
      = Spec.gru (fun i => Spec.relu (Spec.kalei (fun i => x0 (ix3 (rb n) (ra n) i)) (fun o i => x3 (ix2 o i))
          (fun o i => x5 (ix3 a o i)) (fun o => x4 (ix1 o)) i)) (fun i => x1 (ix3 (rb n) (ra n) i))
          (fun j i => x6 (ix2 j i)) (fun j i => x7 (ix2 j i)) (fun j => x8 (ix1 j)) (fun j => x9 (ix1 j)) o := by
  obtain ⟨e36, e37, e38, e39, e40, e41⟩ := gate_idx n o
  rw [val_main_v63_apply, val_main_v61_apply, val_main_v60_apply, val_main_v59_apply, val_main_cst_5_apply,
    val_main_v62_apply, val_main_v58_apply, val_main_v57_apply, val_main_v56_apply, val_main_v55_apply,
    val_main_v54_apply, val_main_cst_4_apply, val_main_v53_apply, val_main_v52_apply, val_main_cst_3_apply,
    val_main_v51_apply, val_main_v50_apply, val_main_v49_apply, val_main_v48_apply, val_main_v47_apply,
    val_main_cst_2_apply, val_main_v46_apply, val_main_v45_apply, val_main_cst_1_apply, val_main_v44_apply,
    val_main_v43_apply, val_main_v42_apply, val_main_v36_apply, val_main_v37_apply, val_main_v38_apply,
    val_main_v39_apply, val_main_v40_apply, val_main_v41_apply, e36, e37, e38, e39, e40, e41, hid_in_row]
  simp only [gi_row x0 x2 x3 x4 x5 x6 x8 hr n _ a ha, gh_row x1 x7 x9 n, Ideal.ofBits_def, Ideal.ofBits_one_f32]
  rfl

end Stages

-- Entry `(b, a)` of the first two axes is row `8 b + a` of the flattened batch.
theorem row_of (b : Fin 2048) (a : Fin 8) : ∃ n : Fin 16384, n.val = b.val * 8 + a.val ∧ rb n = b ∧ ra n = a := by
  have hb := b.isLt
  have ha := a.isLt
  exact ⟨⟨b.val * 8 + a.val, by omega⟩, rfl, Fin.ext (by show (b.val * 8 + a.val) / 8 = b.val; omega),
    Fin.ext (by show (b.val * 8 + a.val) % 8 = a.val; omega)⟩

theorem hid_row (A : Cert.Spec.Arrays) (hr : A.InRange) (n : Fin 16384) (o : Fin 512) :
    ReadP.val_main_v63 (F := Ideal) A.a0 A.a1 A.a2 A.a3 A.a4 A.a5 A.a6 A.a7 A.a8 A.a9 (ValueIdx.ix2 n o)
      = Cert.Spec.hid A.params (A.ag hr (Cert.Spec.rb n) (Cert.Spec.ra n)) (A.x (Cert.Spec.rb n) (Cert.Spec.ra n))
          (A.h (Cert.Spec.rb n) (Cert.Spec.ra n)) o :=
  hid_stage A.a0 A.a1 A.a2 A.a3 A.a4 A.a5 A.a6 A.a7 A.a8 A.a9 hr n o (A.ag hr (rb n) (ra n)) rfl

theorem res_H (A : Cert.Spec.Arrays) (hr : A.InRange) :
    ReadP.val_main_v133 (F := Ideal) A.a0 A.a1 A.a2 A.a3 A.a4 A.a5 A.a6 A.a7 A.a8 A.a9 = A.Hout hr := by
  funext j
  obtain ⟨b, a, o, rfl⟩ : ∃ (b : Fin 2048) (a : Fin 8) (o : Fin 512), j = ix3 b a o := ⟨j 0, j 1, j 2, eq_ix3 j⟩
  obtain ⟨n, hn, eb, ea⟩ := row_of b a
  have e : idx_main_v133 (ix3 b a o) = ix2 n o := by
    funext d
    refine Fin.ext ?_
    have ho := o.isLt
    match d with
    | ⟨0, _⟩ => show ((b.val * 8 + a.val) * 512 + o.val) / 512 = n.val; omega
    | ⟨1, _⟩ => show ((b.val * 8 + a.val) * 512 + o.val) % 512 = o.val; omega
  rw [val_main_v133_apply, e, hid_row A hr n o, eb, ea]
  rfl

end Cert.ReferenceIdeal.RefValue

end
-- ==== Proof.RefQ.lean ====
import proofs.«409439_j24232205484239_2_alg».proof.Proof.RefHid
import Idealize.ShloMosaic.PureOps.IdealRules

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open Cert.Spec (rb ra)
open scoped BigOperators

theorem wstage4 (W : (⟨S64x512, .f32⟩ : BufTy).Contents (Elt Ideal)) (T : (⟨S8x64x512, .f32⟩ : BufTy).Contents (Elt Ideal))
    (a : Fin 8) (o : Fin 64) (i : Fin 512) :
    val_main_v124 (F := Ideal) W T (ix3 a o i) = Cert.Spec.wmask (W (ix2 o i)) (T (ix3 a o i)) := by
  rw [val_main_v124_apply, val_main_v123_apply, val_main_v111_apply, val_main_v110_apply,
    show idx_main_v111 (idx_main_v123 (ix3 a o i)) = ix2 o i from eq_ix2 _, val_main_v122_apply, val_main_v121_apply,
    val_main_v120_apply, val_main_v113_apply, val_main_v112_apply,
    show idx_main_v113 (idx_main_v120 (ix3 a o i)) = ix2 o i from eq_ix2 _, val_main_v119_apply, val_main_v118_apply,
    val_main_cst_11_apply, val_main_v117_apply, val_main_v116_apply, val_main_cst_10_apply, val_main_v115_apply,
    val_main_v114_apply, val_main_call9_v0_apply, val_main_call9_cst_apply]
  simp only [Ideal.ofBits_def, Ideal.ofBits_one_f32, Ideal.ofBits_zero_f32]
  rfl

section Layers
variable (A : Cert.Spec.Arrays)

theorem layer2 (hr : A.InRange) (xr : Fin 16384 → Fin 512 → EReal)
    (hX : ∀ (n : Fin 16384) (i : Fin 512), val_main_v63 (F := Ideal) A.a0 A.a1 A.a2 A.a3 A.a4 A.a5 A.a6 A.a7 A.a8 A.a9 (ix2 n i) = xr n i)
    (n : Fin 16384) (o : Fin 512) :
    val_main_v86 (F := Ideal) A.a0 A.a1 A.a2 A.a3 A.a4 A.a5 A.a6 A.a7 A.a8 A.a9 A.a10 A.a11 A.a12 (ix2 n o)
      = Cert.Spec.relu (Cert.Spec.kalei (xr n) A.params.W2 (A.params.t2 (A.ag hr (rb n) (ra n))) A.params.b2 o) := by
  rw [val_main_v86_apply, val_main_v85_apply, val_main_v82_apply, show idx_main_v82 (ix2 n o) = ix3 n 0 o from row3 n o, val_main_v81_apply,
    val_main_call4_v13_apply, show val_main_call4_v11 (F := Ideal) A.a2 _ = 1#1 from mask11 (x2 := A.a2) hr _, select_one]
  unfold val_main_call4_v12
  rw [gather_row gather_S16384x8x512_S16384x1x1_S16384x1x512_2_1_0_0_1_2_11512 rfl _ (val_main_call4_v4 (F := Ideal) A.a2) n o (A.ag hr (rb n) (ra n))
      (start_row (x2 := A.a2) hr n), val_main_v79_apply,
    dot_congr (f' := xr n) (g' := fun k => Cert.Spec.wmask (A.a10 (ix2 o k)) (A.a12 (ix3 (A.ag hr (rb n) (ra n)) o k)))
      (fun k => by rw [show lidx_main_v79 (ix3 n (A.ag hr (rb n) (ra n)) o) k = ix2 n k from eq_ix2 _, hX])
      (fun k => by rw [show ridx_main_v79 (ix3 n (A.ag hr (rb n) (ra n)) o) k = ix3 (A.ag hr (rb n) (ra n)) o k from eq_ix3 _]; exact wmask_stage A.a10 A.a12 _ o k),
    val_main_v84_apply, val_main_v83_apply,
    show idx_main_v83 (idx_main_v84 (ix2 n o)) = ix1 o from eq_ix1 _, val_main_call5_v0_apply, val_main_call5_cst_apply]
  simp only [Ideal.maximumf_def, Ideal.addf_def, Ideal.ofBits_def, Ideal.ofBits_zero_f32]
  rfl

theorem layer3 (hr : A.InRange) (xr : Fin 16384 → Fin 512 → EReal)
    (hX : ∀ (n : Fin 16384) (i : Fin 512), val_main_v86 (F := Ideal) A.a0 A.a1 A.a2 A.a3 A.a4 A.a5 A.a6 A.a7 A.a8 A.a9 A.a10 A.a11 A.a12 (ix2 n i) = xr n i)
    (n : Fin 16384) (o : Fin 512) :
    val_main_v109 (F := Ideal) A.a0 A.a1 A.a2 A.a3 A.a4 A.a5 A.a6 A.a7 A.a8 A.a9 A.a10 A.a11 A.a12 A.a13 A.a14 A.a15 (ix2 n o)
      = Cert.Spec.relu (Cert.Spec.kalei (xr n) A.params.W3 (A.params.t3 (A.ag hr (rb n) (ra n))) A.params.b3 o) := by
  rw [val_main_v109_apply, val_main_v108_apply, val_main_v105_apply, show idx_main_v105 (ix2 n o) = ix3 n 0 o from row3 n o, val_main_v104_apply,
    val_main_call7_v13_apply, show val_main_call7_v11 (F := Ideal) A.a2 _ = 1#1 from mask11 (x2 := A.a2) hr _, select_one]
  unfold val_main_call7_v12
  rw [gather_row gather_S16384x8x512_S16384x1x1_S16384x1x512_2_1_0_0_1_2_11512 rfl _ (val_main_call7_v4 (F := Ideal) A.a2) n o (A.ag hr (rb n) (ra n))
      (start_row (x2 := A.a2) hr n), val_main_v102_apply,
    dot_congr (f' := xr n) (g' := fun k => Cert.Spec.wmask (A.a13 (ix2 o k)) (A.a15 (ix3 (A.ag hr (rb n) (ra n)) o k)))
      (fun k => by rw [show lidx_main_v102 (ix3 n (A.ag hr (rb n) (ra n)) o) k = ix2 n k from eq_ix2 _, hX])
      (fun k => by rw [show ridx_main_v102 (ix3 n (A.ag hr (rb n) (ra n)) o) k = ix3 (A.ag hr (rb n) (ra n)) o k from eq_ix3 _]; exact wmask_stage A.a13 A.a15 _ o k),
    val_main_v107_apply, val_main_v106_apply,
    show idx_main_v106 (idx_main_v107 (ix2 n o)) = ix1 o from eq_ix1 _, val_main_call8_v0_apply, val_main_call8_cst_apply]
  simp only [Ideal.maximumf_def, Ideal.addf_def, Ideal.ofBits_def, Ideal.ofBits_zero_f32]
  rfl

theorem layer4 (hr : A.InRange) (xr : Fin 16384 → Fin 512 → EReal)
    (hX : ∀ (n : Fin 16384) (i : Fin 512), val_main_v109 (F := Ideal) A.a0 A.a1 A.a2 A.a3 A.a4 A.a5 A.a6 A.a7 A.a8 A.a9 A.a10 A.a11 A.a12 A.a13 A.a14 A.a15 (ix2 n i) = xr n i)
    (n : Fin 16384) (o : Fin 64) :
    val_main_v131 (F := Ideal) A.a0 A.a1 A.a2 A.a3 A.a4 A.a5 A.a6 A.a7 A.a8 A.a9 A.a10 A.a11 A.a12 A.a13 A.a14 A.a15 A.a16 A.a17 A.a18 (ix2 n o)
      = Cert.Spec.kalei (xr n) A.params.W4 (A.params.t4 (A.ag hr (rb n) (ra n))) A.params.b4 o := by
  rw [val_main_v131_apply, val_main_v128_apply, show idx_main_v128 (ix2 n o) = ix3 n 0 o from funext fun d => Fin.ext (by
      have := o.isLt
      match d with
      | ⟨0, _⟩ => show (n.val * 64 + o.val) / 64 = n.val; omega
      | ⟨1, _⟩ => rfl
      | ⟨2, _⟩ => show (n.val * 64 + o.val) % 64 = o.val; omega), val_main_v127_apply,
    val_main_call10_v13_apply, show val_main_call10_v11 (F := Ideal) A.a2 _ = 1#1 from mask11 (x2 := A.a2) hr _, select_one]
  unfold val_main_call10_v12
  rw [gather_row gather_S16384x8x64_S16384x1x1_S16384x1x64_2_1_0_0_1_2_1164 rfl _ (val_main_call10_v4 (F := Ideal) A.a2) n o (A.ag hr (rb n) (ra n))
      (start_row (x2 := A.a2) hr n), val_main_v125_apply,
    dot_congr (f' := xr n) (g' := fun k => Cert.Spec.wmask (A.a16 (ix2 o k)) (A.a18 (ix3 (A.ag hr (rb n) (ra n)) o k)))
      (fun k => by rw [show lidx_main_v125 (ix3 n (A.ag hr (rb n) (ra n)) o) k = ix2 n k from eq_ix2 _, hX])
      (fun k => by rw [show ridx_main_v125 (ix3 n (A.ag hr (rb n) (ra n)) o) k = ix3 (A.ag hr (rb n) (ra n)) o k from eq_ix3 _]; exact wstage4 A.a16 A.a18 _ o k),
    val_main_v130_apply, val_main_v129_apply,
    show idx_main_v129 (idx_main_v130 (ix2 n o)) = ix1 o from eq_ix1 _]
  simp only [Ideal.addf_def]
  rfl

theorem res_Q (hr : A.InRange)
    (hH : ∀ (n : Fin 16384) (o : Fin 512), val_main_v63 (F := Ideal) A.a0 A.a1 A.a2 A.a3 A.a4 A.a5 A.a6 A.a7 A.a8 A.a9 (ix2 n o)
      = Cert.Spec.hid A.params (A.ag hr (rb n) (ra n)) (A.x (rb n) (ra n)) (A.h (rb n) (ra n)) o) :
    val_main_v132 (F := Ideal) A.a0 A.a1 A.a2 A.a3 A.a4 A.a5 A.a6 A.a7 A.a8 A.a9 A.a10 A.a11 A.a12 A.a13 A.a14 A.a15 A.a16 A.a17 A.a18 = A.Q hr := by
  funext j
  have h2 := layer2 A hr (fun n => Cert.Spec.hid A.params (A.ag hr (rb n) (ra n)) (A.x (rb n) (ra n)) (A.h (rb n) (ra n))) hH
  have h3 := layer3 A hr (fun n => Cert.Spec.l2 A.params (A.ag hr (rb n) (ra n)) (A.x (rb n) (ra n)) (A.h (rb n) (ra n))) h2
  have h4 := layer4 A hr (fun n => Cert.Spec.l3 A.params (A.ag hr (rb n) (ra n)) (A.x (rb n) (ra n)) (A.h (rb n) (ra n))) h3
  obtain ⟨b, a, o, rfl⟩ : ∃ (b : Fin 2048) (a : Fin 8) (o : Fin 64), j = ix3 b a o := ⟨j 0, j 1, j 2, eq_ix3 j⟩
  obtain ⟨n, hn, eb, ea⟩ := row_of b a
  have e : idx_main_v132 (ix3 b a o) = ix2 n o := by
    funext c
    refine Fin.ext ?_
    have ho := o.isLt
    match c with
    | ⟨0, _⟩ => show ((b.val * 8 + a.val) * 64 + o.val) / 64 = n.val; omega
    | ⟨1, _⟩ => show ((b.val * 8 + a.val) * 64 + o.val) % 64 = o.val; omega
  rw [val_main_v132_apply, e, h4 n o, eb, ea]
  rfl

end Layers

end Cert.ReferenceIdeal.RefValue

end
-- ==== Proof.RefAll.lean ====
/- The reference's run with its two results named as the network's output rows and new hidden rows. -/
import proofs.«409439_j24232205484239_2_alg».proof.Proof.RefRun
import proofs.«409439_j24232205484239_2_alg».proof.Proof.RefHid
import proofs.«409439_j24232205484239_2_alg».proof.Proof.RefQ

noncomputable section

namespace Cert.ReferenceIdeal.RefValue

open Cert.ReferenceIdeal Idealize.ShloMosaic Idealize.ShloMosaic.TcCoe Idealize.SL.Sem

def arrs (m : (ℓ : Loc nD τ sig) → Buf (Elt Ideal) ℓ) (c : Dev nD) : Cert.Spec.Arrays where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)

theorem run (m : (ℓ : Loc nD τ sig) → Buf (Elt Ideal) ℓ) (ρ : Dev nD → PrngReg) (hr : ∀ c, (arrs m c).InRange) :
    θ_run (defs (F := Ideal)) (onTc (τ := τ) (main (F := Ideal))) ⟨m, fun _ => 0, ρ⟩ fun r => ∀ c : Dev nD,
      r.2.mem ((c.tc : Thread nD τ).loc main_v132) = (arrs m c).Q (hr c)
      ∧ r.2.mem ((c.tc : Thread nD τ).loc main_v133) = (arrs m c).Hout (hr c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run (defs (F := Ideal)) _ _).mono
    (fun _ h c => ⟨(h c).1.trans (res_Q (arrs m c) (hr c) (hid_row (arrs m c) (hr c))),
      (h c).2.1.trans (res_H (arrs m c) (hr c)),
      (h c).2.2⟩)
    (Cert.ReferenceIdeal.ValueP.run (F := Ideal) m ρ)

end Cert.ReferenceIdeal.RefValue

end
-- ==== Proof.lean ====
/- Both programs compute, row by row, one network of the argument arrays: in the kernel that groups rows by agent, a row's tile belongs to the row's agent and scattering the rows then gathering them back is the identity. Only the range of the agent numbers, [0, 8), is used. -/
import proofs.«409439_j24232205484239_2_alg».proof.Defs
import proofs.«409439_j24232205484239_2_alg».proof.Proof.Gen.Kernel
import proofs.«409439_j24232205484239_2_alg».proof.Proof.Gen.KernelIdeal
import proofs.«409439_j24232205484239_2_alg».proof.Proof.Gen.ReferenceIdeal
import proofs.«409439_j24232205484239_2_alg».proof.Proof.Gen.Pre_finite_inputs
import proofs.«409439_j24232205484239_2_alg».proof.Proof.KOkAll
import proofs.«409439_j24232205484239_2_alg».proof.Proof.KValue
import proofs.«409439_j24232205484239_2_alg».proof.Proof.RefAll
import proofs.«409439_j24232205484239_2_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  Cert.Kernel.RunAll.frame m ρ (Cert.Kernel.RunAll.ok_all m)

theorem frame_ki : Cert.frame_KernelIdeal := fun m ρ _ =>
  Cert.KernelIdeal.RunAll.frame m ρ (Cert.KernelIdeal.RunAll.ok_all m)

theorem frame_ri : Cert.frame_ReferenceIdeal := fun m ρ _ =>
  (θ_run (Cert.ReferenceIdeal.defs (F := Ideal)) _ _).mono (fun _ h c => (h c).2.2)
    (Cert.ReferenceIdeal.ValueP.run (F := Ideal) m ρ)

theorem preserves : Cert.preserves_Kernel_KernelIdeal :=
  ⟨IdealRules.sign_bit.statement Cert.KernelIdeal.S512x512 .f32, IdealRules.sign_bit.statement Cert.KernelIdeal.S512x512 .f32,
    IdealRules.sign_bit.statement Cert.KernelIdeal.S512x512 .f32, IdealRules.sign_bit.statement Cert.KernelIdeal.S64x512 .f32⟩

theorem arrs_eq (A B : Cert.Spec.Arrays) (e0 : A.a0 = B.a0) (e1 : A.a1 = B.a1) (e2 : A.a2 = B.a2) (e3 : A.a3 = B.a3) (e4 : A.a4 = B.a4) (e5 : A.a5 = B.a5) (e6 : A.a6 = B.a6) (e7 : A.a7 = B.a7) (e8 : A.a8 = B.a8) (e9 : A.a9 = B.a9) (e10 : A.a10 = B.a10) (e11 : A.a11 = B.a11) (e12 : A.a12 = B.a12) (e13 : A.a13 = B.a13) (e14 : A.a14 = B.a14) (e15 : A.a15 = B.a15) (e16 : A.a16 = B.a16) (e17 : A.a17 = B.a17) (e18 : A.a18 = B.a18) : A = B := by
  cases A; cases B; simp only [Cert.Spec.Arrays.mk.injEq]
  exact ⟨e0, e1, e2, e3, e4, e5, e6, e7, e8, e9, e10, e11, e12, e13, e14, e15, e16, e17, e18⟩

theorem Q_congr {A B : Cert.Spec.Arrays} (e : A = B) (hA : A.InRange) (hB : B.InRange) : A.Q hA = B.Q hB := by
  subst e; rfl

theorem Hout_congr {A B : Cert.Spec.Arrays} (e : A = B) (hA : A.InRange) (hB : B.InRange) : A.Hout hA = B.Hout hB := by
  subst e; rfl

theorem algebraic : Cert.algebraic_KernelIdeal_ReferenceIdeal := by
  intro m ρ m' ρ' hpre hagree
  have hrK : ∀ c, (Cert.KernelIdeal.KV.arrs m c).InRange := fun c b a =>
    Cert.PreRange.ids_lt _ _ _ _ _ _ _ _ _ _ _ _ _ _ _ _ _ _ _ (hpre c) (ValueIdx.ix2 b a)
  have harr : ∀ c, Cert.ReferenceIdeal.RefValue.arrs m' c = Cert.KernelIdeal.KV.arrs m c := by
    intro c
    obtain ⟨h0, h1, h2, h3, h4, h5, h6, h7, h8, h9, h10, h11, h12, h13, h14, h15, h16, h17, h18⟩ := hagree c
    exact arrs_eq _ _ h0 h1 h2 h3 h4 h5 h6 h7 h8 h9 h10 h11 h12 h13 h14 h15 h16 h17 h18
  have hrR : ∀ c, (Cert.ReferenceIdeal.RefValue.arrs m' c).InRange := fun c => by rw [harr c]; exact hrK c
  refine ⟨fun c => (Cert.KernelIdeal.KV.arrs m c).Q (hrK c), fun c => (Cert.KernelIdeal.KV.arrs m c).Hout (hrK c),
    Cert.KernelIdeal.KV.run m ρ hrK, ?_⟩
  exact (θ_run (Cert.ReferenceIdeal.defs (F := Ideal)) _ _).mono
    (fun _ h c => ⟨(h c).1.trans (Q_congr (harr c) (hrR c) (hrK c)), (h c).2.1.trans (Hout_congr (harr c) (hrR c) (hrK c)), (h c).2.2⟩)
    (Cert.ReferenceIdeal.RefValue.run m' ρ' hrR)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
